-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v593) = v0 c
          ∧ r.2.mem ((c.tc : Thread Cert.ReferenceIdeal.nD Cert.ReferenceIdeal.τ).loc Cert.ReferenceIdeal.main_v601) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1024 : Shape := ⟨3, ![1, 8192, 1024]⟩
abbrev S2048 : Shape := ⟨1, ![2048]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1x8192x1024 .f32) (main_arg1 : FVec F S1x8192x1024 .f32) (main_arg2 : FVec F S2048 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S1x8192x1024 : Shape := ⟨3, ![1, 8192, 1024]⟩
abbrev S2048 : Shape := ⟨1, ![2048]⟩
abbrev S8192x1024 : Shape := ⟨2, ![8192, 1024]⟩
abbrev S1024 : Shape := ⟨1, ![1024]⟩
abbrev S8x128 : Shape := ⟨2, ![8, 128]⟩
abbrev S128 : Shape := ⟨1, ![128]⟩
abbrev S_ : Shape := ⟨0, ![]⟩
abbrev S1x128 : Shape := ⟨2, ![1, 128]⟩
abbrev S8x128x1 : Shape := ⟨3, ![8, 128, 1]⟩
abbrev S8x128x4 : Shape := ⟨3, ![8, 128, 4]⟩
abbrev S8192x128 : Shape := ⟨2, ![8192, 128]⟩
abbrev S1x128x4 : Shape := ⟨3, ![1, 128, 4]⟩
abbrev S512x16x128 : Shape := ⟨3, ![512, 16, 128]⟩
abbrev S512x1x128 : Shape := ⟨3, ![512, 1, 128]⟩
abbrev S510x1x128 : Shape := ⟨3, ![510, 1, 128]⟩
abbrev S2x1x128 : Shape := ⟨3, ![2, 1, 128]⟩
abbrev S508x1x128 : Shape := ⟨3, ![508, 1, 128]⟩
abbrev S4x1x128 : Shape := ⟨3, ![4, 1, 128]⟩
abbrev S506x1x128 : Shape := ⟨3, ![506, 1, 128]⟩
abbrev S6x1x128 : Shape := ⟨3, ![6, 1, 128]⟩
abbrev S504x1x128 : Shape := ⟨3, ![504, 1, 128]⟩
abbrev S8x1x128 : Shape := ⟨3, ![8, 1, 128]⟩
abbrev S502x1x128 : Shape := ⟨3, ![502, 1, 128]⟩
abbrev S10x1x128 : Shape := ⟨3, ![10, 1, 128]⟩
abbrev S500x1x128 : Shape := ⟨3, ![500, 1, 128]⟩
abbrev S12x1x128 : Shape := ⟨3, ![12, 1, 128]⟩
abbrev S498x1x128 : Shape := ⟨3, ![498, 1, 128]⟩
abbrev S14x1x128 : Shape := ⟨3, ![14, 1, 128]⟩
abbrev S496x1x128 : Shape := ⟨3, ![496, 1, 128]⟩
abbrev S16x1x128 : Shape := ⟨3, ![16, 1, 128]⟩
abbrev S494x1x128 : Shape := ⟨3, ![494, 1, 128]⟩
abbrev S18x1x128 : Shape := ⟨3, ![18, 1, 128]⟩
abbrev S492x1x128 : Shape := ⟨3, ![492, 1, 128]⟩
abbrev S20x1x128 : Shape := ⟨3, ![20, 1, 128]⟩
abbrev S490x1x128 : Shape := ⟨3, ![490, 1, 128]⟩
abbrev S22x1x128 : Shape := ⟨3, ![22, 1, 128]⟩
abbrev S488x1x128 : Shape := ⟨3, ![488, 1, 128]⟩
abbrev S24x1x128 : Shape := ⟨3, ![24, 1, 128]⟩
abbrev S486x1x128 : Shape := ⟨3, ![486, 1, 128]⟩
abbrev S26x1x128 : Shape := ⟨3, ![26, 1, 128]⟩
abbrev S484x1x128 : Shape := ⟨3, ![484, 1, 128]⟩
abbrev S28x1x128 : Shape := ⟨3, ![28, 1, 128]⟩
abbrev S482x1x128 : Shape := ⟨3, ![482, 1, 128]⟩
abbrev S30x1x128 : Shape := ⟨3, ![30, 1, 128]⟩
abbrev S128x4 : Shape := ⟨2, ![128, 4]⟩
abbrev S8192x4 : Shape := ⟨2, ![8192, 4]⟩
abbrev S512x16x4 : Shape := ⟨3, ![512, 16, 4]⟩
abbrev S512x1x2 : Shape := ⟨3, ![512, 1, 2]⟩
abbrev S512x16x2 : Shape := ⟨3, ![512, 16, 2]⟩
abbrev S512x16x1 : Shape := ⟨3, ![512, 16, 1]⟩

abbrev nBuf : Space → Nat
  | .hbm => 39
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S2048, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8x128, .f32⟩
  | .hbm, ⟨7, _⟩ => ⟨S1024, .f32⟩
  | .hbm, ⟨8, _⟩ => ⟨S8x128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S8x128, .f32⟩
  | .hbm, ⟨19, _⟩ => ⟨S8x128, .f32⟩
  | .hbm, ⟨20, _⟩ => ⟨S1x128, .f32⟩
  | .hbm, ⟨21, _⟩ => ⟨S8x128, .f32⟩
  | .hbm, ⟨22, _⟩ => ⟨S8x128, .f32⟩
  | .hbm, ⟨23, _⟩ => ⟨S1x128, .f32⟩
  | .hbm, ⟨24, _⟩ => ⟨S8x128, .f32⟩
  | .hbm, ⟨25, _⟩ => ⟨S8x128, .f32⟩
  | .hbm, ⟨26, _⟩ => ⟨S1x128, .f32⟩
  | .hbm, ⟨27, _⟩ => ⟨S8x128, .f32⟩
  | .hbm, ⟨28, _⟩ => ⟨S8x128, .f32⟩
  | .hbm, ⟨29, _⟩ => ⟨S8x128x1, .f32⟩
  | .hbm, ⟨30, _⟩ => ⟨S8x128x1, .f32⟩
  | .hbm, ⟨31, _⟩ => ⟨S8x128x1, .f32⟩
  | .hbm, ⟨32, _⟩ => ⟨S8x128x1, .f32⟩
  | .hbm, ⟨33, _⟩ => ⟨S8x128x4, .f32⟩
  | .hbm, ⟨34, _⟩ => ⟨S8x128x4, .bf16⟩
  | .hbm, ⟨35, _⟩ => ⟨S8192x1024, .f32⟩
  | .hbm, ⟨36, _⟩ => ⟨S8192x1024, .f32⟩
  | .hbm, ⟨37, _⟩ => ⟨S1x8192x1024, .f32⟩
  | .hbm, ⟨38, _⟩ => ⟨S1x8192x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128x4, .bf16⟩
  | .local _ .vmem, ⟨5, _⟩ => ⟨S1x128x4, .bf16⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x1024_S8192x1024 : S1x8192x1024.ShapeCasts S8192x1024
  slices_S2048_S1024_0 : S2048.Slices ![0] S1024
  shapeCasts_S1024_S8x128 : S1024.ShapeCasts S8x128
  slices_S2048_S1024_1024 : S2048.Slices ![1024] S1024
  bcast_S_S128 : S_.BroadcastsInDim S128 (![] : Fin 0 → Fin S128.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x1_S8x128x1_S8x128x4_d2 : Shape.Concatenates [S8x128x1, S8x128x1, S8x128x1, S8x128x1] S8x128x4 2
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S512x16x128 : S8192x128.ShapeCasts S512x16x128
  slices_S512x16x128_o0_0_0_S512x1x128 : S512x16x128.Slices ![0, 0, 0] S512x1x128
  slices_S512x16x128_o0_1_0_S512x1x128 : S512x16x128.Slices ![0, 1, 0] S512x1x128
  slices_S512x1x128_o2_0_0_S510x1x128 : S512x1x128.Slices ![2, 0, 0] S510x1x128
  slices_S512x1x128_o0_0_0_S2x1x128 : S512x1x128.Slices ![0, 0, 0] S2x1x128
  concatenates_S510x1x128_S2x1x128_S512x1x128_d0 : Shape.Concatenates [S510x1x128, S2x1x128] S512x1x128 0
  slices_S512x16x128_o0_2_0_S512x1x128 : S512x16x128.Slices ![0, 2, 0] S512x1x128
  slices_S512x1x128_o4_0_0_S508x1x128 : S512x1x128.Slices ![4, 0, 0] S508x1x128
  slices_S512x1x128_o0_0_0_S4x1x128 : S512x1x128.Slices ![0, 0, 0] S4x1x128
  concatenates_S508x1x128_S4x1x128_S512x1x128_d0 : Shape.Concatenates [S508x1x128, S4x1x128] S512x1x128 0
  slices_S512x16x128_o0_3_0_S512x1x128 : S512x16x128.Slices ![0, 3, 0] S512x1x128
  slices_S512x1x128_o6_0_0_S506x1x128 : S512x1x128.Slices ![6, 0, 0] S506x1x128
  slices_S512x1x128_o0_0_0_S6x1x128 : S512x1x128.Slices ![0, 0, 0] S6x1x128
  concatenates_S506x1x128_S6x1x128_S512x1x128_d0 : Shape.Concatenates [S506x1x128, S6x1x128] S512x1x128 0
  slices_S512x16x128_o0_4_0_S512x1x128 : S512x16x128.Slices ![0, 4, 0] S512x1x128
  slices_S512x1x128_o8_0_0_S504x1x128 : S512x1x128.Slices ![8, 0, 0] S504x1x128
  slices_S512x1x128_o0_0_0_S8x1x128 : S512x1x128.Slices ![0, 0, 0] S8x1x128
  concatenates_S504x1x128_S8x1x128_S512x1x128_d0 : Shape.Concatenates [S504x1x128, S8x1x128] S512x1x128 0
  slices_S512x16x128_o0_5_0_S512x1x128 : S512x16x128.Slices ![0, 5, 0] S512x1x128
  slices_S512x1x128_o10_0_0_S502x1x128 : S512x1x128.Slices ![10, 0, 0] S502x1x128
  slices_S512x1x128_o0_0_0_S10x1x128 : S512x1x128.Slices ![0, 0, 0] S10x1x128
  concatenates_S502x1x128_S10x1x128_S512x1x128_d0 : Shape.Concatenates [S502x1x128, S10x1x128] S512x1x128 0
  slices_S512x16x128_o0_6_0_S512x1x128 : S512x16x128.Slices ![0, 6, 0] S512x1x128
  slices_S512x1x128_o12_0_0_S500x1x128 : S512x1x128.Slices ![12, 0, 0] S500x1x128
  slices_S512x1x128_o0_0_0_S12x1x128 : S512x1x128.Slices ![0, 0, 0] S12x1x128
  concatenates_S500x1x128_S12x1x128_S512x1x128_d0 : Shape.Concatenates [S500x1x128, S12x1x128] S512x1x128 0
  slices_S512x16x128_o0_7_0_S512x1x128 : S512x16x128.Slices ![0, 7, 0] S512x1x128
  slices_S512x1x128_o14_0_0_S498x1x128 : S512x1x128.Slices ![14, 0, 0] S498x1x128
  slices_S512x1x128_o0_0_0_S14x1x128 : S512x1x128.Slices ![0, 0, 0] S14x1x128
  concatenates_S498x1x128_S14x1x128_S512x1x128_d0 : Shape.Concatenates [S498x1x128, S14x1x128] S512x1x128 0
  slices_S512x16x128_o0_8_0_S512x1x128 : S512x16x128.Slices ![0, 8, 0] S512x1x128
  slices_S512x1x128_o16_0_0_S496x1x128 : S512x1x128.Slices ![16, 0, 0] S496x1x128
  slices_S512x1x128_o0_0_0_S16x1x128 : S512x1x128.Slices ![0, 0, 0] S16x1x128
  concatenates_S496x1x128_S16x1x128_S512x1x128_d0 : Shape.Concatenates [S496x1x128, S16x1x128] S512x1x128 0
  slices_S512x16x128_o0_9_0_S512x1x128 : S512x16x128.Slices ![0, 9, 0] S512x1x128
  slices_S512x1x128_o18_0_0_S494x1x128 : S512x1x128.Slices ![18, 0, 0] S494x1x128
  slices_S512x1x128_o0_0_0_S18x1x128 : S512x1x128.Slices ![0, 0, 0] S18x1x128
  concatenates_S494x1x128_S18x1x128_S512x1x128_d0 : Shape.Concatenates [S494x1x128, S18x1x128] S512x1x128 0
  slices_S512x16x128_o0_10_0_S512x1x128 : S512x16x128.Slices ![0, 10, 0] S512x1x128
  slices_S512x1x128_o20_0_0_S492x1x128 : S512x1x128.Slices ![20, 0, 0] S492x1x128
  slices_S512x1x128_o0_0_0_S20x1x128 : S512x1x128.Slices ![0, 0, 0] S20x1x128
  concatenates_S492x1x128_S20x1x128_S512x1x128_d0 : Shape.Concatenates [S492x1x128, S20x1x128] S512x1x128 0
  slices_S512x16x128_o0_11_0_S512x1x128 : S512x16x128.Slices ![0, 11, 0] S512x1x128
  slices_S512x1x128_o22_0_0_S490x1x128 : S512x1x128.Slices ![22, 0, 0] S490x1x128
  slices_S512x1x128_o0_0_0_S22x1x128 : S512x1x128.Slices ![0, 0, 0] S22x1x128
  concatenates_S490x1x128_S22x1x128_S512x1x128_d0 : Shape.Concatenates [S490x1x128, S22x1x128] S512x1x128 0
  slices_S512x16x128_o0_12_0_S512x1x128 : S512x16x128.Slices ![0, 12, 0] S512x1x128
  slices_S512x1x128_o24_0_0_S488x1x128 : S512x1x128.Slices ![24, 0, 0] S488x1x128
  slices_S512x1x128_o0_0_0_S24x1x128 : S512x1x128.Slices ![0, 0, 0] S24x1x128
  concatenates_S488x1x128_S24x1x128_S512x1x128_d0 : Shape.Concatenates [S488x1x128, S24x1x128] S512x1x128 0
  slices_S512x16x128_o0_13_0_S512x1x128 : S512x16x128.Slices ![0, 13, 0] S512x1x128
  slices_S512x1x128_o26_0_0_S486x1x128 : S512x1x128.Slices ![26, 0, 0] S486x1x128
  slices_S512x1x128_o0_0_0_S26x1x128 : S512x1x128.Slices ![0, 0, 0] S26x1x128
  concatenates_S486x1x128_S26x1x128_S512x1x128_d0 : Shape.Concatenates [S486x1x128, S26x1x128] S512x1x128 0
  slices_S512x16x128_o0_14_0_S512x1x128 : S512x16x128.Slices ![0, 14, 0] S512x1x128
  slices_S512x1x128_o28_0_0_S484x1x128 : S512x1x128.Slices ![28, 0, 0] S484x1x128
  slices_S512x1x128_o0_0_0_S28x1x128 : S512x1x128.Slices ![0, 0, 0] S28x1x128
  concatenates_S484x1x128_S28x1x128_S512x1x128_d0 : Shape.Concatenates [S484x1x128, S28x1x128] S512x1x128 0
  slices_S512x16x128_o0_15_0_S512x1x128 : S512x16x128.Slices ![0, 15, 0] S512x1x128
  slices_S512x1x128_o30_0_0_S482x1x128 : S512x1x128.Slices ![30, 0, 0] S482x1x128
  slices_S512x1x128_o0_0_0_S30x1x128 : S512x1x128.Slices ![0, 0, 0] S30x1x128
  concatenates_S482x1x128_S30x1x128_S512x1x128_d0 : Shape.Concatenates [S482x1x128, S30x1x128] S512x1x128 0
  concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1 : Shape.Concatenates [S512x1x128, S512x1x128, S512x1x128, S512x1x128, S512x1x128, S512x1x128, S512x1x128, S512x1x128, S512x1x128, S512x1x128, S512x1x128, S512x1x128, S512x1x128, S512x1x128, S512x1x128, S512x1x128] S512x16x128 1
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  iota_S512x16x128_d2_w32 : S512x16x128.Iotas .tc 32 [2]
  shapeCasts_S512x16x128_S8192x128 : S512x16x128.ShapeCasts S8192x128
  shapeCasts_S8192x4_S512x16x4 : S8192x4.ShapeCasts S512x16x4
  slices_S512x16x4_o0_0_2_S512x1x2 : S512x16x4.Slices ![0, 0, 2] S512x1x2
  slices_S512x16x4_o0_0_0_S512x16x2 : S512x16x4.Slices ![0, 0, 0] S512x16x2
  broadcasts_S512x1x2_S512x16x2 : S512x1x2.Broadcasts S512x16x2
  slices_S512x16x2_o0_0_0_S512x16x1 : S512x16x2.Slices ![0, 0, 0] S512x16x1
  shapeCasts_S512x16x1_S512x16x1 : S512x16x1.ShapeCasts S512x16x1
  broadcasts_S512x16x1_S512x16x128 : S512x16x1.Broadcasts S512x16x128
  slices_S512x16x2_o0_0_1_S512x16x1 : S512x16x2.Slices ![0, 0, 1] S512x16x1
  broadcasts_S512x1x128_S512x16x128 : S512x1x128.Broadcasts S512x16x128
  slices_S512x16x4_o0_1_2_S512x1x2 : S512x16x4.Slices ![0, 1, 2] S512x1x2
  slices_S512x16x4_o0_2_2_S512x1x2 : S512x16x4.Slices ![0, 2, 2] S512x1x2
  slices_S512x16x4_o0_3_2_S512x1x2 : S512x16x4.Slices ![0, 3, 2] S512x1x2
  slices_S512x16x4_o0_4_2_S512x1x2 : S512x16x4.Slices ![0, 4, 2] S512x1x2
  slices_S512x16x4_o0_5_2_S512x1x2 : S512x16x4.Slices ![0, 5, 2] S512x1x2
  slices_S512x16x4_o0_6_2_S512x1x2 : S512x16x4.Slices ![0, 6, 2] S512x1x2
  slices_S512x16x4_o0_7_2_S512x1x2 : S512x16x4.Slices ![0, 7, 2] S512x1x2
  slices_S512x16x4_o0_8_2_S512x1x2 : S512x16x4.Slices ![0, 8, 2] S512x1x2
  slices_S512x16x4_o0_9_2_S512x1x2 : S512x16x4.Slices ![0, 9, 2] S512x1x2
  slices_S512x16x4_o0_10_2_S512x1x2 : S512x16x4.Slices ![0, 10, 2] S512x1x2
  slices_S512x16x4_o0_11_2_S512x1x2 : S512x16x4.Slices ![0, 11, 2] S512x1x2
  slices_S512x16x4_o0_12_2_S512x1x2 : S512x16x4.Slices ![0, 12, 2] S512x1x2
  slices_S512x16x4_o0_13_2_S512x1x2 : S512x16x4.Slices ![0, 13, 2] S512x1x2
  slices_S512x16x4_o0_14_2_S512x1x2 : S512x16x4.Slices ![0, 14, 2] S512x1x2
  slices_S512x16x4_o0_15_2_S512x1x2 : S512x16x4.Slices ![0, 15, 2] S512x1x2
  slices_S512x1x128_o510_0_0_S2x1x128 : S512x1x128.Slices ![510, 0, 0] S2x1x128
  slices_S512x1x128_o0_0_0_S510x1x128 : S512x1x128.Slices ![0, 0, 0] S510x1x128
  concatenates_S2x1x128_S510x1x128_S512x1x128_d0 : Shape.Concatenates [S2x1x128, S510x1x128] S512x1x128 0
  slices_S512x1x128_o508_0_0_S4x1x128 : S512x1x128.Slices ![508, 0, 0] S4x1x128
  slices_S512x1x128_o0_0_0_S508x1x128 : S512x1x128.Slices ![0, 0, 0] S508x1x128
  concatenates_S4x1x128_S508x1x128_S512x1x128_d0 : Shape.Concatenates [S4x1x128, S508x1x128] S512x1x128 0
  slices_S512x1x128_o506_0_0_S6x1x128 : S512x1x128.Slices ![506, 0, 0] S6x1x128
  slices_S512x1x128_o0_0_0_S506x1x128 : S512x1x128.Slices ![0, 0, 0] S506x1x128
  concatenates_S6x1x128_S506x1x128_S512x1x128_d0 : Shape.Concatenates [S6x1x128, S506x1x128] S512x1x128 0
  slices_S512x1x128_o504_0_0_S8x1x128 : S512x1x128.Slices ![504, 0, 0] S8x1x128
  slices_S512x1x128_o0_0_0_S504x1x128 : S512x1x128.Slices ![0, 0, 0] S504x1x128
  concatenates_S8x1x128_S504x1x128_S512x1x128_d0 : Shape.Concatenates [S8x1x128, S504x1x128] S512x1x128 0
  slices_S512x1x128_o502_0_0_S10x1x128 : S512x1x128.Slices ![502, 0, 0] S10x1x128
  slices_S512x1x128_o0_0_0_S502x1x128 : S512x1x128.Slices ![0, 0, 0] S502x1x128
  concatenates_S10x1x128_S502x1x128_S512x1x128_d0 : Shape.Concatenates [S10x1x128, S502x1x128] S512x1x128 0
  slices_S512x1x128_o500_0_0_S12x1x128 : S512x1x128.Slices ![500, 0, 0] S12x1x128
  slices_S512x1x128_o0_0_0_S500x1x128 : S512x1x128.Slices ![0, 0, 0] S500x1x128
  concatenates_S12x1x128_S500x1x128_S512x1x128_d0 : Shape.Concatenates [S12x1x128, S500x1x128] S512x1x128 0
  slices_S512x1x128_o498_0_0_S14x1x128 : S512x1x128.Slices ![498, 0, 0] S14x1x128
  slices_S512x1x128_o0_0_0_S498x1x128 : S512x1x128.Slices ![0, 0, 0] S498x1x128
  concatenates_S14x1x128_S498x1x128_S512x1x128_d0 : Shape.Concatenates [S14x1x128, S498x1x128] S512x1x128 0
  slices_S512x1x128_o496_0_0_S16x1x128 : S512x1x128.Slices ![496, 0, 0] S16x1x128
  slices_S512x1x128_o0_0_0_S496x1x128 : S512x1x128.Slices ![0, 0, 0] S496x1x128
  concatenates_S16x1x128_S496x1x128_S512x1x128_d0 : Shape.Concatenates [S16x1x128, S496x1x128] S512x1x128 0
  slices_S512x1x128_o494_0_0_S18x1x128 : S512x1x128.Slices ![494, 0, 0] S18x1x128
  slices_S512x1x128_o0_0_0_S494x1x128 : S512x1x128.Slices ![0, 0, 0] S494x1x128
  concatenates_S18x1x128_S494x1x128_S512x1x128_d0 : Shape.Concatenates [S18x1x128, S494x1x128] S512x1x128 0
  slices_S512x1x128_o492_0_0_S20x1x128 : S512x1x128.Slices ![492, 0, 0] S20x1x128
  slices_S512x1x128_o0_0_0_S492x1x128 : S512x1x128.Slices ![0, 0, 0] S492x1x128
  concatenates_S20x1x128_S492x1x128_S512x1x128_d0 : Shape.Concatenates [S20x1x128, S492x1x128] S512x1x128 0
  slices_S512x1x128_o490_0_0_S22x1x128 : S512x1x128.Slices ![490, 0, 0] S22x1x128
  slices_S512x1x128_o0_0_0_S490x1x128 : S512x1x128.Slices ![0, 0, 0] S490x1x128
  concatenates_S22x1x128_S490x1x128_S512x1x128_d0 : Shape.Concatenates [S22x1x128, S490x1x128] S512x1x128 0
  slices_S512x1x128_o488_0_0_S24x1x128 : S512x1x128.Slices ![488, 0, 0] S24x1x128
  slices_S512x1x128_o0_0_0_S488x1x128 : S512x1x128.Slices ![0, 0, 0] S488x1x128
  concatenates_S24x1x128_S488x1x128_S512x1x128_d0 : Shape.Concatenates [S24x1x128, S488x1x128] S512x1x128 0
  slices_S512x1x128_o486_0_0_S26x1x128 : S512x1x128.Slices ![486, 0, 0] S26x1x128
  slices_S512x1x128_o0_0_0_S486x1x128 : S512x1x128.Slices ![0, 0, 0] S486x1x128
  concatenates_S26x1x128_S486x1x128_S512x1x128_d0 : Shape.Concatenates [S26x1x128, S486x1x128] S512x1x128 0
  slices_S512x1x128_o484_0_0_S28x1x128 : S512x1x128.Slices ![484, 0, 0] S28x1x128
  slices_S512x1x128_o0_0_0_S484x1x128 : S512x1x128.Slices ![0, 0, 0] S484x1x128
  concatenates_S28x1x128_S484x1x128_S512x1x128_d0 : Shape.Concatenates [S28x1x128, S484x1x128] S512x1x128 0
  slices_S512x1x128_o482_0_0_S30x1x128 : S512x1x128.Slices ![482, 0, 0] S30x1x128
  slices_S512x1x128_o0_0_0_S482x1x128 : S512x1x128.Slices ![0, 0, 0] S482x1x128
  concatenates_S30x1x128_S482x1x128_S512x1x128_d0 : Shape.Concatenates [S30x1x128, S482x1x128] S512x1x128 0
  shapeCasts_S8192x1024_S1x8192x1024 : S8192x1024.ShapeCasts S1x8192x1024
  dot_S8192x128_S128x4_S8192x4_1_0_0_1_n_n_wf : DotDims.WF S8192x128 S128x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x1024.size a
  hwx0_0 : ∀ i : grid0.Coords, EltTy.bits .f32 = 32 ∨ (Rect.block (s := S8192x1024) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x1024.size a
  hwx0_1 : ∀ i : grid0.Coords, EltTy.bits .f32 = 32 ∨ (Rect.block (s := S8192x1024) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4.size a ≤ S8x128x4.size a
  hwx0_2 : ∀ i : grid0.Coords, EltTy.bits .bf16 = 32 ∨ (Rect.block (s := S8x128x4) S1x128x4.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x1024.size a
  hwx0_3 : ∀ i : grid0.Coords, EltTy.bits .f32 = 32 ∨ (Rect.block (s := S8192x1024) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S8192x1024.size a
  hwx0_4 : ∀ i : grid0.Coords, EltTy.bits .f32 = 32 ∨ (Rect.block (s := S8192x1024) S8192x128.size (cc0_transform_4 i) (hinb0_4 i)).WholeWords (EltTy.packing .f32)

variable [Facts₀]

def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S8192x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192x1024 : Shape := ⟨3, ![1, 8192, 1024]⟩
abbrev S2048 : Shape := ⟨1, ![2048]⟩
abbrev S16 : Shape := ⟨1, ![16]⟩
abbrev S512 : Shape := ⟨1, ![512]⟩
abbrev S512x1 : Shape := ⟨2, ![512, 1]⟩
abbrev S1x16 : Shape := ⟨2, ![1, 16]⟩
abbrev S_ : Shape := ⟨0, ![]⟩
abbrev S512x16 : Shape := ⟨2, ![512, 16]⟩
abbrev S8192 : Shape := ⟨1, ![8192]⟩
abbrev S1024 : Shape := ⟨1, ![1024]⟩
abbrev S16x64 : Shape := ⟨2, ![16, 64]⟩
abbrev S8192x1 : Shape := ⟨2, ![8192, 1]⟩
abbrev S1 : Shape := ⟨1, ![1]⟩
abbrev S1x1 : Shape := ⟨2, ![1, 1]⟩
abbrev S1x512x16x16x64 : Shape := ⟨5, ![1, 512, 16, 16, 64]⟩
abbrev S1x512x1x16x64 : Shape := ⟨5, ![1, 512, 1, 16, 64]⟩
abbrev S1x1x1x16x64 : Shape := ⟨5, ![1, 1, 1, 16, 64]⟩
abbrev S1x512x16x16 : Shape := ⟨4, ![1, 512, 16, 16]⟩
abbrev S1x512x1x16 : Shape := ⟨4, ![1, 512, 1, 16]⟩
abbrev S1x512x16x16x1 : Shape := ⟨5, ![1, 512, 16, 16, 1]⟩

abbrev nBuf : Space → Nat
  | .hbm => 838
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S2048, .f32⟩
  | 3 => ⟨S16, .i32⟩
  | 4 => ⟨S512, .i32⟩
  | 5 => ⟨S512x1, .i32⟩
  | 6 => ⟨S1x16, .i32⟩
  | 7 => ⟨S_, .i32⟩
  | 8 => ⟨S1x16, .i32⟩
  | 9 => ⟨S1x16, .i32⟩
  | 10 => ⟨S512x16, .i32⟩
  | 11 => ⟨S512x16, .i32⟩
  | 12 => ⟨S512x16, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S512x16, .i32⟩
  | 20 => ⟨S512x16, .i32⟩
  | 21 => ⟨S_, .i32⟩
  | 22 => ⟨S512x16, .i32⟩
  | 23 => ⟨S512x16, .i1⟩
  | 24 => ⟨S_, .i32⟩
  | 25 => ⟨S512x16, .i32⟩
  | 26 => ⟨S512x16, .i1⟩
  | 27 => ⟨S_, .i32⟩
  | 28 => ⟨S_, .i1⟩
  | 29 => ⟨S512x16, .i1⟩
  | 30 => ⟨S512x16, .i1⟩
  | 31 => ⟨S512x16, .i1⟩
  | 32 => ⟨S512x16, .i32⟩
  | 33 => ⟨S512x16, .i32⟩
  | 34 => ⟨S512x16, .i32⟩
  | 35 => ⟨S_, .i32⟩
  | 36 => ⟨S512x16, .i32⟩
  | 37 => ⟨S512x16, .i32⟩
  | 38 => ⟨S1x16, .i32⟩
  | 39 => ⟨S512x16, .i32⟩
  | 40 => ⟨S512x16, .i32⟩
  | 41 => ⟨S8192, .i32⟩
  | 42 => ⟨S1024, .f32⟩
  | 43 => ⟨S16x64, .f32⟩
  | 44 => ⟨S1024, .f32⟩
  | 45 => ⟨S16x64, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S1, .i32⟩
  | 55 => ⟨S_, .i32⟩
  | 56 => ⟨S8192x1, .i32⟩
  | 57 => ⟨S8192x1, .i1⟩
  | 58 => ⟨S1x1, .i32⟩
  | 59 => ⟨S8192x1, .i32⟩
  | 60 => ⟨S8192x1, .i1⟩
  | 61 => ⟨S8192x1, .i1⟩
  | 62 => ⟨S_, .i1⟩
  | 63 => ⟨S8192, .i1⟩
  | 64 => ⟨S1x8192x1024, .f32⟩
  | 65 => ⟨S1x8192x1024, .i1⟩
  | 66 => ⟨S_, .f32⟩
  | 67 => ⟨S1x8192x1024, .f32⟩
  | 68 => ⟨S1x8192x1024, .f32⟩
  | 69 => ⟨S1x512x16x16x64, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S1, .i32⟩
  | 79 => ⟨S_, .i32⟩
  | 80 => ⟨S8192x1, .i32⟩
  | 81 => ⟨S8192x1, .i1⟩
  | 82 => ⟨S1x1, .i32⟩
  | 83 => ⟨S8192x1, .i32⟩
  | 84 => ⟨S8192x1, .i1⟩
  | 85 => ⟨S8192x1, .i1⟩
  | 86 => ⟨S_, .i1⟩
  | 87 => ⟨S8192, .i1⟩
  | 88 => ⟨S1x8192x1024, .f32⟩
  | 89 => ⟨S1x8192x1024, .i1⟩
  | 90 => ⟨S_, .f32⟩
  | 91 => ⟨S1x8192x1024, .f32⟩
  | 92 => ⟨S1x8192x1024, .f32⟩
  | 93 => ⟨S1x512x16x16x64, .f32⟩
  | 94 => ⟨S1x512x1x16x64, .f32⟩
  | 95 => ⟨S1x1x1x16x64, .f32⟩
  | 96 => ⟨S1x512x16x16x64, .f32⟩
  | 97 => ⟨S1x512x16x16x64, .f32⟩
  | 98 => ⟨S_, .f32⟩
  | 99 => ⟨S1x512x16x16, .f32⟩
  | 100 => ⟨S1x1x1x16x64, .f32⟩
  | 101 => ⟨S1x512x1x16x64, .f32⟩
  | 102 => ⟨S1x512x1x16x64, .f32⟩
  | 103 => ⟨S_, .f32⟩
  | 104 => ⟨S1x512x1x16, .f32⟩
  | 105 => ⟨S1x512x16x16, .f32⟩
  | 106 => ⟨S1x512x16x16, .f32⟩
  | 107 => ⟨S_, .f32⟩
  | 108 => ⟨S1x512x16x16x64, .f32⟩
  | 109 => ⟨S1x512x16x16x64, .f32⟩
  | 110 => ⟨S1x512x16x16x1, .f32⟩
  | 111 => ⟨S_, .f32⟩
  | 112 => ⟨S1x512x16x16x1, .f32⟩
  | 113 => ⟨S1x512x16x16x1, .f32⟩
  | 114 => ⟨S1x512x16x16x64, .f32⟩
  | 115 => ⟨S1x512x16x16x64, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .i1⟩
  | 121 => ⟨S_, .f32⟩
  | 122 => ⟨S1x512x16x16x64, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .f32⟩
  | _ => ⟨S1x8192x1024, .f32⟩

abbrev hbmTy0_1 (i : Nat) : BufTy := match i % 128 with
  | 0 => ⟨S_, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .f32⟩
  | 7 => ⟨S_, .f32⟩
  | 8 => ⟨S1x512x16x16x64, .f32⟩
  | 9 => ⟨S1x512x16x16x64, .f32⟩
  | 10 => ⟨S1x512x16x16x64, .f32⟩
  | 11 => ⟨S1x512x1x16x64, .f32⟩
  | 12 => ⟨S1x1x1x16x64, .f32⟩
  | 13 => ⟨S1x512x16x16x64, .f32⟩
  | 14 => ⟨S1x512x16x16x64, .f32⟩
  | 15 => ⟨S_, .f32⟩
  | 16 => ⟨S1x512x16x16, .f32⟩
  | 17 => ⟨S1x1x1x16x64, .f32⟩
  | 18 => ⟨S1x512x1x16x64, .f32⟩
  | 19 => ⟨S1x512x1x16x64, .f32⟩
  | 20 => ⟨S_, .f32⟩
  | 21 => ⟨S1x512x1x16, .f32⟩
  | 22 => ⟨S1x512x16x16, .f32⟩
  | 23 => ⟨S1x512x16x16, .f32⟩
  | 24 => ⟨S_, .f32⟩
  | 25 => ⟨S1x512x16x16x64, .f32⟩
  | 26 => ⟨S1x512x16x16x64, .f32⟩
  | 27 => ⟨S1x512x16x16x1, .f32⟩
  | 28 => ⟨S_, .f32⟩
  | 29 => ⟨S1x512x16x16x1, .f32⟩
  | 30 => ⟨S1x512x16x16x1, .f32⟩
  | 31 => ⟨S1x512x16x16x64, .f32⟩
  | 32 => ⟨S1x512x16x16x64, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .i1⟩
  | 38 => ⟨S_, .f32⟩
  | 39 => ⟨S1x512x16x16x64, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .f32⟩
  | 45 => ⟨S_, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .f32⟩
  | 52 => ⟨S_, .f32⟩
  | 53 => ⟨S1x512x16x16x64, .f32⟩
  | 54 => ⟨S1x512x16x16x64, .f32⟩
  | 55 => ⟨S1x512x16x16x64, .f32⟩
  | 56 => ⟨S1x512x1x16x64, .f32⟩
  | 57 => ⟨S1x1x1x16x64, .f32⟩
  | 58 => ⟨S1x512x16x16x64, .f32⟩
  | 59 => ⟨S1x512x16x16x64, .f32⟩
  | 60 => ⟨S_, .f32⟩
  | 61 => ⟨S1x512x16x16, .f32⟩
  | 62 => ⟨S1x1x1x16x64, .f32⟩
  | 63 => ⟨S1x512x1x16x64, .f32⟩
  | 64 => ⟨S1x512x1x16x64, .f32⟩
  | 65 => ⟨S_, .f32⟩
  | 66 => ⟨S1x512x1x16, .f32⟩
  | 67 => ⟨S1x512x16x16, .f32⟩
  | 68 => ⟨S1x512x16x16, .f32⟩
  | 69 => ⟨S_, .f32⟩
  | 70 => ⟨S1x512x16x16x64, .f32⟩
  | 71 => ⟨S1x512x16x16x64, .f32⟩
  | 72 => ⟨S1x512x16x16x1, .f32⟩
  | 73 => ⟨S_, .f32⟩
  | 74 => ⟨S1x512x16x16x1, .f32⟩
  | 75 => ⟨S1x512x16x16x1, .f32⟩
  | 76 => ⟨S1x512x16x16x64, .f32⟩
  | 77 => ⟨S1x512x16x16x64, .f32⟩
  | 78 => ⟨S1x512x16x16x64, .f32⟩
  | 79 => ⟨S1x512x16x16x64, .f32⟩
  | 80 => ⟨S_, .f32⟩
  | 81 => ⟨S1x512x16x16x64, .f32⟩
  | 82 => ⟨S1x512x16x16x64, .i1⟩
  | 83 => ⟨S_, .f32⟩
  | 84 => ⟨S1x512x16x16x64, .f32⟩
  | 85 => ⟨S1x512x16x16x64, .f32⟩
  | 86 => ⟨S1x512x16x16x64, .f32⟩
  | 87 => ⟨S_, .f32⟩
  | 88 => ⟨S1x512x16x16x64, .f32⟩
  | 89 => ⟨S1x512x16x16x64, .f32⟩
  | 90 => ⟨S_, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .f32⟩
  | 97 => ⟨S_, .f32⟩
  | 98 => ⟨S1x512x16x16x64, .f32⟩
  | 99 => ⟨S1x512x16x16x64, .f32⟩
  | 100 => ⟨S1x512x16x16x64, .f32⟩
  | 101 => ⟨S1x512x1x16x64, .f32⟩
  | 102 => ⟨S1x1x1x16x64, .f32⟩
  | 103 => ⟨S1x512x16x16x64, .f32⟩
  | 104 => ⟨S1x512x16x16x64, .f32⟩
  | 105 => ⟨S_, .f32⟩
  | 106 => ⟨S1x512x16x16, .f32⟩
  | 107 => ⟨S1x1x1x16x64, .f32⟩
  | 108 => ⟨S1x512x1x16x64, .f32⟩
  | 109 => ⟨S1x512x1x16x64, .f32⟩
  | 110 => ⟨S_, .f32⟩
  | 111 => ⟨S1x512x1x16, .f32⟩
  | 112 => ⟨S1x512x16x16, .f32⟩
  | 113 => ⟨S1x512x16x16, .f32⟩
  | 114 => ⟨S_, .f32⟩
  | 115 => ⟨S1x512x16x16x64, .f32⟩
  | 116 => ⟨S1x512x16x16x64, .f32⟩
  | 117 => ⟨S1x512x16x16x1, .f32⟩
  | 118 => ⟨S_, .f32⟩
  | 119 => ⟨S1x512x16x16x1, .f32⟩
  | 120 => ⟨S1x512x16x16x1, .f32⟩
  | 121 => ⟨S1x512x16x16x64, .f32⟩
  | 122 => ⟨S1x512x16x16x64, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .i1⟩
  | _ => ⟨S1x8192x1024, .f32⟩

abbrev hbmTy0_2 (i : Nat) : BufTy := match i % 128 with
  | 0 => ⟨S_, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .f32⟩
  | 7 => ⟨S_, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .f32⟩
  | 14 => ⟨S_, .f32⟩
  | 15 => ⟨S1x512x16x16x64, .f32⟩
  | 16 => ⟨S1x512x16x16x64, .f32⟩
  | 17 => ⟨S1x512x16x16x64, .f32⟩
  | 18 => ⟨S1x512x1x16x64, .f32⟩
  | 19 => ⟨S1x1x1x16x64, .f32⟩
  | 20 => ⟨S1x512x16x16x64, .f32⟩
  | 21 => ⟨S1x512x16x16x64, .f32⟩
  | 22 => ⟨S_, .f32⟩
  | 23 => ⟨S1x512x16x16, .f32⟩
  | 24 => ⟨S1x1x1x16x64, .f32⟩
  | 25 => ⟨S1x512x1x16x64, .f32⟩
  | 26 => ⟨S1x512x1x16x64, .f32⟩
  | 27 => ⟨S_, .f32⟩
  | 28 => ⟨S1x512x1x16, .f32⟩
  | 29 => ⟨S1x512x16x16, .f32⟩
  | 30 => ⟨S1x512x16x16, .f32⟩
  | 31 => ⟨S_, .f32⟩
  | 32 => ⟨S1x512x16x16x64, .f32⟩
  | 33 => ⟨S1x512x16x16x64, .f32⟩
  | 34 => ⟨S1x512x16x16x1, .f32⟩
  | 35 => ⟨S_, .f32⟩
  | 36 => ⟨S1x512x16x16x1, .f32⟩
  | 37 => ⟨S1x512x16x16x1, .f32⟩
  | 38 => ⟨S1x512x16x16x64, .f32⟩
  | 39 => ⟨S1x512x16x16x64, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .i1⟩
  | 45 => ⟨S_, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .f32⟩
  | 52 => ⟨S_, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .f32⟩
  | 59 => ⟨S_, .f32⟩
  | 60 => ⟨S1x512x16x16x64, .f32⟩
  | 61 => ⟨S1x512x16x16x64, .f32⟩
  | 62 => ⟨S1x512x16x16x64, .f32⟩
  | 63 => ⟨S1x512x1x16x64, .f32⟩
  | 64 => ⟨S1x1x1x16x64, .f32⟩
  | 65 => ⟨S1x512x16x16x64, .f32⟩
  | 66 => ⟨S1x512x16x16x64, .f32⟩
  | 67 => ⟨S_, .f32⟩
  | 68 => ⟨S1x512x16x16, .f32⟩
  | 69 => ⟨S1x1x1x16x64, .f32⟩
  | 70 => ⟨S1x512x1x16x64, .f32⟩
  | 71 => ⟨S1x512x1x16x64, .f32⟩
  | 72 => ⟨S_, .f32⟩
  | 73 => ⟨S1x512x1x16, .f32⟩
  | 74 => ⟨S1x512x16x16, .f32⟩
  | 75 => ⟨S1x512x16x16, .f32⟩
  | 76 => ⟨S_, .f32⟩
  | 77 => ⟨S1x512x16x16x64, .f32⟩
  | 78 => ⟨S1x512x16x16x64, .f32⟩
  | 79 => ⟨S1x512x16x16x1, .f32⟩
  | 80 => ⟨S_, .f32⟩
  | 81 => ⟨S1x512x16x16x1, .f32⟩
  | 82 => ⟨S1x512x16x16x1, .f32⟩
  | 83 => ⟨S1x512x16x16x64, .f32⟩
  | 84 => ⟨S1x512x16x16x64, .f32⟩
  | 85 => ⟨S1x512x16x16x64, .f32⟩
  | 86 => ⟨S1x512x16x16x64, .f32⟩
  | 87 => ⟨S_, .f32⟩
  | 88 => ⟨S1x512x16x16x64, .f32⟩
  | 89 => ⟨S1x512x16x16x64, .i1⟩
  | 90 => ⟨S_, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .f32⟩
  | 97 => ⟨S_, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .f32⟩
  | 104 => ⟨S_, .f32⟩
  | 105 => ⟨S1x512x16x16x64, .f32⟩
  | 106 => ⟨S1x512x16x16x64, .f32⟩
  | 107 => ⟨S1x512x16x16x64, .f32⟩
  | 108 => ⟨S1x512x1x16x64, .f32⟩
  | 109 => ⟨S1x1x1x16x64, .f32⟩
  | 110 => ⟨S1x512x16x16x64, .f32⟩
  | 111 => ⟨S1x512x16x16x64, .f32⟩
  | 112 => ⟨S_, .f32⟩
  | 113 => ⟨S1x512x16x16, .f32⟩
  | 114 => ⟨S1x1x1x16x64, .f32⟩
  | 115 => ⟨S1x512x1x16x64, .f32⟩
  | 116 => ⟨S1x512x1x16x64, .f32⟩
  | 117 => ⟨S_, .f32⟩
  | 118 => ⟨S1x512x1x16, .f32⟩
  | 119 => ⟨S1x512x16x16, .f32⟩
  | 120 => ⟨S1x512x16x16, .f32⟩
  | 121 => ⟨S_, .f32⟩
  | 122 => ⟨S1x512x16x16x64, .f32⟩
  | 123 => ⟨S1x512x16x16x64, .f32⟩
  | 124 => ⟨S1x512x16x16x1, .f32⟩
  | 125 => ⟨S_, .f32⟩
  | 126 => ⟨S1x512x16x16x1, .f32⟩
  | 127 => ⟨S1x512x16x16x1, .f32⟩
  | _ => ⟨S1x8192x1024, .f32⟩

abbrev hbmTy0_3 (i : Nat) : BufTy := match i % 128 with
  | 0 => ⟨S1x512x16x16x64, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .i1⟩
  | 7 => ⟨S_, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .f32⟩
  | 14 => ⟨S_, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .f32⟩
  | 21 => ⟨S_, .f32⟩
  | 22 => ⟨S1x512x16x16x64, .f32⟩
  | 23 => ⟨S1x512x16x16x64, .f32⟩
  | 24 => ⟨S1x512x16x16x64, .f32⟩
  | 25 => ⟨S1x512x1x16x64, .f32⟩
  | 26 => ⟨S1x1x1x16x64, .f32⟩
  | 27 => ⟨S1x512x16x16x64, .f32⟩
  | 28 => ⟨S1x512x16x16x64, .f32⟩
  | 29 => ⟨S_, .f32⟩
  | 30 => ⟨S1x512x16x16, .f32⟩
  | 31 => ⟨S1x1x1x16x64, .f32⟩
  | 32 => ⟨S1x512x1x16x64, .f32⟩
  | 33 => ⟨S1x512x1x16x64, .f32⟩
  | 34 => ⟨S_, .f32⟩
  | 35 => ⟨S1x512x1x16, .f32⟩
  | 36 => ⟨S1x512x16x16, .f32⟩
  | 37 => ⟨S1x512x16x16, .f32⟩
  | 38 => ⟨S_, .f32⟩
  | 39 => ⟨S1x512x16x16x64, .f32⟩
  | 40 => ⟨S1x512x16x16x64, .f32⟩
  | 41 => ⟨S1x512x16x16x1, .f32⟩
  | 42 => ⟨S_, .f32⟩
  | 43 => ⟨S1x512x16x16x1, .f32⟩
  | 44 => ⟨S1x512x16x16x1, .f32⟩
  | 45 => ⟨S1x512x16x16x64, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .i1⟩
  | 52 => ⟨S_, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .f32⟩
  | 59 => ⟨S_, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .f32⟩
  | 66 => ⟨S_, .f32⟩
  | 67 => ⟨S1x512x16x16x64, .f32⟩
  | 68 => ⟨S1x512x16x16x64, .f32⟩
  | 69 => ⟨S1x512x16x16x64, .f32⟩
  | 70 => ⟨S1x512x1x16x64, .f32⟩
  | 71 => ⟨S1x1x1x16x64, .f32⟩
  | 72 => ⟨S1x512x16x16x64, .f32⟩
  | 73 => ⟨S1x512x16x16x64, .f32⟩
  | 74 => ⟨S_, .f32⟩
  | 75 => ⟨S1x512x16x16, .f32⟩
  | 76 => ⟨S1x1x1x16x64, .f32⟩
  | 77 => ⟨S1x512x1x16x64, .f32⟩
  | 78 => ⟨S1x512x1x16x64, .f32⟩
  | 79 => ⟨S_, .f32⟩
  | 80 => ⟨S1x512x1x16, .f32⟩
  | 81 => ⟨S1x512x16x16, .f32⟩
  | 82 => ⟨S1x512x16x16, .f32⟩
  | 83 => ⟨S_, .f32⟩
  | 84 => ⟨S1x512x16x16x64, .f32⟩
  | 85 => ⟨S1x512x16x16x64, .f32⟩
  | 86 => ⟨S1x512x16x16x1, .f32⟩
  | 87 => ⟨S_, .f32⟩
  | 88 => ⟨S1x512x16x16x1, .f32⟩
  | 89 => ⟨S1x512x16x16x1, .f32⟩
  | 90 => ⟨S1x512x16x16x64, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .i1⟩
  | 97 => ⟨S_, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .f32⟩
  | 104 => ⟨S_, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .f32⟩
  | 111 => ⟨S_, .f32⟩
  | 112 => ⟨S1x512x16x16x64, .f32⟩
  | 113 => ⟨S1x512x16x16x64, .f32⟩
  | 114 => ⟨S1x512x16x16x64, .f32⟩
  | 115 => ⟨S1x512x1x16x64, .f32⟩
  | 116 => ⟨S1x1x1x16x64, .f32⟩
  | 117 => ⟨S1x512x16x16x64, .f32⟩
  | 118 => ⟨S1x512x16x16x64, .f32⟩
  | 119 => ⟨S_, .f32⟩
  | 120 => ⟨S1x512x16x16, .f32⟩
  | 121 => ⟨S1x1x1x16x64, .f32⟩
  | 122 => ⟨S1x512x1x16x64, .f32⟩
  | 123 => ⟨S1x512x1x16x64, .f32⟩
  | 124 => ⟨S_, .f32⟩
  | 125 => ⟨S1x512x1x16, .f32⟩
  | 126 => ⟨S1x512x16x16, .f32⟩
  | 127 => ⟨S1x512x16x16, .f32⟩
  | _ => ⟨S1x8192x1024, .f32⟩

abbrev hbmTy0_4 (i : Nat) : BufTy := match i % 128 with
  | 0 => ⟨S_, .f32⟩
  | 1 => ⟨S1x512x16x16x64, .f32⟩
  | 2 => ⟨S1x512x16x16x64, .f32⟩
  | 3 => ⟨S1x512x16x16x1, .f32⟩
  | 4 => ⟨S_, .f32⟩
  | 5 => ⟨S1x512x16x16x1, .f32⟩
  | 6 => ⟨S1x512x16x16x1, .f32⟩
  | 7 => ⟨S1x512x16x16x64, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .i1⟩
  | 14 => ⟨S_, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .f32⟩
  | 21 => ⟨S_, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .f32⟩
  | 28 => ⟨S_, .f32⟩
  | 29 => ⟨S1x512x16x16x64, .f32⟩
  | 30 => ⟨S1x512x16x16x64, .f32⟩
  | 31 => ⟨S1x512x16x16x64, .f32⟩
  | 32 => ⟨S1x512x1x16x64, .f32⟩
  | 33 => ⟨S1x1x1x16x64, .f32⟩
  | 34 => ⟨S1x512x16x16x64, .f32⟩
  | 35 => ⟨S1x512x16x16x64, .f32⟩
  | 36 => ⟨S_, .f32⟩
  | 37 => ⟨S1x512x16x16, .f32⟩
  | 38 => ⟨S1x1x1x16x64, .f32⟩
  | 39 => ⟨S1x512x1x16x64, .f32⟩
  | 40 => ⟨S1x512x1x16x64, .f32⟩
  | 41 => ⟨S_, .f32⟩
  | 42 => ⟨S1x512x1x16, .f32⟩
  | 43 => ⟨S1x512x16x16, .f32⟩
  | 44 => ⟨S1x512x16x16, .f32⟩
  | 45 => ⟨S_, .f32⟩
  | 46 => ⟨S1x512x16x16x64, .f32⟩
  | 47 => ⟨S1x512x16x16x64, .f32⟩
  | 48 => ⟨S1x512x16x16x1, .f32⟩
  | 49 => ⟨S_, .f32⟩
  | 50 => ⟨S1x512x16x16x1, .f32⟩
  | 51 => ⟨S1x512x16x16x1, .f32⟩
  | 52 => ⟨S1x512x16x16x64, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .i1⟩
  | 59 => ⟨S_, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .f32⟩
  | 66 => ⟨S_, .f32⟩
  | 67 => ⟨S1x512x16x16x64, .f32⟩
  | 68 => ⟨S1x512x16x16x64, .f32⟩
  | 69 => ⟨S1x512x16x16x64, .f32⟩
  | 70 => ⟨S_, .f32⟩
  | 71 => ⟨S1x512x16x16x64, .f32⟩
  | 72 => ⟨S1x512x16x16x64, .f32⟩
  | 73 => ⟨S_, .f32⟩
  | 74 => ⟨S1x512x16x16x64, .f32⟩
  | 75 => ⟨S1x512x16x16x64, .f32⟩
  | 76 => ⟨S1x512x16x16x64, .f32⟩
  | 77 => ⟨S1x512x1x16x64, .f32⟩
  | 78 => ⟨S1x1x1x16x64, .f32⟩
  | 79 => ⟨S1x512x16x16x64, .f32⟩
  | 80 => ⟨S1x512x16x16x64, .f32⟩
  | 81 => ⟨S_, .f32⟩
  | 82 => ⟨S1x512x16x16, .f32⟩
  | 83 => ⟨S1x1x1x16x64, .f32⟩
  | 84 => ⟨S1x512x1x16x64, .f32⟩
  | 85 => ⟨S1x512x1x16x64, .f32⟩
  | 86 => ⟨S_, .f32⟩
  | 87 => ⟨S1x512x1x16, .f32⟩
  | 88 => ⟨S1x512x16x16, .f32⟩
  | 89 => ⟨S1x512x16x16, .f32⟩
  | 90 => ⟨S_, .f32⟩
  | 91 => ⟨S1x512x16x16x64, .f32⟩
  | 92 => ⟨S1x512x16x16x64, .f32⟩
  | 93 => ⟨S1x512x16x16x1, .f32⟩
  | 94 => ⟨S_, .f32⟩
  | 95 => ⟨S1x512x16x16x1, .f32⟩
  | 96 => ⟨S1x512x16x16x1, .f32⟩
  | 97 => ⟨S1x512x16x16x64, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .i1⟩
  | 104 => ⟨S_, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .f32⟩
  | 111 => ⟨S_, .f32⟩
  | 112 => ⟨S1x512x16x16x64, .f32⟩
  | 113 => ⟨S1x512x16x16x64, .f32⟩
  | 114 => ⟨S1x512x16x16x64, .f32⟩
  | 115 => ⟨S_, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .f32⟩
  | 121 => ⟨S1x512x16x16x64, .f32⟩
  | 122 => ⟨S1x512x1x16x64, .f32⟩
  | 123 => ⟨S1x1x1x16x64, .f32⟩
  | 124 => ⟨S1x512x16x16x64, .f32⟩
  | 125 => ⟨S1x512x16x16x64, .f32⟩
  | 126 => ⟨S_, .f32⟩
  | 127 => ⟨S1x512x16x16, .f32⟩
  | _ => ⟨S1x8192x1024, .f32⟩

abbrev hbmTy0_5 (i : Nat) : BufTy := match i % 128 with
  | 0 => ⟨S1x1x1x16x64, .f32⟩
  | 1 => ⟨S1x512x1x16x64, .f32⟩
  | 2 => ⟨S1x512x1x16x64, .f32⟩
  | 3 => ⟨S_, .f32⟩
  | 4 => ⟨S1x512x1x16, .f32⟩
  | 5 => ⟨S1x512x16x16, .f32⟩
  | 6 => ⟨S1x512x16x16, .f32⟩
  | 7 => ⟨S_, .f32⟩
  | 8 => ⟨S1x512x16x16x64, .f32⟩
  | 9 => ⟨S1x512x16x16x64, .f32⟩
  | 10 => ⟨S1x512x16x16x1, .f32⟩
  | 11 => ⟨S_, .f32⟩
  | 12 => ⟨S1x512x16x16x1, .f32⟩
  | 13 => ⟨S1x512x16x16x1, .f32⟩
  | 14 => ⟨S1x512x16x16x64, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .i1⟩
  | 21 => ⟨S_, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .f32⟩
  | 28 => ⟨S_, .f32⟩
  | 29 => ⟨S1x512x16x16x64, .f32⟩
  | 30 => ⟨S1x512x16x16x64, .f32⟩
  | 31 => ⟨S1x512x16x16x64, .f32⟩
  | 32 => ⟨S_, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .f32⟩
  | 38 => ⟨S1x512x16x16x64, .f32⟩
  | 39 => ⟨S1x512x1x16x64, .f32⟩
  | 40 => ⟨S1x1x1x16x64, .f32⟩
  | 41 => ⟨S1x512x16x16x64, .f32⟩
  | 42 => ⟨S1x512x16x16x64, .f32⟩
  | 43 => ⟨S_, .f32⟩
  | 44 => ⟨S1x512x16x16, .f32⟩
  | 45 => ⟨S1x1x1x16x64, .f32⟩
  | 46 => ⟨S1x512x1x16x64, .f32⟩
  | 47 => ⟨S1x512x1x16x64, .f32⟩
  | 48 => ⟨S_, .f32⟩
  | 49 => ⟨S1x512x1x16, .f32⟩
  | 50 => ⟨S1x512x16x16, .f32⟩
  | 51 => ⟨S1x512x16x16, .f32⟩
  | 52 => ⟨S_, .f32⟩
  | 53 => ⟨S1x512x16x16x64, .f32⟩
  | 54 => ⟨S1x512x16x16x64, .f32⟩
  | 55 => ⟨S1x512x16x16x1, .f32⟩
  | 56 => ⟨S_, .f32⟩
  | 57 => ⟨S1x512x16x16x1, .f32⟩
  | 58 => ⟨S1x512x16x16x1, .f32⟩
  | 59 => ⟨S1x512x16x16x64, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .i1⟩
  | 66 => ⟨S_, .f32⟩
  | 67 => ⟨S1x512x16x16x64, .f32⟩
  | 68 => ⟨S1x512x16x16x64, .f32⟩
  | 69 => ⟨S1x512x16x16x64, .f32⟩
  | 70 => ⟨S_, .f32⟩
  | 71 => ⟨S1x512x16x16x64, .f32⟩
  | 72 => ⟨S1x512x16x16x64, .f32⟩
  | 73 => ⟨S_, .f32⟩
  | 74 => ⟨S1x512x16x16x64, .f32⟩
  | 75 => ⟨S1x512x16x16x64, .f32⟩
  | 76 => ⟨S1x512x16x16x64, .f32⟩
  | 77 => ⟨S_, .f32⟩
  | 78 => ⟨S1x512x16x16x64, .f32⟩
  | 79 => ⟨S1x512x16x16x64, .f32⟩
  | 80 => ⟨S_, .f32⟩
  | 81 => ⟨S1x512x16x16x64, .f32⟩
  | 82 => ⟨S1x512x16x16x64, .f32⟩
  | 83 => ⟨S1x512x16x16x64, .f32⟩
  | 84 => ⟨S1x512x1x16x64, .f32⟩
  | 85 => ⟨S1x1x1x16x64, .f32⟩
  | 86 => ⟨S1x512x16x16x64, .f32⟩
  | 87 => ⟨S1x512x16x16x64, .f32⟩
  | 88 => ⟨S_, .f32⟩
  | 89 => ⟨S1x512x16x16, .f32⟩
  | 90 => ⟨S1x1x1x16x64, .f32⟩
  | 91 => ⟨S1x512x1x16x64, .f32⟩
  | 92 => ⟨S1x512x1x16x64, .f32⟩
  | 93 => ⟨S_, .f32⟩
  | 94 => ⟨S1x512x1x16, .f32⟩
  | 95 => ⟨S1x512x16x16, .f32⟩
  | 96 => ⟨S1x512x16x16, .f32⟩
  | 97 => ⟨S_, .f32⟩
  | 98 => ⟨S1x512x16x16x64, .f32⟩
  | 99 => ⟨S1x512x16x16x64, .f32⟩
  | 100 => ⟨S1x512x16x16x1, .f32⟩
  | 101 => ⟨S_, .f32⟩
  | 102 => ⟨S1x512x16x16x1, .f32⟩
  | 103 => ⟨S1x512x16x16x1, .f32⟩
  | 104 => ⟨S1x512x16x16x64, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .i1⟩
  | 111 => ⟨S_, .f32⟩
  | 112 => ⟨S1x512x16x16x64, .f32⟩
  | 113 => ⟨S1x512x16x16x64, .f32⟩
  | 114 => ⟨S1x512x16x16x64, .f32⟩
  | 115 => ⟨S_, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .f32⟩
  | 121 => ⟨S1x512x16x16x64, .f32⟩
  | 122 => ⟨S_, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .f32⟩
  | _ => ⟨S1x8192x1024, .f32⟩

abbrev hbmTy0_6 (i : Nat) : BufTy := match i % 128 with
  | 0 => ⟨S1x512x16x16x64, .f32⟩
  | 1 => ⟨S1x512x1x16x64, .f32⟩
  | 2 => ⟨S1x1x1x16x64, .f32⟩
  | 3 => ⟨S1x512x16x16x64, .f32⟩
  | 4 => ⟨S1x512x16x16x64, .f32⟩
  | 5 => ⟨S_, .f32⟩
  | 6 => ⟨S1x512x16x16, .f32⟩
  | 7 => ⟨S1x1x1x16x64, .f32⟩
  | 8 => ⟨S1x512x1x16x64, .f32⟩
  | 9 => ⟨S1x512x1x16x64, .f32⟩
  | 10 => ⟨S_, .f32⟩
  | 11 => ⟨S1x512x1x16, .f32⟩
  | 12 => ⟨S1x512x16x16, .f32⟩
  | 13 => ⟨S1x512x16x16, .f32⟩
  | 14 => ⟨S_, .f32⟩
  | 15 => ⟨S1x512x16x16x64, .f32⟩
  | 16 => ⟨S1x512x16x16x64, .f32⟩
  | 17 => ⟨S1x512x16x16x1, .f32⟩
  | 18 => ⟨S_, .f32⟩
  | 19 => ⟨S1x512x16x16x1, .f32⟩
  | 20 => ⟨S1x512x16x16x1, .f32⟩
  | 21 => ⟨S1x512x16x16x64, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .i1⟩
  | 28 => ⟨S_, .f32⟩
  | 29 => ⟨S1x512x16x16x64, .f32⟩
  | 30 => ⟨S1x512x16x16x64, .f32⟩
  | 31 => ⟨S1x512x16x16x64, .f32⟩
  | 32 => ⟨S_, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .f32⟩
  | 38 => ⟨S1x512x16x16x64, .f32⟩
  | 39 => ⟨S_, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .f32⟩
  | 45 => ⟨S1x512x16x16x64, .f32⟩
  | 46 => ⟨S1x8192x1024, .f32⟩
  | 47 => ⟨S1x8192x1024, .f32⟩
  | 48 => ⟨S_, .f32⟩
  | 49 => ⟨S1x8192x1024, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S1x8192x1024, .f32⟩
  | 59 => ⟨S_, .f32⟩
  | 60 => ⟨S1x8192x1024, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S1x8192x1024, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v20 : Ref sig .tc := ⟨.hbm, 68, rfl⟩
abbrev main_v21 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_cst : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst_2 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_3 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_4 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_5 : Ref sig .tc := ⟨.hbm, 118, rfl⟩
abbrev main_v44 : Ref sig .tc := ⟨.hbm, 119, rfl⟩
abbrev main_v45 : Ref sig .tc := ⟨.hbm, 120, rfl⟩
abbrev main_cst_6 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_cst_7 : Ref sig .tc := ⟨.hbm, 125, rfl⟩
abbrev main_v49 : Ref sig .tc := ⟨.hbm, 126, rfl⟩
abbrev main_v50 : Ref sig .tc := ⟨.hbm, 127, rfl⟩
abbrev main_cst_8 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_cst_9 : Ref sig .tc := ⟨.hbm, 132, rfl⟩
abbrev main_v54 : Ref sig .tc := ⟨.hbm, 133, rfl⟩
abbrev main_v55 : Ref sig .tc := ⟨.hbm, 134, rfl⟩
abbrev main_cst_10 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_cst_11 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_12 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_13 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_14 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_15 : Ref sig .tc := ⟨.hbm, 163, rfl⟩
abbrev main_v79 : Ref sig .tc := ⟨.hbm, 164, rfl⟩
abbrev main_v80 : Ref sig .tc := ⟨.hbm, 165, rfl⟩
abbrev main_cst_16 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_cst_17 : Ref sig .tc := ⟨.hbm, 170, rfl⟩
abbrev main_v84 : Ref sig .tc := ⟨.hbm, 171, rfl⟩
abbrev main_v85 : Ref sig .tc := ⟨.hbm, 172, rfl⟩
abbrev main_cst_18 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_19 : Ref sig .tc := ⟨.hbm, 177, rfl⟩
abbrev main_v89 : Ref sig .tc := ⟨.hbm, 178, rfl⟩
abbrev main_v90 : Ref sig .tc := ⟨.hbm, 179, rfl⟩
abbrev main_cst_20 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_21 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_cst_22 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_cst_23 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_24 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_cst_25 : Ref sig .tc := ⟨.hbm, 208, rfl⟩
abbrev main_v114 : Ref sig .tc := ⟨.hbm, 209, rfl⟩
abbrev main_v115 : Ref sig .tc := ⟨.hbm, 210, rfl⟩
abbrev main_cst_26 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_cst_27 : Ref sig .tc := ⟨.hbm, 215, rfl⟩
abbrev main_v119 : Ref sig .tc := ⟨.hbm, 216, rfl⟩
abbrev main_v120 : Ref sig .tc := ⟨.hbm, 217, rfl⟩
abbrev main_cst_28 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_cst_29 : Ref sig .tc := ⟨.hbm, 222, rfl⟩
abbrev main_v124 : Ref sig .tc := ⟨.hbm, 223, rfl⟩
abbrev main_v125 : Ref sig .tc := ⟨.hbm, 224, rfl⟩
abbrev main_cst_30 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_cst_31 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_cst_32 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_cst_33 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_cst_34 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_35 : Ref sig .tc := ⟨.hbm, 253, rfl⟩
abbrev main_v149 : Ref sig .tc := ⟨.hbm, 254, rfl⟩
abbrev main_v150 : Ref sig .tc := ⟨.hbm, 255, rfl⟩
abbrev main_cst_36 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_cst_37 : Ref sig .tc := ⟨.hbm, 260, rfl⟩
abbrev main_v154 : Ref sig .tc := ⟨.hbm, 261, rfl⟩
abbrev main_v155 : Ref sig .tc := ⟨.hbm, 262, rfl⟩
abbrev main_cst_38 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_cst_39 : Ref sig .tc := ⟨.hbm, 267, rfl⟩
abbrev main_v159 : Ref sig .tc := ⟨.hbm, 268, rfl⟩
abbrev main_v160 : Ref sig .tc := ⟨.hbm, 269, rfl⟩
abbrev main_cst_40 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_cst_41 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_cst_42 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_cst_43 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_cst_44 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_45 : Ref sig .tc := ⟨.hbm, 298, rfl⟩
abbrev main_v184 : Ref sig .tc := ⟨.hbm, 299, rfl⟩
abbrev main_v185 : Ref sig .tc := ⟨.hbm, 300, rfl⟩
abbrev main_cst_46 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_cst_47 : Ref sig .tc := ⟨.hbm, 305, rfl⟩
abbrev main_v189 : Ref sig .tc := ⟨.hbm, 306, rfl⟩
abbrev main_v190 : Ref sig .tc := ⟨.hbm, 307, rfl⟩
abbrev main_cst_48 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_cst_49 : Ref sig .tc := ⟨.hbm, 312, rfl⟩
abbrev main_v194 : Ref sig .tc := ⟨.hbm, 313, rfl⟩
abbrev main_v195 : Ref sig .tc := ⟨.hbm, 314, rfl⟩
abbrev main_cst_50 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_51 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_cst_52 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_cst_53 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_cst_54 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_cst_55 : Ref sig .tc := ⟨.hbm, 343, rfl⟩
abbrev main_v219 : Ref sig .tc := ⟨.hbm, 344, rfl⟩
abbrev main_v220 : Ref sig .tc := ⟨.hbm, 345, rfl⟩
abbrev main_cst_56 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_cst_57 : Ref sig .tc := ⟨.hbm, 350, rfl⟩
abbrev main_v224 : Ref sig .tc := ⟨.hbm, 351, rfl⟩
abbrev main_v225 : Ref sig .tc := ⟨.hbm, 352, rfl⟩
abbrev main_cst_58 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_cst_59 : Ref sig .tc := ⟨.hbm, 357, rfl⟩
abbrev main_v229 : Ref sig .tc := ⟨.hbm, 358, rfl⟩
abbrev main_v230 : Ref sig .tc := ⟨.hbm, 359, rfl⟩
abbrev main_cst_60 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_cst_61 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_cst_62 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_cst_63 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_cst_64 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_cst_65 : Ref sig .tc := ⟨.hbm, 388, rfl⟩
abbrev main_v254 : Ref sig .tc := ⟨.hbm, 389, rfl⟩
abbrev main_v255 : Ref sig .tc := ⟨.hbm, 390, rfl⟩
abbrev main_cst_66 : Ref sig .tc := ⟨.hbm, 391, rfl⟩
abbrev main_v256 : Ref sig .tc := ⟨.hbm, 392, rfl⟩
abbrev main_v257 : Ref sig .tc := ⟨.hbm, 393, rfl⟩
abbrev main_v258 : Ref sig .tc := ⟨.hbm, 394, rfl⟩
abbrev main_cst_67 : Ref sig .tc := ⟨.hbm, 395, rfl⟩
abbrev main_v259 : Ref sig .tc := ⟨.hbm, 396, rfl⟩
abbrev main_v260 : Ref sig .tc := ⟨.hbm, 397, rfl⟩
abbrev main_cst_68 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_cst_69 : Ref sig .tc := ⟨.hbm, 402, rfl⟩
abbrev main_v264 : Ref sig .tc := ⟨.hbm, 403, rfl⟩
abbrev main_v265 : Ref sig .tc := ⟨.hbm, 404, rfl⟩
abbrev main_cst_70 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_cst_71 : Ref sig .tc := ⟨.hbm, 413, rfl⟩
abbrev main_v273 : Ref sig .tc := ⟨.hbm, 414, rfl⟩
abbrev main_v274 : Ref sig .tc := ⟨.hbm, 415, rfl⟩
abbrev main_v275 : Ref sig .tc := ⟨.hbm, 416, rfl⟩
abbrev main_v276 : Ref sig .tc := ⟨.hbm, 417, rfl⟩
abbrev main_cst_72 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_cst_73 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_cst_74 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_cst_75 : Ref sig .tc := ⟨.hbm, 433, rfl⟩
abbrev main_v289 : Ref sig .tc := ⟨.hbm, 434, rfl⟩
abbrev main_v290 : Ref sig .tc := ⟨.hbm, 435, rfl⟩
abbrev main_cst_76 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_cst_77 : Ref sig .tc := ⟨.hbm, 440, rfl⟩
abbrev main_v294 : Ref sig .tc := ⟨.hbm, 441, rfl⟩
abbrev main_v295 : Ref sig .tc := ⟨.hbm, 442, rfl⟩
abbrev main_cst_78 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_cst_79 : Ref sig .tc := ⟨.hbm, 447, rfl⟩
abbrev main_v299 : Ref sig .tc := ⟨.hbm, 448, rfl⟩
abbrev main_v300 : Ref sig .tc := ⟨.hbm, 449, rfl⟩
abbrev main_cst_80 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_cst_81 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_cst_82 : Ref sig .tc := ⟨.hbm, 463, rfl⟩
abbrev main_v312 : Ref sig .tc := ⟨.hbm, 464, rfl⟩
abbrev main_v313 : Ref sig .tc := ⟨.hbm, 465, rfl⟩
abbrev main_v314 : Ref sig .tc := ⟨.hbm, 466, rfl⟩
abbrev main_cst_83 : Ref sig .tc := ⟨.hbm, 467, rfl⟩
abbrev main_v315 : Ref sig .tc := ⟨.hbm, 468, rfl⟩
abbrev main_v316 : Ref sig .tc := ⟨.hbm, 469, rfl⟩
abbrev main_v317 : Ref sig .tc := ⟨.hbm, 470, rfl⟩
abbrev main_cst_84 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_cst_85 : Ref sig .tc := ⟨.hbm, 478, rfl⟩
abbrev main_v324 : Ref sig .tc := ⟨.hbm, 479, rfl⟩
abbrev main_v325 : Ref sig .tc := ⟨.hbm, 480, rfl⟩
abbrev main_cst_86 : Ref sig .tc := ⟨.hbm, 481, rfl⟩
abbrev main_v326 : Ref sig .tc := ⟨.hbm, 482, rfl⟩
abbrev main_v327 : Ref sig .tc := ⟨.hbm, 483, rfl⟩
abbrev main_v328 : Ref sig .tc := ⟨.hbm, 484, rfl⟩
abbrev main_cst_87 : Ref sig .tc := ⟨.hbm, 485, rfl⟩
abbrev main_v329 : Ref sig .tc := ⟨.hbm, 486, rfl⟩
abbrev main_v330 : Ref sig .tc := ⟨.hbm, 487, rfl⟩
abbrev main_cst_88 : Ref sig .tc := ⟨.hbm, 488, rfl⟩
abbrev main_v331 : Ref sig .tc := ⟨.hbm, 489, rfl⟩
abbrev main_v332 : Ref sig .tc := ⟨.hbm, 490, rfl⟩
abbrev main_v333 : Ref sig .tc := ⟨.hbm, 491, rfl⟩
abbrev main_cst_89 : Ref sig .tc := ⟨.hbm, 492, rfl⟩
abbrev main_v334 : Ref sig .tc := ⟨.hbm, 493, rfl⟩
abbrev main_v335 : Ref sig .tc := ⟨.hbm, 494, rfl⟩
abbrev main_cst_90 : Ref sig .tc := ⟨.hbm, 495, rfl⟩
abbrev main_v336 : Ref sig .tc := ⟨.hbm, 496, rfl⟩
abbrev main_v337 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_v341 : Ref sig .tc := ⟨.hbm, 501, rfl⟩
abbrev main_v342 : Ref sig .tc := ⟨.hbm, 502, rfl⟩
abbrev main_cst_91 : Ref sig .tc := ⟨.hbm, 503, rfl⟩
abbrev main_v343 : Ref sig .tc := ⟨.hbm, 504, rfl⟩
abbrev main_v344 : Ref sig .tc := ⟨.hbm, 505, rfl⟩
abbrev main_v345 : Ref sig .tc := ⟨.hbm, 506, rfl⟩
abbrev main_v346 : Ref sig .tc := ⟨.hbm, 507, rfl⟩
abbrev main_cst_92 : Ref sig .tc := ⟨.hbm, 508, rfl⟩
abbrev main_v347 : Ref sig .tc := ⟨.hbm, 509, rfl⟩
abbrev main_v348 : Ref sig .tc := ⟨.hbm, 510, rfl⟩
abbrev main_v349 : Ref sig .tc := ⟨.hbm, 511, rfl⟩
abbrev main_cst_93 : Ref sig .tc := ⟨.hbm, 512, rfl⟩
abbrev main_v350 : Ref sig .tc := ⟨.hbm, 513, rfl⟩
abbrev main_v351 : Ref sig .tc := ⟨.hbm, 514, rfl⟩
abbrev main_v352 : Ref sig .tc := ⟨.hbm, 515, rfl⟩
abbrev main_cst_94 : Ref sig .tc := ⟨.hbm, 516, rfl⟩
abbrev main_v353 : Ref sig .tc := ⟨.hbm, 517, rfl⟩
abbrev main_v354 : Ref sig .tc := ⟨.hbm, 518, rfl⟩
abbrev main_v355 : Ref sig .tc := ⟨.hbm, 519, rfl⟩
abbrev main_v356 : Ref sig .tc := ⟨.hbm, 520, rfl⟩
abbrev main_v357 : Ref sig .tc := ⟨.hbm, 521, rfl⟩
abbrev main_v358 : Ref sig .tc := ⟨.hbm, 522, rfl⟩
abbrev main_cst_95 : Ref sig .tc := ⟨.hbm, 523, rfl⟩
abbrev main_v359 : Ref sig .tc := ⟨.hbm, 524, rfl⟩
abbrev main_v360 : Ref sig .tc := ⟨.hbm, 525, rfl⟩
abbrev main_cst_96 : Ref sig .tc := ⟨.hbm, 526, rfl⟩
abbrev main_v361 : Ref sig .tc := ⟨.hbm, 527, rfl⟩
abbrev main_v362 : Ref sig .tc := ⟨.hbm, 528, rfl⟩
abbrev main_v363 : Ref sig .tc := ⟨.hbm, 529, rfl⟩
abbrev main_cst_97 : Ref sig .tc := ⟨.hbm, 530, rfl⟩
abbrev main_v364 : Ref sig .tc := ⟨.hbm, 531, rfl⟩
abbrev main_v365 : Ref sig .tc := ⟨.hbm, 532, rfl⟩
abbrev main_cst_98 : Ref sig .tc := ⟨.hbm, 533, rfl⟩
abbrev main_v366 : Ref sig .tc := ⟨.hbm, 534, rfl⟩
abbrev main_v367 : Ref sig .tc := ⟨.hbm, 535, rfl⟩
abbrev main_v368 : Ref sig .tc := ⟨.hbm, 536, rfl⟩
abbrev main_cst_99 : Ref sig .tc := ⟨.hbm, 537, rfl⟩
abbrev main_v369 : Ref sig .tc := ⟨.hbm, 538, rfl⟩
abbrev main_v370 : Ref sig .tc := ⟨.hbm, 539, rfl⟩
abbrev main_cst_100 : Ref sig .tc := ⟨.hbm, 540, rfl⟩
abbrev main_v371 : Ref sig .tc := ⟨.hbm, 541, rfl⟩
abbrev main_v372 : Ref sig .tc := ⟨.hbm, 542, rfl⟩
abbrev main_v373 : Ref sig .tc := ⟨.hbm, 543, rfl⟩
abbrev main_v374 : Ref sig .tc := ⟨.hbm, 544, rfl⟩
abbrev main_v375 : Ref sig .tc := ⟨.hbm, 545, rfl⟩
abbrev main_v376 : Ref sig .tc := ⟨.hbm, 546, rfl⟩
abbrev main_v377 : Ref sig .tc := ⟨.hbm, 547, rfl⟩
abbrev main_cst_101 : Ref sig .tc := ⟨.hbm, 548, rfl⟩
abbrev main_v378 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_cst_102 : Ref sig .tc := ⟨.hbm, 553, rfl⟩
abbrev main_v382 : Ref sig .tc := ⟨.hbm, 554, rfl⟩
abbrev main_v383 : Ref sig .tc := ⟨.hbm, 555, rfl⟩
abbrev main_v384 : Ref sig .tc := ⟨.hbm, 556, rfl⟩
abbrev main_cst_103 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_cst_104 : Ref sig .tc := ⟨.hbm, 561, rfl⟩
abbrev main_v388 : Ref sig .tc := ⟨.hbm, 562, rfl⟩
abbrev main_v389 : Ref sig .tc := ⟨.hbm, 563, rfl⟩
abbrev main_v390 : Ref sig .tc := ⟨.hbm, 564, rfl⟩
abbrev main_v391 : Ref sig .tc := ⟨.hbm, 565, rfl⟩
abbrev main_v392 : Ref sig .tc := ⟨.hbm, 566, rfl⟩
abbrev main_v393 : Ref sig .tc := ⟨.hbm, 567, rfl⟩
abbrev main_cst_105 : Ref sig .tc := ⟨.hbm, 568, rfl⟩
abbrev main_v394 : Ref sig .tc := ⟨.hbm, 569, rfl⟩
abbrev main_v395 : Ref sig .tc := ⟨.hbm, 570, rfl⟩
abbrev main_cst_106 : Ref sig .tc := ⟨.hbm, 571, rfl⟩
abbrev main_v396 : Ref sig .tc := ⟨.hbm, 572, rfl⟩
abbrev main_v397 : Ref sig .tc := ⟨.hbm, 573, rfl⟩
abbrev main_v398 : Ref sig .tc := ⟨.hbm, 574, rfl⟩
abbrev main_cst_107 : Ref sig .tc := ⟨.hbm, 575, rfl⟩
abbrev main_v399 : Ref sig .tc := ⟨.hbm, 576, rfl⟩
abbrev main_v400 : Ref sig .tc := ⟨.hbm, 577, rfl⟩
abbrev main_cst_108 : Ref sig .tc := ⟨.hbm, 578, rfl⟩
abbrev main_v401 : Ref sig .tc := ⟨.hbm, 579, rfl⟩
abbrev main_v402 : Ref sig .tc := ⟨.hbm, 580, rfl⟩
abbrev main_v403 : Ref sig .tc := ⟨.hbm, 581, rfl⟩
abbrev main_cst_109 : Ref sig .tc := ⟨.hbm, 582, rfl⟩
abbrev main_v404 : Ref sig .tc := ⟨.hbm, 583, rfl⟩
abbrev main_v405 : Ref sig .tc := ⟨.hbm, 584, rfl⟩
abbrev main_cst_110 : Ref sig .tc := ⟨.hbm, 585, rfl⟩
abbrev main_v406 : Ref sig .tc := ⟨.hbm, 586, rfl⟩
abbrev main_v407 : Ref sig .tc := ⟨.hbm, 587, rfl⟩
abbrev main_v408 : Ref sig .tc := ⟨.hbm, 588, rfl⟩
abbrev main_v409 : Ref sig .tc := ⟨.hbm, 589, rfl⟩
abbrev main_v410 : Ref sig .tc := ⟨.hbm, 590, rfl⟩
abbrev main_v411 : Ref sig .tc := ⟨.hbm, 591, rfl⟩
abbrev main_v412 : Ref sig .tc := ⟨.hbm, 592, rfl⟩
abbrev main_cst_111 : Ref sig .tc := ⟨.hbm, 593, rfl⟩
abbrev main_v413 : Ref sig .tc := ⟨.hbm, 594, rfl⟩
abbrev main_v414 : Ref sig .tc := ⟨.hbm, 595, rfl⟩
abbrev main_v415 : Ref sig .tc := ⟨.hbm, 596, rfl⟩
abbrev main_v416 : Ref sig .tc := ⟨.hbm, 597, rfl⟩
abbrev main_cst_112 : Ref sig .tc := ⟨.hbm, 598, rfl⟩
abbrev main_v417 : Ref sig .tc := ⟨.hbm, 599, rfl⟩
abbrev main_v418 : Ref sig .tc := ⟨.hbm, 600, rfl⟩
abbrev main_v419 : Ref sig .tc := ⟨.hbm, 601, rfl⟩
abbrev main_cst_113 : Ref sig .tc := ⟨.hbm, 602, rfl⟩
abbrev main_v420 : Ref sig .tc := ⟨.hbm, 603, rfl⟩
abbrev main_v421 : Ref sig .tc := ⟨.hbm, 604, rfl⟩
abbrev main_v422 : Ref sig .tc := ⟨.hbm, 605, rfl⟩
abbrev main_cst_114 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_cst_115 : Ref sig .tc := ⟨.hbm, 613, rfl⟩
abbrev main_v429 : Ref sig .tc := ⟨.hbm, 614, rfl⟩
abbrev main_v430 : Ref sig .tc := ⟨.hbm, 615, rfl⟩
abbrev main_cst_116 : Ref sig .tc := ⟨.hbm, 616, rfl⟩
abbrev main_v431 : Ref sig .tc := ⟨.hbm, 617, rfl⟩
abbrev main_v432 : Ref sig .tc := ⟨.hbm, 618, rfl⟩
abbrev main_v433 : Ref sig .tc := ⟨.hbm, 619, rfl⟩
abbrev main_cst_117 : Ref sig .tc := ⟨.hbm, 620, rfl⟩
abbrev main_v434 : Ref sig .tc := ⟨.hbm, 621, rfl⟩
abbrev main_v435 : Ref sig .tc := ⟨.hbm, 622, rfl⟩
abbrev main_cst_118 : Ref sig .tc := ⟨.hbm, 623, rfl⟩
abbrev main_v436 : Ref sig .tc := ⟨.hbm, 624, rfl⟩
abbrev main_v437 : Ref sig .tc := ⟨.hbm, 625, rfl⟩
abbrev main_v438 : Ref sig .tc := ⟨.hbm, 626, rfl⟩
abbrev main_cst_119 : Ref sig .tc := ⟨.hbm, 627, rfl⟩
abbrev main_v439 : Ref sig .tc := ⟨.hbm, 628, rfl⟩
abbrev main_v440 : Ref sig .tc := ⟨.hbm, 629, rfl⟩
abbrev main_cst_120 : Ref sig .tc := ⟨.hbm, 630, rfl⟩
abbrev main_v441 : Ref sig .tc := ⟨.hbm, 631, rfl⟩
abbrev main_v442 : Ref sig .tc := ⟨.hbm, 632, rfl⟩
abbrev main_v443 : Ref sig .tc := ⟨.hbm, 633, rfl⟩
abbrev main_v444 : Ref sig .tc := ⟨.hbm, 634, rfl⟩
abbrev main_v445 : Ref sig .tc := ⟨.hbm, 635, rfl⟩
abbrev main_v446 : Ref sig .tc := ⟨.hbm, 636, rfl⟩
abbrev main_v447 : Ref sig .tc := ⟨.hbm, 637, rfl⟩
abbrev main_cst_121 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩
abbrev main_v451 : Ref sig .tc := ⟨.hbm, 642, rfl⟩
abbrev main_cst_122 : Ref sig .tc := ⟨.hbm, 643, rfl⟩
abbrev main_v452 : Ref sig .tc := ⟨.hbm, 644, rfl⟩
abbrev main_v453 : Ref sig .tc := ⟨.hbm, 645, rfl⟩
abbrev main_v454 : Ref sig .tc := ⟨.hbm, 646, rfl⟩
abbrev main_cst_123 : Ref sig .tc := ⟨.hbm, 647, rfl⟩
abbrev main_v455 : Ref sig .tc := ⟨.hbm, 648, rfl⟩
abbrev main_v456 : Ref sig .tc := ⟨.hbm, 649, rfl⟩
abbrev main_v457 : Ref sig .tc := ⟨.hbm, 650, rfl⟩
abbrev main_cst_124 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_v461 : Ref sig .tc := ⟨.hbm, 655, rfl⟩
abbrev main_v462 : Ref sig .tc := ⟨.hbm, 656, rfl⟩
abbrev main_v463 : Ref sig .tc := ⟨.hbm, 657, rfl⟩
abbrev main_cst_125 : Ref sig .tc := ⟨.hbm, 658, rfl⟩
abbrev main_v464 : Ref sig .tc := ⟨.hbm, 659, rfl⟩
abbrev main_v465 : Ref sig .tc := ⟨.hbm, 660, rfl⟩
abbrev main_cst_126 : Ref sig .tc := ⟨.hbm, 661, rfl⟩
abbrev main_v466 : Ref sig .tc := ⟨.hbm, 662, rfl⟩
abbrev main_v467 : Ref sig .tc := ⟨.hbm, 663, rfl⟩
abbrev main_v468 : Ref sig .tc := ⟨.hbm, 664, rfl⟩
abbrev main_cst_127 : Ref sig .tc := ⟨.hbm, 665, rfl⟩
abbrev main_v469 : Ref sig .tc := ⟨.hbm, 666, rfl⟩
abbrev main_v470 : Ref sig .tc := ⟨.hbm, 667, rfl⟩
abbrev main_cst_128 : Ref sig .tc := ⟨.hbm, 668, rfl⟩
abbrev main_v471 : Ref sig .tc := ⟨.hbm, 669, rfl⟩
abbrev main_v472 : Ref sig .tc := ⟨.hbm, 670, rfl⟩
abbrev main_v473 : Ref sig .tc := ⟨.hbm, 671, rfl⟩
abbrev main_cst_129 : Ref sig .tc := ⟨.hbm, 672, rfl⟩
abbrev main_v474 : Ref sig .tc := ⟨.hbm, 673, rfl⟩
abbrev main_v475 : Ref sig .tc := ⟨.hbm, 674, rfl⟩
abbrev main_cst_130 : Ref sig .tc := ⟨.hbm, 675, rfl⟩
abbrev main_v476 : Ref sig .tc := ⟨.hbm, 676, rfl⟩
abbrev main_v477 : Ref sig .tc := ⟨.hbm, 677, rfl⟩
abbrev main_v478 : Ref sig .tc := ⟨.hbm, 678, rfl⟩
abbrev main_v479 : Ref sig .tc := ⟨.hbm, 679, rfl⟩
abbrev main_v480 : Ref sig .tc := ⟨.hbm, 680, rfl⟩
abbrev main_v481 : Ref sig .tc := ⟨.hbm, 681, rfl⟩
abbrev main_v482 : Ref sig .tc := ⟨.hbm, 682, rfl⟩
abbrev main_cst_131 : Ref sig .tc := ⟨.hbm, 683, rfl⟩
abbrev main_v483 : Ref sig .tc := ⟨.hbm, 684, rfl⟩
abbrev main_v484 : Ref sig .tc := ⟨.hbm, 685, rfl⟩
abbrev main_v485 : Ref sig .tc := ⟨.hbm, 686, rfl⟩
abbrev main_v486 : Ref sig .tc := ⟨.hbm, 687, rfl⟩
abbrev main_cst_132 : Ref sig .tc := ⟨.hbm, 688, rfl⟩
abbrev main_v487 : Ref sig .tc := ⟨.hbm, 689, rfl⟩
abbrev main_v488 : Ref sig .tc := ⟨.hbm, 690, rfl⟩
abbrev main_v489 : Ref sig .tc := ⟨.hbm, 691, rfl⟩
abbrev main_cst_133 : Ref sig .tc := ⟨.hbm, 692, rfl⟩
abbrev main_v490 : Ref sig .tc := ⟨.hbm, 693, rfl⟩
abbrev main_v491 : Ref sig .tc := ⟨.hbm, 694, rfl⟩
abbrev main_v492 : Ref sig .tc := ⟨.hbm, 695, rfl⟩
abbrev main_cst_134 : Ref sig .tc := ⟨.hbm, 696, rfl⟩
abbrev main_v493 : Ref sig .tc := ⟨.hbm, 697, rfl⟩
abbrev main_v494 : Ref sig .tc := ⟨.hbm, 698, rfl⟩
abbrev main_v495 : Ref sig .tc := ⟨.hbm, 699, rfl⟩
abbrev main_v496 : Ref sig .tc := ⟨.hbm, 700, rfl⟩
abbrev main_v497 : Ref sig .tc := ⟨.hbm, 701, rfl⟩
abbrev main_v498 : Ref sig .tc := ⟨.hbm, 702, rfl⟩
abbrev main_cst_135 : Ref sig .tc := ⟨.hbm, 703, rfl⟩
abbrev main_v499 : Ref sig .tc := ⟨.hbm, 704, rfl⟩
abbrev main_v500 : Ref sig .tc := ⟨.hbm, 705, rfl⟩
abbrev main_cst_136 : Ref sig .tc := ⟨.hbm, 706, rfl⟩
abbrev main_v501 : Ref sig .tc := ⟨.hbm, 707, rfl⟩
abbrev main_v502 : Ref sig .tc := ⟨.hbm, 708, rfl⟩
abbrev main_v503 : Ref sig .tc := ⟨.hbm, 709, rfl⟩
abbrev main_cst_137 : Ref sig .tc := ⟨.hbm, 710, rfl⟩
abbrev main_v504 : Ref sig .tc := ⟨.hbm, 711, rfl⟩
abbrev main_v505 : Ref sig .tc := ⟨.hbm, 712, rfl⟩
abbrev main_cst_138 : Ref sig .tc := ⟨.hbm, 713, rfl⟩
abbrev main_v506 : Ref sig .tc := ⟨.hbm, 714, rfl⟩
abbrev main_v507 : Ref sig .tc := ⟨.hbm, 715, rfl⟩
abbrev main_v508 : Ref sig .tc := ⟨.hbm, 716, rfl⟩
abbrev main_cst_139 : Ref sig .tc := ⟨.hbm, 717, rfl⟩
abbrev main_v509 : Ref sig .tc := ⟨.hbm, 718, rfl⟩
abbrev main_v510 : Ref sig .tc := ⟨.hbm, 719, rfl⟩
abbrev main_cst_140 : Ref sig .tc := ⟨.hbm, 720, rfl⟩
abbrev main_v511 : Ref sig .tc := ⟨.hbm, 721, rfl⟩
abbrev main_v512 : Ref sig .tc := ⟨.hbm, 722, rfl⟩
abbrev main_v513 : Ref sig .tc := ⟨.hbm, 723, rfl⟩
abbrev main_v514 : Ref sig .tc := ⟨.hbm, 724, rfl⟩
abbrev main_v515 : Ref sig .tc := ⟨.hbm, 725, rfl⟩
abbrev main_v516 : Ref sig .tc := ⟨.hbm, 726, rfl⟩
abbrev main_v517 : Ref sig .tc := ⟨.hbm, 727, rfl⟩
abbrev main_cst_141 : Ref sig .tc := ⟨.hbm, 728, rfl⟩
abbrev main_v518 : Ref sig .tc := ⟨.hbm, 729, rfl⟩
abbrev main_v519 : Ref sig .tc := ⟨.hbm, 730, rfl⟩
abbrev main_v520 : Ref sig .tc := ⟨.hbm, 731, rfl⟩
abbrev main_v521 : Ref sig .tc := ⟨.hbm, 732, rfl⟩
abbrev main_cst_142 : Ref sig .tc := ⟨.hbm, 733, rfl⟩
abbrev main_v522 : Ref sig .tc := ⟨.hbm, 734, rfl⟩
abbrev main_v523 : Ref sig .tc := ⟨.hbm, 735, rfl⟩
abbrev main_v524 : Ref sig .tc := ⟨.hbm, 736, rfl⟩
abbrev main_cst_143 : Ref sig .tc := ⟨.hbm, 737, rfl⟩
abbrev main_v525 : Ref sig .tc := ⟨.hbm, 738, rfl⟩
abbrev main_v526 : Ref sig .tc := ⟨.hbm, 739, rfl⟩
abbrev main_v527 : Ref sig .tc := ⟨.hbm, 740, rfl⟩
abbrev main_cst_144 : Ref sig .tc := ⟨.hbm, 741, rfl⟩
abbrev main_v528 : Ref sig .tc := ⟨.hbm, 742, rfl⟩
abbrev main_v529 : Ref sig .tc := ⟨.hbm, 743, rfl⟩
abbrev main_v530 : Ref sig .tc := ⟨.hbm, 744, rfl⟩
abbrev main_v531 : Ref sig .tc := ⟨.hbm, 745, rfl⟩
abbrev main_v532 : Ref sig .tc := ⟨.hbm, 746, rfl⟩
abbrev main_v533 : Ref sig .tc := ⟨.hbm, 747, rfl⟩
abbrev main_cst_145 : Ref sig .tc := ⟨.hbm, 748, rfl⟩
abbrev main_v534 : Ref sig .tc := ⟨.hbm, 749, rfl⟩
abbrev main_v535 : Ref sig .tc := ⟨.hbm, 750, rfl⟩
abbrev main_cst_146 : Ref sig .tc := ⟨.hbm, 751, rfl⟩
abbrev main_v536 : Ref sig .tc := ⟨.hbm, 752, rfl⟩
abbrev main_v537 : Ref sig .tc := ⟨.hbm, 753, rfl⟩
abbrev main_v538 : Ref sig .tc := ⟨.hbm, 754, rfl⟩
abbrev main_cst_147 : Ref sig .tc := ⟨.hbm, 755, rfl⟩
abbrev main_v539 : Ref sig .tc := ⟨.hbm, 756, rfl⟩
abbrev main_v540 : Ref sig .tc := ⟨.hbm, 757, rfl⟩
abbrev main_cst_148 : Ref sig .tc := ⟨.hbm, 758, rfl⟩
abbrev main_v541 : Ref sig .tc := ⟨.hbm, 759, rfl⟩
abbrev main_v542 : Ref sig .tc := ⟨.hbm, 760, rfl⟩
abbrev main_v543 : Ref sig .tc := ⟨.hbm, 761, rfl⟩
abbrev main_cst_149 : Ref sig .tc := ⟨.hbm, 762, rfl⟩
abbrev main_v544 : Ref sig .tc := ⟨.hbm, 763, rfl⟩
abbrev main_v545 : Ref sig .tc := ⟨.hbm, 764, rfl⟩
abbrev main_cst_150 : Ref sig .tc := ⟨.hbm, 765, rfl⟩
abbrev main_v546 : Ref sig .tc := ⟨.hbm, 766, rfl⟩
abbrev main_v547 : Ref sig .tc := ⟨.hbm, 767, rfl⟩
abbrev main_v548 : Ref sig .tc := ⟨.hbm, 768, rfl⟩
abbrev main_v549 : Ref sig .tc := ⟨.hbm, 769, rfl⟩
abbrev main_v550 : Ref sig .tc := ⟨.hbm, 770, rfl⟩
abbrev main_v551 : Ref sig .tc := ⟨.hbm, 771, rfl⟩
abbrev main_v552 : Ref sig .tc := ⟨.hbm, 772, rfl⟩
abbrev main_cst_151 : Ref sig .tc := ⟨.hbm, 773, rfl⟩
abbrev main_v553 : Ref sig .tc := ⟨.hbm, 774, rfl⟩
abbrev main_v554 : Ref sig .tc := ⟨.hbm, 775, rfl⟩
abbrev main_v555 : Ref sig .tc := ⟨.hbm, 776, rfl⟩
abbrev main_v556 : Ref sig .tc := ⟨.hbm, 777, rfl⟩
abbrev main_cst_152 : Ref sig .tc := ⟨.hbm, 778, rfl⟩
abbrev main_v557 : Ref sig .tc := ⟨.hbm, 779, rfl⟩
abbrev main_v558 : Ref sig .tc := ⟨.hbm, 780, rfl⟩
abbrev main_v559 : Ref sig .tc := ⟨.hbm, 781, rfl⟩
abbrev main_cst_153 : Ref sig .tc := ⟨.hbm, 782, rfl⟩
abbrev main_v560 : Ref sig .tc := ⟨.hbm, 783, rfl⟩
abbrev main_v561 : Ref sig .tc := ⟨.hbm, 784, rfl⟩
abbrev main_v562 : Ref sig .tc := ⟨.hbm, 785, rfl⟩
abbrev main_cst_154 : Ref sig .tc := ⟨.hbm, 786, rfl⟩
abbrev main_v563 : Ref sig .tc := ⟨.hbm, 787, rfl⟩
abbrev main_v564 : Ref sig .tc := ⟨.hbm, 788, rfl⟩
abbrev main_v565 : Ref sig .tc := ⟨.hbm, 789, rfl⟩
abbrev main_v566 : Ref sig .tc := ⟨.hbm, 790, rfl⟩
abbrev main_v567 : Ref sig .tc := ⟨.hbm, 791, rfl⟩
abbrev main_v568 : Ref sig .tc := ⟨.hbm, 792, rfl⟩
abbrev main_cst_155 : Ref sig .tc := ⟨.hbm, 793, rfl⟩
abbrev main_v569 : Ref sig .tc := ⟨.hbm, 794, rfl⟩
abbrev main_v570 : Ref sig .tc := ⟨.hbm, 795, rfl⟩
abbrev main_cst_156 : Ref sig .tc := ⟨.hbm, 796, rfl⟩
abbrev main_v571 : Ref sig .tc := ⟨.hbm, 797, rfl⟩
abbrev main_v572 : Ref sig .tc := ⟨.hbm, 798, rfl⟩
abbrev main_v573 : Ref sig .tc := ⟨.hbm, 799, rfl⟩
abbrev main_cst_157 : Ref sig .tc := ⟨.hbm, 800, rfl⟩
abbrev main_v574 : Ref sig .tc := ⟨.hbm, 801, rfl⟩
abbrev main_v575 : Ref sig .tc := ⟨.hbm, 802, rfl⟩
abbrev main_cst_158 : Ref sig .tc := ⟨.hbm, 803, rfl⟩
abbrev main_v576 : Ref sig .tc := ⟨.hbm, 804, rfl⟩
abbrev main_v577 : Ref sig .tc := ⟨.hbm, 805, rfl⟩
abbrev main_v578 : Ref sig .tc := ⟨.hbm, 806, rfl⟩
abbrev main_cst_159 : Ref sig .tc := ⟨.hbm, 807, rfl⟩
abbrev main_v579 : Ref sig .tc := ⟨.hbm, 808, rfl⟩
abbrev main_v580 : Ref sig .tc := ⟨.hbm, 809, rfl⟩
abbrev main_cst_160 : Ref sig .tc := ⟨.hbm, 810, rfl⟩
abbrev main_v581 : Ref sig .tc := ⟨.hbm, 811, rfl⟩
abbrev main_v582 : Ref sig .tc := ⟨.hbm, 812, rfl⟩
abbrev main_v583 : Ref sig .tc := ⟨.hbm, 813, rfl⟩
abbrev main_v584 : Ref sig .tc := ⟨.hbm, 814, rfl⟩
abbrev main_v585 : Ref sig .tc := ⟨.hbm, 815, rfl⟩
abbrev main_cst_161 : Ref sig .tc := ⟨.hbm, 816, rfl⟩
abbrev main_v586 : Ref sig .tc := ⟨.hbm, 817, rfl⟩
abbrev main_c_162 : Ref sig .tc := ⟨.hbm, 818, rfl⟩
abbrev main_v587 : Ref sig .tc := ⟨.hbm, 819, rfl⟩
abbrev main_v588 : Ref sig .tc := ⟨.hbm, 820, rfl⟩
abbrev main_c_163 : Ref sig .tc := ⟨.hbm, 821, rfl⟩
abbrev main_v589 : Ref sig .tc := ⟨.hbm, 822, rfl⟩
abbrev main_v590 : Ref sig .tc := ⟨.hbm, 823, rfl⟩
abbrev main_v591 : Ref sig .tc := ⟨.hbm, 824, rfl⟩
abbrev main_v592 : Ref sig .tc := ⟨.hbm, 825, rfl⟩
abbrev main_v593 : Ref sig .tc := ⟨.hbm, 826, rfl⟩
abbrev main_cst_164 : Ref sig .tc := ⟨.hbm, 827, rfl⟩
abbrev main_v594 : Ref sig .tc := ⟨.hbm, 828, rfl⟩
abbrev main_c_165 : Ref sig .tc := ⟨.hbm, 829, rfl⟩
abbrev main_v595 : Ref sig .tc := ⟨.hbm, 830, rfl⟩
abbrev main_v596 : Ref sig .tc := ⟨.hbm, 831, rfl⟩
abbrev main_c_166 : Ref sig .tc := ⟨.hbm, 832, rfl⟩
abbrev main_v597 : Ref sig .tc := ⟨.hbm, 833, rfl⟩
abbrev main_v598 : Ref sig .tc := ⟨.hbm, 834, rfl⟩
abbrev main_v599 : Ref sig .tc := ⟨.hbm, 835, rfl⟩
abbrev main_v600 : Ref sig .tc := ⟨.hbm, 836, rfl⟩
abbrev main_v601 : Ref sig .tc := ⟨.hbm, 837, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S16_S1x16_1 : S16.BroadcastsInDim S1x16 (![1] : Fin 1 → Fin S1x16.rank)
  bcast_S_S1x16 : S_.BroadcastsInDim S1x16 (![] : Fin 0 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  shapeCasts_S512x16_S8192 : S512x16.ShapeCasts S8192
  slices_S2048_S1024_0 : S2048.Slices ![0] S1024
  shapeCasts_S1024_S16x64 : S1024.ShapeCasts S16x64
  slices_S2048_S1024_1024 : S2048.Slices ![1024] S1024
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S1x8192x1024_1 : S8192.BroadcastsInDim S1x8192x1024 (![1] : Fin 1 → Fin S1x8192x1024.rank)
  bcast_S_S1x8192x1024 : S_.BroadcastsInDim S1x8192x1024 (![] : Fin 0 → Fin S1x8192x1024.rank)
  shapeCasts_S1x8192x1024_S1x512x16x16x64 : S1x8192x1024.ShapeCasts S1x512x16x16x64
  slices_S1x512x16x16x64_S1x512x1x16x64_0_0_0_0_0 : S1x512x16x16x64.Slices ![0, 0, 0, 0, 0] S1x512x1x16x64
  bcast_S16x64_S1x1x1x16x64_3_4 : S16x64.BroadcastsInDim S1x1x1x16x64 (![3, 4] : Fin 2 → Fin S1x1x1x16x64.rank)
  bcast_S1x1x1x16x64_S1x512x16x16x64_0_1_2_3_4 : S1x1x1x16x64.BroadcastsInDim S1x512x16x16x64 (![0, 1, 2, 3, 4] : Fin 5 → Fin S1x512x16x16x64.rank)
  reducesTo_S1x512x16x16x64_S1x512x16x16_d4 : S1x512x16x16x64.ReducesTo [4] S1x512x16x16
  bcast_S1x1x1x16x64_S1x512x1x16x64_0_1_2_3_4 : S1x1x1x16x64.BroadcastsInDim S1x512x1x16x64 (![0, 1, 2, 3, 4] : Fin 5 → Fin S1x512x1x16x64.rank)
  reducesTo_S1x512x1x16x64_S1x512x1x16_d4 : S1x512x1x16x64.ReducesTo [4] S1x512x1x16
  bcast_S1x512x1x16_S1x512x16x16_0_1_2_3 : S1x512x1x16.BroadcastsInDim S1x512x16x16 (![0, 1, 2, 3] : Fin 4 → Fin S1x512x16x16.rank)
  bcast_S_S1x512x16x16x64 : S_.BroadcastsInDim S1x512x16x16x64 (![] : Fin 0 → Fin S1x512x16x16x64.rank)
  bcast_S1x512x16x16_S1x512x16x16x1_0_1_2_3 : S1x512x16x16.BroadcastsInDim S1x512x16x16x1 (![0, 1, 2, 3] : Fin 4 → Fin S1x512x16x16x1.rank)
  bcast_S_S1x512x16x16x1 : S_.BroadcastsInDim S1x512x16x16x1 (![] : Fin 0 → Fin S1x512x16x16x1.rank)
  bcast_S1x512x16x16x1_S1x512x16x16x64_0_1_2_3_4 : S1x512x16x16x1.BroadcastsInDim S1x512x16x16x64 (![0, 1, 2, 3, 4] : Fin 5 → Fin S1x512x16x16x64.rank)
  bcast_S1x512x1x16x64_S1x512x16x16x64_0_1_2_3_4 : S1x512x1x16x64.BroadcastsInDim S1x512x16x16x64 (![0, 1, 2, 3, 4] : Fin 5 → Fin S1x512x16x16x64.rank)
  slices_S1x512x16x16x64_S1x512x1x16x64_0_0_1_0_0 : S1x512x16x16x64.Slices ![0, 0, 1, 0, 0] S1x512x1x16x64
  slices_S1x512x16x16x64_S1x512x1x16x64_0_0_2_0_0 : S1x512x16x16x64.Slices ![0, 0, 2, 0, 0] S1x512x1x16x64
  slices_S1x512x16x16x64_S1x512x1x16x64_0_0_3_0_0 : S1x512x16x16x64.Slices ![0, 0, 3, 0, 0] S1x512x1x16x64
  slices_S1x512x16x16x64_S1x512x1x16x64_0_0_4_0_0 : S1x512x16x16x64.Slices ![0, 0, 4, 0, 0] S1x512x1x16x64
  slices_S1x512x16x16x64_S1x512x1x16x64_0_0_5_0_0 : S1x512x16x16x64.Slices ![0, 0, 5, 0, 0] S1x512x1x16x64
  slices_S1x512x16x16x64_S1x512x1x16x64_0_0_6_0_0 : S1x512x16x16x64.Slices ![0, 0, 6, 0, 0] S1x512x1x16x64
  slices_S1x512x16x16x64_S1x512x1x16x64_0_0_7_0_0 : S1x512x16x16x64.Slices ![0, 0, 7, 0, 0] S1x512x1x16x64
  slices_S1x512x16x16x64_S1x512x1x16x64_0_0_8_0_0 : S1x512x16x16x64.Slices ![0, 0, 8, 0, 0] S1x512x1x16x64
  slices_S1x512x16x16x64_S1x512x1x16x64_0_0_9_0_0 : S1x512x16x16x64.Slices ![0, 0, 9, 0, 0] S1x512x1x16x64
  slices_S1x512x16x16x64_S1x512x1x16x64_0_0_10_0_0 : S1x512x16x16x64.Slices ![0, 0, 10, 0, 0] S1x512x1x16x64
  slices_S1x512x16x16x64_S1x512x1x16x64_0_0_11_0_0 : S1x512x16x16x64.Slices ![0, 0, 11, 0, 0] S1x512x1x16x64
  slices_S1x512x16x16x64_S1x512x1x16x64_0_0_12_0_0 : S1x512x16x16x64.Slices ![0, 0, 12, 0, 0] S1x512x1x16x64
  slices_S1x512x16x16x64_S1x512x1x16x64_0_0_13_0_0 : S1x512x16x16x64.Slices ![0, 0, 13, 0, 0] S1x512x1x16x64
  slices_S1x512x16x16x64_S1x512x1x16x64_0_0_14_0_0 : S1x512x16x16x64.Slices ![0, 0, 14, 0, 0] S1x512x1x16x64
  slices_S1x512x16x16x64_S1x512x1x16x64_0_0_15_0_0 : S1x512x16x16x64.Slices ![0, 0, 15, 0, 0] S1x512x1x16x64
  shapeCasts_S1x512x16x16x64_S1x8192x1024 : S1x512x16x16x64.ShapeCasts S1x8192x1024
  gather_S1x8192x1024_S8192x1_S1x8192x1024_02_1_n_n_1_1_111024_wf : GatherDims.WF S1x8192x1024 S8192x1 S1x8192x1024 [0, 2] [1] [] [1] [] 1 ![1, 1, 1024]
  scatter_S1x8192x1024_S8192x1_S1x8192x1024_02_1_1_1_wf : ScatterDims.WF S1x8192x1024 S8192x1 S1x8192x1024 [0, 2] [1] [1] 1

variable [Facts₀]

def gather_S1x8192x1024_S8192x1_S1x8192x1024_02_1_n_n_1_1_111024 : GatherDims S1x8192x1024 S8192x1 S1x8192x1024 where
  offsetDims := [0, 2]
  collapsedSliceDims := [1]
  operandBatchingDims := []
  startIndicesBatchingDims := []
  startIndexMap := [1]
  indexVectorDim := 1
  sliceSizes := ![1, 1, 1024]
  wf := gather_S1x8192x1024_S8192x1_S1x8192x1024_02_1_n_n_1_1_111024_wf
def scatter_S1x8192x1024_S8192x1_S1x8192x1024_02_1_1_1 : ScatterDims S1x8192x1024 S8192x1 S1x8192x1024 where
  updateWindowDims := [0, 2]
  insertedWindowDims := [1]
  scatterDimsToOperandDims := [1]
  indexVectorDim := 1
  wf := scatter_S1x8192x1024_S8192x1_S1x8192x1024_02_1_1_1_wf

class Facts : Prop extends Facts₀ where

variable [Facts]
-- ==== Proof.KRunB.lean ====
/-
  The kernel body as one triple over whole blocks: inputs at given contents, outputs at anything.
-/
import proofs.«130520_g23433341567538_cont_8to1_1409_4_alg».proof.Proof.Gen.Kernel.Launch
import proofs.«130520_g23433341567538_cont_8to1_1409_4_alg».proof.Proof.Gen.Kernel.Skeleton
import proofs.«130520_g23433341567538_cont_8to1_1409_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0 (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    Σ' (L3 : List (View.Piece (Elt F) S8192x128 .f32)), { L4 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__ncn_block i arg1 harg1 arg2 harg2 arg3 harg3 arg4 harg4 arg5 harg5) K } := by
  refine ⟨?_, ?_, fun E K => ?run⟩
  case run =>
    simp only [cc0__ncn_block_eq_skeleton]; unfold cc0__ncn_block_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Hand

end
-- ==== Proof.KFrameB.lean ====
/-
  The frame: @main is host operations around one region, and the body's triple is the launch theorem's obligation at
  every grid point.
-/
import proofs.«130520_g23433341567538_cont_8to1_1409_4_alg».proof.Proof.KRunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg (c : Dev nD) {r : Ref sig .tc} (hr : r = main_arg0 ∨ r = main_arg1 ∨ r = main_arg2) :
    V m c r = m ((c : Thread nD τ).loc r) := by
  rcases hr with rfl | rfl | rfl
  all_goals exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem tail_main_arg (dats : (p : Fin 1) → (c : Dev nD) → Dat τ (Elt F) Unit ℕ (UR sig nD τ) ℕ (cfgs p) c) (c : Dev nD)
    {r : Ref sig .tc} (hr : r = main_arg0 ∨ r = main_arg1 ∨ r = main_arg2) :
    Pipeline.afterTail₀ cfgs dats 0 (V0 m) [hostOps1] c r = m ((c : Thread nD τ).loc r) := by
  unfold Pipeline.afterTail₀
  have hV := V_main_arg m c hr
  rcases hr with rfl | rfl | rfl
  all_goals
    refine (StableHlo.after_of_forall_not_mem _ _ (List.forall_iff_forall_mem.mp ?_)).trans
      ((Pipeline.withArrays_of_ne _ c _ _ _ ?_).trans hV)
    · simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)
    · decide

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (tail_main_arg m dats c (.inl rfl)),
      ((h c).2 main_arg1 (Pipeline.mem_restRefs_of main_arg1 (by decide) (by decide))).trans (tail_main_arg m dats c (.inr (.inl rfl))),
      ((h c).2 main_arg2 (Pipeline.mem_restRefs_of main_arg2 (by decide) (by decide))).trans (tail_main_arg m dats c (.inr (.inr rfl)))⟩) h

abbrev VO0_3 : View sig .tc .vmem S8192x128 .f32 := (Memref.whole cc0_stg3_0 : Memref sig .tc .vmem S8192x128 .f32).view
abbrev VO0_4 : View sig .tc .vmem S8192x128 .f32 := (Memref.whole cc0_stg4_0 : Memref sig .tc .vmem S8192x128 .f32).view

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x4 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .f32 := win0_4.stage (cfg0.slots t 4)
abbrev hs0_4 (t : Fin cfg0.N) : (ms0_4 t).IsWhole := hstage0_4 ((cfg0.slots t 4).cast nbuf0_4)

theorem cover0_3 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) (y : S8192x128.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S8192x128.size (by sl_kernel_rfl) y

def out0_3 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) : Vec F S8192x128 .f32 :=
  VO0_3.read (Elt F) (VO0_3.writes (Elt F) VO0_3.junk (kernelRun0 c i arg1 harg1 arg2 harg2 arg3 harg3 arg4 harg4 arg5 harg5 x0 x1 x2).1)

theorem cover0_4 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) (y : S8192x128.Idx) :
    ∃ pc ∈ (kernelRun0 c i arg1 harg1 arg2 harg2 arg3 harg3 arg4 harg4 arg5 harg5 x0 x1 x2).2.1, y ∈ pc.1.set :=
  View.cover_of_tiledL (kernelRun0 c i arg1 harg1 arg2 harg2 arg3 harg3 arg4 harg4 arg5 harg5 x0 x1 x2).2.1 S8192x128.size (by sl_kernel_rfl) y

def out0_4 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) : Vec F S8192x128 .f32 :=
  VO0_4.read (Elt F) (VO0_4.writes (Elt F) VO0_4.junk (kernelRun0 c i arg1 harg1 arg2 harg2 arg3 harg3 arg4 harg4 arg5 harg5 x0 x1 x2).2.1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    | ⟨4, _⟩ => out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by dsimp only [dats]
theorem after0_4 (c : Dev nD) (t : Fin cfg0.N) : (dats m 0 c).after 4 t = out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold out0_3 out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_3 c _ _ _ _ _ _ _ _ _ _ _ _ _ _)
  unfold owns; iexists _; isplitr
  swap; · iexact H4
  ipureintro; exact View.read_writes_of_cover _ _ _ _ _ (cover0_4 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KRunI.lean ====
/-
  The kernel body as one triple over whole blocks: inputs at given contents, outputs at anything.
-/
import proofs.«130520_g23433341567538_cont_8to1_1409_4_alg».proof.Proof.Gen.KernelIdeal.Launch
import proofs.«130520_g23433341567538_cont_8to1_1409_4_alg».proof.Proof.Gen.KernelIdeal.Skeleton
import proofs.«130520_g23433341567538_cont_8to1_1409_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0 (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    Σ' (L3 : List (View.Piece (Elt F) S8192x128 .f32)), { L4 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__ncn_block i arg1 harg1 arg2 harg2 arg3 harg3 arg4 harg4 arg5 harg5) K } := by
  refine ⟨?_, ?_, fun E K => ?run⟩
  case run =>
    simp only [cc0__ncn_block_eq_skeleton]; unfold cc0__ncn_block_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Hand

end
-- ==== Proof.KFrameI.lean ====
/-
  The frame: @main is host operations around one region, and the body's triple is the launch theorem's obligation at
  every grid point.
-/
import proofs.«130520_g23433341567538_cont_8to1_1409_4_alg».proof.Proof.KRunI

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg (c : Dev nD) {r : Ref sig .tc} (hr : r = main_arg0 ∨ r = main_arg1 ∨ r = main_arg2) :
    V m c r = m ((c : Thread nD τ).loc r) := by
  rcases hr with rfl | rfl | rfl
  all_goals exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem tail_main_arg (dats : (p : Fin 1) → (c : Dev nD) → Dat τ (Elt F) Unit ℕ (UR sig nD τ) ℕ (cfgs p) c) (c : Dev nD)
    {r : Ref sig .tc} (hr : r = main_arg0 ∨ r = main_arg1 ∨ r = main_arg2) :
    Pipeline.afterTail₀ cfgs dats 0 (V0 m) [hostOps1] c r = m ((c : Thread nD τ).loc r) := by
  unfold Pipeline.afterTail₀
  have hV := V_main_arg m c hr
  rcases hr with rfl | rfl | rfl
  all_goals
    refine (StableHlo.after_of_forall_not_mem _ _ (List.forall_iff_forall_mem.mp ?_)).trans
      ((Pipeline.withArrays_of_ne _ c _ _ _ ?_).trans hV)
    · simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)
    · decide

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (tail_main_arg m dats c (.inl rfl)),
      ((h c).2 main_arg1 (Pipeline.mem_restRefs_of main_arg1 (by decide) (by decide))).trans (tail_main_arg m dats c (.inr (.inl rfl))),
      ((h c).2 main_arg2 (Pipeline.mem_restRefs_of main_arg2 (by decide) (by decide))).trans (tail_main_arg m dats c (.inr (.inr rfl)))⟩) h

abbrev VO0_3 : View sig .tc .vmem S8192x128 .f32 := (Memref.whole cc0_stg3_0 : Memref sig .tc .vmem S8192x128 .f32).view
abbrev VO0_4 : View sig .tc .vmem S8192x128 .f32 := (Memref.whole cc0_stg4_0 : Memref sig .tc .vmem S8192x128 .f32).view

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x4 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .f32 := win0_4.stage (cfg0.slots t 4)
abbrev hs0_4 (t : Fin cfg0.N) : (ms0_4 t).IsWhole := hstage0_4 ((cfg0.slots t 4).cast nbuf0_4)

theorem cover0_3 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) (y : S8192x128.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S8192x128.size (by sl_kernel_rfl) y

def out0_3 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) : Vec F S8192x128 .f32 :=
  VO0_3.read (Elt F) (VO0_3.writes (Elt F) VO0_3.junk (kernelRun0 c i arg1 harg1 arg2 harg2 arg3 harg3 arg4 harg4 arg5 harg5 x0 x1 x2).1)

theorem cover0_4 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) (y : S8192x128.Idx) :
    ∃ pc ∈ (kernelRun0 c i arg1 harg1 arg2 harg2 arg3 harg3 arg4 harg4 arg5 harg5 x0 x1 x2).2.1, y ∈ pc.1.set :=
  View.cover_of_tiledL (kernelRun0 c i arg1 harg1 arg2 harg2 arg3 harg3 arg4 harg4 arg5 harg5 x0 x1 x2).2.1 S8192x128.size (by sl_kernel_rfl) y

def out0_4 (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) : Vec F S8192x128 .f32 :=
  VO0_4.read (Elt F) (VO0_4.writes (Elt F) VO0_4.junk (kernelRun0 c i arg1 harg1 arg2 harg2 arg3 harg3 arg4 harg4 arg5 harg5 x0 x1 x2).2.1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    | ⟨4, _⟩ => out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by dsimp only [dats]
theorem after0_4 (c : Dev nD) (t : Fin cfg0.N) : (dats m 0 c).after 4 t = out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold out0_3 out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_3 c _ _ _ _ _ _ _ _ _ _ _ _ _ _)
  unfold owns; iexists _; isplitr
  swap; · iexact H4
  ipureintro; exact View.read_writes_of_cover _ _ _ _ _ (cover0_4 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KDefs.lean ====
/-
  One step of the kernel's recurrence on a block of 128 columns, the partner position a parameter.
-/
import proofs.«130520_g23433341567538_cont_8to1_1409_4_alg».proof.KernelIdeal

noncomputable section

namespace Cert.KernelIdeal.Hand

open Idealize.ShloMosaic Idealize.SL.Sem Cert.KernelIdeal
open Cert.KernelIdeal.Facts₀ Cert.KernelIdeal.Facts

variable {F : FTy → Type} [FloatOps F] [Cert.KernelIdeal.Facts]

/-- Position `s` of a group is inside the sixteen: the slices the steps take there are in range. -/
theorem slc4 {s : ℕ} (h : s < 16 := by decide) : S512x16x4.Slices ![0, s, 2] S512x1x2 :=
  ⟨rfl, fun a => by
    match a with
    | ⟨0, _⟩ => exact (by decide : 0 + 512 ≤ 512)
    | ⟨1, _⟩ => exact Nat.succ_le_of_lt h
    | ⟨2, _⟩ => exact (by decide : 2 + 2 ≤ 4)⟩

theorem slc {s : ℕ} (h : s < 16 := by decide) : S512x16x128.Slices ![0, s, 0] S512x1x128 :=
  ⟨rfl, fun a => by
    match a with
    | ⟨0, _⟩ => exact (by decide : 0 + 512 ≤ 512)
    | ⟨1, _⟩ => exact Nat.succ_le_of_lt h
    | ⟨2, _⟩ => exact (by decide : 0 + 128 ≤ 128)⟩

def ksim (s : ℕ) (hs4 : S512x16x4.Slices ![0, s, 2] S512x1x2) (z : FVec F S512x16x128 .f32) (wm : FVec F S128x4 .bf16) :
    FVec F S512x16x2 .f32 :=
  have r : FVec F S8192x128 .f32 := shapeCast S8192x128 z shapeCasts_S512x16x128_S8192x128
  have rb : FVec F S8192x128 .bf16 := truncf .bf16 r bitsLt_bf16_f32
  have acc : FVec F S8192x4 .f32 := constant S8192x4 .f32 0x00000000#32
  have p : FVec F S8192x4 .f32 := matmul dot_S8192x128_S128x4_S8192x4_1_0_0_1_n_n none rb wm acc
  have p3 : FVec F S512x16x4 .f32 := shapeCast S512x16x4 p shapeCasts_S8192x4_S512x16x4
  have pj : FVec F S512x1x2 .f32 := extractStridedSlice S512x1x2 ![0, s, 2] p3 hs4
  have pi : FVec F S512x16x2 .f32 := extractStridedSlice S512x16x2 ![0, 0, 0] p3 slices_S512x16x4_o0_0_0_S512x16x2
  have pjb : FVec F S512x16x2 .f32 := broadcastTo S512x16x2 pj broadcasts_S512x1x2_S512x16x2
  have sm : FVec F S512x16x2 .f32 := addf pi pjb
  have cH : F .f32 := Scalar.ofBits .f32 0x3F000000#32
  have cHb : FVec F S512x16x2 .f32 := broadcast S512x16x2 cH
  mulf cHb sm

def kpre (s : ℕ) (hs4 : S512x16x4.Slices ![0, s, 2] S512x1x2) (hs : S512x16x128.Slices ![0, s, 0] S512x1x128)
    (z : FVec F S512x16x128 .f32) (wm : FVec F S128x4 .bf16) (mask : IVec S512x16x128 1) : FVec F S512x16x128 .f32 :=
  have v144 : FVec F S512x16x2 .f32 := ksim s hs4 z wm
  have v145 : FVec F S512x16x1 .f32 := extractStridedSlice S512x16x1 ![0, 0, 0] v144 slices_S512x16x2_o0_0_0_S512x16x1
  have v146 : FVec F S512x16x1 .f32 := shapeCast S512x16x1 v145 shapeCasts_S512x16x1_S512x16x1
  have v147 : FVec F S512x16x128 .f32 := broadcastTo S512x16x128 v146 broadcasts_S512x16x1_S512x16x128
  have v148 : FVec F S512x16x1 .f32 := extractStridedSlice S512x16x1 ![0, 0, 1] v144 slices_S512x16x2_o0_0_1_S512x16x1
  have v149 : FVec F S512x16x1 .f32 := shapeCast S512x16x1 v148 shapeCasts_S512x16x1_S512x16x1
  have v150 : FVec F S512x16x128 .f32 := broadcastTo S512x16x128 v149 broadcasts_S512x16x1_S512x16x128
  have v151 : FVec F S512x16x128 .f32 := select mask v147 v150
  have v152 : FVec F S512x1x128 .f32 := extractStridedSlice S512x1x128 ![0, s, 0] z hs
  have cst_7 : F .f32 := Scalar.ofBits .f32 0x3F000000#32
  have v153 : FVec F S512x16x128 .f32 := broadcast S512x16x128 cst_7
  have v154 : FVec F S512x16x128 .f32 := mulf v153 z
  have v155 : FVec F S512x16x128 .f32 := broadcastTo S512x16x128 v152 broadcasts_S512x1x128_S512x16x128
  have v156 : FVec F S512x16x128 .f32 := mulf v151 v155
  addf v154 v156

def kstepA (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  have v157 : FVec F S512x16x128 .f32 := kpre s hs4 hs z wm mask
  have cst_8 : F .f32 := Scalar.ofBits .f32 0x3C23D70A#32
  have v158 : FVec F S512x16x128 .f32 := broadcast S512x16x128 cst_8
  have v159 : FVec F S512x16x128 .f32 := mulf v158 v157
  have v160 : FVec F S512x16x128 .f32 := maximumf v157 v159
  have cst_9 : F .f32 := Scalar.ofBits .f32 0x3F666666#32
  have v161 : FVec F S512x16x128 .f32 := broadcast S512x16x128 cst_9
  have v162 : FVec F S512x16x128 .f32 := mulf v161 za
  have cst_10 : F .f32 := Scalar.ofBits .f32 0x3DCCCCCD#32
  have v163 : FVec F S512x16x128 .f32 := broadcast S512x16x128 cst_10
  have v164 : FVec F S512x16x128 .f32 := mulf v163 v160
  addf v162 v164

def kstepZ (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  have v165 : FVec F S512x16x128 .f32 := kstepA s hs4 hs z za wm mask
  have cst_11 : F .f32 := Scalar.ofBits .f32 0x3F666666#32
  have v166 : FVec F S512x16x128 .f32 := broadcast S512x16x128 cst_11
  have v167 : FVec F S512x16x128 .f32 := mulf v166 z
  have cst_12 : F .f32 := Scalar.ofBits .f32 0x3DCCCCCD#32
  have v168 : FVec F S512x16x128 .f32 := broadcast S512x16x128 cst_12
  have v169 : FVec F S512x16x128 .f32 := mulf v168 v165
  addf v167 v169

def kmask : IVec S512x16x128 1 :=
  have v132 : IVec S512x16x128 32 := iota .tc S512x16x128 32 [2] iota_S512x16x128_d2_w32
  have c64_i32 : BitVec 32 := 64#32
  have v133 : IVec S512x16x128 32 := broadcast S512x16x128 c64_i32
  cmpi .slt v132 v133

end Cert.KernelIdeal.Hand

end
-- ==== Proof.Spec.lean ====
/-
  The common mathematics over plain index types: rows regrouped by a fixed permutation, sixteen steps that pair every
  position of a group with one partner position, rows put back.
-/
import Mathlib.Data.EReal.Basic
import Mathlib.Algebra.BigOperators.Fin

noncomputable section

namespace Cert.Spec

open scoped BigOperators

abbrev St : Type := Fin 512 → Fin 16 → Fin 1024 → EReal

abbrev Arr : Type := Fin 8192 → Fin 1024 → EReal

def col (h : Fin 16) (k : Fin 64) : Fin 1024 := ⟨64 * h.val + k.val, by omega⟩

def colI (h : Fin 16) (k : Fin 64) : Fin 2048 := ⟨64 * h.val + k.val, by omega⟩

def colJ (h : Fin 16) (k : Fin 64) : Fin 2048 := ⟨1024 + (64 * h.val + k.val), by omega⟩

def headOf (d : Fin 1024) : Fin 16 := ⟨d.val / 64, by omega⟩

def srcGroup (g : Fin 512) (j : Fin 16) : Fin 512 := ⟨(g.val + 2 * j.val) % 512, Nat.mod_lt _ (by norm_num)⟩

def dstGroup (g' : Fin 512) (j : Fin 16) : Fin 512 := ⟨(g'.val + 512 - 2 * j.val) % 512, Nat.mod_lt _ (by norm_num)⟩

def row (g : Fin 512) (j : Fin 16) : Fin 8192 := ⟨16 * g.val + j.val, by omega⟩

def rowGroup (r : Fin 8192) : Fin 512 := ⟨r.val / 16, by omega⟩
def rowPos (r : Fin 8192) : Fin 16 := ⟨r.val % 16, Nat.mod_lt _ (by norm_num)⟩

def gather (X : Arr) : St := fun g j d => X (row (srcGroup g j) j) d

def sim (w : Fin 2048 → EReal) (s : Fin 16) (Z : St) (g : Fin 512) (j : Fin 16) (h : Fin 16) : EReal :=
  (∑ k : Fin 64, Z g j (col h k) * w (colI h k)) + (∑ k : Fin 64, Z g s (col h k) * w (colJ h k))

def pre (cH : EReal) (w : Fin 2048 → EReal) (s : Fin 16) (Z : St) : St := fun g j d =>
  cH * Z g j d + (cH * sim w s Z g j (headOf d)) * Z g s d

def leaky (cL : EReal) (t : EReal) : EReal := if 0 ≤ t then t else cL * t

def stepA (cH cL cM cR : EReal) (w : Fin 2048 → EReal) (s : Fin 16) (Z ZA : St) : St := fun g j d =>
  cM * ZA g j d + cR * leaky cL (pre cH w s Z g j d)
def stepZ (cH cL cM cR : EReal) (w : Fin 2048 → EReal) (s : Fin 16) (Z ZA : St) : St := fun g j d =>
  cM * Z g j d + cR * stepA cH cL cM cR w s Z ZA g j d

def iter (cH cL cM cR : EReal) (w : Fin 2048 → EReal) (X XA : Arr) : ℕ → St × St
  | 0 => (gather X, gather XA)
  | n + 1 =>
    let p := iter cH cL cM cR w X XA n
    (stepZ cH cL cM cR w ⟨n % 16, Nat.mod_lt _ (by norm_num)⟩ p.1 p.2,
     stepA cH cL cM cR w ⟨n % 16, Nat.mod_lt _ (by norm_num)⟩ p.1 p.2)

theorem iter_succ (cH cL cM cR : EReal) (w : Fin 2048 → EReal) (X XA : Arr) (n : ℕ) :
    iter cH cL cM cR w X XA (n + 1)
      = (stepZ cH cL cM cR w ⟨n % 16, Nat.mod_lt _ (by norm_num)⟩ (iter cH cL cM cR w X XA n).1 (iter cH cL cM cR w X XA n).2,
         stepA cH cL cM cR w ⟨n % 16, Nat.mod_lt _ (by norm_num)⟩ (iter cH cL cM cR w X XA n).1 (iter cH cL cM cR w X XA n).2) := rfl

def scatter (Z : St) : Arr := fun r d => Z (dstGroup (rowGroup r) (rowPos r)) (rowPos r) d

def outI (cH cL cM cR : EReal) (w : Fin 2048 → EReal) (X XA : Arr) : Arr := scatter (iter cH cL cM cR w X XA 16).1
def outA (cH cL cM cR : EReal) (w : Fin 2048 → EReal) (X XA : Arr) : Arr := scatter (iter cH cL cM cR w X XA 16).2

theorem srcGroup_dstGroup (g' : Fin 512) (j : Fin 16) : srcGroup (dstGroup g' j) j = g' := by
  apply Fin.ext
  simp only [srcGroup, dstGroup]
  have := g'.isLt; have := j.isLt
  omega

theorem row_rowGroup_rowPos (r : Fin 8192) : row (rowGroup r) (rowPos r) = r := by
  apply Fin.ext
  simp only [row, rowGroup, rowPos]
  omega

end Cert.Spec

end
-- ==== Proof.Consts.lean ====
/-
  The recurrence's four constants as the extended reals their patterns denote.
-/
import Idealize.ShloMosaic.PureOps.Ideal
import proofs.«130520_g23433341567538_cont_8to1_1409_4_alg».proof.Proof.Spec

noncomputable section

namespace Cert.Consts

open Idealize.ShloMosaic

def cH : EReal := Ideal.ofBits .f32 0x3F000000#32
def cL : EReal := Ideal.ofBits .f32 0x3C23D70A#32
def cM : EReal := Ideal.ofBits .f32 0x3F666666#32
def cR : EReal := Ideal.ofBits .f32 0x3DCCCCCD#32

abbrev iter (w : Fin 2048 → EReal) (X XA : Cert.Spec.Arr) (n : ℕ) : Cert.Spec.St × Cert.Spec.St :=
  Cert.Spec.iter cH cL cM cR w X XA n
abbrev stepA (w : Fin 2048 → EReal) (s : Fin 16) (Z ZA : Cert.Spec.St) : Cert.Spec.St := Cert.Spec.stepA cH cL cM cR w s Z ZA
abbrev stepZ (w : Fin 2048 → EReal) (s : Fin 16) (Z ZA : Cert.Spec.St) : Cert.Spec.St := Cert.Spec.stepZ cH cL cM cR w s Z ZA
abbrev outI (w : Fin 2048 → EReal) (X XA : Cert.Spec.Arr) : Cert.Spec.Arr := Cert.Spec.outI cH cL cM cR w X XA
abbrev outA (w : Fin 2048 → EReal) (X XA : Cert.Spec.Arr) : Cert.Spec.Arr := Cert.Spec.outA cH cL cM cR w X XA

end Cert.Consts

end
-- ==== Proof.KIface.lean ====
/-
  A block holds columns 128 t … 128 t + 127 (two heads): when a regrouped block is the restriction of a regrouped array,
  and what the block's four weight columns are.
-/
import proofs.«130520_g23433341567538_cont_8to1_1409_4_alg».proof.Proof.KDefs
import proofs.«130520_g23433341567538_cont_8to1_1409_4_alg».proof.Proof.Consts
import Idealize.ShloMosaic.Lib.ValueIdx

noncomputable section

namespace Cert.KernelIdeal.Hand

open Idealize.ShloMosaic Idealize.ShloMosaic.ValueIdx Cert.KernelIdeal

def bcol (t : Fin 8) (l : Fin 128) : Fin 1024 := ⟨128 * t.val + l.val, by omega⟩

def wcolI (t : Fin 8) (l : Fin 128) : Fin 2048 := ⟨128 * t.val + l.val, by omega⟩
def wcolJ (t : Fin 8) (l : Fin 128) : Fin 2048 := ⟨1024 + (128 * t.val + l.val), by omega⟩

def Agrees (t : Fin 8) (z : FVec Ideal S512x16x128 .f32) (Z : Cert.Spec.St) : Prop :=
  ∀ (g : Fin 512) (j : Fin 16) (l : Fin 128), z (ix3 g j l) = Z g j (bcol t l)

def AgreesRows (t : Fin 8) (x : FVec Ideal S8192x128 .f32) (X : Cert.Spec.Arr) : Prop :=
  ∀ (r : Fin 8192) (l : Fin 128), x (ix2 r l) = X r (bcol t l)

structure BlockW (t : Fin 8) (w : Fin 2048 → EReal) (wm : FVec Ideal S128x4 .bf16) : Prop where
  c0 : ∀ l : Fin 128, wm (ix2 l (0 : Fin 4)) = if l.val < 64 then w (wcolI t l) else 0
  c1 : ∀ l : Fin 128, wm (ix2 l (1 : Fin 4)) = if l.val < 64 then 0 else w (wcolI t l)
  c2 : ∀ l : Fin 128, wm (ix2 l (2 : Fin 4)) = if l.val < 64 then w (wcolJ t l) else 0
  c3 : ∀ l : Fin 128, wm (ix2 l (3 : Fin 4)) = if l.val < 64 then 0 else w (wcolJ t l)

end Cert.KernelIdeal.Hand

end
-- ==== Proof.Out.lean ====
/-
  The specification's two results read through the indices of arrays [1, 8192, 1024].
-/
import proofs.«130520_g23433341567538_cont_8to1_1409_4_alg».proof.Proof.Consts
import Idealize.ShloMosaic.Lib.ValueIdx

noncomputable section

namespace Cert.Out

open Idealize.ShloMosaic Idealize.ShloMosaic.ValueIdx

abbrev S3 : Shape := ⟨3, ![1, 8192, 1024]⟩
abbrev S1w : Shape := ⟨1, ![2048]⟩

def arr (x : FVec Ideal S3 .f32) : Cert.Spec.Arr := fun r d => x (ix3 (0 : Fin 1) r d)

def wvec (a2 : FVec Ideal S1w .f32) : Fin 2048 → EReal := fun i => a2 (ix1 i)

def unarr (Y : Cert.Spec.Arr) : FVec Ideal S3 .f32 := fun i => Y (i 1) (i 2)

theorem eq_unarr (y : FVec Ideal S3 .f32) (Y : Cert.Spec.Arr) (h : ∀ r d, y (ix3 (0 : Fin 1) r d) = Y r d) : y = unarr Y := by
  funext i
  have hi : i = ix3 (i 0) (i 1) (i 2) := eq_ix3 i
  have h0 : i 0 = (0 : Fin 1) := by
    apply Fin.ext
    have hlt := (i 0).isLt
    change (i 0).val < 1 at hlt
    show (i 0).val = 0
    omega
  rw [hi, h0]
  exact h (i 1) (i 2)

def outI (a0 a1 : FVec Ideal S3 .f32) (a2 : FVec Ideal S1w .f32) : FVec Ideal S3 .f32 :=
  unarr (Cert.Consts.outI (wvec a2) (arr a0) (arr a1))
def outA (a0 a1 : FVec Ideal S3 .f32) (a2 : FVec Ideal S1w .f32) : FVec Ideal S3 .f32 :=
  unarr (Cert.Consts.outA (wvec a2) (arr a0) (arr a1))

end Cert.Out

end
-- ==== Proof.KHost.lean ====
/-
  The three input arrays as the region finds them: the two row arrays reshaped, and slab t of the weight array holding
  block t's four masked weight columns.
-/
import proofs.«130520_g23433341567538_cont_8to1_1409_4_alg».proof.Proof.KFrameI
import proofs.«130520_g23433341567538_cont_8to1_1409_4_alg».proof.Proof.KIface
import proofs.«130520_g23433341567538_cont_8to1_1409_4_alg».proof.Proof.Out
import Idealize.ShloMosaic.Lib.Pipeline.Value
import Idealize.ShloMosaic.Lib.ValueLayout
import Idealize.ShloMosaic.Lib.StableHlo.Predicate
import Idealize.ShloMosaic.PureOps.IdealRules

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

section Generic

variable {F : FTy → Type} [FloatOps F]
variable (m : (ℓ : Loc nD τ sig) → Buf (Elt F) ℓ)

def hostW (a2 : FVec F S2048 .f32) : FVec F S8x128x4 .bf16 :=
  have wi : FVec F S8x128 .f32 := shapeCast S8x128 (extractStridedSlice S1024 ![0] a2 slices_S2048_S1024_0) shapeCasts_S1024_S8x128
  have wj : FVec F S8x128 .f32 := shapeCast S8x128 (extractStridedSlice S1024 ![1024] a2 slices_S2048_S1024_1024) shapeCasts_S1024_S8x128
  have lo : FVec F S128 .f32 := uitofp .f32 (cmpi .slt (iotaInDim S128 32 0) (broadcastInDim S128 ![] bcast_S_S128 (constantI S_ 32 64#32)))
  have hi : FVec F S128 .f32 := subf (broadcastInDim S128 ![] bcast_S_S128 (constant S_ .f32 0x3F800000#32)) lo
  have lob : FVec F S8x128 .f32 := broadcastInDim S8x128 ![0, 1] bcast_S1x128_S8x128_0_1 (broadcastInDim S1x128 ![1] bcast_S128_S1x128_1 lo)
  have hib : FVec F S8x128 .f32 := broadcastInDim S8x128 ![0, 1] bcast_S1x128_S8x128_0_1 (broadcastInDim S1x128 ![1] bcast_S128_S1x128_1 hi)
  truncf .bf16 (concatenate S8x128x4 2
    [⟨S8x128x1, broadcastInDim S8x128x1 ![0, 1] bcast_S8x128_S8x128x1_0_1 (mulf wi lob)⟩,
     ⟨S8x128x1, broadcastInDim S8x128x1 ![0, 1] bcast_S8x128_S8x128x1_0_1 (mulf wi hib)⟩,
     ⟨S8x128x1, broadcastInDim S8x128x1 ![0, 1] bcast_S8x128_S8x128x1_0_1 (mulf wj lob)⟩,
     ⟨S8x128x1, broadcastInDim S8x128x1 ![0, 1] bcast_S8x128_S8x128x1_0_1 (mulf wj hib)⟩]
    concatenates_S8x128x1_S8x128x1_S8x128x1_S8x128x1_S8x128x4_d2) bitsLt_bf16_f32

theorem V_main_v0 (c : Dev nD) : V m c main_v0
    = shapeCast S8192x1024 (m ((c : Thread nD τ).loc main_arg0)) shapeCasts_S1x8192x1024_S8192x1024 := by
  show StableHlo.after hostOps0 (fun b => m (c, b)) (Proc.devRef .tc main_v0) = _
  after_results
  rfl

theorem V_main_v1 (c : Dev nD) : V m c main_v1
    = shapeCast S8192x1024 (m ((c : Thread nD τ).loc main_arg1)) shapeCasts_S1x8192x1024_S8192x1024 := by
  show StableHlo.after hostOps0 (fun b => m (c, b)) (Proc.devRef .tc main_v1) = _
  after_results
  rfl

theorem V_main_v29 (c : Dev nD) : V m c main_v29 = hostW (m ((c : Thread nD τ).loc main_arg2)) := by
  show StableHlo.after hostOps0 (fun b => m (c, b)) (Proc.devRef .tc main_v29) = _
  after_results
  rfl

end Generic

section AtIdeal

open Idealize.ShloMosaic.StableHlo

variable (m : (ℓ : Loc nD τ sig) → Buf (Elt Ideal) ℓ)

theorem lane_lt (l : Fin 128) : IntOp.cmpi .slt (BitVec.ofNat 32 l.val) 64#32 = if l.val < 64 then 1#1 else 0#1 :=
  (by decide +kernel : ∀ l : Fin 128, IntOp.cmpi .slt (BitVec.ofNat 32 l.val) 64#32 = if l.val < 64 then 1#1 else 0#1) l

theorem maskLo_apply (l : Fin 128) :
    (uitofp .f32 (cmpi .slt (iotaInDim S128 32 0) (broadcastInDim S128 ![] bcast_S_S128 (constantI S_ 32 64#32))) : FVec Ideal S128 .f32) (ix1 l)
      = if l.val < 64 then 1 else 0 := by
  show ((((IntOp.cmpi .slt (BitVec.ofNat 32 l.val) 64#32).toNat : ℝ)) : EReal) = _
  rw [lane_lt]
  by_cases h : l.val < 64
  · rw [if_pos h, if_pos h]; simp
  · rw [if_neg h, if_neg h]; simp

theorem maskHi_apply (l : Fin 128) :
    (subf (broadcastInDim S128 ![] bcast_S_S128 (constant (F := Ideal) S_ .f32 0x3F800000#32))
      (uitofp .f32 (cmpi .slt (iotaInDim S128 32 0) (broadcastInDim S128 ![] bcast_S_S128 (constantI S_ 32 64#32)))) : FVec Ideal S128 .f32) (ix1 l)
      = if l.val < 64 then 0 else 1 := by
  refine (subf_apply _ _ _).trans ?_
  rw [maskLo_apply]
  show Ideal.ofBits .f32 0x3F800000#32 - _ = _
  rw [show Ideal.ofBits .f32 0x3F800000#32 = 1 from IdealRules.sign_bit.ideal_onePat .f32]
  by_cases h : l.val < 64
  · rw [if_pos h, if_pos h]
    show ((1 : ℝ) : EReal) - ((1 : ℝ) : EReal) = 0
    rw [← EReal.coe_sub, sub_self]; rfl
  · rw [if_neg h, if_neg h, sub_zero]

theorem lanes_apply {α : Type} (v : S128.Idx → α) (t : Fin 8) (l : Fin 128) :
    broadcastInDim S8x128 ![0, 1] bcast_S1x128_S8x128_0_1 (broadcastInDim S1x128 ![1] bcast_S128_S1x128_1 v) (ix2 t l) = v (ix1 l) := by
  refine (broadcastInDim_apply _ _ _ (ix2 t l) (ix2 (0 : Fin 1) l) fun a => ?_).trans ?_
  · match a with
    | ⟨0, _⟩ => rfl
    | ⟨1, _⟩ => rfl
  · exact broadcastInDim_apply _ _ _ (ix2 (0 : Fin 1) l) (ix1 l) fun a => by
      match a with
      | ⟨0, _⟩ => rfl

theorem wrow_apply {α : Type} (o : Nat) (a2 : S2048.Idx → α) (h : S2048.Slices ![o] S1024) (t : Fin 8) (l : Fin 128)
    (k : Fin 2048) (hk : k.val = o + (128 * t.val + l.val)) :
    shapeCast S8x128 (extractStridedSlice S1024 ![o] a2 h) shapeCasts_S1024_S8x128 (ix2 t l) = a2 (ix1 k) := by
  have hlt : 128 * t.val + l.val < 1024 := by have := t.isLt; have := l.isLt; omega
  refine (shapeCast_apply _ _ (ix2 t l) (ix1 (⟨128 * t.val + l.val, hlt⟩ : Fin 1024)) ?_).trans ?_
  · rw [Shape.rowMajor_val_one, Shape.rowMajor_val_two]
    show 128 * t.val + l.val = t.val * 128 + l.val
    omega
  · exact extractStridedSlice_apply _ _ _ _ (ix1 k) fun a => by
      match a with
      | ⟨0, _⟩ => exact hk

theorem unit_apply {α : Type} (y : S8x128.Idx → α) (t : Fin 8) (l : Fin 128) :
    broadcastInDim S8x128x1 ![0, 1] bcast_S8x128_S8x128x1_0_1 y (ix3 t l (0 : Fin 1)) = y (ix2 t l) :=
  broadcastInDim_apply _ _ _ (ix3 t l (0 : Fin 1)) (ix2 t l) fun a => by
    match a with
    | ⟨0, _⟩ => rfl
    | ⟨1, _⟩ => rfl

theorem cat4_apply {α : Type} (x0 x1 x2 x3 : S8x128x1.Idx → α) (t : Fin 8) (l : Fin 128) :
    concatenate S8x128x4 2 [⟨S8x128x1, x0⟩, ⟨S8x128x1, x1⟩, ⟨S8x128x1, x2⟩, ⟨S8x128x1, x3⟩]
        concatenates_S8x128x1_S8x128x1_S8x128x1_S8x128x1_S8x128x4_d2 (ix3 t l (0 : Fin 4)) = x0 (ix3 t l (0 : Fin 1))
    ∧ concatenate S8x128x4 2 [⟨S8x128x1, x0⟩, ⟨S8x128x1, x1⟩, ⟨S8x128x1, x2⟩, ⟨S8x128x1, x3⟩]
        concatenates_S8x128x1_S8x128x1_S8x128x1_S8x128x1_S8x128x4_d2 (ix3 t l (1 : Fin 4)) = x1 (ix3 t l (0 : Fin 1))
    ∧ concatenate S8x128x4 2 [⟨S8x128x1, x0⟩, ⟨S8x128x1, x1⟩, ⟨S8x128x1, x2⟩, ⟨S8x128x1, x3⟩]
        concatenates_S8x128x1_S8x128x1_S8x128x1_S8x128x1_S8x128x4_d2 (ix3 t l (2 : Fin 4)) = x2 (ix3 t l (0 : Fin 1))
    ∧ concatenate S8x128x4 2 [⟨S8x128x1, x0⟩, ⟨S8x128x1, x1⟩, ⟨S8x128x1, x2⟩, ⟨S8x128x1, x3⟩]
        concatenates_S8x128x1_S8x128x1_S8x128x1_S8x128x1_S8x128x4_d2 (ix3 t l (3 : Fin 4)) = x3 (ix3 t l (0 : Fin 1)) := by
  have hoff : ∀ b : Fin 3, ∀ (k : Fin 4), b.cast (rfl : S8x128x1.rank = S8x128x4.rank) ≠ (2 : Fin 3) →
      ((ix3 t l (0 : Fin 1) : S8x128x1.Idx) b).val = ((ix3 t l k : S8x128x4.Idx) (b.cast (rfl : S8x128x1.rank = S8x128x4.rank))).val := fun b k hb => by
    match b with
    | ⟨0, _⟩ => rfl
    | ⟨1, _⟩ => rfl
    | ⟨2, _⟩ => exact absurd rfl hb
  refine ⟨?_, ?_, ?_, ?_⟩
  · exact concatenate_apply_piece (t := S8x128x4) (2 : Fin 3) [⟨S8x128x1, x0⟩, ⟨S8x128x1, x1⟩, ⟨S8x128x1, x2⟩, ⟨S8x128x1, x3⟩]
      concatenates_S8x128x1_S8x128x1_S8x128x1_S8x128x1_S8x128x4_d2 (ix3 t l (0 : Fin 4)) 0 (by show (0 : ℕ) < 4; decide) S8x128x1 x0 rfl rfl 0 rfl
      (ix3 t l (0 : Fin 1)) (fun b hb => hoff b 0 hb) rfl
  · exact concatenate_apply_piece (t := S8x128x4) (2 : Fin 3) [⟨S8x128x1, x0⟩, ⟨S8x128x1, x1⟩, ⟨S8x128x1, x2⟩, ⟨S8x128x1, x3⟩]
      concatenates_S8x128x1_S8x128x1_S8x128x1_S8x128x1_S8x128x4_d2 (ix3 t l (1 : Fin 4)) 1 (by show (1 : ℕ) < 4; decide) S8x128x1 x1 rfl rfl 1 rfl
      (ix3 t l (0 : Fin 1)) (fun b hb => hoff b 1 hb) rfl
  · exact concatenate_apply_piece (t := S8x128x4) (2 : Fin 3) [⟨S8x128x1, x0⟩, ⟨S8x128x1, x1⟩, ⟨S8x128x1, x2⟩, ⟨S8x128x1, x3⟩]
      concatenates_S8x128x1_S8x128x1_S8x128x1_S8x128x1_S8x128x4_d2 (ix3 t l (2 : Fin 4)) 2 (by show (2 : ℕ) < 4; decide) S8x128x1 x2 rfl rfl 2 rfl
      (ix3 t l (0 : Fin 1)) (fun b hb => hoff b 2 hb) rfl
  · exact concatenate_apply_piece (t := S8x128x4) (2 : Fin 3) [⟨S8x128x1, x0⟩, ⟨S8x128x1, x1⟩, ⟨S8x128x1, x2⟩, ⟨S8x128x1, x3⟩]
      concatenates_S8x128x1_S8x128x1_S8x128x1_S8x128x1_S8x128x4_d2 (ix3 t l (3 : Fin 4)) 3 (by show (3 : ℕ) < 4; decide) S8x128x1 x3 rfl rfl 3 rfl
      (ix3 t l (0 : Fin 1)) (fun b hb => hoff b 3 hb) rfl

end AtIdeal

section AtIdeal2

variable (m : (ℓ : Loc nD τ sig) → Buf (Elt Ideal) ℓ)

theorem hostW_apply (a2 : FVec Ideal S2048 .f32) (t : Fin 8) (l : Fin 128) :
    hostW a2 (ix3 t l (0 : Fin 4)) = (if l.val < 64 then a2 (ix1 (wcolI t l)) else 0)
    ∧ hostW a2 (ix3 t l (1 : Fin 4)) = (if l.val < 64 then 0 else a2 (ix1 (wcolI t l)))
    ∧ hostW a2 (ix3 t l (2 : Fin 4)) = (if l.val < 64 then a2 (ix1 (wcolJ t l)) else 0)
    ∧ hostW a2 (ix3 t l (3 : Fin 4)) = (if l.val < 64 then 0 else a2 (ix1 (wcolJ t l))) := by
  have hI := wrow_apply 0 a2 slices_S2048_S1024_0 t l (wcolI t l) (by show 128 * t.val + l.val = 0 + (128 * t.val + l.val); omega)
  have hJ := wrow_apply 1024 a2 slices_S2048_S1024_1024 t l (wcolJ t l) rfl
  refine ⟨?_, ?_, ?_, ?_⟩
  · unfold hostW
    refine (truncf_apply (φ := .f32) (ψ := .bf16) _ bitsLt_bf16_f32 _).trans ?_
    refine Eq.trans (cat4_apply _ _ _ _ t l).1 ?_
    refine (unit_apply _ t l).trans ?_
    refine (mulf_apply _ _ _).trans ?_
    rw [hI, lanes_apply, maskLo_apply, mul_ite, mul_one, mul_zero]
  · unfold hostW
    refine (truncf_apply (φ := .f32) (ψ := .bf16) _ bitsLt_bf16_f32 _).trans ?_
    refine Eq.trans (cat4_apply _ _ _ _ t l).2.1 ?_
    refine (unit_apply _ t l).trans ?_
    refine (mulf_apply _ _ _).trans ?_
    rw [hI, lanes_apply, maskHi_apply, mul_ite, mul_one, mul_zero]
  · unfold hostW
    refine (truncf_apply (φ := .f32) (ψ := .bf16) _ bitsLt_bf16_f32 _).trans ?_
    refine Eq.trans (cat4_apply _ _ _ _ t l).2.2.1 ?_
    refine (unit_apply _ t l).trans ?_
    refine (mulf_apply _ _ _).trans ?_
    rw [hJ, lanes_apply, maskLo_apply, mul_ite, mul_one, mul_zero]
  · unfold hostW
    refine (truncf_apply (φ := .f32) (ψ := .bf16) _ bitsLt_bf16_f32 _).trans ?_
    refine Eq.trans (cat4_apply _ _ _ _ t l).2.2.2 ?_
    refine (unit_apply _ t l).trans ?_
    refine (mulf_apply _ _ _).trans ?_
    rw [hJ, lanes_apply, maskHi_apply, mul_ite, mul_one, mul_zero]

def blkOf (t : Fin cfg0.N) : Fin 8 := ⟨t.val, by have h : t.val < grid0.N := t.isLt; rw [N_0] at h; exact h⟩

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

abbrev xblk0 (c : Dev nD) (t : Fin cfg0.N) : Vec Ideal S8192x128 .f32 := iblk m c 0 t
abbrev xblk1 (c : Dev nD) (t : Fin cfg0.N) : Vec Ideal S8192x128 .f32 := iblk m c 1 t
abbrev wblk (c : Dev nD) (t : Fin cfg0.N) : Vec Ideal S1x128x4 .bf16 := iblk m c 2 t

theorem iblk0_apply (c : Dev nD) (t : Fin cfg0.N) (r : Fin 8192) (l : Fin 128) :
    xblk0 m c t (ix2 r l)
      = (V m c main_v0 : S8192x1024.Idx → Elt Ideal .f32) (ix2 r (bcol (blkOf t) l)) := by
  obtain ⟨h0, h1, -⟩ := idx_facts t
  unfold xblk0 iblk
  rw [View.read_apply]
  show V m c main_v0 _ = V m c main_v0 _
  congr 1
  funext a
  apply Fin.ext
  match a with
  | ⟨0, _⟩ => show win0_0.index t 0 * 8192 + 1 * r.val = r.val; rw [h0]; omega
  | ⟨1, _⟩ => show win0_0.index t 1 * 128 + 1 * l.val = 128 * t.val + l.val; rw [h1]; omega

theorem iblk1_apply (c : Dev nD) (t : Fin cfg0.N) (r : Fin 8192) (l : Fin 128) :
    xblk1 m c t (ix2 r l)
      = (V m c main_v1 : S8192x1024.Idx → Elt Ideal .f32) (ix2 r (bcol (blkOf t) l)) := by
  obtain ⟨-, -, h0, h1, -⟩ := idx_facts t
  unfold xblk1 iblk
  rw [View.read_apply]
  show V m c main_v1 _ = V m c main_v1 _
  congr 1
  funext a
  apply Fin.ext
  match a with
  | ⟨0, _⟩ => show win0_1.index t 0 * 8192 + 1 * r.val = r.val; rw [h0]; omega
  | ⟨1, _⟩ => show win0_1.index t 1 * 128 + 1 * l.val = 128 * t.val + l.val; rw [h1]; omega

theorem iblk2_apply (c : Dev nD) (t : Fin cfg0.N) (l : Fin 128) (k : Fin 4) :
    wblk m c t (ix3 (0 : Fin 1) l k)
      = (V m c main_v29 : S8x128x4.Idx → Elt Ideal .bf16) (ix3 (blkOf t) l k) := by
  obtain ⟨-, -, -, -, h0, h1, h2, -⟩ := idx_facts t
  unfold wblk iblk
  rw [View.read_apply]
  show V m c main_v29 _ = V m c main_v29 _
  congr 1
  funext a
  apply Fin.ext
  match a with
  | ⟨0, _⟩ => show win0_2.index t 0 * 1 + 1 * 0 = t.val; rw [h0]; omega
  | ⟨1, _⟩ => show win0_2.index t 1 * 128 + 1 * l.val = l.val; rw [h1]; omega
  | ⟨2, _⟩ => show win0_2.index t 2 * 4 + 1 * k.val = k.val; rw [h2]; omega

theorem rows0 (c : Dev nD) (t : Fin cfg0.N) :
    AgreesRows (blkOf t) (xblk0 m c t) (Cert.Out.arr (m ((c : Thread nD τ).loc main_arg0))) := by
  intro r l
  refine (iblk0_apply m c t r l).trans ?_
  rw [V_main_v0]
  exact shapeCast_1ab_ab_apply _ _ r (bcol (blkOf t) l)

theorem rows1 (c : Dev nD) (t : Fin cfg0.N) :
    AgreesRows (blkOf t) (xblk1 m c t) (Cert.Out.arr (m ((c : Thread nD τ).loc main_arg1))) := by
  intro r l
  refine (iblk1_apply m c t r l).trans ?_
  rw [V_main_v1]
  exact shapeCast_1ab_ab_apply _ _ r (bcol (blkOf t) l)

theorem blockW (c : Dev nD) (t : Fin cfg0.N) :
    BlockW (blkOf t) (Cert.Out.wvec (m ((c : Thread nD τ).loc main_arg2)))
      (shapeCast S128x4 (wblk m c t) shapeCasts_S1x128x4_S128x4) := by
  have e : ∀ (l : Fin 128) (k : Fin 4),
      shapeCast S128x4 (wblk m c t) shapeCasts_S1x128x4_S128x4 (ix2 l k)
        = hostW (F := Ideal) (m ((c : Thread nD τ).loc main_arg2)) (ix3 (blkOf t) l k) := fun l k => by
    refine (shapeCast_1ab_ab_apply _ _ l k).trans ?_
    refine (iblk2_apply m c t l k).trans ?_
    rw [V_main_v29]
  constructor
  · intro l; rw [e]; exact (hostW_apply _ (blkOf t) l).1
  · intro l; rw [e]; exact (hostW_apply _ (blkOf t) l).2.1
  · intro l; rw [e]; exact (hostW_apply _ (blkOf t) l).2.2.1
  · intro l; rw [e]; exact (hostW_apply _ (blkOf t) l).2.2.2

end AtIdeal2

end Cert.KernelIdeal.Hand

end
-- ==== Proof.KValue.lean ====
/-
  From the eight column blocks to the whole result arrays.
-/
import proofs.«130520_g23433341567538_cont_8to1_1409_4_alg».proof.Proof.KHost

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

def BodyI : Prop :=
  ∀ (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (t : Fin 8) (x0 x1 : Vec Ideal S8192x128 .f32) (x2 : Vec Ideal S1x128x4 .bf16) (X XA : Cert.Spec.Arr) (w : Fin 2048 → EReal),
    AgreesRows t x0 X → AgreesRows t x1 XA → BlockW t w (shapeCast S128x4 x2 shapeCasts_S1x128x4_S128x4) →
    AgreesRows t (out0_3 (F := Ideal) c i arg1 harg1 arg2 harg2 arg3 harg3 arg4 harg4 arg5 harg5 x0 x1 x2) (Cert.Consts.outI w X XA)

def BodyA : Prop :=
  ∀ (c : Dev nD) (i : grid0.Coords) (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (t : Fin 8) (x0 x1 : Vec Ideal S8192x128 .f32) (x2 : Vec Ideal S1x128x4 .bf16) (X XA : Cert.Spec.Arr) (w : Fin 2048 → EReal),
    AgreesRows t x0 X → AgreesRows t x1 XA → BlockW t w (shapeCast S128x4 x2 shapeCasts_S1x128x4_S128x4) →
    AgreesRows t (out0_4 (F := Ideal) c i arg1 harg1 arg2 harg2 arg3 harg3 arg4 harg4 arg5 harg5 x0 x1 x2) (Cert.Consts.outA w X XA)

variable (m : (ℓ : Loc nD τ sig) → Buf (Elt Ideal) ℓ) (ρ : Dev nD → PrngReg)

abbrev GI (c : Dev nD) : FVec Ideal S8192x1024 .f32 := fun i =>
  Cert.Consts.outI (Cert.Out.wvec (m ((c : Thread nD τ).loc main_arg2))) (Cert.Out.arr (m ((c : Thread nD τ).loc main_arg0)))
    (Cert.Out.arr (m ((c : Thread nD τ).loc main_arg1))) (i 0) (i 1)
abbrev GA (c : Dev nD) : FVec Ideal S8192x1024 .f32 := fun i =>
  Cert.Consts.outA (Cert.Out.wvec (m ((c : Thread nD τ).loc main_arg2))) (Cert.Out.arr (m ((c : Thread nD τ).loc main_arg0)))
    (Cert.Out.arr (m ((c : Thread nD τ).loc main_arg1))) (i 0) (i 1)

theorem flushed3_eq (H : BodyI) (c : Dev nD) (t : Fin cfg0.N) :
    (dats m 0 c).flushed 3 t = ((cfg0.win 3).blk t).view.read (Elt Ideal) (GI m c) := by
  show (cfg0.win 3).cut (grid0.coords t) ((dats m 0 c).after 3 t) = _
  rw [after0_3]
  obtain ⟨-, -, -, -, -, -, -, h0, h1, -⟩ := idx_facts t
  funext j
  obtain ⟨r, l, rfl⟩ : ∃ (r : Fin 8192) (l : Fin 128), j = ix2 r l := ⟨j 0, j 1, eq_ix2 j⟩
  refine (H c (grid0.coords t) (ms0_0 t) (hs0_0 t) (ms0_1 t) (hs0_1 t) (ms0_2 t) (hs0_2 t) (ms0_3 t) (hs0_3 t) (ms0_4 t) (hs0_4 t)
    (blkOf t) (xblk0 m c t) (xblk1 m c t) (wblk m c t) _ _ _ (rows0 m c t) (rows1 m c t) (blockW m c t) r l).trans ?_
  show Cert.Consts.outI _ _ _ r (bcol (blkOf t) l) = Cert.Consts.outI _ _ _ ((((cfg0.win 3).blk t).view.emb (ix2 r l)) 0) ((((cfg0.win 3).blk t).view.emb (ix2 r l)) 1)
  congr 1
  · apply Fin.ext
    show r.val = win0_3.index t 0 * 8192 + 1 * r.val
    rw [h0]; omega
  · apply Fin.ext
    show 128 * t.val + l.val = win0_3.index t 1 * 128 + 1 * l.val
    rw [h1]; omega

theorem flushed4_eq (H : BodyA) (c : Dev nD) (t : Fin cfg0.N) :
    (dats m 0 c).flushed 4 t = ((cfg0.win 4).blk t).view.read (Elt Ideal) (GA m c) := by
  show (cfg0.win 4).cut (grid0.coords t) ((dats m 0 c).after 4 t) = _
  rw [after0_4]
  obtain ⟨-, -, -, -, -, -, -, -, -, h0, h1⟩ := idx_facts t
  funext j
  obtain ⟨r, l, rfl⟩ : ∃ (r : Fin 8192) (l : Fin 128), j = ix2 r l := ⟨j 0, j 1, eq_ix2 j⟩
  refine (H c (grid0.coords t) (ms0_0 t) (hs0_0 t) (ms0_1 t) (hs0_1 t) (ms0_2 t) (hs0_2 t) (ms0_3 t) (hs0_3 t) (ms0_4 t) (hs0_4 t)
    (blkOf t) (xblk0 m c t) (xblk1 m c t) (wblk m c t) _ _ _ (rows0 m c t) (rows1 m c t) (blockW m c t) r l).trans ?_
  show Cert.Consts.outA _ _ _ r (bcol (blkOf t) l) = Cert.Consts.outA _ _ _ ((((cfg0.win 4).blk t).view.emb (ix2 r l)) 0) ((((cfg0.win 4).blk t).view.emb (ix2 r l)) 1)
  congr 1
  · apply Fin.ext
    show r.val = win0_4.index t 0 * 8192 + 1 * r.val
    rw [h0]; omega
  · apply Fin.ext
    show 128 * t.val + l.val = win0_4.index t 1 * 128 + 1 * l.val
    rw [h1]; omega

theorem mem_blk3 (t : Fin cfg0.N) (i : S8192x1024.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v30_0).slice (win0_3.rect t)).set ↔ _
  rw [View.set_slice_whole, Rect.mem_set_unit]
  exact Iff.rfl
theorem mem_blk4 (t : Fin cfg0.N) (i : S8192x1024.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v30_1).slice (win0_4.rect t)).set ↔ _
  rw [View.set_slice_whole, Rect.mem_set_unit]
  exact Iff.rfl

def ptOf (i : S8192x1024.Idx) : Fin cfg0.N :=
  ⟨(i 1).val / 128, by
    have h : (i 1).val < 1024 := (i 1).isLt
    show (i 1).val / 128 < grid0.N
    rw [N_0]; omega⟩

theorem cover3 (i : S8192x1024.Idx) : ∃ t : Fin cfg0.N, (cfg0.win 3).flush t = true ∧ i ∈ ((cfg0.win 3).blk t).view.set := by
  refine ⟨ptOf i, flush0_3 (ptOf i), ?_⟩
  rw [mem_blk3]
  obtain ⟨-, -, -, -, -, -, -, h0, h1, -⟩ := idx_facts (ptOf i)
  have ht : (ptOf i).val = (i 1).val / 128 := rfl
  have hi0 : (i 0).val < 8192 := (i 0).isLt
  have hi1 : (i 1).val < 1024 := (i 1).isLt
  intro a
  match a with
  | ⟨0, _⟩ =>
    show win0_3.index (ptOf i) 0 * 8192 ≤ (i 0).val ∧ (i 0).val < win0_3.index (ptOf i) 0 * 8192 + 8192
    rw [h0]; omega
  | ⟨1, _⟩ =>
    show win0_3.index (ptOf i) 1 * 128 ≤ (i 1).val ∧ (i 1).val < win0_3.index (ptOf i) 1 * 128 + 128
    rw [h1, ht]; omega

theorem cover4 (i : S8192x1024.Idx) : ∃ t : Fin cfg0.N, (cfg0.win 4).flush t = true ∧ i ∈ ((cfg0.win 4).blk t).view.set := by
  refine ⟨ptOf i, flush0_4 (ptOf i), ?_⟩
  rw [mem_blk4]
  obtain ⟨-, -, -, -, -, -, -, -, -, h0, h1⟩ := idx_facts (ptOf i)
  have ht : (ptOf i).val = (i 1).val / 128 := rfl
  have hi0 : (i 0).val < 8192 := (i 0).isLt
  have hi1 : (i 1).val < 1024 := (i 1).isLt
  intro a
  match a with
  | ⟨0, _⟩ =>
    show win0_4.index (ptOf i) 0 * 8192 ≤ (i 0).val ∧ (i 0).val < win0_4.index (ptOf i) 0 * 8192 + 8192
    rw [h0]; omega
  | ⟨1, _⟩ =>
    show win0_4.index (ptOf i) 1 * 128 ≤ (i 1).val ∧ (i 1).val < win0_4.index (ptOf i) 1 * 128 + 128
    rw [h1, ht]; omega

theorem final3 (H : BodyI) (c : Dev nD) : (dats m 0 c).arrAt 3 cfg0.N = GI m c :=
  (dats m 0 c).arrAt_eq_of_cover 3 (GI m c) (fun t _ => flushed3_eq m H c t) cover3

theorem final4 (H : BodyA) (c : Dev nD) : (dats m 0 c).arrAt 4 cfg0.N = GA m c :=
  (dats m 0 c).arrAt_eq_of_cover 4 (GA m c) (fun t _ => flushed4_eq m H c t) cover4

theorem tail_v31 (H : BodyI) (c : Dev nD) :
    Pipeline.afterTail₀ cfgs (dats m) 0 (V0 m) [hostOps1] c main_v31
      = Cert.Out.outI (m ((c : Thread nD τ).loc main_arg0)) (m ((c : Thread nD τ).loc main_arg1)) (m ((c : Thread nD τ).loc main_arg2)) := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30_0) = GI m c :=
    (Pipeline.withArrays_arr spec0 launch0.win.arr_inj c _ _ 3).trans (final3 m H c)
  rw [e]
  exact Cert.Out.eq_unarr _ _ (fun r d => shapeCast_ab_1ab_apply (GI m c) shapeCasts_S8192x1024_S1x8192x1024 0 r d)

theorem tail_v32 (H : BodyA) (c : Dev nD) :
    Pipeline.afterTail₀ cfgs (dats m) 0 (V0 m) [hostOps1] c main_v32
      = Cert.Out.outA (m ((c : Thread nD τ).loc main_arg0)) (m ((c : Thread nD τ).loc main_arg1)) (m ((c : Thread nD τ).loc main_arg2)) := by
  unfold Pipeline.afterTail₀
  show StableHlo.after hostOps1 _ (Proc.devRef .tc main_v32) = _
  after_results
  have e : Pipeline.withArrays (cfgs 0).spec c (V0 m c) (fun w => (dats m 0 c).arrAt w (cfgs 0).N) (Proc.devRef .tc main_v30_1) = GA m c :=
    (Pipeline.withArrays_arr spec0 launch0.win.arr_inj c _ _ 4).trans (final4 m H c)
  rw [e]
  exact Cert.Out.eq_unarr _ _ (fun r d => shapeCast_ab_1ab_apply (GA m c) shapeCasts_S8192x1024_S1x8192x1024 0 r d)

theorem run_value (H3 : BodyI) (H4 : BodyA) :
    θ_run (defs (F := Ideal)) (onTc (τ := τ) (main (F := Ideal))) ⟨m, fun _ => 0, ρ⟩ (fun r => ∀ c : Dev nD,
      r.2.mem ((c.tc : Thread nD τ).loc main_v31) = Cert.Out.outI (m ((c.tc : Thread nD τ).loc main_arg0)) (m ((c.tc : Thread nD τ).loc main_arg1)) (m ((c.tc : Thread nD τ).loc main_arg2))
      ∧ r.2.mem ((c.tc : Thread nD τ).loc main_v32) = Cert.Out.outA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v31 (Pipeline.mem_restRefs_of main_v31 (by decide) (by decide))).trans (tail_v31 m H3 c),
       ((h c).2 main_v32 (Pipeline.mem_restRefs_of main_v32 (by decide) (by decide))).trans (tail_v32 m H4 c),
       ((h c).2 main_arg0 (Pipeline.mem_restRefs_of main_arg0 (by decide) (by decide))).trans (tail_main_arg m (dats m) c (.inl rfl)),
       ((h c).2 main_arg1 (Pipeline.mem_restRefs_of main_arg1 (by decide) (by decide))).trans (tail_main_arg m (dats m) c (.inr (.inl rfl))),
       ((h c).2 main_arg2 (Pipeline.mem_restRefs_of main_arg2 (by decide) (by decide))).trans (tail_main_arg m (dats m) c (.inr (.inr rfl)))⟩)
    (run_main m ρ)

end Cert.KernelIdeal.Hand

end
-- ==== Proof.KStages.lean ====
/-
  The kernel body's value in named stages: the regrouping of a row block, the sixteen steps, the regrouping undone.
-/
import proofs.«130520_g23433341567538_cont_8to1_1409_4_alg».proof.Proof.KDefs

set_option maxRecDepth 65536

noncomputable section

namespace Cert.KernelIdeal.Hand

open Idealize.ShloMosaic Idealize.SL.Sem Cert.KernelIdeal
open Cert.KernelIdeal.Facts₀ Cert.KernelIdeal.Facts

variable {F : FTy → Type} [FloatOps F] [Cert.KernelIdeal.Facts]

def kroll (sa sb : Shape) (off : ℕ) (q : FVec F S512x1x128 .f32) (ha : S512x1x128.Slices ![off, 0, 0] sa)
    (hb : S512x1x128.Slices ![0, 0, 0] sb) (hc : Shape.Concatenates [sa, sb] S512x1x128 0) : FVec F S512x1x128 .f32 :=
  concatenate S512x1x128 0 [⟨sa, extractStridedSlice sa ![off, 0, 0] q ha⟩, ⟨sb, extractStridedSlice sb ![0, 0, 0] q hb⟩] hc

def kregroup (y : FVec F S512x16x128 .f32) : FVec F S512x16x128 .f32 :=
  have p0 : FVec F S512x1x128 .f32 := extractStridedSlice S512x1x128 ![0, 0, 0] y slc
  have q1 : FVec F S512x1x128 .f32 := extractStridedSlice S512x1x128 ![0, 1, 0] y slc
  have p1 : FVec F S512x1x128 .f32 := kroll S510x1x128 S2x1x128 2 q1 slices_S512x1x128_o2_0_0_S510x1x128 slices_S512x1x128_o0_0_0_S2x1x128 concatenates_S510x1x128_S2x1x128_S512x1x128_d0
  have q2 : FVec F S512x1x128 .f32 := extractStridedSlice S512x1x128 ![0, 2, 0] y slc
  have p2 : FVec F S512x1x128 .f32 := kroll S508x1x128 S4x1x128 4 q2 slices_S512x1x128_o4_0_0_S508x1x128 slices_S512x1x128_o0_0_0_S4x1x128 concatenates_S508x1x128_S4x1x128_S512x1x128_d0
  have q3 : FVec F S512x1x128 .f32 := extractStridedSlice S512x1x128 ![0, 3, 0] y slc
  have p3 : FVec F S512x1x128 .f32 := kroll S506x1x128 S6x1x128 6 q3 slices_S512x1x128_o6_0_0_S506x1x128 slices_S512x1x128_o0_0_0_S6x1x128 concatenates_S506x1x128_S6x1x128_S512x1x128_d0
  have q4 : FVec F S512x1x128 .f32 := extractStridedSlice S512x1x128 ![0, 4, 0] y slc
  have p4 : FVec F S512x1x128 .f32 := kroll S504x1x128 S8x1x128 8 q4 slices_S512x1x128_o8_0_0_S504x1x128 slices_S512x1x128_o0_0_0_S8x1x128 concatenates_S504x1x128_S8x1x128_S512x1x128_d0
  have q5 : FVec F S512x1x128 .f32 := extractStridedSlice S512x1x128 ![0, 5, 0] y slc
  have p5 : FVec F S512x1x128 .f32 := kroll S502x1x128 S10x1x128 10 q5 slices_S512x1x128_o10_0_0_S502x1x128 slices_S512x1x128_o0_0_0_S10x1x128 concatenates_S502x1x128_S10x1x128_S512x1x128_d0
  have q6 : FVec F S512x1x128 .f32 := extractStridedSlice S512x1x128 ![0, 6, 0] y slc
  have p6 : FVec F S512x1x128 .f32 := kroll S500x1x128 S12x1x128 12 q6 slices_S512x1x128_o12_0_0_S500x1x128 slices_S512x1x128_o0_0_0_S12x1x128 concatenates_S500x1x128_S12x1x128_S512x1x128_d0
  have q7 : FVec F S512x1x128 .f32 := extractStridedSlice S512x1x128 ![0, 7, 0] y slc
  have p7 : FVec F S512x1x128 .f32 := kroll S498x1x128 S14x1x128 14 q7 slices_S512x1x128_o14_0_0_S498x1x128 slices_S512x1x128_o0_0_0_S14x1x128 concatenates_S498x1x128_S14x1x128_S512x1x128_d0
  have q8 : FVec F S512x1x128 .f32 := extractStridedSlice S512x1x128 ![0, 8, 0] y slc
  have p8 : FVec F S512x1x128 .f32 := kroll S496x1x128 S16x1x128 16 q8 slices_S512x1x128_o16_0_0_S496x1x128 slices_S512x1x128_o0_0_0_S16x1x128 concatenates_S496x1x128_S16x1x128_S512x1x128_d0
  have q9 : FVec F S512x1x128 .f32 := extractStridedSlice S512x1x128 ![0, 9, 0] y slc
  have p9 : FVec F S512x1x128 .f32 := kroll S494x1x128 S18x1x128 18 q9 slices_S512x1x128_o18_0_0_S494x1x128 slices_S512x1x128_o0_0_0_S18x1x128 concatenates_S494x1x128_S18x1x128_S512x1x128_d0
  have q10 : FVec F S512x1x128 .f32 := extractStridedSlice S512x1x128 ![0, 10, 0] y slc
  have p10 : FVec F S512x1x128 .f32 := kroll S492x1x128 S20x1x128 20 q10 slices_S512x1x128_o20_0_0_S492x1x128 slices_S512x1x128_o0_0_0_S20x1x128 concatenates_S492x1x128_S20x1x128_S512x1x128_d0
  have q11 : FVec F S512x1x128 .f32 := extractStridedSlice S512x1x128 ![0, 11, 0] y slc
  have p11 : FVec F S512x1x128 .f32 := kroll S490x1x128 S22x1x128 22 q11 slices_S512x1x128_o22_0_0_S490x1x128 slices_S512x1x128_o0_0_0_S22x1x128 concatenates_S490x1x128_S22x1x128_S512x1x128_d0
  have q12 : FVec F S512x1x128 .f32 := extractStridedSlice S512x1x128 ![0, 12, 0] y slc
  have p12 : FVec F S512x1x128 .f32 := kroll S488x1x128 S24x1x128 24 q12 slices_S512x1x128_o24_0_0_S488x1x128 slices_S512x1x128_o0_0_0_S24x1x128 concatenates_S488x1x128_S24x1x128_S512x1x128_d0
  have q13 : FVec F S512x1x128 .f32 := extractStridedSlice S512x1x128 ![0, 13, 0] y slc
  have p13 : FVec F S512x1x128 .f32 := kroll S486x1x128 S26x1x128 26 q13 slices_S512x1x128_o26_0_0_S486x1x128 slices_S512x1x128_o0_0_0_S26x1x128 concatenates_S486x1x128_S26x1x128_S512x1x128_d0
  have q14 : FVec F S512x1x128 .f32 := extractStridedSlice S512x1x128 ![0, 14, 0] y slc
  have p14 : FVec F S512x1x128 .f32 := kroll S484x1x128 S28x1x128 28 q14 slices_S512x1x128_o28_0_0_S484x1x128 slices_S512x1x128_o0_0_0_S28x1x128 concatenates_S484x1x128_S28x1x128_S512x1x128_d0
  have q15 : FVec F S512x1x128 .f32 := extractStridedSlice S512x1x128 ![0, 15, 0] y slc
  have p15 : FVec F S512x1x128 .f32 := kroll S482x1x128 S30x1x128 30 q15 slices_S512x1x128_o30_0_0_S482x1x128 slices_S512x1x128_o0_0_0_S30x1x128 concatenates_S482x1x128_S30x1x128_S512x1x128_d0
  concatenate S512x16x128 1 [⟨S512x1x128, p0⟩, ⟨S512x1x128, p1⟩, ⟨S512x1x128, p2⟩, ⟨S512x1x128, p3⟩, ⟨S512x1x128, p4⟩, ⟨S512x1x128, p5⟩, ⟨S512x1x128, p6⟩, ⟨S512x1x128, p7⟩, ⟨S512x1x128, p8⟩, ⟨S512x1x128, p9⟩, ⟨S512x1x128, p10⟩, ⟨S512x1x128, p11⟩, ⟨S512x1x128, p12⟩, ⟨S512x1x128, p13⟩, ⟨S512x1x128, p14⟩, ⟨S512x1x128, p15⟩] concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1

def kungather (y : FVec F S512x16x128 .f32) : FVec F S512x16x128 .f32 :=
  have p0 : FVec F S512x1x128 .f32 := extractStridedSlice S512x1x128 ![0, 0, 0] y slc
  have q1 : FVec F S512x1x128 .f32 := extractStridedSlice S512x1x128 ![0, 1, 0] y slc
  have p1 : FVec F S512x1x128 .f32 := kroll S2x1x128 S510x1x128 510 q1 slices_S512x1x128_o510_0_0_S2x1x128 slices_S512x1x128_o0_0_0_S510x1x128 concatenates_S2x1x128_S510x1x128_S512x1x128_d0
  have q2 : FVec F S512x1x128 .f32 := extractStridedSlice S512x1x128 ![0, 2, 0] y slc
  have p2 : FVec F S512x1x128 .f32 := kroll S4x1x128 S508x1x128 508 q2 slices_S512x1x128_o508_0_0_S4x1x128 slices_S512x1x128_o0_0_0_S508x1x128 concatenates_S4x1x128_S508x1x128_S512x1x128_d0
  have q3 : FVec F S512x1x128 .f32 := extractStridedSlice S512x1x128 ![0, 3, 0] y slc
  have p3 : FVec F S512x1x128 .f32 := kroll S6x1x128 S506x1x128 506 q3 slices_S512x1x128_o506_0_0_S6x1x128 slices_S512x1x128_o0_0_0_S506x1x128 concatenates_S6x1x128_S506x1x128_S512x1x128_d0
  have q4 : FVec F S512x1x128 .f32 := extractStridedSlice S512x1x128 ![0, 4, 0] y slc
  have p4 : FVec F S512x1x128 .f32 := kroll S8x1x128 S504x1x128 504 q4 slices_S512x1x128_o504_0_0_S8x1x128 slices_S512x1x128_o0_0_0_S504x1x128 concatenates_S8x1x128_S504x1x128_S512x1x128_d0
  have q5 : FVec F S512x1x128 .f32 := extractStridedSlice S512x1x128 ![0, 5, 0] y slc
  have p5 : FVec F S512x1x128 .f32 := kroll S10x1x128 S502x1x128 502 q5 slices_S512x1x128_o502_0_0_S10x1x128 slices_S512x1x128_o0_0_0_S502x1x128 concatenates_S10x1x128_S502x1x128_S512x1x128_d0
  have q6 : FVec F S512x1x128 .f32 := extractStridedSlice S512x1x128 ![0, 6, 0] y slc
  have p6 : FVec F S512x1x128 .f32 := kroll S12x1x128 S500x1x128 500 q6 slices_S512x1x128_o500_0_0_S12x1x128 slices_S512x1x128_o0_0_0_S500x1x128 concatenates_S12x1x128_S500x1x128_S512x1x128_d0
  have q7 : FVec F S512x1x128 .f32 := extractStridedSlice S512x1x128 ![0, 7, 0] y slc
  have p7 : FVec F S512x1x128 .f32 := kroll S14x1x128 S498x1x128 498 q7 slices_S512x1x128_o498_0_0_S14x1x128 slices_S512x1x128_o0_0_0_S498x1x128 concatenates_S14x1x128_S498x1x128_S512x1x128_d0
  have q8 : FVec F S512x1x128 .f32 := extractStridedSlice S512x1x128 ![0, 8, 0] y slc
  have p8 : FVec F S512x1x128 .f32 := kroll S16x1x128 S496x1x128 496 q8 slices_S512x1x128_o496_0_0_S16x1x128 slices_S512x1x128_o0_0_0_S496x1x128 concatenates_S16x1x128_S496x1x128_S512x1x128_d0
  have q9 : FVec F S512x1x128 .f32 := extractStridedSlice S512x1x128 ![0, 9, 0] y slc
  have p9 : FVec F S512x1x128 .f32 := kroll S18x1x128 S494x1x128 494 q9 slices_S512x1x128_o494_0_0_S18x1x128 slices_S512x1x128_o0_0_0_S494x1x128 concatenates_S18x1x128_S494x1x128_S512x1x128_d0
  have q10 : FVec F S512x1x128 .f32 := extractStridedSlice S512x1x128 ![0, 10, 0] y slc
  have p10 : FVec F S512x1x128 .f32 := kroll S20x1x128 S492x1x128 492 q10 slices_S512x1x128_o492_0_0_S20x1x128 slices_S512x1x128_o0_0_0_S492x1x128 concatenates_S20x1x128_S492x1x128_S512x1x128_d0
  have q11 : FVec F S512x1x128 .f32 := extractStridedSlice S512x1x128 ![0, 11, 0] y slc
  have p11 : FVec F S512x1x128 .f32 := kroll S22x1x128 S490x1x128 490 q11 slices_S512x1x128_o490_0_0_S22x1x128 slices_S512x1x128_o0_0_0_S490x1x128 concatenates_S22x1x128_S490x1x128_S512x1x128_d0
  have q12 : FVec F S512x1x128 .f32 := extractStridedSlice S512x1x128 ![0, 12, 0] y slc
  have p12 : FVec F S512x1x128 .f32 := kroll S24x1x128 S488x1x128 488 q12 slices_S512x1x128_o488_0_0_S24x1x128 slices_S512x1x128_o0_0_0_S488x1x128 concatenates_S24x1x128_S488x1x128_S512x1x128_d0
  have q13 : FVec F S512x1x128 .f32 := extractStridedSlice S512x1x128 ![0, 13, 0] y slc
  have p13 : FVec F S512x1x128 .f32 := kroll S26x1x128 S486x1x128 486 q13 slices_S512x1x128_o486_0_0_S26x1x128 slices_S512x1x128_o0_0_0_S486x1x128 concatenates_S26x1x128_S486x1x128_S512x1x128_d0
  have q14 : FVec F S512x1x128 .f32 := extractStridedSlice S512x1x128 ![0, 14, 0] y slc
  have p14 : FVec F S512x1x128 .f32 := kroll S28x1x128 S484x1x128 484 q14 slices_S512x1x128_o484_0_0_S28x1x128 slices_S512x1x128_o0_0_0_S484x1x128 concatenates_S28x1x128_S484x1x128_S512x1x128_d0
  have q15 : FVec F S512x1x128 .f32 := extractStridedSlice S512x1x128 ![0, 15, 0] y slc
  have p15 : FVec F S512x1x128 .f32 := kroll S30x1x128 S482x1x128 482 q15 slices_S512x1x128_o482_0_0_S30x1x128 slices_S512x1x128_o0_0_0_S482x1x128 concatenates_S30x1x128_S482x1x128_S512x1x128_d0
  concatenate S512x16x128 1 [⟨S512x1x128, p0⟩, ⟨S512x1x128, p1⟩, ⟨S512x1x128, p2⟩, ⟨S512x1x128, p3⟩, ⟨S512x1x128, p4⟩, ⟨S512x1x128, p5⟩, ⟨S512x1x128, p6⟩, ⟨S512x1x128, p7⟩, ⟨S512x1x128, p8⟩, ⟨S512x1x128, p9⟩, ⟨S512x1x128, p10⟩, ⟨S512x1x128, p11⟩, ⟨S512x1x128, p12⟩, ⟨S512x1x128, p13⟩, ⟨S512x1x128, p14⟩, ⟨S512x1x128, p15⟩] concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1

def kgather (x : Vec F S8192x128 .f32) : FVec F S512x16x128 .f32 :=
  have v1 : FVec F S8192x128 .f32 := shapeCast S8192x128 x shapeCasts_S8192x128_S8192x128
  have v2 : FVec F S512x16x128 .f32 := shapeCast S512x16x128 v1 shapeCasts_S8192x128_S512x16x128
  kregroup v2

def kscatter (z : FVec F S512x16x128 .f32) : FVec F S8192x128 .f32 :=
  shapeCast S8192x128 (kungather z) shapeCasts_S512x16x128_S8192x128

def kwm (x2 : Vec F S1x128x4 .bf16) : FVec F S128x4 .bf16 := shapeCast S128x4 x2 shapeCasts_S1x128x4_S128x4

def kZ0 (x0 x1 : Vec F S8192x128 .f32) (x2 : Vec F S1x128x4 .bf16) : FVec F S512x16x128 .f32 := kgather x0
def kA0 (x0 x1 : Vec F S8192x128 .f32) (x2 : Vec F S1x128x4 .bf16) : FVec F S512x16x128 .f32 := kgather x1

def kA1 (x0 x1 : Vec F S8192x128 .f32) (x2 : Vec F S1x128x4 .bf16) : FVec F S512x16x128 .f32 :=
  kstepA 0 slc4 slc (kZ0 x0 x1 x2) (kA0 x0 x1 x2) (kwm x2) kmask
def kZ1 (x0 x1 : Vec F S8192x128 .f32) (x2 : Vec F S1x128x4 .bf16) : FVec F S512x16x128 .f32 :=
  kstepZ 0 slc4 slc (kZ0 x0 x1 x2) (kA0 x0 x1 x2) (kwm x2) kmask

def kA2 (x0 x1 : Vec F S8192x128 .f32) (x2 : Vec F S1x128x4 .bf16) : FVec F S512x16x128 .f32 :=
  kstepA 1 slc4 slc (kZ1 x0 x1 x2) (kA1 x0 x1 x2) (kwm x2) kmask
def kZ2 (x0 x1 : Vec F S8192x128 .f32) (x2 : Vec F S1x128x4 .bf16) : FVec F S512x16x128 .f32 :=
  kstepZ 1 slc4 slc (kZ1 x0 x1 x2) (kA1 x0 x1 x2) (kwm x2) kmask

def kA3 (x0 x1 : Vec F S8192x128 .f32) (x2 : Vec F S1x128x4 .bf16) : FVec F S512x16x128 .f32 :=
  kstepA 2 slc4 slc (kZ2 x0 x1 x2) (kA2 x0 x1 x2) (kwm x2) kmask
def kZ3 (x0 x1 : Vec F S8192x128 .f32) (x2 : Vec F S1x128x4 .bf16) : FVec F S512x16x128 .f32 :=
  kstepZ 2 slc4 slc (kZ2 x0 x1 x2) (kA2 x0 x1 x2) (kwm x2) kmask

def kA4 (x0 x1 : Vec F S8192x128 .f32) (x2 : Vec F S1x128x4 .bf16) : FVec F S512x16x128 .f32 :=
  kstepA 3 slc4 slc (kZ3 x0 x1 x2) (kA3 x0 x1 x2) (kwm x2) kmask
def kZ4 (x0 x1 : Vec F S8192x128 .f32) (x2 : Vec F S1x128x4 .bf16) : FVec F S512x16x128 .f32 :=
  kstepZ 3 slc4 slc (kZ3 x0 x1 x2) (kA3 x0 x1 x2) (kwm x2) kmask

def kA5 (x0 x1 : Vec F S8192x128 .f32) (x2 : Vec F S1x128x4 .bf16) : FVec F S512x16x128 .f32 :=
  kstepA 4 slc4 slc (kZ4 x0 x1 x2) (kA4 x0 x1 x2) (kwm x2) kmask
def kZ5 (x0 x1 : Vec F S8192x128 .f32) (x2 : Vec F S1x128x4 .bf16) : FVec F S512x16x128 .f32 :=
  kstepZ 4 slc4 slc (kZ4 x0 x1 x2) (kA4 x0 x1 x2) (kwm x2) kmask

def kA6 (x0 x1 : Vec F S8192x128 .f32) (x2 : Vec F S1x128x4 .bf16) : FVec F S512x16x128 .f32 :=
  kstepA 5 slc4 slc (kZ5 x0 x1 x2) (kA5 x0 x1 x2) (kwm x2) kmask
def kZ6 (x0 x1 : Vec F S8192x128 .f32) (x2 : Vec F S1x128x4 .bf16) : FVec F S512x16x128 .f32 :=
  kstepZ 5 slc4 slc (kZ5 x0 x1 x2) (kA5 x0 x1 x2) (kwm x2) kmask

def kA7 (x0 x1 : Vec F S8192x128 .f32) (x2 : Vec F S1x128x4 .bf16) : FVec F S512x16x128 .f32 :=
  kstepA 6 slc4 slc (kZ6 x0 x1 x2) (kA6 x0 x1 x2) (kwm x2) kmask
def kZ7 (x0 x1 : Vec F S8192x128 .f32) (x2 : Vec F S1x128x4 .bf16) : FVec F S512x16x128 .f32 :=
  kstepZ 6 slc4 slc (kZ6 x0 x1 x2) (kA6 x0 x1 x2) (kwm x2) kmask

def kA8 (x0 x1 : Vec F S8192x128 .f32) (x2 : Vec F S1x128x4 .bf16) : FVec F S512x16x128 .f32 :=
  kstepA 7 slc4 slc (kZ7 x0 x1 x2) (kA7 x0 x1 x2) (kwm x2) kmask
def kZ8 (x0 x1 : Vec F S8192x128 .f32) (x2 : Vec F S1x128x4 .bf16) : FVec F S512x16x128 .f32 :=
  kstepZ 7 slc4 slc (kZ7 x0 x1 x2) (kA7 x0 x1 x2) (kwm x2) kmask

def kA9 (x0 x1 : Vec F S8192x128 .f32) (x2 : Vec F S1x128x4 .bf16) : FVec F S512x16x128 .f32 :=
  kstepA 8 slc4 slc (kZ8 x0 x1 x2) (kA8 x0 x1 x2) (kwm x2) kmask
def kZ9 (x0 x1 : Vec F S8192x128 .f32) (x2 : Vec F S1x128x4 .bf16) : FVec F S512x16x128 .f32 :=
  kstepZ 8 slc4 slc (kZ8 x0 x1 x2) (kA8 x0 x1 x2) (kwm x2) kmask

def kA10 (x0 x1 : Vec F S8192x128 .f32) (x2 : Vec F S1x128x4 .bf16) : FVec F S512x16x128 .f32 :=
  kstepA 9 slc4 slc (kZ9 x0 x1 x2) (kA9 x0 x1 x2) (kwm x2) kmask
def kZ10 (x0 x1 : Vec F S8192x128 .f32) (x2 : Vec F S1x128x4 .bf16) : FVec F S512x16x128 .f32 :=
  kstepZ 9 slc4 slc (kZ9 x0 x1 x2) (kA9 x0 x1 x2) (kwm x2) kmask

def kA11 (x0 x1 : Vec F S8192x128 .f32) (x2 : Vec F S1x128x4 .bf16) : FVec F S512x16x128 .f32 :=
  kstepA 10 slc4 slc (kZ10 x0 x1 x2) (kA10 x0 x1 x2) (kwm x2) kmask
def kZ11 (x0 x1 : Vec F S8192x128 .f32) (x2 : Vec F S1x128x4 .bf16) : FVec F S512x16x128 .f32 :=
  kstepZ 10 slc4 slc (kZ10 x0 x1 x2) (kA10 x0 x1 x2) (kwm x2) kmask

def kA12 (x0 x1 : Vec F S8192x128 .f32) (x2 : Vec F S1x128x4 .bf16) : FVec F S512x16x128 .f32 :=
  kstepA 11 slc4 slc (kZ11 x0 x1 x2) (kA11 x0 x1 x2) (kwm x2) kmask
def kZ12 (x0 x1 : Vec F S8192x128 .f32) (x2 : Vec F S1x128x4 .bf16) : FVec F S512x16x128 .f32 :=
  kstepZ 11 slc4 slc (kZ11 x0 x1 x2) (kA11 x0 x1 x2) (kwm x2) kmask

def kA13 (x0 x1 : Vec F S8192x128 .f32) (x2 : Vec F S1x128x4 .bf16) : FVec F S512x16x128 .f32 :=
  kstepA 12 slc4 slc (kZ12 x0 x1 x2) (kA12 x0 x1 x2) (kwm x2) kmask
def kZ13 (x0 x1 : Vec F S8192x128 .f32) (x2 : Vec F S1x128x4 .bf16) : FVec F S512x16x128 .f32 :=
  kstepZ 12 slc4 slc (kZ12 x0 x1 x2) (kA12 x0 x1 x2) (kwm x2) kmask

def kA14 (x0 x1 : Vec F S8192x128 .f32) (x2 : Vec F S1x128x4 .bf16) : FVec F S512x16x128 .f32 :=
  kstepA 13 slc4 slc (kZ13 x0 x1 x2) (kA13 x0 x1 x2) (kwm x2) kmask
def kZ14 (x0 x1 : Vec F S8192x128 .f32) (x2 : Vec F S1x128x4 .bf16) : FVec F S512x16x128 .f32 :=
  kstepZ 13 slc4 slc (kZ13 x0 x1 x2) (kA13 x0 x1 x2) (kwm x2) kmask

def kA15 (x0 x1 : Vec F S8192x128 .f32) (x2 : Vec F S1x128x4 .bf16) : FVec F S512x16x128 .f32 :=
  kstepA 14 slc4 slc (kZ14 x0 x1 x2) (kA14 x0 x1 x2) (kwm x2) kmask
def kZ15 (x0 x1 : Vec F S8192x128 .f32) (x2 : Vec F S1x128x4 .bf16) : FVec F S512x16x128 .f32 :=
  kstepZ 14 slc4 slc (kZ14 x0 x1 x2) (kA14 x0 x1 x2) (kwm x2) kmask

def kA16 (x0 x1 : Vec F S8192x128 .f32) (x2 : Vec F S1x128x4 .bf16) : FVec F S512x16x128 .f32 :=
  kstepA 15 slc4 slc (kZ15 x0 x1 x2) (kA15 x0 x1 x2) (kwm x2) kmask
def kZ16 (x0 x1 : Vec F S8192x128 .f32) (x2 : Vec F S1x128x4 .bf16) : FVec F S512x16x128 .f32 :=
  kstepZ 15 slc4 slc (kZ15 x0 x1 x2) (kA15 x0 x1 x2) (kwm x2) kmask

end Cert.KernelIdeal.Hand

end
-- ==== Proof.KOut.lean ====
/-
  Each output block is stored once, whole, so what is read back is the stored value.
-/
import proofs.«130520_g23433341567538_cont_8to1_1409_4_alg».proof.Proof.KFrameI
import proofs.«130520_g23433341567538_cont_8to1_1409_4_alg».proof.Proof.KStages
import Idealize.ShloMosaic.Lib.Pipeline.Value

noncomputable section

namespace Cert.KernelIdeal.Hand

open Idealize.ShloMosaic Idealize.ShloMosaic.TcCoe
open Idealize.SL Idealize.SL.Sem
open Cert.KernelIdeal.Facts₀ Cert.KernelIdeal.Facts

variable {F : FTy → Type} [FloatOps F]

theorem offsets_zero2 : (![0, 0] : Fin 2 → Nat) = fun _ => 0 := funext fun a => by fin_cases a <;> rfl

theorem out0_3_eq_of
    (hL3 : ∀ (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16),
      (kernelRun0 c i arg1 harg1 arg2 harg2 arg3 harg3 arg4 harg4 arg5 harg5 x0 x1 x2).1
        = [⟨Rect.unit (s := S8192x128) ![0, 0] S8192x128.size inb_S8192x128_S8192x128_0_0, kscatter (kZ16 x0 x1 x2)⟩])
    (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    out0_3 c i arg1 harg1 arg2 harg2 arg3 harg3 arg4 harg4 arg5 harg5 x0 x1 x2 = kscatter (kZ16 x0 x1 x2) := by
  unfold out0_3
  rw [View.read_writes_eq_canon _ _ _ (cover0_3 c i arg1 harg1 arg2 harg2 arg3 harg3 arg4 harg4 arg5 harg5 x0 x1 x2), hL3, View.canon_unit_zero offsets_zero2]

theorem out0_4_eq_of
    (hL4 : ∀ (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16),
      (kernelRun0 c i arg1 harg1 arg2 harg2 arg3 harg3 arg4 harg4 arg5 harg5 x0 x1 x2).2.1
        = [⟨Rect.unit (s := S8192x128) ![0, 0] S8192x128.size inb_S8192x128_S8192x128_0_0, kscatter (kA16 x0 x1 x2)⟩])
    (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    out0_4 c i arg1 harg1 arg2 harg2 arg3 harg3 arg4 harg4 arg5 harg5 x0 x1 x2 = kscatter (kA16 x0 x1 x2) := by
  unfold out0_4
  rw [View.read_writes_eq_canon _ _ _ (cover0_4 c i arg1 harg1 arg2 harg2 arg3 harg3 arg4 harg4 arg5 harg5 x0 x1 x2), hL4, View.canon_unit_zero offsets_zero2]

end Cert.KernelIdeal.Hand

end
-- ==== Proof.KNames.lean ====
/-
  The values the body's run names, each identified with a stage of the kernel's value.
-/
import proofs.«130520_g23433341567538_cont_8to1_1409_4_alg».proof.Proof.KRunI
import proofs.«130520_g23433341567538_cont_8to1_1409_4_alg».proof.Proof.KStages
import Idealize.ShloMosaic.Lib.WholeRead

set_option maxRecDepth 65536

noncomputable section

namespace Cert.KernelIdeal.Hand

open Idealize.ShloMosaic Idealize.SL.Sem Cert.KernelIdeal

section Prefixes

open Cert.KernelIdeal.Facts₀ Cert.KernelIdeal.Facts

variable {F : FTy → Type} [FloatOps F] [Cert.KernelIdeal.Facts]

def kpart2 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S8192x4 .f32 :=
  matmul dot_S8192x128_S128x4_S8192x4_1_0_0_1_n_n none
    (truncf .bf16 (shapeCast S8192x128 z shapeCasts_S512x16x128_S8192x128) bitsLt_bf16_f32) wm (constant S8192x4 .f32 0x00000000#32)

def kprod (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x4 .f32 :=
  shapeCast S512x16x4 (kpart2 s hs4 hs z za wm mask) shapeCasts_S8192x4_S512x16x4

def kpart5 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x2 .f32 :=
  extractStridedSlice S512x16x2 ![0, 0, 0] (kprod s hs4 hs z za wm mask) slices_S512x16x4_o0_0_0_S512x16x2

def kpart6 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x2 .f32 :=
  broadcastTo S512x16x2 (extractStridedSlice S512x1x2 ![0, s, 2] (kprod s hs4 hs z za wm mask) hs4) broadcasts_S512x1x2_S512x16x2

def kpart9 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x2 .f32 :=
  ksim s hs4 z wm

def kpart12 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  broadcastTo S512x16x128 (shapeCast S512x16x1 (extractStridedSlice S512x16x1 ![0, 0, 0] (ksim s hs4 z wm)
    slices_S512x16x2_o0_0_0_S512x16x1) shapeCasts_S512x16x1_S512x16x1) broadcasts_S512x16x1_S512x16x128

def kpart13 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x1 .f32 :=
  extractStridedSlice S512x16x1 ![0, 0, 1] (ksim s hs4 z wm) slices_S512x16x2_o0_0_1_S512x16x1

def kpart16 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  select mask (kpart12 s hs4 hs z za wm mask)
    (broadcastTo S512x16x128 (shapeCast S512x16x1 (kpart13 s hs4 hs z za wm mask) shapeCasts_S512x16x1_S512x16x1) broadcasts_S512x16x1_S512x16x128)

def kpart17 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x1x128 .f32 :=
  extractStridedSlice S512x1x128 ![0, s, 0] z hs

def kpart19 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  mulf (broadcast S512x16x128 (Scalar.ofBits .f32 0x3F000000#32)) z

def kpart20 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  broadcastTo S512x16x128 (kpart17 s hs4 hs z za wm mask) broadcasts_S512x1x128_S512x16x128

def kpart22 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  kpre s hs4 hs z wm mask

def kpart25 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  maximumf (kpre s hs4 hs z wm mask) (mulf (broadcast S512x16x128 (Scalar.ofBits .f32 0x3C23D70A#32)) (kpre s hs4 hs z wm mask))

def kpart27 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  mulf (broadcast S512x16x128 (Scalar.ofBits .f32 0x3F666666#32)) za

def kpart29 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  mulf (broadcast S512x16x128 (Scalar.ofBits .f32 0x3DCCCCCD#32)) (kpart25 s hs4 hs z za wm mask)

def kpart32 (s : ℕ) (hs4 : S512x16x4.Slices ![0, s, 2] S512x1x2) (hs : S512x16x128.Slices ![0, s, 0] S512x1x128)
    (z za : FVec F S512x16x128 .f32) (wm : FVec F S128x4 .bf16) (mask : IVec S512x16x128 1) : FVec F S512x16x128 .f32 :=
  mulf (broadcast S512x16x128 (Scalar.ofBits .f32 0x3F666666#32)) z

end Prefixes

section Names

open Cert.KernelIdeal.Gen Idealize.ShloMosaic.TcCoe Idealize.ShloMosaic.Tactic

variable {F : FTy → Type} [FloatOps F]
  (c : Dev nD) (arg1 : Memref sig .tc .vmem S8192x128 .f32) (harg1 : arg1.IsWhole)
  (arg2 : Memref sig .tc .vmem S8192x128 .f32) (harg2 : arg2.IsWhole) (arg3 : Memref sig .tc .vmem S1x128x4 .bf16) (harg3 : arg3.IsWhole)
  (x0 x1 : Vec F S8192x128 .f32) (x2 : Vec F S1x128x4 .bf16)

theorem load_rows (m : Memref sig .tc .vmem S8192x128 .f32) (h : m.IsWhole) (X : Vec F S8192x128 .f32) :
    View.readAt (Elt F) m.view (Rect.unit (s := S8192x128) ![0, 0] S8192x128.size inb_S8192x128_S8192x128_0_0).toLoadRect (h.unread X) = X := by
  funext x
  rw [h.readAt_unread]
  exact congrFun (View.ld_unit_zero (off := ![0, 0]) (by funext a; fin_cases a <;> rfl) inb_S8192x128_S8192x128_0_0 X) x

theorem load_weights (m : Memref sig .tc .vmem S1x128x4 .bf16) (h : m.IsWhole) (X : Vec F S1x128x4 .bf16) :
    View.readAt (Elt F) m.view (Rect.unit (s := S1x128x4) ![0, 0, 0] S1x128x4.size inb_S1x128x4_S1x128x4_0_0_0).toLoadRect (h.unread X) = X := by
  funext x
  rw [h.readAt_unread]
  exact congrFun (View.ld_unit_zero (off := ![0, 0, 0]) (by funext a; fin_cases a <;> rfl) inb_S1x128x4_S1x128x4_0_0_0 X) x

theorem v67_eq :
    kernelRun0.sl.v67 c arg1 harg1 x0 = kgather x0 := by
  sl_unfold_run_names; sl_unfold_run_names
  rw [load_rows arg1 harg1 x0]
  rfl

theorem r_1_eq :
    kernelRun0.sl.r_1 c arg2 harg2 x1 = (mulf (broadcast S512x16x128 (Scalar.ofBits .f32 0x3F666666#32)) (kgather x1)) := by
  sl_unfold_run_names; sl_unfold_run_names
  rw [load_rows arg2 harg2 x1]
  rfl

theorem r_eq :
    kernelRun0.sl.r c arg3 harg3 x2 = kwm x2 := by
  unfold kernelRun0.sl.r
  rw [load_weights arg3 harg3 x2]
  rfl

theorem pure_r_2 (z : FVec F S512x16x128 .f32) (x2 : Vec F S1x128x4 .bf16) :
    k0_pay35 z x2 = (kpart29 0 slc4 slc z z (kwm x2) kmask) := rfl

theorem r_2_eq :
    kernelRun0.sl.r_2 c arg1 harg1 arg3 harg3 x0 x2 = (kpart29 0 slc4 slc (kgather x0) (kgather x0) (kwm x2) kmask) := by
  unfold kernelRun0.sl.r_2
  rw [v67_eq, load_weights arg3 harg3 x2]
  exact pure_r_2 (kgather x0) x2

theorem pure_r_3 (z za : FVec F S512x16x128 .f32) (wm : FVec F S128x4 .bf16) :
    k0_pay38 z wm k0_pay33 (mulf (broadcast S512x16x128 (Scalar.ofBits .f32 0x3F666666#32)) za) (kpart29 0 slc4 slc z z wm kmask)
      = (kstepA 1 slc4 slc (kstepZ 0 slc4 slc z za wm kmask) (kstepA 0 slc4 slc z za wm kmask) wm kmask) := rfl

theorem r_3_eq :
    kernelRun0.sl.r_3 c arg1 harg1 arg2 harg2 arg3 harg3 x0 x1 x2 = (kA2 x0 x1 x2) := by
  unfold kernelRun0.sl.r_3
  rw [v67_eq, r_eq, r_1_eq, r_2_eq]
  exact pure_r_3 (kgather x0) (kgather x1) (kwm x2)

theorem pure_r_4 (z za : FVec F S512x16x128 .f32) (wm : FVec F S128x4 .bf16) :
    k0_pay39 z wm k0_pay33 (mulf (broadcast S512x16x128 (Scalar.ofBits .f32 0x3F666666#32)) za) (kpart29 0 slc4 slc z z wm kmask)
      = (kstepZ 1 slc4 slc (kstepZ 0 slc4 slc z za wm kmask) (kstepA 0 slc4 slc z za wm kmask) wm kmask) := rfl

theorem r_4_eq :
    kernelRun0.sl.r_4 c arg1 harg1 arg2 harg2 arg3 harg3 x0 x1 x2 = (kZ2 x0 x1 x2) := by
  unfold kernelRun0.sl.r_4
  rw [v67_eq, r_eq, r_1_eq, r_2_eq]
  exact pure_r_4 (kgather x0) (kgather x1) (kwm x2)

theorem pure_r_5 (z za : FVec F S512x16x128 .f32) (wm : FVec F S128x4 .bf16) :
    k0_pay41 z wm k0_pay33 (mulf (broadcast S512x16x128 (Scalar.ofBits .f32 0x3F666666#32)) za) (kpart29 0 slc4 slc z z wm kmask)
      = (kpart5 2 slc4 slc (kstepZ 1 slc4 slc (kstepZ 0 slc4 slc z za wm kmask) (kstepA 0 slc4 slc z za wm kmask) wm kmask) (kstepA 1 slc4 slc (kstepZ 0 slc4 slc z za wm kmask) (kstepA 0 slc4 slc z za wm kmask) wm kmask) wm kmask) := rfl

theorem r_5_eq :
    kernelRun0.sl.r_5 c arg1 harg1 arg2 harg2 arg3 harg3 x0 x1 x2 = (kpart5 2 slc4 slc (kZ2 x0 x1 x2) (kA2 x0 x1 x2) (kwm x2) kmask) := by
  unfold kernelRun0.sl.r_5
  rw [v67_eq, r_eq, r_1_eq, r_2_eq]
  exact pure_r_5 (kgather x0) (kgather x1) (kwm x2)

theorem pure_r_6 (z za : FVec F S512x16x128 .f32) (wm : FVec F S128x4 .bf16) :
    k0_pay42 z wm k0_pay33 (mulf (broadcast S512x16x128 (Scalar.ofBits .f32 0x3F666666#32)) za) (kpart29 0 slc4 slc z z wm kmask)
      = (kpart6 2 slc4 slc (kstepZ 1 slc4 slc (kstepZ 0 slc4 slc z za wm kmask) (kstepA 0 slc4 slc z za wm kmask) wm kmask) (kstepA 1 slc4 slc (kstepZ 0 slc4 slc z za wm kmask) (kstepA 0 slc4 slc z za wm kmask) wm kmask) wm kmask) := rfl

theorem r_6_eq :
    kernelRun0.sl.r_6 c arg1 harg1 arg2 harg2 arg3 harg3 x0 x1 x2 = (kpart6 2 slc4 slc (kZ2 x0 x1 x2) (kA2 x0 x1 x2) (kwm x2) kmask) := by
  unfold kernelRun0.sl.r_6
  rw [v67_eq, r_eq, r_1_eq, r_2_eq]
  exact pure_r_6 (kgather x0) (kgather x1) (kwm x2)

theorem pure_r_7 (z za : FVec F S512x16x128 .f32) (wm : FVec F S128x4 .bf16) :
    k0_pay43 k0_pay33 za z (kpart5 2 slc4 slc z za wm kmask) (kpart6 2 slc4 slc z za wm kmask)
      = (kstepA 2 slc4 slc z za wm kmask) := rfl

theorem r_7_eq :
    kernelRun0.sl.r_7 c arg1 harg1 arg2 harg2 arg3 harg3 x0 x1 x2 = (kA3 x0 x1 x2) := by
  unfold kernelRun0.sl.r_7
  rw [r_3_eq, r_4_eq, r_5_eq, r_6_eq]
  exact pure_r_7 (kZ2 x0 x1 x2) (kA2 x0 x1 x2) (kwm x2)

theorem pure_r_8 (z za : FVec F S512x16x128 .f32) (wm : FVec F S128x4 .bf16) :
    k0_pay44 k0_pay33 za z (kpart5 2 slc4 slc z za wm kmask) (kpart6 2 slc4 slc z za wm kmask)
      = (kstepZ 2 slc4 slc z za wm kmask) := rfl

theorem r_8_eq :
    kernelRun0.sl.r_8 c arg1 harg1 arg2 harg2 arg3 harg3 x0 x1 x2 = (kZ3 x0 x1 x2) := by
  unfold kernelRun0.sl.r_8
  rw [r_3_eq, r_4_eq, r_5_eq, r_6_eq]
  exact pure_r_8 (kZ2 x0 x1 x2) (kA2 x0 x1 x2) (kwm x2)

theorem pure_r_9 (z za : FVec F S512x16x128 .f32) (wm : FVec F S128x4 .bf16) :
    k0_pay45 wm k0_pay33 za z (kpart5 2 slc4 slc z za wm kmask) (kpart6 2 slc4 slc z za wm kmask)
      = (kpart16 3 slc4 slc (kstepZ 2 slc4 slc z za wm kmask) (kstepA 2 slc4 slc z za wm kmask) wm kmask) := rfl

theorem r_9_eq :
    kernelRun0.sl.r_9 c arg1 harg1 arg2 harg2 arg3 harg3 x0 x1 x2 = (kpart16 3 slc4 slc (kZ3 x0 x1 x2) (kA3 x0 x1 x2) (kwm x2) kmask) := by
  unfold kernelRun0.sl.r_9
  rw [r_eq, r_3_eq, r_4_eq, r_5_eq, r_6_eq]
  exact pure_r_9 (kZ2 x0 x1 x2) (kA2 x0 x1 x2) (kwm x2)

theorem pure_r_10 (z za : FVec F S512x16x128 .f32) (wm : FVec F S128x4 .bf16) :
    k0_pay46 k0_pay33 za z (kpart5 2 slc4 slc z za wm kmask) (kpart6 2 slc4 slc z za wm kmask)
      = (kpart19 3 slc4 slc (kstepZ 2 slc4 slc z za wm kmask) (kstepA 2 slc4 slc z za wm kmask) wm kmask) := rfl

theorem r_10_eq :
    kernelRun0.sl.r_10 c arg1 harg1 arg2 harg2 arg3 harg3 x0 x1 x2 = (kpart19 3 slc4 slc (kZ3 x0 x1 x2) (kA3 x0 x1 x2) (kwm x2) kmask) := by
  unfold kernelRun0.sl.r_10
  rw [r_3_eq, r_4_eq, r_5_eq, r_6_eq]
  exact pure_r_10 (kZ2 x0 x1 x2) (kA2 x0 x1 x2) (kwm x2)

theorem pure_r_11 (z za : FVec F S512x16x128 .f32) (wm : FVec F S128x4 .bf16) :
    k0_pay47 k0_pay33 za z (kpart5 2 slc4 slc z za wm kmask) (kpart6 2 slc4 slc z za wm kmask)
      = (kpart20 3 slc4 slc (kstepZ 2 slc4 slc z za wm kmask) (kstepA 2 slc4 slc z za wm kmask) wm kmask) := rfl

theorem r_11_eq :
    kernelRun0.sl.r_11 c arg1 harg1 arg2 harg2 arg3 harg3 x0 x1 x2 = (kpart20 3 slc4 slc (kZ3 x0 x1 x2) (kA3 x0 x1 x2) (kwm x2) kmask) := by
  unfold kernelRun0.sl.r_11
  rw [r_3_eq, r_4_eq, r_5_eq, r_6_eq]
  exact pure_r_11 (kZ2 x0 x1 x2) (kA2 x0 x1 x2) (kwm x2)

theorem pure_r_12 (z za : FVec F S512x16x128 .f32) (wm : FVec F S128x4 .bf16) :
    k0_pay50 wm k0_pay33 za z (kpart16 3 slc4 slc z za wm kmask) (kpart19 3 slc4 slc z za wm kmask) (kpart20 3 slc4 slc z za wm kmask)
      = (kstepA 4 slc4 slc (kstepZ 3 slc4 slc z za wm kmask) (kstepA 3 slc4 slc z za wm kmask) wm kmask) := rfl

theorem r_12_eq :
    kernelRun0.sl.r_12 c arg1 harg1 arg2 harg2 arg3 harg3 x0 x1 x2 = (kA5 x0 x1 x2) := by
  unfold kernelRun0.sl.r_12
  rw [r_eq, r_7_eq, r_8_eq, r_9_eq, r_10_eq, r_11_eq]
  exact pure_r_12 (kZ3 x0 x1 x2) (kA3 x0 x1 x2) (kwm x2)

theorem pure_r_13 (z za : FVec F S512x16x128 .f32) (wm : FVec F S128x4 .bf16) :
    k0_pay51 za z (kpart16 3 slc4 slc z za wm kmask) (kpart19 3 slc4 slc z za wm kmask) (kpart20 3 slc4 slc z za wm kmask)
      = (kpart32 4 slc4 slc (kstepZ 3 slc4 slc z za wm kmask) (kstepA 3 slc4 slc z za wm kmask) wm kmask) := rfl

theorem r_13_eq :
    kernelRun0.sl.r_13 c arg1 harg1 arg2 harg2 arg3 harg3 x0 x1 x2 = (kpart32 4 slc4 slc (kZ4 x0 x1 x2) (kA4 x0 x1 x2) (kwm x2) kmask) := by
  unfold kernelRun0.sl.r_13
  rw [r_7_eq, r_8_eq, r_9_eq, r_10_eq, r_11_eq]
  exact pure_r_13 (kZ3 x0 x1 x2) (kA3 x0 x1 x2) (kwm x2)

theorem pure_r_14 (z za : FVec F S512x16x128 .f32) (wm : FVec F S128x4 .bf16) :
    k0_pay53 wm k0_pay33 (kstepA 4 slc4 slc z za wm kmask) (kpart32 4 slc4 slc z za wm kmask)
      = (kstepA 5 slc4 slc (kstepZ 4 slc4 slc z za wm kmask) (kstepA 4 slc4 slc z za wm kmask) wm kmask) := rfl

theorem r_14_eq :
    kernelRun0.sl.r_14 c arg1 harg1 arg2 harg2 arg3 harg3 x0 x1 x2 = (kA6 x0 x1 x2) := by
  unfold kernelRun0.sl.r_14
  rw [r_eq, r_12_eq, r_13_eq]
  exact pure_r_14 (kZ4 x0 x1 x2) (kA4 x0 x1 x2) (kwm x2)

theorem pure_r_15 (z za : FVec F S512x16x128 .f32) (wm : FVec F S128x4 .bf16) :
    k0_pay54 wm k0_pay33 (kstepA 4 slc4 slc z za wm kmask) (kpart32 4 slc4 slc z za wm kmask)
      = (kstepZ 5 slc4 slc (kstepZ 4 slc4 slc z za wm kmask) (kstepA 4 slc4 slc z za wm kmask) wm kmask) := rfl

theorem r_15_eq :
    kernelRun0.sl.r_15 c arg1 harg1 arg2 harg2 arg3 harg3 x0 x1 x2 = (kZ6 x0 x1 x2) := by
  unfold kernelRun0.sl.r_15
  rw [r_eq, r_12_eq, r_13_eq]
  exact pure_r_15 (kZ4 x0 x1 x2) (kA4 x0 x1 x2) (kwm x2)

theorem pure_r_16 (z za : FVec F S512x16x128 .f32) (wm : FVec F S128x4 .bf16) :
    k0_pay55 wm k0_pay33 (kstepA 4 slc4 slc z za wm kmask) (kpart32 4 slc4 slc z za wm kmask)
      = (kpart9 6 slc4 slc (kstepZ 5 slc4 slc (kstepZ 4 slc4 slc z za wm kmask) (kstepA 4 slc4 slc z za wm kmask) wm kmask) (kstepA 5 slc4 slc (kstepZ 4 slc4 slc z za wm kmask) (kstepA 4 slc4 slc z za wm kmask) wm kmask) wm kmask) := rfl

theorem r_16_eq :
    kernelRun0.sl.r_16 c arg1 harg1 arg2 harg2 arg3 harg3 x0 x1 x2 = (kpart9 6 slc4 slc (kZ6 x0 x1 x2) (kA6 x0 x1 x2) (kwm x2) kmask) := by
  unfold kernelRun0.sl.r_16
  rw [r_eq, r_12_eq, r_13_eq]
  exact pure_r_16 (kZ4 x0 x1 x2) (kA4 x0 x1 x2) (kwm x2)

theorem pure_r_17 (z za : FVec F S512x16x128 .f32) (wm : FVec F S128x4 .bf16) :
    k0_pay56 k0_pay33 za z (kpart9 6 slc4 slc z za wm kmask)
      = (kstepA 6 slc4 slc z za wm kmask) := rfl

theorem r_17_eq :
    kernelRun0.sl.r_17 c arg1 harg1 arg2 harg2 arg3 harg3 x0 x1 x2 = (kA7 x0 x1 x2) := by
  unfold kernelRun0.sl.r_17
  rw [r_14_eq, r_15_eq, r_16_eq]
  exact pure_r_17 (kZ6 x0 x1 x2) (kA6 x0 x1 x2) (kwm x2)

theorem pure_r_18 (z za : FVec F S512x16x128 .f32) (wm : FVec F S128x4 .bf16) :
    k0_pay57 k0_pay33 za z (kpart9 6 slc4 slc z za wm kmask)
      = (kstepZ 6 slc4 slc z za wm kmask) := rfl

theorem r_18_eq :
    kernelRun0.sl.r_18 c arg1 harg1 arg2 harg2 arg3 harg3 x0 x1 x2 = (kZ7 x0 x1 x2) := by
  unfold kernelRun0.sl.r_18
  rw [r_14_eq, r_15_eq, r_16_eq]
  exact pure_r_18 (kZ6 x0 x1 x2) (kA6 x0 x1 x2) (kwm x2)

theorem pure_r_19 (z za : FVec F S512x16x128 .f32) (wm : FVec F S128x4 .bf16) :
    k0_pay58 wm k0_pay33 za z (kpart9 6 slc4 slc z za wm kmask)
      = (kpart22 7 slc4 slc (kstepZ 6 slc4 slc z za wm kmask) (kstepA 6 slc4 slc z za wm kmask) wm kmask) := rfl

theorem r_19_eq :
    kernelRun0.sl.r_19 c arg1 harg1 arg2 harg2 arg3 harg3 x0 x1 x2 = (kpart22 7 slc4 slc (kZ7 x0 x1 x2) (kA7 x0 x1 x2) (kwm x2) kmask) := by
  unfold kernelRun0.sl.r_19
  rw [r_eq, r_14_eq, r_15_eq, r_16_eq]
  exact pure_r_19 (kZ6 x0 x1 x2) (kA6 x0 x1 x2) (kwm x2)

theorem pure_r_20 (z za : FVec F S512x16x128 .f32) (wm : FVec F S128x4 .bf16) :
    k0_pay62 wm k0_pay33 za z (kpart22 7 slc4 slc z za wm kmask) k0_pay59
      = (kstepA 8 slc4 slc (kstepZ 7 slc4 slc z za wm kmask) (kstepA 7 slc4 slc z za wm kmask) wm kmask) := rfl

theorem r_20_eq :
    kernelRun0.sl.r_20 c arg1 harg1 arg2 harg2 arg3 harg3 x0 x1 x2 = (kA9 x0 x1 x2) := by
  unfold kernelRun0.sl.r_20
  rw [r_eq, r_17_eq, r_18_eq, r_19_eq]
  exact pure_r_20 (kZ7 x0 x1 x2) (kA7 x0 x1 x2) (kwm x2)

theorem pure_r_21 (z za : FVec F S512x16x128 .f32) (wm : FVec F S128x4 .bf16) :
    k0_pay63 wm k0_pay33 za z (kpart22 7 slc4 slc z za wm kmask) k0_pay59
      = (kstepZ 8 slc4 slc (kstepZ 7 slc4 slc z za wm kmask) (kstepA 7 slc4 slc z za wm kmask) wm kmask) := rfl

theorem r_21_eq :
    kernelRun0.sl.r_21 c arg1 harg1 arg2 harg2 arg3 harg3 x0 x1 x2 = (kZ9 x0 x1 x2) := by
  unfold kernelRun0.sl.r_21
  rw [r_eq, r_17_eq, r_18_eq, r_19_eq]
  exact pure_r_21 (kZ7 x0 x1 x2) (kA7 x0 x1 x2) (kwm x2)

theorem pure_r_22 (z za : FVec F S512x16x128 .f32) (wm : FVec F S128x4 .bf16) :
    k0_pay64 wm k0_pay33 za z
      = (kstepA 9 slc4 slc z za wm kmask) := rfl

theorem r_22_eq :
    kernelRun0.sl.r_22 c arg1 harg1 arg2 harg2 arg3 harg3 x0 x1 x2 = (kA10 x0 x1 x2) := by
  unfold kernelRun0.sl.r_22
  rw [r_eq, r_20_eq, r_21_eq]
  exact pure_r_22 (kZ9 x0 x1 x2) (kA9 x0 x1 x2) (kwm x2)

theorem pure_r_23 (z za : FVec F S512x16x128 .f32) (wm : FVec F S128x4 .bf16) :
    k0_pay65 wm k0_pay33 za z
      = (kstepZ 9 slc4 slc z za wm kmask) := rfl

theorem r_23_eq :
    kernelRun0.sl.r_23 c arg1 harg1 arg2 harg2 arg3 harg3 x0 x1 x2 = (kZ10 x0 x1 x2) := by
  unfold kernelRun0.sl.r_23
  rw [r_eq, r_20_eq, r_21_eq]
  exact pure_r_23 (kZ9 x0 x1 x2) (kA9 x0 x1 x2) (kwm x2)

theorem pure_r_24 (z za : FVec F S512x16x128 .f32) (wm : FVec F S128x4 .bf16) :
    k0_pay67 wm k0_pay33 za z
      = (kpart12 10 slc4 slc (kstepZ 9 slc4 slc z za wm kmask) (kstepA 9 slc4 slc z za wm kmask) wm kmask) := rfl

theorem r_24_eq :
    kernelRun0.sl.r_24 c arg1 harg1 arg2 harg2 arg3 harg3 x0 x1 x2 = (kpart12 10 slc4 slc (kZ10 x0 x1 x2) (kA10 x0 x1 x2) (kwm x2) kmask) := by
  unfold kernelRun0.sl.r_24
  rw [r_eq, r_20_eq, r_21_eq]
  exact pure_r_24 (kZ9 x0 x1 x2) (kA9 x0 x1 x2) (kwm x2)

theorem pure_r_25 (z za : FVec F S512x16x128 .f32) (wm : FVec F S128x4 .bf16) :
    k0_pay68 wm k0_pay33 za z
      = (kpart13 10 slc4 slc (kstepZ 9 slc4 slc z za wm kmask) (kstepA 9 slc4 slc z za wm kmask) wm kmask) := rfl

theorem r_25_eq :
    kernelRun0.sl.r_25 c arg1 harg1 arg2 harg2 arg3 harg3 x0 x1 x2 = (kpart13 10 slc4 slc (kZ10 x0 x1 x2) (kA10 x0 x1 x2) (kwm x2) kmask) := by
  unfold kernelRun0.sl.r_25
  rw [r_eq, r_20_eq, r_21_eq]
  exact pure_r_25 (kZ9 x0 x1 x2) (kA9 x0 x1 x2) (kwm x2)

theorem pure_r_26 (z za : FVec F S512x16x128 .f32) (wm : FVec F S128x4 .bf16) :
    k0_pay69 k0_pay33 za z (kpart12 10 slc4 slc z za wm kmask) (kpart13 10 slc4 slc z za wm kmask)
      = (kstepA 10 slc4 slc z za wm kmask) := rfl

theorem r_26_eq :
    kernelRun0.sl.r_26 c arg1 harg1 arg2 harg2 arg3 harg3 x0 x1 x2 = (kA11 x0 x1 x2) := by
  unfold kernelRun0.sl.r_26
  rw [r_22_eq, r_23_eq, r_24_eq, r_25_eq]
  exact pure_r_26 (kZ10 x0 x1 x2) (kA10 x0 x1 x2) (kwm x2)

theorem pure_r_27 (z za : FVec F S512x16x128 .f32) (wm : FVec F S128x4 .bf16) :
    k0_pay70 k0_pay33 za z (kpart12 10 slc4 slc z za wm kmask) (kpart13 10 slc4 slc z za wm kmask)
      = (kstepZ 10 slc4 slc z za wm kmask) := rfl

theorem r_27_eq :
    kernelRun0.sl.r_27 c arg1 harg1 arg2 harg2 arg3 harg3 x0 x1 x2 = (kZ11 x0 x1 x2) := by
  unfold kernelRun0.sl.r_27
  rw [r_22_eq, r_23_eq, r_24_eq, r_25_eq]
  exact pure_r_27 (kZ10 x0 x1 x2) (kA10 x0 x1 x2) (kwm x2)

theorem pure_r_28 (z za : FVec F S512x16x128 .f32) (wm : FVec F S128x4 .bf16) :
    k0_pay71 wm k0_pay33 za z (kpart12 10 slc4 slc z za wm kmask) (kpart13 10 slc4 slc z za wm kmask)
      = (kpart25 11 slc4 slc (kstepZ 10 slc4 slc z za wm kmask) (kstepA 10 slc4 slc z za wm kmask) wm kmask) := rfl

theorem r_28_eq :
    kernelRun0.sl.r_28 c arg1 harg1 arg2 harg2 arg3 harg3 x0 x1 x2 = (kpart25 11 slc4 slc (kZ11 x0 x1 x2) (kA11 x0 x1 x2) (kwm x2) kmask) := by
  unfold kernelRun0.sl.r_28
  rw [r_eq, r_22_eq, r_23_eq, r_24_eq, r_25_eq]
  exact pure_r_28 (kZ10 x0 x1 x2) (kA10 x0 x1 x2) (kwm x2)

theorem pure_r_29 (z za : FVec F S512x16x128 .f32) (wm : FVec F S128x4 .bf16) :
    k0_pay75 wm k0_pay33 za z (kpart25 11 slc4 slc z za wm kmask) k0_pay72
      = (kstepA 12 slc4 slc (kstepZ 11 slc4 slc z za wm kmask) (kstepA 11 slc4 slc z za wm kmask) wm kmask) := rfl

theorem r_29_eq :
    kernelRun0.sl.r_29 c arg1 harg1 arg2 harg2 arg3 harg3 x0 x1 x2 = (kA13 x0 x1 x2) := by
  unfold kernelRun0.sl.r_29
  rw [r_eq, r_26_eq, r_27_eq, r_28_eq]
  exact pure_r_29 (kZ11 x0 x1 x2) (kA11 x0 x1 x2) (kwm x2)

theorem pure_r_30 (z za : FVec F S512x16x128 .f32) (wm : FVec F S128x4 .bf16) :
    k0_pay76 wm k0_pay33 za z (kpart25 11 slc4 slc z za wm kmask) k0_pay72
      = (kstepZ 12 slc4 slc (kstepZ 11 slc4 slc z za wm kmask) (kstepA 11 slc4 slc z za wm kmask) wm kmask) := rfl

theorem r_30_eq :
    kernelRun0.sl.r_30 c arg1 harg1 arg2 harg2 arg3 harg3 x0 x1 x2 = (kZ13 x0 x1 x2) := by
  unfold kernelRun0.sl.r_30
  rw [r_eq, r_26_eq, r_27_eq, r_28_eq]
  exact pure_r_30 (kZ11 x0 x1 x2) (kA11 x0 x1 x2) (kwm x2)

theorem pure_r_31 (z za : FVec F S512x16x128 .f32) (wm : FVec F S128x4 .bf16) :
    k0_pay77 wm k0_pay33 za z (kpart25 11 slc4 slc z za wm kmask) k0_pay72
      = (kpart2 13 slc4 slc (kstepZ 12 slc4 slc (kstepZ 11 slc4 slc z za wm kmask) (kstepA 11 slc4 slc z za wm kmask) wm kmask) (kstepA 12 slc4 slc (kstepZ 11 slc4 slc z za wm kmask) (kstepA 11 slc4 slc z za wm kmask) wm kmask) wm kmask) := rfl

theorem r_31_eq :
    kernelRun0.sl.r_31 c arg1 harg1 arg2 harg2 arg3 harg3 x0 x1 x2 = (kpart2 13 slc4 slc (kZ13 x0 x1 x2) (kA13 x0 x1 x2) (kwm x2) kmask) := by
  unfold kernelRun0.sl.r_31
  rw [r_eq, r_26_eq, r_27_eq, r_28_eq]
  exact pure_r_31 (kZ11 x0 x1 x2) (kA11 x0 x1 x2) (kwm x2)

theorem pure_r_32 (z za : FVec F S512x16x128 .f32) (wm : FVec F S128x4 .bf16) :
    k0_pay78 k0_pay33 za z (kpart2 13 slc4 slc z za wm kmask)
      = (kstepA 13 slc4 slc z za wm kmask) := rfl

theorem r_32_eq :
    kernelRun0.sl.r_32 c arg1 harg1 arg2 harg2 arg3 harg3 x0 x1 x2 = (kA14 x0 x1 x2) := by
  unfold kernelRun0.sl.r_32
  rw [r_29_eq, r_30_eq, r_31_eq]
  exact pure_r_32 (kZ13 x0 x1 x2) (kA13 x0 x1 x2) (kwm x2)

theorem pure_r_33 (z za : FVec F S512x16x128 .f32) (wm : FVec F S128x4 .bf16) :
    k0_pay79 k0_pay33 za z (kpart2 13 slc4 slc z za wm kmask)
      = (kstepZ 13 slc4 slc z za wm kmask) := rfl

theorem r_33_eq :
    kernelRun0.sl.r_33 c arg1 harg1 arg2 harg2 arg3 harg3 x0 x1 x2 = (kZ14 x0 x1 x2) := by
  unfold kernelRun0.sl.r_33
  rw [r_29_eq, r_30_eq, r_31_eq]
  exact pure_r_33 (kZ13 x0 x1 x2) (kA13 x0 x1 x2) (kwm x2)

theorem pure_r_34 (z za : FVec F S512x16x128 .f32) (wm : FVec F S128x4 .bf16) :
    k0_pay80 wm k0_pay33 za z (kpart2 13 slc4 slc z za wm kmask)
      = (kpart16 14 slc4 slc (kstepZ 13 slc4 slc z za wm kmask) (kstepA 13 slc4 slc z za wm kmask) wm kmask) := rfl

theorem r_34_eq :
    kernelRun0.sl.r_34 c arg1 harg1 arg2 harg2 arg3 harg3 x0 x1 x2 = (kpart16 14 slc4 slc (kZ14 x0 x1 x2) (kA14 x0 x1 x2) (kwm x2) kmask) := by
  unfold kernelRun0.sl.r_34
  rw [r_eq, r_29_eq, r_30_eq, r_31_eq]
  exact pure_r_34 (kZ13 x0 x1 x2) (kA13 x0 x1 x2) (kwm x2)

theorem pure_r_35 (z za : FVec F S512x16x128 .f32) (wm : FVec F S128x4 .bf16) :
    k0_pay81 k0_pay33 za z (kpart2 13 slc4 slc z za wm kmask)
      = (kpart17 14 slc4 slc (kstepZ 13 slc4 slc z za wm kmask) (kstepA 13 slc4 slc z za wm kmask) wm kmask) := rfl

theorem r_35_eq :
    kernelRun0.sl.r_35 c arg1 harg1 arg2 harg2 arg3 harg3 x0 x1 x2 = (kpart17 14 slc4 slc (kZ14 x0 x1 x2) (kA14 x0 x1 x2) (kwm x2) kmask) := by
  unfold kernelRun0.sl.r_35
  rw [r_29_eq, r_30_eq, r_31_eq]
  exact pure_r_35 (kZ13 x0 x1 x2) (kA13 x0 x1 x2) (kwm x2)

theorem pure_r_36 (z za : FVec F S512x16x128 .f32) (wm : FVec F S128x4 .bf16) :
    k0_pay83 za z (kpart16 14 slc4 slc z za wm kmask) (kpart17 14 slc4 slc z za wm kmask)
      = (kstepZ 14 slc4 slc z za wm kmask) := rfl

theorem r_36_eq :
    kernelRun0.sl.r_36 c arg1 harg1 arg2 harg2 arg3 harg3 x0 x1 x2 = (kZ15 x0 x1 x2) := by
  unfold kernelRun0.sl.r_36
  rw [r_32_eq, r_33_eq, r_34_eq, r_35_eq]
  exact pure_r_36 (kZ14 x0 x1 x2) (kA14 x0 x1 x2) (kwm x2)

theorem pure_r_37 (z za : FVec F S512x16x128 .f32) (wm : FVec F S128x4 .bf16) :
    k0_pay84 za z (kpart16 14 slc4 slc z za wm kmask) (kpart17 14 slc4 slc z za wm kmask)
      = (kpart27 15 slc4 slc (kstepZ 14 slc4 slc z za wm kmask) (kstepA 14 slc4 slc z za wm kmask) wm kmask) := rfl

theorem r_37_eq :
    kernelRun0.sl.r_37 c arg1 harg1 arg2 harg2 arg3 harg3 x0 x1 x2 = (kpart27 15 slc4 slc (kZ15 x0 x1 x2) (kA15 x0 x1 x2) (kwm x2) kmask) := by
  unfold kernelRun0.sl.r_37
  rw [r_32_eq, r_33_eq, r_34_eq, r_35_eq]
  exact pure_r_37 (kZ14 x0 x1 x2) (kA14 x0 x1 x2) (kwm x2)

theorem pure_r_38 (z za : FVec F S512x16x128 .f32) (wm : FVec F S128x4 .bf16) :
    k0_pay85 wm k0_pay33 za z (kpart16 14 slc4 slc z za wm kmask) (kpart17 14 slc4 slc z za wm kmask)
      = (kpart29 15 slc4 slc (kstepZ 14 slc4 slc z za wm kmask) (kstepA 14 slc4 slc z za wm kmask) wm kmask) := rfl

theorem r_38_eq :
    kernelRun0.sl.r_38 c arg1 harg1 arg2 harg2 arg3 harg3 x0 x1 x2 = (kpart29 15 slc4 slc (kZ15 x0 x1 x2) (kA15 x0 x1 x2) (kwm x2) kmask) := by
  unfold kernelRun0.sl.r_38
  rw [r_eq, r_32_eq, r_33_eq, r_34_eq, r_35_eq]
  exact pure_r_38 (kZ14 x0 x1 x2) (kA14 x0 x1 x2) (kwm x2)

theorem pure_r_39 (z za : FVec F S512x16x128 .f32) (wm : FVec F S128x4 .bf16) :
    k0_pay86 (kpart27 15 slc4 slc z za wm kmask) (kpart29 15 slc4 slc z za wm kmask)
      = (kstepA 15 slc4 slc z za wm kmask) := rfl

theorem r_39_eq :
    kernelRun0.sl.r_39 c arg1 harg1 arg2 harg2 arg3 harg3 x0 x1 x2 = (kA16 x0 x1 x2) := by
  unfold kernelRun0.sl.r_39
  rw [r_37_eq, r_38_eq]
  exact pure_r_39 (kZ15 x0 x1 x2) (kA15 x0 x1 x2) (kwm x2)

theorem pure_r_40 (z za : FVec F S512x16x128 .f32) (wm : FVec F S128x4 .bf16) :
    k0_pay87 z (kpart27 15 slc4 slc z za wm kmask) (kpart29 15 slc4 slc z za wm kmask)
      = (kstepZ 15 slc4 slc z za wm kmask) := rfl

theorem r_40_eq :
    kernelRun0.sl.r_40 c arg1 harg1 arg2 harg2 arg3 harg3 x0 x1 x2 = (kZ16 x0 x1 x2) := by
  unfold kernelRun0.sl.r_40
  rw [r_36_eq, r_37_eq, r_38_eq]
  exact pure_r_40 (kZ15 x0 x1 x2) (kA15 x0 x1 x2) (kwm x2)

theorem pure_r_41 (z za : FVec F S512x16x128 .f32) (wm : FVec F S128x4 .bf16) :
    k0_pay88 z (kpart27 15 slc4 slc z za wm kmask) (kpart29 15 slc4 slc z za wm kmask)
      = (extractStridedSlice S512x1x128 ![0, 0, 0] (kstepZ 15 slc4 slc z za wm kmask) slc) := rfl

theorem r_41_eq :
    kernelRun0.sl.r_41 c arg1 harg1 arg2 harg2 arg3 harg3 x0 x1 x2 = (extractStridedSlice S512x1x128 ![0, 0, 0] (kZ16 x0 x1 x2) slc) := by
  unfold kernelRun0.sl.r_41
  rw [r_36_eq, r_37_eq, r_38_eq]
  exact pure_r_41 (kZ15 x0 x1 x2) (kA15 x0 x1 x2) (kwm x2)

theorem pure_r_42 (z za : FVec F S512x16x128 .f32) (wm : FVec F S128x4 .bf16) :
    k0_pay89 z (kpart27 15 slc4 slc z za wm kmask) (kpart29 15 slc4 slc z za wm kmask)
      = (kroll S2x1x128 S510x1x128 510 (extractStridedSlice S512x1x128 ![0, 1, 0] (kstepZ 15 slc4 slc z za wm kmask) slc) slices_S512x1x128_o510_0_0_S2x1x128 slices_S512x1x128_o0_0_0_S510x1x128 concatenates_S2x1x128_S510x1x128_S512x1x128_d0) := rfl

theorem r_42_eq :
    kernelRun0.sl.r_42 c arg1 harg1 arg2 harg2 arg3 harg3 x0 x1 x2 = (kroll S2x1x128 S510x1x128 510 (extractStridedSlice S512x1x128 ![0, 1, 0] (kZ16 x0 x1 x2) slc) slices_S512x1x128_o510_0_0_S2x1x128 slices_S512x1x128_o0_0_0_S510x1x128 concatenates_S2x1x128_S510x1x128_S512x1x128_d0) := by
  unfold kernelRun0.sl.r_42
  rw [r_36_eq, r_37_eq, r_38_eq]
  exact pure_r_42 (kZ15 x0 x1 x2) (kA15 x0 x1 x2) (kwm x2)

theorem pure_r_43 (z za : FVec F S512x16x128 .f32) (wm : FVec F S128x4 .bf16) :
    k0_pay90 z (kpart27 15 slc4 slc z za wm kmask) (kpart29 15 slc4 slc z za wm kmask)
      = (kroll S4x1x128 S508x1x128 508 (extractStridedSlice S512x1x128 ![0, 2, 0] (kstepZ 15 slc4 slc z za wm kmask) slc) slices_S512x1x128_o508_0_0_S4x1x128 slices_S512x1x128_o0_0_0_S508x1x128 concatenates_S4x1x128_S508x1x128_S512x1x128_d0) := rfl

theorem r_43_eq :
    kernelRun0.sl.r_43 c arg1 harg1 arg2 harg2 arg3 harg3 x0 x1 x2 = (kroll S4x1x128 S508x1x128 508 (extractStridedSlice S512x1x128 ![0, 2, 0] (kZ16 x0 x1 x2) slc) slices_S512x1x128_o508_0_0_S4x1x128 slices_S512x1x128_o0_0_0_S508x1x128 concatenates_S4x1x128_S508x1x128_S512x1x128_d0) := by
  unfold kernelRun0.sl.r_43
  rw [r_36_eq, r_37_eq, r_38_eq]
  exact pure_r_43 (kZ15 x0 x1 x2) (kA15 x0 x1 x2) (kwm x2)

theorem pure_r_44 (z za : FVec F S512x16x128 .f32) (wm : FVec F S128x4 .bf16) :
    k0_pay91 z (kpart27 15 slc4 slc z za wm kmask) (kpart29 15 slc4 slc z za wm kmask)
      = (kroll S6x1x128 S506x1x128 506 (extractStridedSlice S512x1x128 ![0, 3, 0] (kstepZ 15 slc4 slc z za wm kmask) slc) slices_S512x1x128_o506_0_0_S6x1x128 slices_S512x1x128_o0_0_0_S506x1x128 concatenates_S6x1x128_S506x1x128_S512x1x128_d0) := rfl

theorem r_44_eq :
    kernelRun0.sl.r_44 c arg1 harg1 arg2 harg2 arg3 harg3 x0 x1 x2 = (kroll S6x1x128 S506x1x128 506 (extractStridedSlice S512x1x128 ![0, 3, 0] (kZ16 x0 x1 x2) slc) slices_S512x1x128_o506_0_0_S6x1x128 slices_S512x1x128_o0_0_0_S506x1x128 concatenates_S6x1x128_S506x1x128_S512x1x128_d0) := by
  unfold kernelRun0.sl.r_44
  rw [r_36_eq, r_37_eq, r_38_eq]
  exact pure_r_44 (kZ15 x0 x1 x2) (kA15 x0 x1 x2) (kwm x2)

theorem pure_r_45 (z za : FVec F S512x16x128 .f32) (wm : FVec F S128x4 .bf16) :
    k0_pay92 z (kpart27 15 slc4 slc z za wm kmask) (kpart29 15 slc4 slc z za wm kmask)
      = (kroll S8x1x128 S504x1x128 504 (extractStridedSlice S512x1x128 ![0, 4, 0] (kstepZ 15 slc4 slc z za wm kmask) slc) slices_S512x1x128_o504_0_0_S8x1x128 slices_S512x1x128_o0_0_0_S504x1x128 concatenates_S8x1x128_S504x1x128_S512x1x128_d0) := rfl

theorem r_45_eq :
    kernelRun0.sl.r_45 c arg1 harg1 arg2 harg2 arg3 harg3 x0 x1 x2 = (kroll S8x1x128 S504x1x128 504 (extractStridedSlice S512x1x128 ![0, 4, 0] (kZ16 x0 x1 x2) slc) slices_S512x1x128_o504_0_0_S8x1x128 slices_S512x1x128_o0_0_0_S504x1x128 concatenates_S8x1x128_S504x1x128_S512x1x128_d0) := by
  unfold kernelRun0.sl.r_45
  rw [r_36_eq, r_37_eq, r_38_eq]
  exact pure_r_45 (kZ15 x0 x1 x2) (kA15 x0 x1 x2) (kwm x2)

theorem pure_r_46 (z za : FVec F S512x16x128 .f32) (wm : FVec F S128x4 .bf16) :
    k0_pay93 z (kpart27 15 slc4 slc z za wm kmask) (kpart29 15 slc4 slc z za wm kmask)
      = (kroll S10x1x128 S502x1x128 502 (extractStridedSlice S512x1x128 ![0, 5, 0] (kstepZ 15 slc4 slc z za wm kmask) slc) slices_S512x1x128_o502_0_0_S10x1x128 slices_S512x1x128_o0_0_0_S502x1x128 concatenates_S10x1x128_S502x1x128_S512x1x128_d0) := rfl

theorem r_46_eq :
    kernelRun0.sl.r_46 c arg1 harg1 arg2 harg2 arg3 harg3 x0 x1 x2 = (kroll S10x1x128 S502x1x128 502 (extractStridedSlice S512x1x128 ![0, 5, 0] (kZ16 x0 x1 x2) slc) slices_S512x1x128_o502_0_0_S10x1x128 slices_S512x1x128_o0_0_0_S502x1x128 concatenates_S10x1x128_S502x1x128_S512x1x128_d0) := by
  unfold kernelRun0.sl.r_46
  rw [r_36_eq, r_37_eq, r_38_eq]
  exact pure_r_46 (kZ15 x0 x1 x2) (kA15 x0 x1 x2) (kwm x2)

theorem pure_r_47 (z za : FVec F S512x16x128 .f32) (wm : FVec F S128x4 .bf16) :
    k0_pay94 z (kpart27 15 slc4 slc z za wm kmask) (kpart29 15 slc4 slc z za wm kmask)
      = (kroll S12x1x128 S500x1x128 500 (extractStridedSlice S512x1x128 ![0, 6, 0] (kstepZ 15 slc4 slc z za wm kmask) slc) slices_S512x1x128_o500_0_0_S12x1x128 slices_S512x1x128_o0_0_0_S500x1x128 concatenates_S12x1x128_S500x1x128_S512x1x128_d0) := rfl

theorem r_47_eq :
    kernelRun0.sl.r_47 c arg1 harg1 arg2 harg2 arg3 harg3 x0 x1 x2 = (kroll S12x1x128 S500x1x128 500 (extractStridedSlice S512x1x128 ![0, 6, 0] (kZ16 x0 x1 x2) slc) slices_S512x1x128_o500_0_0_S12x1x128 slices_S512x1x128_o0_0_0_S500x1x128 concatenates_S12x1x128_S500x1x128_S512x1x128_d0) := by
  unfold kernelRun0.sl.r_47
  rw [r_36_eq, r_37_eq, r_38_eq]
  exact pure_r_47 (kZ15 x0 x1 x2) (kA15 x0 x1 x2) (kwm x2)

theorem pure_r_48 (z za : FVec F S512x16x128 .f32) (wm : FVec F S128x4 .bf16) :
    k0_pay95 z (kpart27 15 slc4 slc z za wm kmask) (kpart29 15 slc4 slc z za wm kmask)
      = (kroll S14x1x128 S498x1x128 498 (extractStridedSlice S512x1x128 ![0, 7, 0] (kstepZ 15 slc4 slc z za wm kmask) slc) slices_S512x1x128_o498_0_0_S14x1x128 slices_S512x1x128_o0_0_0_S498x1x128 concatenates_S14x1x128_S498x1x128_S512x1x128_d0) := rfl

theorem r_48_eq :
    kernelRun0.sl.r_48 c arg1 harg1 arg2 harg2 arg3 harg3 x0 x1 x2 = (kroll S14x1x128 S498x1x128 498 (extractStridedSlice S512x1x128 ![0, 7, 0] (kZ16 x0 x1 x2) slc) slices_S512x1x128_o498_0_0_S14x1x128 slices_S512x1x128_o0_0_0_S498x1x128 concatenates_S14x1x128_S498x1x128_S512x1x128_d0) := by
  unfold kernelRun0.sl.r_48
  rw [r_36_eq, r_37_eq, r_38_eq]
  exact pure_r_48 (kZ15 x0 x1 x2) (kA15 x0 x1 x2) (kwm x2)

theorem pure_r_49 (z za : FVec F S512x16x128 .f32) (wm : FVec F S128x4 .bf16) :
    k0_pay96 z (kpart27 15 slc4 slc z za wm kmask) (kpart29 15 slc4 slc z za wm kmask)
      = (kroll S16x1x128 S496x1x128 496 (extractStridedSlice S512x1x128 ![0, 8, 0] (kstepZ 15 slc4 slc z za wm kmask) slc) slices_S512x1x128_o496_0_0_S16x1x128 slices_S512x1x128_o0_0_0_S496x1x128 concatenates_S16x1x128_S496x1x128_S512x1x128_d0) := rfl

theorem r_49_eq :
    kernelRun0.sl.r_49 c arg1 harg1 arg2 harg2 arg3 harg3 x0 x1 x2 = (kroll S16x1x128 S496x1x128 496 (extractStridedSlice S512x1x128 ![0, 8, 0] (kZ16 x0 x1 x2) slc) slices_S512x1x128_o496_0_0_S16x1x128 slices_S512x1x128_o0_0_0_S496x1x128 concatenates_S16x1x128_S496x1x128_S512x1x128_d0) := by
  unfold kernelRun0.sl.r_49
  rw [r_36_eq, r_37_eq, r_38_eq]
  exact pure_r_49 (kZ15 x0 x1 x2) (kA15 x0 x1 x2) (kwm x2)

theorem pure_r_50 (z za : FVec F S512x16x128 .f32) (wm : FVec F S128x4 .bf16) :
    k0_pay97 z (kpart27 15 slc4 slc z za wm kmask) (kpart29 15 slc4 slc z za wm kmask)
      = (kroll S18x1x128 S494x1x128 494 (extractStridedSlice S512x1x128 ![0, 9, 0] (kstepZ 15 slc4 slc z za wm kmask) slc) slices_S512x1x128_o494_0_0_S18x1x128 slices_S512x1x128_o0_0_0_S494x1x128 concatenates_S18x1x128_S494x1x128_S512x1x128_d0) := rfl

theorem r_50_eq :
    kernelRun0.sl.r_50 c arg1 harg1 arg2 harg2 arg3 harg3 x0 x1 x2 = (kroll S18x1x128 S494x1x128 494 (extractStridedSlice S512x1x128 ![0, 9, 0] (kZ16 x0 x1 x2) slc) slices_S512x1x128_o494_0_0_S18x1x128 slices_S512x1x128_o0_0_0_S494x1x128 concatenates_S18x1x128_S494x1x128_S512x1x128_d0) := by
  unfold kernelRun0.sl.r_50
  rw [r_36_eq, r_37_eq, r_38_eq]
  exact pure_r_50 (kZ15 x0 x1 x2) (kA15 x0 x1 x2) (kwm x2)

theorem pure_r_51 (z za : FVec F S512x16x128 .f32) (wm : FVec F S128x4 .bf16) :
    k0_pay98 z (kpart27 15 slc4 slc z za wm kmask) (kpart29 15 slc4 slc z za wm kmask)
      = (kroll S20x1x128 S492x1x128 492 (extractStridedSlice S512x1x128 ![0, 10, 0] (kstepZ 15 slc4 slc z za wm kmask) slc) slices_S512x1x128_o492_0_0_S20x1x128 slices_S512x1x128_o0_0_0_S492x1x128 concatenates_S20x1x128_S492x1x128_S512x1x128_d0) := rfl

theorem r_51_eq :
    kernelRun0.sl.r_51 c arg1 harg1 arg2 harg2 arg3 harg3 x0 x1 x2 = (kroll S20x1x128 S492x1x128 492 (extractStridedSlice S512x1x128 ![0, 10, 0] (kZ16 x0 x1 x2) slc) slices_S512x1x128_o492_0_0_S20x1x128 slices_S512x1x128_o0_0_0_S492x1x128 concatenates_S20x1x128_S492x1x128_S512x1x128_d0) := by
  unfold kernelRun0.sl.r_51
  rw [r_36_eq, r_37_eq, r_38_eq]
  exact pure_r_51 (kZ15 x0 x1 x2) (kA15 x0 x1 x2) (kwm x2)

theorem pure_r_52 (z za : FVec F S512x16x128 .f32) (wm : FVec F S128x4 .bf16) :
    k0_pay99 z (kpart27 15 slc4 slc z za wm kmask) (kpart29 15 slc4 slc z za wm kmask)
      = (kroll S22x1x128 S490x1x128 490 (extractStridedSlice S512x1x128 ![0, 11, 0] (kstepZ 15 slc4 slc z za wm kmask) slc) slices_S512x1x128_o490_0_0_S22x1x128 slices_S512x1x128_o0_0_0_S490x1x128 concatenates_S22x1x128_S490x1x128_S512x1x128_d0) := rfl

theorem r_52_eq :
    kernelRun0.sl.r_52 c arg1 harg1 arg2 harg2 arg3 harg3 x0 x1 x2 = (kroll S22x1x128 S490x1x128 490 (extractStridedSlice S512x1x128 ![0, 11, 0] (kZ16 x0 x1 x2) slc) slices_S512x1x128_o490_0_0_S22x1x128 slices_S512x1x128_o0_0_0_S490x1x128 concatenates_S22x1x128_S490x1x128_S512x1x128_d0) := by
  unfold kernelRun0.sl.r_52
  rw [r_36_eq, r_37_eq, r_38_eq]
  exact pure_r_52 (kZ15 x0 x1 x2) (kA15 x0 x1 x2) (kwm x2)

theorem pure_r_53 (z za : FVec F S512x16x128 .f32) (wm : FVec F S128x4 .bf16) :
    k0_pay100 z (kpart27 15 slc4 slc z za wm kmask) (kpart29 15 slc4 slc z za wm kmask)
      = (kroll S24x1x128 S488x1x128 488 (extractStridedSlice S512x1x128 ![0, 12, 0] (kstepZ 15 slc4 slc z za wm kmask) slc) slices_S512x1x128_o488_0_0_S24x1x128 slices_S512x1x128_o0_0_0_S488x1x128 concatenates_S24x1x128_S488x1x128_S512x1x128_d0) := rfl

theorem r_53_eq :
    kernelRun0.sl.r_53 c arg1 harg1 arg2 harg2 arg3 harg3 x0 x1 x2 = (kroll S24x1x128 S488x1x128 488 (extractStridedSlice S512x1x128 ![0, 12, 0] (kZ16 x0 x1 x2) slc) slices_S512x1x128_o488_0_0_S24x1x128 slices_S512x1x128_o0_0_0_S488x1x128 concatenates_S24x1x128_S488x1x128_S512x1x128_d0) := by
  unfold kernelRun0.sl.r_53
  rw [r_36_eq, r_37_eq, r_38_eq]
  exact pure_r_53 (kZ15 x0 x1 x2) (kA15 x0 x1 x2) (kwm x2)

theorem pure_r_54 (z za : FVec F S512x16x128 .f32) (wm : FVec F S128x4 .bf16) :
    k0_pay102 z (kpart27 15 slc4 slc z za wm kmask) (kpart29 15 slc4 slc z za wm kmask)
      = (extractStridedSlice S26x1x128 ![486, 0, 0] (extractStridedSlice S512x1x128 ![0, 13, 0] (kstepZ 15 slc4 slc z za wm kmask) slc) slices_S512x1x128_o486_0_0_S26x1x128) := rfl

theorem r_54_eq :
    kernelRun0.sl.r_54 c arg1 harg1 arg2 harg2 arg3 harg3 x0 x1 x2 = (extractStridedSlice S26x1x128 ![486, 0, 0] (extractStridedSlice S512x1x128 ![0, 13, 0] (kZ16 x0 x1 x2) slc) slices_S512x1x128_o486_0_0_S26x1x128) := by
  unfold kernelRun0.sl.r_54
  rw [r_36_eq, r_37_eq, r_38_eq]
  exact pure_r_54 (kZ15 x0 x1 x2) (kA15 x0 x1 x2) (kwm x2)

theorem pure_r_55 (z za : FVec F S512x16x128 .f32) (wm : FVec F S128x4 .bf16) :
    k0_pay103 z (kpart27 15 slc4 slc z za wm kmask) (kpart29 15 slc4 slc z za wm kmask)
      = (extractStridedSlice S486x1x128 ![0, 0, 0] (extractStridedSlice S512x1x128 ![0, 13, 0] (kstepZ 15 slc4 slc z za wm kmask) slc) slices_S512x1x128_o0_0_0_S486x1x128) := rfl

theorem r_55_eq :
    kernelRun0.sl.r_55 c arg1 harg1 arg2 harg2 arg3 harg3 x0 x1 x2 = (extractStridedSlice S486x1x128 ![0, 0, 0] (extractStridedSlice S512x1x128 ![0, 13, 0] (kZ16 x0 x1 x2) slc) slices_S512x1x128_o0_0_0_S486x1x128) := by
  unfold kernelRun0.sl.r_55
  rw [r_36_eq, r_37_eq, r_38_eq]
  exact pure_r_55 (kZ15 x0 x1 x2) (kA15 x0 x1 x2) (kwm x2)

theorem v773_eq :
    kernelRun0.sl.v773 c arg1 harg1 arg2 harg2 arg3 harg3 x0 x1 x2 = kscatter (kZ16 x0 x1 x2) := by
  unfold kernelRun0.sl.v773 kernelRun0.sl.v772 kernelRun0.sl.v771 kernelRun0.sl.v770 kernelRun0.sl.v769 kernelRun0.sl.v768 kernelRun0.sl.v767 kernelRun0.sl.v766 kernelRun0.sl.v765 kernelRun0.sl.v764 kernelRun0.sl.v763
  rw [r_40_eq, r_41_eq, r_42_eq, r_43_eq, r_44_eq, r_45_eq, r_46_eq, r_47_eq, r_48_eq, r_49_eq, r_50_eq, r_51_eq, r_52_eq, r_53_eq, r_54_eq, r_55_eq]
  rfl

theorem stored2_eq :
    k0_pay1 (kernelRun0.sl.r_39 c arg1 harg1 arg2 harg2 arg3 harg3 x0 x1 x2) (kernelRun0.sl.v775 c arg1 harg1 arg2 harg2 arg3 harg3 x0 x1 x2) (kernelRun0.sl.v779 c arg1 harg1 arg2 harg2 arg3 harg3 x0 x1 x2) (kernelRun0.sl.v783 c arg1 harg1 arg2 harg2 arg3 harg3 x0 x1 x2) (kernelRun0.sl.v787 c arg1 harg1 arg2 harg2 arg3 harg3 x0 x1 x2) (kernelRun0.sl.v791 c arg1 harg1 arg2 harg2 arg3 harg3 x0 x1 x2) (kernelRun0.sl.v795 c arg1 harg1 arg2 harg2 arg3 harg3 x0 x1 x2) (kernelRun0.sl.v799 c arg1 harg1 arg2 harg2 arg3 harg3 x0 x1 x2) (kernelRun0.sl.v803 c arg1 harg1 arg2 harg2 arg3 harg3 x0 x1 x2) (kernelRun0.sl.v807 c arg1 harg1 arg2 harg2 arg3 harg3 x0 x1 x2) (kernelRun0.sl.v811 c arg1 harg1 arg2 harg2 arg3 harg3 x0 x1 x2) (kernelRun0.sl.v815 c arg1 harg1 arg2 harg2 arg3 harg3 x0 x1 x2) (kernelRun0.sl.v819 c arg1 harg1 arg2 harg2 arg3 harg3 x0 x1 x2)
      = kscatter (kA16 x0 x1 x2) := by
  unfold kernelRun0.sl.v819 kernelRun0.sl.v818 kernelRun0.sl.v817 kernelRun0.sl.v816 kernelRun0.sl.v815 kernelRun0.sl.v814 kernelRun0.sl.v813 kernelRun0.sl.v812 kernelRun0.sl.v811 kernelRun0.sl.v810 kernelRun0.sl.v809 kernelRun0.sl.v808 kernelRun0.sl.v807 kernelRun0.sl.v806 kernelRun0.sl.v805 kernelRun0.sl.v804 kernelRun0.sl.v803 kernelRun0.sl.v802 kernelRun0.sl.v801 kernelRun0.sl.v800 kernelRun0.sl.v799 kernelRun0.sl.v798 kernelRun0.sl.v797 kernelRun0.sl.v796 kernelRun0.sl.v795 kernelRun0.sl.v794 kernelRun0.sl.v793 kernelRun0.sl.v792 kernelRun0.sl.v791 kernelRun0.sl.v790 kernelRun0.sl.v789 kernelRun0.sl.v788 kernelRun0.sl.v787 kernelRun0.sl.v786 kernelRun0.sl.v785 kernelRun0.sl.v784 kernelRun0.sl.v783 kernelRun0.sl.v782 kernelRun0.sl.v781 kernelRun0.sl.v780 kernelRun0.sl.v779 kernelRun0.sl.v778 kernelRun0.sl.v777 kernelRun0.sl.v776 kernelRun0.sl.v775
  rw [r_39_eq]
  rfl

end Names

end Cert.KernelIdeal.Hand

end
-- ==== Proof.KBody.lean ====
/-
  The two stored pieces are the regrouping undone on the sixteenth state and on the sixteenth average.
-/
import proofs.«130520_g23433341567538_cont_8to1_1409_4_alg».proof.Proof.KFrameI
import proofs.«130520_g23433341567538_cont_8to1_1409_4_alg».proof.Proof.KNames

set_option maxRecDepth 65536

noncomputable section

namespace Cert.KernelIdeal.Hand

open Cert.KernelIdeal.Gen
open Idealize.ShloMosaic Idealize.SL.Sem Cert.KernelIdeal Idealize.ShloMosaic.TcCoe

variable {F : FTy → Type} [FloatOps F]

theorem L3_eq (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    (kernelRun0 c i arg1 harg1 arg2 harg2 arg3 harg3 arg4 harg4 arg5 harg5 x0 x1 x2).1 = [⟨Rect.unit (s := S8192x128) ![0, 0] S8192x128.size inb_S8192x128_S8192x128_0_0, kscatter (kZ16 x0 x1 x2)⟩] := by
  have h := v773_eq c arg1 harg1 arg2 harg2 arg3 harg3 x0 x1 x2
  unfold kernelRun0
  show [(⟨Rect.unit (s := S8192x128) ![0, 0] S8192x128.size inb_S8192x128_S8192x128_0_0, kernelRun0.sl.v773 c arg1 harg1 arg2 harg2 arg3 harg3 x0 x1 x2⟩ : View.Piece (Elt F) S8192x128 .f32)] = _
  rw [h]

theorem L4_eq (c : Dev nD) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S1x128x4 .bf16) (harg3 : arg3.IsWhole)
    (arg4 : Memref sig .tc .vmem S8192x128 .f32) (harg4 : arg4.IsWhole)
    (arg5 : Memref sig .tc .vmem S8192x128 .f32) (harg5 : arg5.IsWhole)
    (x0 x1 : Vec F S8192x128 .f32) (x2 : Vec F S1x128x4 .bf16) :
    (kernelRun0 c i arg1 harg1 arg2 harg2 arg3 harg3 arg4 harg4 arg5 harg5 x0 x1 x2).2.1 = [⟨Rect.unit (s := S8192x128) ![0, 0] S8192x128.size inb_S8192x128_S8192x128_0_0, kscatter (kA16 x0 x1 x2)⟩] := by
  have h := stored2_eq c arg1 harg1 arg2 harg2 arg3 harg3 x0 x1 x2
  unfold kernelRun0
  show [(⟨Rect.unit (s := S8192x128) ![0, 0] S8192x128.size inb_S8192x128_S8192x128_0_0, k0_pay1 (kernelRun0.sl.r_39 c arg1 harg1 arg2 harg2 arg3 harg3 x0 x1 x2) (kernelRun0.sl.v775 c arg1 harg1 arg2 harg2 arg3 harg3 x0 x1 x2) (kernelRun0.sl.v779 c arg1 harg1 arg2 harg2 arg3 harg3 x0 x1 x2) (kernelRun0.sl.v783 c arg1 harg1 arg2 harg2 arg3 harg3 x0 x1 x2) (kernelRun0.sl.v787 c arg1 harg1 arg2 harg2 arg3 harg3 x0 x1 x2) (kernelRun0.sl.v791 c arg1 harg1 arg2 harg2 arg3 harg3 x0 x1 x2) (kernelRun0.sl.v795 c arg1 harg1 arg2 harg2 arg3 harg3 x0 x1 x2) (kernelRun0.sl.v799 c arg1 harg1 arg2 harg2 arg3 harg3 x0 x1 x2) (kernelRun0.sl.v803 c arg1 harg1 arg2 harg2 arg3 harg3 x0 x1 x2) (kernelRun0.sl.v807 c arg1 harg1 arg2 harg2 arg3 harg3 x0 x1 x2) (kernelRun0.sl.v811 c arg1 harg1 arg2 harg2 arg3 harg3 x0 x1 x2) (kernelRun0.sl.v815 c arg1 harg1 arg2 harg2 arg3 harg3 x0 x1 x2) (kernelRun0.sl.v819 c arg1 harg1 arg2 harg2 arg3 harg3 x0 x1 x2)⟩ : View.Piece (Elt F) S8192x128 .f32)] = _
  rw [h]

end Cert.KernelIdeal.Hand

end
-- ==== Proof.KSimVal.lean ====
/-
  The kernel's halved similarities at one entry: half the sum of two 128-term dot products.
-/
import proofs.«130520_g23433341567538_cont_8to1_1409_4_alg».proof.Proof.KIface
import Idealize.ShloMosaic.Lib.ValueLayout
import Idealize.ShloMosaic.PureOps.Ideal.Laws

noncomputable section

namespace Cert.KernelIdeal.Hand

open Idealize.ShloMosaic Idealize.ShloMosaic.ValueIdx Cert.KernelIdeal
open Cert.KernelIdeal.Facts₀ Cert.KernelIdeal.Facts
open scoped BigOperators

variable [Cert.KernelIdeal.Facts]

def krow (g : Fin 512) (j : Fin 16) : Fin 8192 := ⟨16 * g.val + j.val, by omega⟩

theorem rows_apply {α : Type} (x : S512x16x128.Idx → α) (h : S512x16x128.ShapeCasts S8192x128)
    (g : Fin 512) (j : Fin 16) (l : Fin 128) :
    shapeCast S8192x128 x h (ix2 (krow g j) l) = x (ix3 g j l) :=
  shapeCast_apply x h _ _ (by
    rw [Shape.rowMajor_val_three, Shape.rowMajor_val_two]
    show (g.val * 16 + j.val) * 128 + l.val = (16 * g.val + j.val) * 128 + l.val
    omega)

theorem groups_apply {α : Type} (p : S8192x4.Idx → α) (h : S8192x4.ShapeCasts S512x16x4)
    (g : Fin 512) (j : Fin 16) (c : Fin 4) :
    shapeCast S512x16x4 p h (ix3 g j c) = p (ix2 (krow g j) c) :=
  shapeCast_apply p h _ _ (by
    rw [Shape.rowMajor_val_three, Shape.rowMajor_val_two]
    show (16 * g.val + j.val) * 4 + c.val = (g.val * 16 + j.val) * 4 + c.val
    omega)

theorem partner_products_apply {α : Type} (s : Fin 16) (p3 : S512x16x4.Idx → α)
    (hs4 : S512x16x4.Slices ![0, s.val, 2] S512x1x2) (g : Fin 512) (u : Fin 1) (c : Fin 2) :
    extractStridedSlice S512x1x2 ![0, s.val, 2] p3 hs4 (ix3 g u c) = p3 (ix3 g s (⟨2 + c.val, by omega⟩ : Fin 4)) :=
  extractStridedSlice_apply _ _ _ _ _ (fun ax => by
    match ax with
    | ⟨0, _⟩ => exact (Nat.zero_add _).symm
    | ⟨1, _⟩ => show s.val = s.val + u.val; omega
    | ⟨2, _⟩ => rfl)

theorem own_products_apply {α : Type} (p3 : S512x16x4.Idx → α)
    (h : S512x16x4.Slices ![0, 0, 0] S512x16x2) (g : Fin 512) (j : Fin 16) (c : Fin 2) :
    extractStridedSlice S512x16x2 ![0, 0, 0] p3 h (ix3 g j c) = p3 (ix3 g j (⟨c.val, by omega⟩ : Fin 4)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

theorem spread_pair_apply {α : Type} (v : S512x1x2.Idx → α) (h : S512x1x2.Broadcasts S512x16x2)
    (g : Fin 512) (j : Fin 16) (c : Fin 2) :
    broadcastTo S512x16x2 v h (ix3 g j c) = v (ix3 g (0 : Fin 1) c) :=
  broadcastTo_apply v h _ _ (fun ax => by
    match ax with
    | ⟨0, _⟩ => rfl
    | ⟨1, _⟩ => rfl
    | ⟨2, _⟩ => rfl)

theorem lhs_products_0 (i : S8192x4.Idx) (q : dot_S8192x128_S128x4_S8192x4_1_0_0_1_n_n.contr.Idx) :
    (dot_S8192x128_S128x4_S8192x4_1_0_0_1_n_n.lhsIdx i q 0).val = (i 0).val := by
  unfold DotDims.lhsIdx
  rw [dif_neg (show ¬(0 : Fin S8192x128.rank) ∈ dot_S8192x128_S128x4_S8192x4_1_0_0_1_n_n.lhsBatch from List.not_mem_nil),
    dif_pos (show (0 : Fin S8192x128.rank) ∈ dot_S8192x128_S128x4_S8192x4_1_0_0_1_n_n.lhsNonContracting from List.mem_singleton.mpr rfl)]
  rfl
theorem lhs_products_1 (i : S8192x4.Idx) (q : dot_S8192x128_S128x4_S8192x4_1_0_0_1_n_n.contr.Idx) :
    (dot_S8192x128_S128x4_S8192x4_1_0_0_1_n_n.lhsIdx i q 1).val = (q ⟨0, Nat.one_pos⟩).val :=
  dot_S8192x128_S128x4_S8192x4_1_0_0_1_n_n.lhsIdx_val_of_single rfl i q
theorem rhs_products_0 (i : S8192x4.Idx) (q : dot_S8192x128_S128x4_S8192x4_1_0_0_1_n_n.contr.Idx) :
    (dot_S8192x128_S128x4_S8192x4_1_0_0_1_n_n.rhsIdx i q 0).val = (q ⟨0, Nat.one_pos⟩).val :=
  dot_S8192x128_S128x4_S8192x4_1_0_0_1_n_n.rhsIdx_val_of_single rfl i q
theorem rhs_products_1 (i : S8192x4.Idx) (q : dot_S8192x128_S128x4_S8192x4_1_0_0_1_n_n.contr.Idx) :
    (dot_S8192x128_S128x4_S8192x4_1_0_0_1_n_n.rhsIdx i q 1).val = (i 1).val := by
  unfold DotDims.rhsIdx
  rw [dif_neg (show ¬(1 : Fin S128x4.rank) ∈ dot_S8192x128_S128x4_S8192x4_1_0_0_1_n_n.rhsBatch from List.not_mem_nil),
    dif_pos (show (1 : Fin S128x4.rank) ∈ dot_S8192x128_S128x4_S8192x4_1_0_0_1_n_n.rhsNonContracting from List.mem_singleton.mpr rfl)]
  rfl

theorem products_apply (rb : FVec Ideal S8192x128 .bf16) (wm : FVec Ideal S128x4 .bf16) (r : Fin 8192) (c : Fin 4) :
    matmul dot_S8192x128_S128x4_S8192x4_1_0_0_1_n_n none rb wm (constant (F := Ideal) S8192x4 .f32 0x00000000#32) (ix2 r c)
      = ∑ k : Fin 128, rb (ix2 r k) * wm (ix2 k c) := by
  refine (Ideal.matmul_constant_zero_apply dot_S8192x128_S128x4_S8192x4_1_0_0_1_n_n none rb wm (ix2 r c)).trans ?_
  rw [← Equiv.sum_comp (contrEquiv1 dot_S8192x128_S128x4_S8192x4_1_0_0_1_n_n 128 rfl rfl).symm]
  refine Finset.sum_congr rfl fun k _ => ?_
  have hk := contrEquiv1_symm_val dot_S8192x128_S128x4_S8192x4_1_0_0_1_n_n 128 rfl rfl k
  have el : dot_S8192x128_S128x4_S8192x4_1_0_0_1_n_n.lhsIdx (ix2 r c) ((contrEquiv1 dot_S8192x128_S128x4_S8192x4_1_0_0_1_n_n 128 rfl rfl).symm k) = ix2 r k := funext fun a => Fin.ext (by
    match a with
    | ⟨0, _⟩ => exact lhs_products_0 _ _
    | ⟨1, _⟩ => exact (lhs_products_1 _ _).trans hk)
  have er : dot_S8192x128_S128x4_S8192x4_1_0_0_1_n_n.rhsIdx (ix2 r c) ((contrEquiv1 dot_S8192x128_S128x4_S8192x4_1_0_0_1_n_n 128 rfl rfl).symm k) = ix2 k c := funext fun a => Fin.ext (by
    match a with
    | ⟨0, _⟩ => exact (rhs_products_0 _ _).trans hk
    | ⟨1, _⟩ => exact rhs_products_1 _ _)
  rw [el, er]

theorem ksim_apply (s : Fin 16) (hs4 : S512x16x4.Slices ![0, s.val, 2] S512x1x2)
    (z : FVec Ideal S512x16x128 .f32) (wm : FVec Ideal S128x4 .bf16) (g : Fin 512) (j : Fin 16) (c : Fin 2) :
    ksim (F := Ideal) s.val hs4 z wm (ix3 g j c)
      = Cert.Consts.cH * ((∑ k : Fin 128, z (ix3 g j k) * wm (ix2 k (⟨c.val, by omega⟩ : Fin 4)))
          + (∑ k : Fin 128, z (ix3 g s k) * wm (ix2 k (⟨2 + c.val, by omega⟩ : Fin 4)))) := by
  unfold ksim
  rw [mulf_apply, broadcast_apply, addf_apply, own_products_apply, spread_pair_apply, partner_products_apply,
    groups_apply, groups_apply, products_apply, products_apply]
  simp only [truncf_apply, rows_apply]
  rfl

end Cert.KernelIdeal.Hand

end
-- ==== Proof.Laws.lean ====
/-
  The rectifier's slope is a real in [0, 1], so the greater of t and c t is the comparison's choice; a sum over 128
  columns against weights masked to one half is the sum over that half's 64.
-/
import Mathlib.Data.EReal.Basic
import Mathlib.Data.EReal.Operations
import Mathlib.Algebra.BigOperators.Fin
import Idealize.ShloMosaic.PureOps.Ideal
import proofs.«130520_g23433341567538_cont_8to1_1409_4_alg».proof.Proof.Consts

noncomputable section

namespace Cert.Laws

open scoped BigOperators
open Idealize.ShloMosaic

theorem cL_coe : ∃ r : ℝ, Cert.Consts.cL = ((r : ℝ) : EReal) ∧ 0 ≤ r ∧ r ≤ 1 := by
  refine ⟨(10737418 : ℝ) * (2 : ℝ) ^ (-30 : ℤ), ?_, ?_, ?_⟩
  · simp [Cert.Consts.cL, Ideal.ofBits, Ideal.ieee, -EReal.coe_mul]
  · positivity
  · norm_num

theorem max_leaky (t : EReal) : max t (Cert.Consts.cL * t) = Cert.Spec.leaky Cert.Consts.cL t := by
  obtain ⟨r, hr, h0, h1⟩ := cL_coe
  rw [hr]
  unfold Cert.Spec.leaky
  induction t using EReal.rec with
  | bot =>
    rw [if_neg (by simp)]
    exact max_eq_right bot_le
  | coe x =>
    by_cases hx : 0 ≤ x
    · rw [if_pos (by exact_mod_cast hx)]
      apply max_eq_left
      rw [← EReal.coe_mul]
      exact_mod_cast (by nlinarith : r * x ≤ x)
    · rw [if_neg (by exact_mod_cast hx)]
      apply max_eq_right
      rw [← EReal.coe_mul]
      exact_mod_cast (by nlinarith : x ≤ r * x)
  | top =>
    rw [if_pos le_top]
    exact max_eq_left le_top

theorem sum_split (g : Fin 128 → EReal) :
    (∑ l : Fin 128, g l)
      = (∑ k : Fin 64, g ⟨k.val, by omega⟩) + ∑ k : Fin 64, g ⟨64 + k.val, by omega⟩ := by
  have h := Fin.sum_univ_add (M := EReal) (a := 64) (b := 64) g
  exact h

theorem sum_mask_lo (f wv : Fin 128 → EReal) :
    (∑ l : Fin 128, f l * (if l.val < 64 then wv l else 0))
      = ∑ k : Fin 64, f ⟨k.val, by omega⟩ * wv ⟨k.val, by omega⟩ := by
  rw [sum_split]
  have hhi : (∑ k : Fin 64, f ⟨64 + k.val, by omega⟩
      * (if (⟨64 + k.val, by omega⟩ : Fin 128).val < 64 then wv ⟨64 + k.val, by omega⟩ else 0)) = 0 := by
    apply Finset.sum_eq_zero
    intro k _
    rw [if_neg (by simp), mul_zero]
  rw [hhi, add_zero]
  apply Finset.sum_congr rfl
  intro k _
  rw [if_pos (by simp)]

theorem sum_mask_hi (f wv : Fin 128 → EReal) :
    (∑ l : Fin 128, f l * (if l.val < 64 then 0 else wv l))
      = ∑ k : Fin 64, f ⟨64 + k.val, by omega⟩ * wv ⟨64 + k.val, by omega⟩ := by
  rw [sum_split]
  have hlo : (∑ k : Fin 64, f ⟨k.val, by omega⟩
      * (if (⟨k.val, by omega⟩ : Fin 128).val < 64 then 0 else wv ⟨k.val, by omega⟩)) = 0 := by
    apply Finset.sum_eq_zero
    intro k _
    rw [if_pos (by simp), mul_zero]
  rw [hlo, zero_add]
  apply Finset.sum_congr rfl
  intro k _
  rw [if_neg (by simp)]

end Cert.Laws

end
-- ==== Proof.KStepVal.lean ====
/-
  One step of the kernel at an entry: with each half of the weights masked to each head, the 128-term dot products are
  the head's 64-term ones.
-/
import proofs.«130520_g23433341567538_cont_8to1_1409_4_alg».proof.Proof.KSimVal
import proofs.«130520_g23433341567538_cont_8to1_1409_4_alg».proof.Proof.Laws
import Idealize.ShloMosaic.Lib.StableHlo.Predicate

noncomputable section

namespace Cert.KernelIdeal.Hand

open Idealize.ShloMosaic Idealize.ShloMosaic.ValueIdx Cert.KernelIdeal
open Cert.KernelIdeal.Facts₀ Cert.KernelIdeal.Facts
open scoped BigOperators

variable [Cert.KernelIdeal.Facts]

theorem kmask_apply (g : Fin 512) (j : Fin 16) (l : Fin 128) :
    kmask (ix3 g j l) = if l.val < 64 then 1#1 else 0#1 := by
  unfold kmask
  show IntOp.cmpi .slt (iota .tc S512x16x128 32 [2] iota_S512x16x128_d2_w32 (ix3 g j l)) 64#32 = _
  rw [iota_single_apply]
  show IntOp.cmpi .slt (BitVec.ofNat 32 l.val) (BitVec.ofNat 32 64) = _
  have hl := l.isLt
  have key : IntOp.cmpi .slt (BitVec.ofNat 32 l.val) (BitVec.ofNat 32 64) = 1#1 ↔ l.val < 64 :=
    StableHlo.Predicate.slt_ofNat_iff l.val 64 (by omega) (by norm_num)
  by_cases h : l.val < 64
  · rw [if_pos h]; exact key.mpr h
  · rw [if_neg h]; exact eq_zero_of_ne_one (fun h1 => h (key.mp h1))

theorem select_kmask_apply {α : Type} (a b : S512x16x128.Idx → α) (g : Fin 512) (j : Fin 16) (l : Fin 128) :
    select kmask a b (ix3 g j l) = if l.val < 64 then a (ix3 g j l) else b (ix3 g j l) := by
  rw [select_apply, kmask_apply]
  by_cases h : l.val < 64
  · rw [if_pos h, if_pos h, select_one]
  · rw [if_neg h, if_neg h, select_zero]

theorem first_of_pair_apply {α : Type} (v : S512x16x2.Idx → α) (h : S512x16x2.Slices ![0, 0, 0] S512x16x1)
    (g : Fin 512) (j : Fin 16) (u : Fin 1) :
    extractStridedSlice S512x16x1 ![0, 0, 0] v h (ix3 g j u) = v (ix3 g j (0 : Fin 2)) :=
  extractStridedSlice_apply _ _ _ _ _ (fun ax => by
    match ax with
    | ⟨0, _⟩ => exact (Nat.zero_add _).symm
    | ⟨1, _⟩ => exact (Nat.zero_add _).symm
    | ⟨2, _⟩ => show 0 = 0 + u.val; omega)

theorem second_of_pair_apply {α : Type} (v : S512x16x2.Idx → α) (h : S512x16x2.Slices ![0, 0, 1] S512x16x1)
    (g : Fin 512) (j : Fin 16) (u : Fin 1) :
    extractStridedSlice S512x16x1 ![0, 0, 1] v h (ix3 g j u) = v (ix3 g j (1 : Fin 2)) :=
  extractStridedSlice_apply _ _ _ _ _ (fun ax => by
    match ax with
    | ⟨0, _⟩ => exact (Nat.zero_add _).symm
    | ⟨1, _⟩ => exact (Nat.zero_add _).symm
    | ⟨2, _⟩ => show 1 = 1 + u.val; omega)

theorem spread_lanes_apply {α : Type} (v : S512x16x1.Idx → α) (h : S512x16x1.Broadcasts S512x16x128)
    (g : Fin 512) (j : Fin 16) (l : Fin 128) :
    broadcastTo S512x16x128 v h (ix3 g j l) = v (ix3 g j (0 : Fin 1)) :=
  broadcastTo_apply v h _ _ (fun ax => by
    match ax with
    | ⟨0, _⟩ => rfl
    | ⟨1, _⟩ => rfl
    | ⟨2, _⟩ => rfl)

theorem spread_positions_apply {α : Type} (v : S512x1x128.Idx → α) (h : S512x1x128.Broadcasts S512x16x128)
    (g : Fin 512) (j : Fin 16) (l : Fin 128) :
    broadcastTo S512x16x128 v h (ix3 g j l) = v (ix3 g (0 : Fin 1) l) :=
  broadcastTo_apply v h _ _ (fun ax => by
    match ax with
    | ⟨0, _⟩ => rfl
    | ⟨1, _⟩ => rfl
    | ⟨2, _⟩ => rfl)

theorem partner_rows_apply {α : Type} (s : Fin 16) (x : S512x16x128.Idx → α)
    (hs : S512x16x128.Slices ![0, s.val, 0] S512x1x128) (g : Fin 512) (u : Fin 1) (l : Fin 128) :
    extractStridedSlice S512x1x128 ![0, s.val, 0] x hs (ix3 g u l) = x (ix3 g s l) :=
  slice3_axis1_apply s.val x hs g u l s (by omega)

theorem kpre_apply (s : Fin 16) (hs4 : S512x16x4.Slices ![0, s.val, 2] S512x1x2)
    (hs : S512x16x128.Slices ![0, s.val, 0] S512x1x128)
    (z : FVec Ideal S512x16x128 .f32) (wm : FVec Ideal S128x4 .bf16) (g : Fin 512) (j : Fin 16) (l : Fin 128) :
    kpre (F := Ideal) s.val hs4 hs z wm kmask (ix3 g j l)
      = Cert.Consts.cH * z (ix3 g j l)
        + (if l.val < 64 then ksim (F := Ideal) s.val hs4 z wm (ix3 g j (0 : Fin 2))
            else ksim (F := Ideal) s.val hs4 z wm (ix3 g j (1 : Fin 2))) * z (ix3 g s l) := by
  unfold kpre
  rw [addf_apply, mulf_apply, mulf_apply, broadcast_apply, select_kmask_apply, spread_positions_apply,
    partner_rows_apply, spread_lanes_apply, spread_lanes_apply, shapeCast_self, shapeCast_self,
    first_of_pair_apply, second_of_pair_apply]
  rfl

theorem kstepA_entry (s : Fin 16) (hs4 : S512x16x4.Slices ![0, s.val, 2] S512x1x2)
    (hs : S512x16x128.Slices ![0, s.val, 0] S512x1x128)
    (z za : FVec Ideal S512x16x128 .f32) (wm : FVec Ideal S128x4 .bf16) (g : Fin 512) (j : Fin 16) (l : Fin 128) :
    kstepA (F := Ideal) s.val hs4 hs z za wm kmask (ix3 g j l)
      = Cert.Consts.cM * za (ix3 g j l)
        + Cert.Consts.cR * max (kpre (F := Ideal) s.val hs4 hs z wm kmask (ix3 g j l))
            (Cert.Consts.cL * kpre (F := Ideal) s.val hs4 hs z wm kmask (ix3 g j l)) := by
  unfold kstepA
  rw [addf_apply, mulf_apply, mulf_apply, broadcast_apply, broadcast_apply, maximumf_apply, mulf_apply, broadcast_apply]
  rfl

theorem kstepZ_entry (s : Fin 16) (hs4 : S512x16x4.Slices ![0, s.val, 2] S512x1x2)
    (hs : S512x16x128.Slices ![0, s.val, 0] S512x1x128)
    (z za : FVec Ideal S512x16x128 .f32) (wm : FVec Ideal S128x4 .bf16) (g : Fin 512) (j : Fin 16) (l : Fin 128) :
    kstepZ (F := Ideal) s.val hs4 hs z za wm kmask (ix3 g j l)
      = Cert.Consts.cM * z (ix3 g j l)
        + Cert.Consts.cR * kstepA (F := Ideal) s.val hs4 hs z za wm kmask (ix3 g j l) := by
  unfold kstepZ
  rw [addf_apply, mulf_apply, mulf_apply, broadcast_apply, broadcast_apply]
  rfl

def bhead (t : Fin 8) (c : Fin 2) : Fin 16 := ⟨2 * t.val + c.val, by omega⟩

theorem headOf_lo (t : Fin 8) (l : Fin 128) (h : l.val < 64) : Cert.Spec.headOf (bcol t l) = bhead t 0 :=
  Fin.ext (by show (128 * t.val + l.val) / 64 = 2 * t.val + 0; omega)
theorem headOf_hi (t : Fin 8) (l : Fin 128) (h : 64 ≤ l.val) : Cert.Spec.headOf (bcol t l) = bhead t 1 :=
  Fin.ext (by show (128 * t.val + l.val) / 64 = 2 * t.val + 1; have := l.isLt; omega)

theorem col_lo (t : Fin 8) (k : Fin 64) : Cert.Spec.col (bhead t 0) k = bcol t ⟨k.val, by omega⟩ :=
  Fin.ext (by show 64 * (2 * t.val + 0) + k.val = 128 * t.val + k.val; omega)
theorem col_hi (t : Fin 8) (k : Fin 64) : Cert.Spec.col (bhead t 1) k = bcol t ⟨64 + k.val, by omega⟩ :=
  Fin.ext (by show 64 * (2 * t.val + 1) + k.val = 128 * t.val + (64 + k.val); omega)
theorem colI_lo (t : Fin 8) (k : Fin 64) : Cert.Spec.colI (bhead t 0) k = wcolI t ⟨k.val, by omega⟩ :=
  Fin.ext (by show 64 * (2 * t.val + 0) + k.val = 128 * t.val + k.val; omega)
theorem colI_hi (t : Fin 8) (k : Fin 64) : Cert.Spec.colI (bhead t 1) k = wcolI t ⟨64 + k.val, by omega⟩ :=
  Fin.ext (by show 64 * (2 * t.val + 1) + k.val = 128 * t.val + (64 + k.val); omega)
theorem colJ_lo (t : Fin 8) (k : Fin 64) : Cert.Spec.colJ (bhead t 0) k = wcolJ t ⟨k.val, by omega⟩ :=
  Fin.ext (by show 1024 + (64 * (2 * t.val + 0) + k.val) = 1024 + (128 * t.val + k.val); omega)
theorem colJ_hi (t : Fin 8) (k : Fin 64) : Cert.Spec.colJ (bhead t 1) k = wcolJ t ⟨64 + k.val, by omega⟩ :=
  Fin.ext (by show 1024 + (64 * (2 * t.val + 1) + k.val) = 1024 + (128 * t.val + (64 + k.val)); omega)

section Products
variable {t : Fin 8} {z : FVec Ideal S512x16x128 .f32} {wm : FVec Ideal S128x4 .bf16} {Z : Cert.Spec.St}
  {w : Fin 2048 → EReal}

theorem product0 (hz : Agrees t z Z) (hw : BlockW t w wm) (g : Fin 512) (p : Fin 16) :
    (∑ k : Fin 128, z (ix3 g p k) * wm (ix2 k (0 : Fin 4)))
      = ∑ k : Fin 64, Z g p (Cert.Spec.col (bhead t 0) k) * w (Cert.Spec.colI (bhead t 0) k) :=
  calc (∑ k : Fin 128, z (ix3 g p k) * wm (ix2 k (0 : Fin 4)))
      = ∑ l : Fin 128, Z g p (bcol t l) * (if l.val < 64 then w (wcolI t l) else 0) :=
        Finset.sum_congr rfl fun k _ => by rw [hz g p k, hw.c0 k]
    _ = ∑ k : Fin 64, Z g p (bcol t ⟨k.val, by omega⟩) * w (wcolI t ⟨k.val, by omega⟩) :=
        Cert.Laws.sum_mask_lo (fun l => Z g p (bcol t l)) (fun l => w (wcolI t l))
    _ = _ := Finset.sum_congr rfl fun k _ => by rw [col_lo, colI_lo]

theorem product1 (hz : Agrees t z Z) (hw : BlockW t w wm) (g : Fin 512) (p : Fin 16) :
    (∑ k : Fin 128, z (ix3 g p k) * wm (ix2 k (1 : Fin 4)))
      = ∑ k : Fin 64, Z g p (Cert.Spec.col (bhead t 1) k) * w (Cert.Spec.colI (bhead t 1) k) :=
  calc (∑ k : Fin 128, z (ix3 g p k) * wm (ix2 k (1 : Fin 4)))
      = ∑ l : Fin 128, Z g p (bcol t l) * (if l.val < 64 then 0 else w (wcolI t l)) :=
        Finset.sum_congr rfl fun k _ => by rw [hz g p k, hw.c1 k]
    _ = ∑ k : Fin 64, Z g p (bcol t ⟨64 + k.val, by omega⟩) * w (wcolI t ⟨64 + k.val, by omega⟩) :=
        Cert.Laws.sum_mask_hi (fun l => Z g p (bcol t l)) (fun l => w (wcolI t l))
    _ = _ := Finset.sum_congr rfl fun k _ => by rw [col_hi, colI_hi]

theorem product2 (hz : Agrees t z Z) (hw : BlockW t w wm) (g : Fin 512) (p : Fin 16) :
    (∑ k : Fin 128, z (ix3 g p k) * wm (ix2 k (2 : Fin 4)))
      = ∑ k : Fin 64, Z g p (Cert.Spec.col (bhead t 0) k) * w (Cert.Spec.colJ (bhead t 0) k) :=
  calc (∑ k : Fin 128, z (ix3 g p k) * wm (ix2 k (2 : Fin 4)))
      = ∑ l : Fin 128, Z g p (bcol t l) * (if l.val < 64 then w (wcolJ t l) else 0) :=
        Finset.sum_congr rfl fun k _ => by rw [hz g p k, hw.c2 k]
    _ = ∑ k : Fin 64, Z g p (bcol t ⟨k.val, by omega⟩) * w (wcolJ t ⟨k.val, by omega⟩) :=
        Cert.Laws.sum_mask_lo (fun l => Z g p (bcol t l)) (fun l => w (wcolJ t l))
    _ = _ := Finset.sum_congr rfl fun k _ => by rw [col_lo, colJ_lo]

theorem product3 (hz : Agrees t z Z) (hw : BlockW t w wm) (g : Fin 512) (p : Fin 16) :
    (∑ k : Fin 128, z (ix3 g p k) * wm (ix2 k (3 : Fin 4)))
      = ∑ k : Fin 64, Z g p (Cert.Spec.col (bhead t 1) k) * w (Cert.Spec.colJ (bhead t 1) k) :=
  calc (∑ k : Fin 128, z (ix3 g p k) * wm (ix2 k (3 : Fin 4)))
      = ∑ l : Fin 128, Z g p (bcol t l) * (if l.val < 64 then 0 else w (wcolJ t l)) :=
        Finset.sum_congr rfl fun k _ => by rw [hz g p k, hw.c3 k]
    _ = ∑ k : Fin 64, Z g p (bcol t ⟨64 + k.val, by omega⟩) * w (wcolJ t ⟨64 + k.val, by omega⟩) :=
        Cert.Laws.sum_mask_hi (fun l => Z g p (bcol t l)) (fun l => w (wcolJ t l))
    _ = _ := Finset.sum_congr rfl fun k _ => by rw [col_hi, colJ_hi]

theorem ksim_first (s : Fin 16) (hs4 : S512x16x4.Slices ![0, s.val, 2] S512x1x2)
    (hz : Agrees t z Z) (hw : BlockW t w wm) (g : Fin 512) (j : Fin 16) :
    ksim (F := Ideal) s.val hs4 z wm (ix3 g j (0 : Fin 2))
      = Cert.Consts.cH * Cert.Spec.sim w s Z g j (bhead t 0) := by
  refine (ksim_apply s hs4 z wm g j 0).trans ?_
  show Cert.Consts.cH * ((∑ k : Fin 128, z (ix3 g j k) * wm (ix2 k (0 : Fin 4)))
    + (∑ k : Fin 128, z (ix3 g s k) * wm (ix2 k (2 : Fin 4)))) = _
  rw [product0 hz hw, product2 hz hw]
  rfl

theorem ksim_second (s : Fin 16) (hs4 : S512x16x4.Slices ![0, s.val, 2] S512x1x2)
    (hz : Agrees t z Z) (hw : BlockW t w wm) (g : Fin 512) (j : Fin 16) :
    ksim (F := Ideal) s.val hs4 z wm (ix3 g j (1 : Fin 2))
      = Cert.Consts.cH * Cert.Spec.sim w s Z g j (bhead t 1) := by
  refine (ksim_apply s hs4 z wm g j 1).trans ?_
  show Cert.Consts.cH * ((∑ k : Fin 128, z (ix3 g j k) * wm (ix2 k (1 : Fin 4)))
    + (∑ k : Fin 128, z (ix3 g s k) * wm (ix2 k (3 : Fin 4)))) = _
  rw [product1 hz hw, product3 hz hw]
  rfl

theorem kpre_spec (s : Fin 16) (hs4 : S512x16x4.Slices ![0, s.val, 2] S512x1x2)
    (hs : S512x16x128.Slices ![0, s.val, 0] S512x1x128)
    (hz : Agrees t z Z) (hw : BlockW t w wm) (g : Fin 512) (j : Fin 16) (l : Fin 128) :
    kpre (F := Ideal) s.val hs4 hs z wm kmask (ix3 g j l)
      = Cert.Spec.pre Cert.Consts.cH w s Z g j (bcol t l) := by
  rw [kpre_apply, hz g j l, hz g s l]
  unfold Cert.Spec.pre
  by_cases h : l.val < 64
  · rw [if_pos h, ksim_first s hs4 hz hw, headOf_lo t l h]
  · rw [if_neg h, ksim_second s hs4 hz hw, headOf_hi t l (by omega)]

end Products

theorem kstepA_apply (t : Fin 8) (s : Fin 16) (hs4 : S512x16x4.Slices ![0, s.val, 2] S512x1x2)
    (hs : S512x16x128.Slices ![0, s.val, 0] S512x1x128)
    {z za : FVec Ideal S512x16x128 .f32} {wm : FVec Ideal S128x4 .bf16} {Z ZA : Cert.Spec.St} {w : Fin 2048 → EReal}
    (hz : Agrees t z Z) (hza : Agrees t za ZA) (hw : BlockW t w wm) :
    Agrees t (kstepA (F := Ideal) s.val hs4 hs z za wm kmask) (Cert.Consts.stepA w s Z ZA) := by
  intro g j l
  rw [kstepA_entry, kpre_spec s hs4 hs hz hw g j l, hza g j l, Cert.Laws.max_leaky]
  rfl

theorem kstepZ_apply (t : Fin 8) (s : Fin 16) (hs4 : S512x16x4.Slices ![0, s.val, 2] S512x1x2)
    (hs : S512x16x128.Slices ![0, s.val, 0] S512x1x128)
    {z za : FVec Ideal S512x16x128 .f32} {wm : FVec Ideal S128x4 .bf16} {Z ZA : Cert.Spec.St} {w : Fin 2048 → EReal}
    (hz : Agrees t z Z) (hza : Agrees t za ZA) (hw : BlockW t w wm) :
    Agrees t (kstepZ (F := Ideal) s.val hs4 hs z za wm kmask) (Cert.Consts.stepZ w s Z ZA) := by
  intro g j l
  rw [kstepZ_entry, kstepA_apply t s hs4 hs hz hza hw g j l, hz g j l]
  rfl

end Cert.KernelIdeal.Hand

end
-- ==== Proof.KBodyVal.lean ====
/-
  The body's value entry by entry: a block that is the restriction of an array regroups to the restriction of the
  regrouped array, and each step keeps that.
-/
import proofs.«130520_g23433341567538_cont_8to1_1409_4_alg».proof.Proof.KStages
import proofs.«130520_g23433341567538_cont_8to1_1409_4_alg».proof.Proof.KIface
import proofs.«130520_g23433341567538_cont_8to1_1409_4_alg».proof.Proof.KStepVal
import Idealize.ShloMosaic.Lib.Pipeline.Value
import Idealize.ShloMosaic.Lib.ValueIdx
import Idealize.ShloMosaic.Lib.ValueLayout

set_option maxRecDepth 65536

noncomputable section

namespace Cert.KernelIdeal.Hand

open Idealize.ShloMosaic Idealize.ShloMosaic.ValueIdx Cert.KernelIdeal
open Cert.KernelIdeal.Facts₀ Cert.KernelIdeal.Facts

variable [Cert.KernelIdeal.Facts]

theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (a : Fin m) (b : Fin n1) (e : Fin n2) (k : Fin n0) (hk : k.val = o + a.val) :
    extractStridedSlice ⟨3, ![m, n1, n2]⟩ ![o, 0, 0] X h (ix3 a b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

theorem kroll_apply (na nb off : ℕ) (h1 : off + na = 512) (h2 : na + nb = 512)
    (q : FVec Ideal S512x1x128 .f32)
    (ha : S512x1x128.Slices ![off, 0, 0] ⟨3, ![na, 1, 128]⟩)
    (hb : S512x1x128.Slices ![0, 0, 0] ⟨3, ![nb, 1, 128]⟩)
    (hc : Shape.Concatenates [⟨3, ![na, 1, 128]⟩, ⟨3, ![nb, 1, 128]⟩] S512x1x128 0)
    (g : Fin 512) (l : Fin 128) :
    kroll (F := Ideal) ⟨3, ![na, 1, 128]⟩ ⟨3, ![nb, 1, 128]⟩ off q ha hb hc (ix3 g (0 : Fin 1) l)
      = q (ix3 (⟨(g.val + off) % 512, Nat.mod_lt _ (by norm_num)⟩ : Fin 512) (0 : Fin 1) l) := by
  unfold kroll
  have hg512 := g.isLt
  by_cases hg : g.val < na
  · refine (concatenate_pair_apply_left (t := S512x1x128) (s₁ := ⟨3, ![na, 1, 128]⟩) (s₂ := ⟨3, ![nb, 1, 128]⟩)
      (0 : Fin 3) _ _ hc (ix3 g (0 : Fin 1) l) (by rfl) (ix3 (⟨g.val, hg⟩ : Fin na) (0 : Fin 1) l) ?_).trans ?_
    · intro b
      match b with
      | ⟨0, _⟩ => rfl
      | ⟨1, _⟩ => rfl
      | ⟨2, _⟩ => rfl
    · exact slice3_axis0_apply off q ha ⟨g.val, hg⟩ 0 l _ (by show (g.val + off) % 512 = off + g.val; omega)
  · have hg' : g.val - na < nb := by omega
    refine (concatenate_pair_apply_right (t := S512x1x128) (s₁ := ⟨3, ![na, 1, 128]⟩) (s₂ := ⟨3, ![nb, 1, 128]⟩)
      (0 : Fin 3) _ _ hc (ix3 g (0 : Fin 1) l) (by rfl) (by rfl)
      (ix3 (⟨g.val - na, hg'⟩ : Fin nb) (0 : Fin 1) l) ?_ ?_).trans ?_
    · intro b hb
      match b, hb with
      | ⟨0, _⟩, hb => exact absurd rfl hb
      | ⟨1, _⟩, _ => rfl
      | ⟨2, _⟩, _ => rfl
    · show (g.val - na) + na = g.val
      omega
    · exact slice3_axis0_apply 0 q hb ⟨g.val - na, hg'⟩ 0 l _
        (by show (g.val + off) % 512 = 0 + (g.val - na); omega)

theorem rolled_apply (na nb off k : ℕ) (hk : k < 16) (h1 : off + na = 512) (h2 : na + nb = 512)
    (y : FVec Ideal S512x16x128 .f32) (hs : S512x16x128.Slices ![0, k, 0] S512x1x128)
    (ha : S512x1x128.Slices ![off, 0, 0] ⟨3, ![na, 1, 128]⟩)
    (hb : S512x1x128.Slices ![0, 0, 0] ⟨3, ![nb, 1, 128]⟩)
    (hc : Shape.Concatenates [⟨3, ![na, 1, 128]⟩, ⟨3, ![nb, 1, 128]⟩] S512x1x128 0)
    (g : Fin 512) (l : Fin 128) :
    kroll (F := Ideal) ⟨3, ![na, 1, 128]⟩ ⟨3, ![nb, 1, 128]⟩ off
        (extractStridedSlice S512x1x128 ![0, k, 0] y hs) ha hb hc (ix3 g (0 : Fin 1) l)
      = y (ix3 (⟨(g.val + off) % 512, Nat.mod_lt _ (by norm_num)⟩ : Fin 512) (⟨k, hk⟩ : Fin 16) l) :=
  (kroll_apply na nb off h1 h2 _ ha hb hc g l).trans
    (slice3_axis1_apply k y hs _ (0 : Fin 1) l ⟨k, hk⟩ rfl)

theorem piece_apply {α : Type} (xs : List ((s : Shape) × (s.Idx → α)))
    (hc : Shape.Concatenates (xs.map (·.1)) S512x16x128 1) (g : Fin 512) (l : Fin 128) (k : ℕ) (hk16 : k < 16)
    (hall : xs.map (·.1) = List.replicate 16 S512x1x128)
    (x : S512x1x128.Idx → α) (hxk : xs[k]? = some ⟨S512x1x128, x⟩) :
    concatenate S512x16x128 1 xs hc (ix3 g (⟨k, hk16⟩ : Fin 16) l) = x (ix3 g (0 : Fin 1) l) := by
  obtain ⟨hk, hxk'⟩ := List.getElem?_eq_some_iff.mp hxk
  have hpre : (((xs.take k).map (·.1)).map fun s =>
      if h : s.rank = S512x16x128.rank then s.size ((1 : Fin S512x16x128.rank).cast h.symm) else 0).sum = k := by
    rw [List.map_take, hall, List.take_replicate, List.map_replicate, List.sum_replicate_nat,
      Nat.min_eq_left (Nat.le_of_lt hk16)]
    exact Nat.mul_one k
  exact concatenate_apply_piece (t := S512x16x128) (1 : Fin 3) xs hc _ k hk S512x1x128 x hxk' (by rfl) k hpre
    (ix3 g (0 : Fin 1) l)
    (fun b hb => by
      match b, hb with
      | ⟨0, _⟩, _ => rfl
      | ⟨1, _⟩, hb => exact absurd rfl hb
      | ⟨2, _⟩, _ => rfl)
    (by show k + 0 = k; rfl)

abbrev pieces16 {α : Type} (p0 p1 p2 p3 p4 p5 p6 p7 p8 p9 p10 p11 p12 p13 p14 p15 : S512x1x128.Idx → α) : List ((s : Shape) × (s.Idx → α)) :=
  [⟨S512x1x128, p0⟩, ⟨S512x1x128, p1⟩, ⟨S512x1x128, p2⟩, ⟨S512x1x128, p3⟩, ⟨S512x1x128, p4⟩, ⟨S512x1x128, p5⟩, ⟨S512x1x128, p6⟩, ⟨S512x1x128, p7⟩, ⟨S512x1x128, p8⟩, ⟨S512x1x128, p9⟩, ⟨S512x1x128, p10⟩, ⟨S512x1x128, p11⟩, ⟨S512x1x128, p12⟩, ⟨S512x1x128, p13⟩, ⟨S512x1x128, p14⟩, ⟨S512x1x128, p15⟩]

theorem concat16_apply {α : Type} (p0 p1 p2 p3 p4 p5 p6 p7 p8 p9 p10 p11 p12 p13 p14 p15 : S512x1x128.Idx → α)
    (hc : Shape.Concatenates [S512x1x128, S512x1x128, S512x1x128, S512x1x128, S512x1x128, S512x1x128, S512x1x128, S512x1x128, S512x1x128, S512x1x128, S512x1x128, S512x1x128, S512x1x128, S512x1x128, S512x1x128, S512x1x128] S512x16x128 1)
    (g : Fin 512) (j : Fin 16) (l : Fin 128) (v : α)
    (h0 : j = 0 → p0 (ix3 g (0 : Fin 1) l) = v)
    (h1 : j = 1 → p1 (ix3 g (0 : Fin 1) l) = v)
    (h2 : j = 2 → p2 (ix3 g (0 : Fin 1) l) = v)
    (h3 : j = 3 → p3 (ix3 g (0 : Fin 1) l) = v)
    (h4 : j = 4 → p4 (ix3 g (0 : Fin 1) l) = v)
    (h5 : j = 5 → p5 (ix3 g (0 : Fin 1) l) = v)
    (h6 : j = 6 → p6 (ix3 g (0 : Fin 1) l) = v)
    (h7 : j = 7 → p7 (ix3 g (0 : Fin 1) l) = v)
    (h8 : j = 8 → p8 (ix3 g (0 : Fin 1) l) = v)
    (h9 : j = 9 → p9 (ix3 g (0 : Fin 1) l) = v)
    (h10 : j = 10 → p10 (ix3 g (0 : Fin 1) l) = v)
    (h11 : j = 11 → p11 (ix3 g (0 : Fin 1) l) = v)
    (h12 : j = 12 → p12 (ix3 g (0 : Fin 1) l) = v)
    (h13 : j = 13 → p13 (ix3 g (0 : Fin 1) l) = v)
    (h14 : j = 14 → p14 (ix3 g (0 : Fin 1) l) = v)
    (h15 : j = 15 → p15 (ix3 g (0 : Fin 1) l) = v) :
    concatenate S512x16x128 1 [⟨S512x1x128, p0⟩, ⟨S512x1x128, p1⟩, ⟨S512x1x128, p2⟩, ⟨S512x1x128, p3⟩, ⟨S512x1x128, p4⟩, ⟨S512x1x128, p5⟩, ⟨S512x1x128, p6⟩, ⟨S512x1x128, p7⟩, ⟨S512x1x128, p8⟩, ⟨S512x1x128, p9⟩, ⟨S512x1x128, p10⟩, ⟨S512x1x128, p11⟩, ⟨S512x1x128, p12⟩, ⟨S512x1x128, p13⟩, ⟨S512x1x128, p14⟩, ⟨S512x1x128, p15⟩] hc (ix3 g j l) = v := by
  have hall : (pieces16 p0 p1 p2 p3 p4 p5 p6 p7 p8 p9 p10 p11 p12 p13 p14 p15).map (·.1) = List.replicate 16 S512x1x128 := rfl
  have key := piece_apply (pieces16 p0 p1 p2 p3 p4 p5 p6 p7 p8 p9 p10 p11 p12 p13 p14 p15) hc g l
  fin_cases j
  · exact (key 0 (by norm_num) hall p0 (by rfl)).trans (h0 (by rfl))
  · exact (key 1 (by norm_num) hall p1 (by rfl)).trans (h1 (by rfl))
  · exact (key 2 (by norm_num) hall p2 (by rfl)).trans (h2 (by rfl))
  · exact (key 3 (by norm_num) hall p3 (by rfl)).trans (h3 (by rfl))
  · exact (key 4 (by norm_num) hall p4 (by rfl)).trans (h4 (by rfl))
  · exact (key 5 (by norm_num) hall p5 (by rfl)).trans (h5 (by rfl))
  · exact (key 6 (by norm_num) hall p6 (by rfl)).trans (h6 (by rfl))
  · exact (key 7 (by norm_num) hall p7 (by rfl)).trans (h7 (by rfl))
  · exact (key 8 (by norm_num) hall p8 (by rfl)).trans (h8 (by rfl))
  · exact (key 9 (by norm_num) hall p9 (by rfl)).trans (h9 (by rfl))
  · exact (key 10 (by norm_num) hall p10 (by rfl)).trans (h10 (by rfl))
  · exact (key 11 (by norm_num) hall p11 (by rfl)).trans (h11 (by rfl))
  · exact (key 12 (by norm_num) hall p12 (by rfl)).trans (h12 (by rfl))
  · exact (key 13 (by norm_num) hall p13 (by rfl)).trans (h13 (by rfl))
  · exact (key 14 (by norm_num) hall p14 (by rfl)).trans (h14 (by rfl))
  · exact (key 15 (by norm_num) hall p15 (by rfl)).trans (h15 (by rfl))

theorem kregroup_apply (y : FVec Ideal S512x16x128 .f32) (g : Fin 512) (j : Fin 16) (l : Fin 128) :
    kregroup (F := Ideal) y (ix3 g j l)
      = y (ix3 (⟨(g.val + 2 * j.val) % 512, Nat.mod_lt _ (by norm_num)⟩ : Fin 512) j l) := by
  unfold kregroup
  refine concat16_apply _ _ _ _ _ _ _ _ _ _ _ _ _ _ _ _ _ g j l _ ?_ ?_ ?_ ?_ ?_ ?_ ?_ ?_ ?_ ?_ ?_ ?_ ?_ ?_ ?_ ?_
  · intro hj
    subst hj
    have e : (⟨(g.val + 2 * (0 : Fin 16).val) % 512, Nat.mod_lt _ (by norm_num)⟩ : Fin 512) = g :=
      Fin.ext (by have := g.isLt; show (g.val + 2 * 0) % 512 = g.val; omega)
    rw [e]
    exact slice3_axis1_apply 0 y _ g (0 : Fin 1) l (0 : Fin 16) (by rfl)
  all_goals
    intro hj
    subst hj
    exact rolled_apply _ _ _ _ (by norm_num) (by rfl) (by rfl) y _ _ _ _ g l

theorem kungather_apply (y : FVec Ideal S512x16x128 .f32) (g : Fin 512) (j : Fin 16) (l : Fin 128) :
    kungather (F := Ideal) y (ix3 g j l)
      = y (ix3 (⟨(g.val + (512 - 2 * j.val)) % 512, Nat.mod_lt _ (by norm_num)⟩ : Fin 512) j l) := by
  unfold kungather
  refine concat16_apply _ _ _ _ _ _ _ _ _ _ _ _ _ _ _ _ _ g j l _ ?_ ?_ ?_ ?_ ?_ ?_ ?_ ?_ ?_ ?_ ?_ ?_ ?_ ?_ ?_ ?_
  · intro hj
    subst hj
    have e : (⟨(g.val + (512 - 2 * (0 : Fin 16).val)) % 512, Nat.mod_lt _ (by norm_num)⟩ : Fin 512) = g :=
      Fin.ext (by have := g.isLt; show (g.val + (512 - 2 * 0)) % 512 = g.val; omega)
    rw [e]
    exact slice3_axis1_apply 0 y _ g (0 : Fin 1) l (0 : Fin 16) (by rfl)
  all_goals
    intro hj
    subst hj
    exact rolled_apply _ _ _ _ (by norm_num) (by rfl) (by rfl) y _ _ _ _ g l

theorem groups_of_rows_apply {α : Type} (x : S8192x128.Idx → α) (h : S8192x128.ShapeCasts S512x16x128)
    (g : Fin 512) (j : Fin 16) (l : Fin 128) :
    shapeCast S512x16x128 x h (ix3 g j l) = x (ix2 (Cert.Spec.row g j) l) :=
  shapeCast_apply x h _ _ (by
    rw [Shape.rowMajor_val_three, Shape.rowMajor_val_two]
    show (16 * g.val + j.val) * 128 + l.val = (g.val * 16 + j.val) * 128 + l.val
    omega)

theorem rows_of_groups_apply {α : Type} (z : S512x16x128.Idx → α) (h : S512x16x128.ShapeCasts S8192x128)
    (r : Fin 8192) (l : Fin 128) :
    shapeCast S8192x128 z h (ix2 r l) = z (ix3 (Cert.Spec.rowGroup r) (Cert.Spec.rowPos r) l) :=
  shapeCast_apply z h _ _ (by
    rw [Shape.rowMajor_val_three, Shape.rowMajor_val_two]
    show (r.val / 16 * 16 + r.val % 16) * 128 + l.val = r.val * 128 + l.val
    omega)

theorem kgather_agrees (t : Fin 8) {x : Vec Ideal S8192x128 .f32} {X : Cert.Spec.Arr} (h : AgreesRows t x X) :
    Agrees t (kgather (F := Ideal) x) (Cert.Spec.gather X) := by
  intro g j l
  show kregroup (F := Ideal) (shapeCast S512x16x128 (shapeCast S8192x128 x shapeCasts_S8192x128_S8192x128)
    shapeCasts_S8192x128_S512x16x128) (ix3 g j l) = _
  rw [kregroup_apply, groups_of_rows_apply, shapeCast_self]
  exact h _ _

theorem kscatter_agrees (t : Fin 8) {z : FVec Ideal S512x16x128 .f32} {Z : Cert.Spec.St} (h : Agrees t z Z) :
    AgreesRows t (kscatter (F := Ideal) z) (Cert.Spec.scatter Z) := by
  intro r l
  show shapeCast S8192x128 (kungather (F := Ideal) z) shapeCasts_S512x16x128_S8192x128 (ix2 r l) = _
  rw [rows_of_groups_apply, kungather_apply]
  have e : (⟨((Cert.Spec.rowGroup r).val + (512 - 2 * (Cert.Spec.rowPos r).val)) % 512,
        Nat.mod_lt _ (by norm_num)⟩ : Fin 512) = Cert.Spec.dstGroup (Cert.Spec.rowGroup r) (Cert.Spec.rowPos r) := by
    apply Fin.ext
    have := r.isLt
    show (r.val / 16 + (512 - 2 * (r.val % 16))) % 512 = (r.val / 16 + 512 - 2 * (r.val % 16)) % 512
    omega
  rw [e]
  exact h _ _ _

theorem step_agrees (t : Fin 8) (n : ℕ) (hn : n < 16) (hs4 : S512x16x4.Slices ![0, n, 2] S512x1x2)
    (hs : S512x16x128.Slices ![0, n, 0] S512x1x128)
    {z za : FVec Ideal S512x16x128 .f32} {wm : FVec Ideal S128x4 .bf16} {X XA : Cert.Spec.Arr} {w : Fin 2048 → EReal}
    (hw : BlockW t w wm)
    (hz : Agrees t z (Cert.Consts.iter w X XA n).1) (hza : Agrees t za (Cert.Consts.iter w X XA n).2) :
    Agrees t (kstepZ (F := Ideal) n hs4 hs z za wm kmask) (Cert.Consts.iter w X XA (n + 1)).1
      ∧ Agrees t (kstepA (F := Ideal) n hs4 hs z za wm kmask) (Cert.Consts.iter w X XA (n + 1)).2 := by
  have e : (⟨n % 16, Nat.mod_lt _ (by norm_num)⟩ : Fin 16) = ⟨n, hn⟩ := Fin.ext (Nat.mod_eq_of_lt hn)
  have hZ := kstepZ_apply t ⟨n, hn⟩ hs4 hs hz hza hw
  have hA := kstepA_apply t ⟨n, hn⟩ hs4 hs hz hza hw
  show Agrees t _ (Cert.Spec.iter Cert.Consts.cH Cert.Consts.cL Cert.Consts.cM Cert.Consts.cR w X XA (n + 1)).1
    ∧ Agrees t _ (Cert.Spec.iter Cert.Consts.cH Cert.Consts.cL Cert.Consts.cM Cert.Consts.cR w X XA (n + 1)).2
  rw [Cert.Spec.iter_succ, e]
  exact ⟨hZ, hA⟩

section Chain

variable (t : Fin 8) {x0 x1 : Vec Ideal S8192x128 .f32} {x2 : Vec Ideal S1x128x4 .bf16} {X XA : Cert.Spec.Arr}
  {w : Fin 2048 → EReal} (h0 : AgreesRows t x0 X) (h1 : AgreesRows t x1 XA) (hw : BlockW t w (kwm (F := Ideal) x2))
include h0 h1 hw

theorem kZA_agrees_0 :
    Agrees t (kZ0 (F := Ideal) x0 x1 x2) (Cert.Consts.iter w X XA 0).1
      ∧ Agrees t (kA0 (F := Ideal) x0 x1 x2) (Cert.Consts.iter w X XA 0).2 :=
  ⟨kgather_agrees t h0, kgather_agrees t h1⟩

theorem kZA_agrees_1 :
    Agrees t (kZ1 (F := Ideal) x0 x1 x2) (Cert.Consts.iter w X XA 1).1
      ∧ Agrees t (kA1 (F := Ideal) x0 x1 x2) (Cert.Consts.iter w X XA 1).2 :=
  step_agrees t 0 (by norm_num) _ _ hw (kZA_agrees_0 t h0 h1 hw).1 (kZA_agrees_0 t h0 h1 hw).2

theorem kZA_agrees_2 :
    Agrees t (kZ2 (F := Ideal) x0 x1 x2) (Cert.Consts.iter w X XA 2).1
      ∧ Agrees t (kA2 (F := Ideal) x0 x1 x2) (Cert.Consts.iter w X XA 2).2 :=
  step_agrees t 1 (by norm_num) _ _ hw (kZA_agrees_1 t h0 h1 hw).1 (kZA_agrees_1 t h0 h1 hw).2

theorem kZA_agrees_3 :
    Agrees t (kZ3 (F := Ideal) x0 x1 x2) (Cert.Consts.iter w X XA 3).1
      ∧ Agrees t (kA3 (F := Ideal) x0 x1 x2) (Cert.Consts.iter w X XA 3).2 :=
  step_agrees t 2 (by norm_num) _ _ hw (kZA_agrees_2 t h0 h1 hw).1 (kZA_agrees_2 t h0 h1 hw).2

theorem kZA_agrees_4 :
    Agrees t (kZ4 (F := Ideal) x0 x1 x2) (Cert.Consts.iter w X XA 4).1
      ∧ Agrees t (kA4 (F := Ideal) x0 x1 x2) (Cert.Consts.iter w X XA 4).2 :=
  step_agrees t 3 (by norm_num) _ _ hw (kZA_agrees_3 t h0 h1 hw).1 (kZA_agrees_3 t h0 h1 hw).2

theorem kZA_agrees_5 :
    Agrees t (kZ5 (F := Ideal) x0 x1 x2) (Cert.Consts.iter w X XA 5).1
      ∧ Agrees t (kA5 (F := Ideal) x0 x1 x2) (Cert.Consts.iter w X XA 5).2 :=
  step_agrees t 4 (by norm_num) _ _ hw (kZA_agrees_4 t h0 h1 hw).1 (kZA_agrees_4 t h0 h1 hw).2

theorem kZA_agrees_6 :
    Agrees t (kZ6 (F := Ideal) x0 x1 x2) (Cert.Consts.iter w X XA 6).1
      ∧ Agrees t (kA6 (F := Ideal) x0 x1 x2) (Cert.Consts.iter w X XA 6).2 :=
  step_agrees t 5 (by norm_num) _ _ hw (kZA_agrees_5 t h0 h1 hw).1 (kZA_agrees_5 t h0 h1 hw).2

theorem kZA_agrees_7 :
    Agrees t (kZ7 (F := Ideal) x0 x1 x2) (Cert.Consts.iter w X XA 7).1
      ∧ Agrees t (kA7 (F := Ideal) x0 x1 x2) (Cert.Consts.iter w X XA 7).2 :=
  step_agrees t 6 (by norm_num) _ _ hw (kZA_agrees_6 t h0 h1 hw).1 (kZA_agrees_6 t h0 h1 hw).2

theorem kZA_agrees_8 :
    Agrees t (kZ8 (F := Ideal) x0 x1 x2) (Cert.Consts.iter w X XA 8).1
      ∧ Agrees t (kA8 (F := Ideal) x0 x1 x2) (Cert.Consts.iter w X XA 8).2 :=
  step_agrees t 7 (by norm_num) _ _ hw (kZA_agrees_7 t h0 h1 hw).1 (kZA_agrees_7 t h0 h1 hw).2

theorem kZA_agrees_9 :
    Agrees t (kZ9 (F := Ideal) x0 x1 x2) (Cert.Consts.iter w X XA 9).1
      ∧ Agrees t (kA9 (F := Ideal) x0 x1 x2) (Cert.Consts.iter w X XA 9).2 :=
  step_agrees t 8 (by norm_num) _ _ hw (kZA_agrees_8 t h0 h1 hw).1 (kZA_agrees_8 t h0 h1 hw).2

theorem kZA_agrees_10 :
    Agrees t (kZ10 (F := Ideal) x0 x1 x2) (Cert.Consts.iter w X XA 10).1
      ∧ Agrees t (kA10 (F := Ideal) x0 x1 x2) (Cert.Consts.iter w X XA 10).2 :=
  step_agrees t 9 (by norm_num) _ _ hw (kZA_agrees_9 t h0 h1 hw).1 (kZA_agrees_9 t h0 h1 hw).2

theorem kZA_agrees_11 :
    Agrees t (kZ11 (F := Ideal) x0 x1 x2) (Cert.Consts.iter w X XA 11).1
      ∧ Agrees t (kA11 (F := Ideal) x0 x1 x2) (Cert.Consts.iter w X XA 11).2 :=
  step_agrees t 10 (by norm_num) _ _ hw (kZA_agrees_10 t h0 h1 hw).1 (kZA_agrees_10 t h0 h1 hw).2

theorem kZA_agrees_12 :
    Agrees t (kZ12 (F := Ideal) x0 x1 x2) (Cert.Consts.iter w X XA 12).1
      ∧ Agrees t (kA12 (F := Ideal) x0 x1 x2) (Cert.Consts.iter w X XA 12).2 :=
  step_agrees t 11 (by norm_num) _ _ hw (kZA_agrees_11 t h0 h1 hw).1 (kZA_agrees_11 t h0 h1 hw).2

theorem kZA_agrees_13 :
    Agrees t (kZ13 (F := Ideal) x0 x1 x2) (Cert.Consts.iter w X XA 13).1
      ∧ Agrees t (kA13 (F := Ideal) x0 x1 x2) (Cert.Consts.iter w X XA 13).2 :=
  step_agrees t 12 (by norm_num) _ _ hw (kZA_agrees_12 t h0 h1 hw).1 (kZA_agrees_12 t h0 h1 hw).2

theorem kZA_agrees_14 :
    Agrees t (kZ14 (F := Ideal) x0 x1 x2) (Cert.Consts.iter w X XA 14).1
      ∧ Agrees t (kA14 (F := Ideal) x0 x1 x2) (Cert.Consts.iter w X XA 14).2 :=
  step_agrees t 13 (by norm_num) _ _ hw (kZA_agrees_13 t h0 h1 hw).1 (kZA_agrees_13 t h0 h1 hw).2

theorem kZA_agrees_15 :
    Agrees t (kZ15 (F := Ideal) x0 x1 x2) (Cert.Consts.iter w X XA 15).1
      ∧ Agrees t (kA15 (F := Ideal) x0 x1 x2) (Cert.Consts.iter w X XA 15).2 :=
  step_agrees t 14 (by norm_num) _ _ hw (kZA_agrees_14 t h0 h1 hw).1 (kZA_agrees_14 t h0 h1 hw).2

theorem kZA_agrees_16 :
    Agrees t (kZ16 (F := Ideal) x0 x1 x2) (Cert.Consts.iter w X XA 16).1
      ∧ Agrees t (kA16 (F := Ideal) x0 x1 x2) (Cert.Consts.iter w X XA 16).2 :=
  step_agrees t 15 (by norm_num) _ _ hw (kZA_agrees_15 t h0 h1 hw).1 (kZA_agrees_15 t h0 h1 hw).2

theorem kZ_agrees_16 : Agrees t (kZ16 (F := Ideal) x0 x1 x2) (Cert.Consts.iter w X XA 16).1 :=
  (kZA_agrees_16 t h0 h1 hw).1

theorem kA_agrees_16 : Agrees t (kA16 (F := Ideal) x0 x1 x2) (Cert.Consts.iter w X XA 16).2 :=
  (kZA_agrees_16 t h0 h1 hw).2

theorem kout3_agrees :
    AgreesRows t (kscatter (F := Ideal) (kZ16 (F := Ideal) x0 x1 x2)) (Cert.Consts.outI w X XA) :=
  kscatter_agrees t (kZ_agrees_16 t h0 h1 hw)

theorem kout4_agrees :
    AgreesRows t (kscatter (F := Ideal) (kA16 (F := Ideal) x0 x1 x2)) (Cert.Consts.outA w X XA) :=
  kscatter_agrees t (kA_agrees_16 t h0 h1 hw)

end Chain

end Cert.KernelIdeal.Hand

end
-- ==== Proof.KJoin.lean ====
/-
  The kernel's two results are the specification's.
-/
import proofs.«130520_g23433341567538_cont_8to1_1409_4_alg».proof.Proof.KValue
import proofs.«130520_g23433341567538_cont_8to1_1409_4_alg».proof.Proof.KOut
import proofs.«130520_g23433341567538_cont_8to1_1409_4_alg».proof.Proof.KBody
import proofs.«130520_g23433341567538_cont_8to1_1409_4_alg».proof.Proof.KBodyVal

noncomputable section

namespace Cert.KernelIdeal.Hand

open Idealize.ShloMosaic Idealize.SL.Sem Cert.KernelIdeal

theorem bodyI : BodyI :=
  fun c i arg1 harg1 arg2 harg2 arg3 harg3 arg4 harg4 arg5 harg5 t x0 x1 x2 X XA w e0 e1 ew => by
    rw [out0_3_eq_of (F := Ideal) (fun c i a1 h1 a2 h2 a3 h3 a4 h4 a5 h5 y0 y1 y2 => L3_eq c i a1 h1 a2 h2 a3 h3 a4 h4 a5 h5 y0 y1 y2)]
    exact kout3_agrees t e0 e1 ew

theorem bodyA : BodyA :=
  fun c i arg1 harg1 arg2 harg2 arg3 harg3 arg4 harg4 arg5 harg5 t x0 x1 x2 X XA w e0 e1 ew => by
    rw [out0_4_eq_of (F := Ideal) (fun c i a1 h1 a2 h2 a3 h3 a4 h4 a5 h5 y0 y1 y2 => L4_eq c i a1 h1 a2 h2 a3 h3 a4 h4 a5 h5 y0 y1 y2)]
    exact kout4_agrees t e0 e1 ew

theorem run_value_all (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = Cert.Out.outI (m ((c.tc : Thread nD τ).loc main_arg0)) (m ((c.tc : Thread nD τ).loc main_arg1)) (m ((c.tc : Thread nD τ).loc main_arg2))
      ∧ r.2.mem ((c.tc : Thread nD τ).loc main_v32) = Cert.Out.outA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value m ρ bodyI bodyA

end Cert.KernelIdeal.Hand

end
-- ==== Proof.RDefs.lean ====
/-
  One step of the reference's recurrence as a function of its state, the partner position a parameter.
-/
import proofs.«130520_g23433341567538_cont_8to1_1409_4_alg».proof.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Cert.ReferenceIdeal.Facts]

/-- Position `s` of a group is inside the sixteen: the slice a step takes there is in range. -/
theorem rslc {s : ℕ} (h : s < 16 := by decide) : S1x512x16x16x64.Slices ![0, 0, s, 0, 0] S1x512x1x16x64 :=
  ⟨rfl, fun a => by
    match a with
    | ⟨0, _⟩ => exact (by decide : 0 + 1 ≤ 1)
    | ⟨1, _⟩ => exact (by decide : 0 + 512 ≤ 512)
    | ⟨2, _⟩ => exact Nat.succ_le_of_lt h
    | ⟨3, _⟩ => exact (by decide : 0 + 16 ≤ 16)
    | ⟨4, _⟩ => exact (by decide : 0 + 64 ≤ 64)⟩

def rpre (s : ℕ) (hs : S1x512x16x16x64.Slices ![0, 0, s, 0, 0] S1x512x1x16x64)
    (xi : FVec F S1x512x16x16x64 .f32) (wi wj : FVec F S16x64 .f32) : FVec F S1x512x16x16x64 .f32 :=
  have v24 : FVec F S1x512x1x16x64 .f32 := extractStridedSlice S1x512x1x16x64 ![0, 0, s, 0, 0] xi hs
  have v25 : FVec F S1x1x1x16x64 .f32 := broadcastInDim S1x1x1x16x64 ![3, 4] bcast_S16x64_S1x1x1x16x64_3_4 wi
  have v26 : FVec F S1x512x16x16x64 .f32 := broadcastInDim S1x512x16x16x64 ![0, 1, 2, 3, 4] bcast_S1x1x1x16x64_S1x512x16x16x64_0_1_2_3_4 v25
  have v27 : FVec F S1x512x16x16x64 .f32 := mulf xi v26
  have cst : FVec F S_ .f32 := constant S_ .f32 0x00000000#32
  have v28 : FVec F S1x512x16x16 .f32 := Host.reduceAdd v27 cst reducesTo_S1x512x16x16x64_S1x512x16x16_d4 h_S_
  have v29 : FVec F S1x1x1x16x64 .f32 := broadcastInDim S1x1x1x16x64 ![3, 4] bcast_S16x64_S1x1x1x16x64_3_4 wj
  have v30 : FVec F S1x512x1x16x64 .f32 := broadcastInDim S1x512x1x16x64 ![0, 1, 2, 3, 4] bcast_S1x1x1x16x64_S1x512x1x16x64_0_1_2_3_4 v29
  have v31 : FVec F S1x512x1x16x64 .f32 := mulf v24 v30
  have cst_2 : FVec F S_ .f32 := constant S_ .f32 0x00000000#32
  have v32 : FVec F S1x512x1x16 .f32 := Host.reduceAdd v31 cst_2 reducesTo_S1x512x1x16x64_S1x512x1x16_d4 h_S_
  have v33 : FVec F S1x512x16x16 .f32 := broadcastInDim S1x512x16x16 ![0, 1, 2, 3] bcast_S1x512x1x16_S1x512x16x16_0_1_2_3 v32
  have v34 : FVec F S1x512x16x16 .f32 := addf v28 v33
  have cst_3 : FVec F S_ .f32 := constant S_ .f32 0x3F000000#32
  have v35 : FVec F S1x512x16x16x64 .f32 := broadcastInDim S1x512x16x16x64 ![] bcast_S_S1x512x16x16x64 cst_3
  have v36 : FVec F S1x512x16x16x64 .f32 := mulf v35 xi
  have v37 : FVec F S1x512x16x16x1 .f32 := broadcastInDim S1x512x16x16x1 ![0, 1, 2, 3] bcast_S1x512x16x16_S1x512x16x16x1_0_1_2_3 v34
  have cst_4 : FVec F S_ .f32 := constant S_ .f32 0x3F000000#32
  have v38 : FVec F S1x512x16x16x1 .f32 := broadcastInDim S1x512x16x16x1 ![] bcast_S_S1x512x16x16x1 cst_4
  have v39 : FVec F S1x512x16x16x1 .f32 := mulf v38 v37
  have v40 : FVec F S1x512x16x16x64 .f32 := broadcastInDim S1x512x16x16x64 ![0, 1, 2, 3, 4] bcast_S1x512x16x16x1_S1x512x16x16x64_0_1_2_3_4 v39
  have v41 : FVec F S1x512x16x16x64 .f32 := broadcastInDim S1x512x16x16x64 ![0, 1, 2, 3, 4] bcast_S1x512x1x16x64_S1x512x16x16x64_0_1_2_3_4 v24
  have v42 : FVec F S1x512x16x16x64 .f32 := mulf v40 v41
  addf v36 v42

def rstepA (s : ℕ) (hs : S1x512x16x16x64.Slices ![0, 0, s, 0, 0] S1x512x1x16x64)
    (xi xav : FVec F S1x512x16x16x64 .f32) (wi wj : FVec F S16x64 .f32) : FVec F S1x512x16x16x64 .f32 :=
  have v43 : FVec F S1x512x16x16x64 .f32 := rpre s hs xi wi wj
  have cst_5 : FVec F S_ .f32 := constant S_ .f32 0x00000000#32
  have v44 : FVec F S1x512x16x16x64 .f32 := broadcastInDim S1x512x16x16x64 ![] bcast_S_S1x512x16x16x64 cst_5
  have v45 : IVec S1x512x16x16x64 1 := cmpf .oge v43 v44
  have cst_6 : FVec F S_ .f32 := constant S_ .f32 0x3C23D70A#32
  have v46 : FVec F S1x512x16x16x64 .f32 := broadcastInDim S1x512x16x16x64 ![] bcast_S_S1x512x16x16x64 cst_6
  have v47 : FVec F S1x512x16x16x64 .f32 := mulf v46 v43
  have v48 : FVec F S1x512x16x16x64 .f32 := select v45 v43 v47
  have cst_7 : FVec F S_ .f32 := constant S_ .f32 0x3F666666#32
  have v49 : FVec F S1x512x16x16x64 .f32 := broadcastInDim S1x512x16x16x64 ![] bcast_S_S1x512x16x16x64 cst_7
  have v50 : FVec F S1x512x16x16x64 .f32 := mulf v49 xav
  have cst_8 : FVec F S_ .f32 := constant S_ .f32 0x3DCCCCCD#32
  have v51 : FVec F S1x512x16x16x64 .f32 := broadcastInDim S1x512x16x16x64 ![] bcast_S_S1x512x16x16x64 cst_8
  have v52 : FVec F S1x512x16x16x64 .f32 := mulf v51 v48
  addf v50 v52

def rstepZ (s : ℕ) (hs : S1x512x16x16x64.Slices ![0, 0, s, 0, 0] S1x512x1x16x64)
    (xi xav : FVec F S1x512x16x16x64 .f32) (wi wj : FVec F S16x64 .f32) : FVec F S1x512x16x16x64 .f32 :=
  have v53 : FVec F S1x512x16x16x64 .f32 := rstepA s hs xi xav wi wj
  have cst_9 : FVec F S_ .f32 := constant S_ .f32 0x3F666666#32
  have v54 : FVec F S1x512x16x16x64 .f32 := broadcastInDim S1x512x16x16x64 ![] bcast_S_S1x512x16x16x64 cst_9
  have v55 : FVec F S1x512x16x16x64 .f32 := mulf v54 xi
  have cst_10 : FVec F S_ .f32 := constant S_ .f32 0x3DCCCCCD#32
  have v56 : FVec F S1x512x16x16x64 .f32 := broadcastInDim S1x512x16x16x64 ![] bcast_S_S1x512x16x16x64 cst_10
  have v57 : FVec F S1x512x16x16x64 .f32 := mulf v56 v53
  addf v55 v57

end Cert.ReferenceIdeal.Hand

end
-- ==== Proof.RIface.lean ====
/-
  The reference's five-axis arrays against the specification's regrouped arrays: group, position, head, column in the head.
-/
import proofs.«130520_g23433341567538_cont_8to1_1409_4_alg».proof.Proof.RDefs
import proofs.«130520_g23433341567538_cont_8to1_1409_4_alg».proof.Proof.Consts
import Idealize.ShloMosaic.Lib.ValueIdx

noncomputable section

namespace Cert.ReferenceIdeal.Hand

open Idealize.ShloMosaic Idealize.ShloMosaic.ValueIdx Cert.ReferenceIdeal

def Agrees (xi : FVec Ideal S1x512x16x16x64 .f32) (Z : Cert.Spec.St) : Prop :=
  ∀ (g : Fin 512) (j : Fin 16) (h : Fin 16) (k : Fin 64), xi (ix5 (0 : Fin 1) g j h k) = Z g j (Cert.Spec.col h k)

def IsWI (w : Fin 2048 → EReal) (wi : FVec Ideal S16x64 .f32) : Prop :=
  ∀ (h : Fin 16) (k : Fin 64), wi (ix2 h k) = w (Cert.Spec.colI h k)
def IsWJ (w : Fin 2048 → EReal) (wj : FVec Ideal S16x64 .f32) : Prop :=
  ∀ (h : Fin 16) (k : Fin 64), wj (ix2 h k) = w (Cert.Spec.colJ h k)

end Cert.ReferenceIdeal.Hand

end
-- ==== Proof.RStepVal.lean ====
/-
  One step of the reference read at an index: the two sums over a head's 64 columns are the specification's dot products;
  the rest is entrywise.
-/
import proofs.«130520_g23433341567538_cont_8to1_1409_4_alg».proof.Proof.RIface
import Idealize.ShloMosaic.Lib.IdealHost
import Idealize.ShloMosaic.Lib.ValueLayout
import Idealize.ShloMosaic.Lib.Pipeline.Value

noncomputable section

namespace Cert.ReferenceIdeal.Hand

open scoped BigOperators
open Idealize.ShloMosaic Idealize.ShloMosaic.ValueIdx Idealize.SL.Sem Cert.ReferenceIdeal
open Cert.ReferenceIdeal.Facts₀ Cert.ReferenceIdeal.Facts

variable [Cert.ReferenceIdeal.Facts]

theorem headOf_col (h : Fin 16) (k : Fin 64) : Cert.Spec.headOf (Cert.Spec.col h k) = h := by
  apply Fin.ext
  show (64 * h.val + k.val) / 64 = h.val
  have := k.isLt
  omega

section Ops
variable {α : Type}

theorem slice_pos_apply (s : Fin 16) (hs : S1x512x16x16x64.Slices ![0, 0, s.val, 0, 0] S1x512x1x16x64)
    (x : S1x512x16x16x64.Idx → α) (g : Fin 512) (c : Fin 1) (h : Fin 16) (k : Fin 64) :
    extractStridedSlice S1x512x1x16x64 ![0, 0, s.val, 0, 0] x hs (ix5 (0 : Fin 1) g c h k) = x (ix5 (0 : Fin 1) g s h k) :=
  extractStridedSlice_apply _ _ _ _ _ (fun ax => by
    match ax with
    | ⟨0, _⟩ => exact (Nat.zero_add _).symm
    | ⟨1, _⟩ => exact (Nat.zero_add _).symm
    | ⟨2, _⟩ => show s.val = s.val + c.val; have := c.isLt; omega
    | ⟨3, _⟩ => exact (Nat.zero_add _).symm
    | ⟨4, _⟩ => exact (Nat.zero_add _).symm)

theorem bcast_w_apply (ev : S16x64.BroadcastsInDim S1x1x1x16x64 (![3, 4] : Fin 2 → Fin S1x1x1x16x64.rank))
    (x : S16x64.Idx → α) (a b c : Fin 1) (h : Fin 16) (k : Fin 64) :
    broadcastInDim S1x1x1x16x64 ![3, 4] ev x (ix5 a b c h k) = x (ix2 h k) :=
  broadcastInDim_apply _ _ _ _ _ (fun ax => by
    match ax with
    | ⟨0, _⟩ => rfl
    | ⟨1, _⟩ => rfl)

theorem bcast_hk_full_apply (ev : S1x1x1x16x64.BroadcastsInDim S1x512x16x16x64 (![0, 1, 2, 3, 4] : Fin 5 → Fin S1x512x16x16x64.rank))
    (x : S1x1x1x16x64.Idx → α) (g : Fin 512) (j h : Fin 16) (k : Fin 64) :
    broadcastInDim S1x512x16x16x64 ![0, 1, 2, 3, 4] ev x (ix5 (0 : Fin 1) g j h k) = x (ix5 (0 : Fin 1) (0 : Fin 1) (0 : Fin 1) h k) :=
  broadcastInDim_apply _ _ _ _ _ (fun ax => by
    match ax with
    | ⟨0, _⟩ => rfl
    | ⟨1, _⟩ => rfl
    | ⟨2, _⟩ => rfl
    | ⟨3, _⟩ => rfl
    | ⟨4, _⟩ => rfl)

theorem bcast_hk_pos_apply (ev : S1x1x1x16x64.BroadcastsInDim S1x512x1x16x64 (![0, 1, 2, 3, 4] : Fin 5 → Fin S1x512x1x16x64.rank))
    (x : S1x1x1x16x64.Idx → α) (g : Fin 512) (c : Fin 1) (h : Fin 16) (k : Fin 64) :
    broadcastInDim S1x512x1x16x64 ![0, 1, 2, 3, 4] ev x (ix5 (0 : Fin 1) g c h k) = x (ix5 (0 : Fin 1) (0 : Fin 1) (0 : Fin 1) h k) :=
  broadcastInDim_apply _ _ _ _ _ (fun ax => by
    match ax with
    | ⟨0, _⟩ => rfl
    | ⟨1, _⟩ => rfl
    | ⟨2, _⟩ => rfl
    | ⟨3, _⟩ => rfl
    | ⟨4, _⟩ => rfl)

theorem bcast_pos4_apply (ev : S1x512x1x16.BroadcastsInDim S1x512x16x16 (![0, 1, 2, 3] : Fin 4 → Fin S1x512x16x16.rank))
    (x : S1x512x1x16.Idx → α) (g : Fin 512) (j h : Fin 16) :
    broadcastInDim S1x512x16x16 ![0, 1, 2, 3] ev x (ix4 (0 : Fin 1) g j h) = x (ix4 (0 : Fin 1) g (0 : Fin 1) h) :=
  broadcastInDim_apply _ _ _ _ _ (fun ax => by
    match ax with
    | ⟨0, _⟩ => rfl
    | ⟨1, _⟩ => rfl
    | ⟨2, _⟩ => rfl
    | ⟨3, _⟩ => rfl)

theorem bcast_unit_apply (ev : S1x512x16x16.BroadcastsInDim S1x512x16x16x1 (![0, 1, 2, 3] : Fin 4 → Fin S1x512x16x16x1.rank))
    (x : S1x512x16x16.Idx → α) (g : Fin 512) (j h : Fin 16) (c : Fin 1) :
    broadcastInDim S1x512x16x16x1 ![0, 1, 2, 3] ev x (ix5 (0 : Fin 1) g j h c) = x (ix4 (0 : Fin 1) g j h) :=
  broadcastInDim_apply _ _ _ _ _ (fun ax => by
    match ax with
    | ⟨0, _⟩ => rfl
    | ⟨1, _⟩ => rfl
    | ⟨2, _⟩ => rfl
    | ⟨3, _⟩ => rfl)

theorem bcast_cols_apply (ev : S1x512x16x16x1.BroadcastsInDim S1x512x16x16x64 (![0, 1, 2, 3, 4] : Fin 5 → Fin S1x512x16x16x64.rank))
    (x : S1x512x16x16x1.Idx → α) (g : Fin 512) (j h : Fin 16) (k : Fin 64) :
    broadcastInDim S1x512x16x16x64 ![0, 1, 2, 3, 4] ev x (ix5 (0 : Fin 1) g j h k) = x (ix5 (0 : Fin 1) g j h (0 : Fin 1)) :=
  broadcastInDim_apply _ _ _ _ _ (fun ax => by
    match ax with
    | ⟨0, _⟩ => rfl
    | ⟨1, _⟩ => rfl
    | ⟨2, _⟩ => rfl
    | ⟨3, _⟩ => rfl
    | ⟨4, _⟩ => rfl)

theorem bcast_pos5_apply (ev : S1x512x1x16x64.BroadcastsInDim S1x512x16x16x64 (![0, 1, 2, 3, 4] : Fin 5 → Fin S1x512x16x16x64.rank))
    (x : S1x512x1x16x64.Idx → α) (g : Fin 512) (j h : Fin 16) (k : Fin 64) :
    broadcastInDim S1x512x16x16x64 ![0, 1, 2, 3, 4] ev x (ix5 (0 : Fin 1) g j h k) = x (ix5 (0 : Fin 1) g (0 : Fin 1) h k) :=
  broadcastInDim_apply _ _ _ _ _ (fun ax => by
    match ax with
    | ⟨0, _⟩ => rfl
    | ⟨1, _⟩ => rfl
    | ⟨2, _⟩ => rfl
    | ⟨3, _⟩ => rfl
    | ⟨4, _⟩ => rfl)

end Ops

theorem reduce_full_apply (ev : S1x512x16x16x64.ReducesTo [4] S1x512x16x16) (hu : 0 < S_.numel)
    (v : FVec Ideal S1x512x16x16x64 .f32) (b : BitVec 32) (g : Fin 512) (j h : Fin 16) :
    Host.reduceAdd (F := Ideal) v (constant (F := Ideal) S_ .f32 b) ev hu (ix4 (0 : Fin 1) g j h)
      = Ideal.ofBits .f32 b + ∑ k : Fin 64, v (ix5 (0 : Fin 1) g j h k) := by
  have hr : S1x512x16x16x64.Reduces [4] S1x512x16x16 := ⟨ev.1, by decide, ev.2⟩
  refine (hostReduceAdd_apply v _ ev hu _).trans ?_
  refine (Ideal.hostReduceAdd_single ev hr v _ _).trans ?_
  refine congrArg (_ + ·) (Finset.sum_congr rfl fun k _ => ?_)
  refine congrArg v (funext fun a => Fin.ext ?_)
  match a with
  | ⟨0, _⟩ => rfl
  | ⟨1, _⟩ => rfl
  | ⟨2, _⟩ => rfl
  | ⟨3, _⟩ => rfl
  | ⟨4, _⟩ => rfl

theorem reduce_pos_apply (ev : S1x512x1x16x64.ReducesTo [4] S1x512x1x16) (hu : 0 < S_.numel)
    (v : FVec Ideal S1x512x1x16x64 .f32) (b : BitVec 32) (g : Fin 512) (c : Fin 1) (h : Fin 16) :
    Host.reduceAdd (F := Ideal) v (constant (F := Ideal) S_ .f32 b) ev hu (ix4 (0 : Fin 1) g c h)
      = Ideal.ofBits .f32 b + ∑ k : Fin 64, v (ix5 (0 : Fin 1) g c h k) := by
  have hr : S1x512x1x16x64.Reduces [4] S1x512x1x16 := ⟨ev.1, by decide, ev.2⟩
  refine (hostReduceAdd_apply v _ ev hu _).trans ?_
  refine (Ideal.hostReduceAdd_single ev hr v _ _).trans ?_
  refine congrArg (_ + ·) (Finset.sum_congr rfl fun k _ => ?_)
  refine congrArg v (funext fun a => Fin.ext ?_)
  match a with
  | ⟨0, _⟩ => rfl
  | ⟨1, _⟩ => rfl
  | ⟨2, _⟩ => rfl
  | ⟨3, _⟩ => rfl
  | ⟨4, _⟩ => rfl

theorem select_oge_zero (c t : EReal) :
    Scalar.select (Ideal.cmp .oge t 0) t (c * t) = Cert.Spec.leaky c t := by
  unfold Scalar.select Ideal.cmp Cert.Spec.leaky
  by_cases h : (0 : EReal) ≤ t
  · simp [h]
  · simp [h]

section Step
variable (s : Fin 16) (hs : S1x512x16x16x64.Slices ![0, 0, s.val, 0, 0] S1x512x1x16x64)
  {xi xav : FVec Ideal S1x512x16x16x64 .f32} {wi wj : FVec Ideal S16x64 .f32} {Z ZA : Cert.Spec.St} {w : Fin 2048 → EReal}

theorem rpre_apply (hxi : Agrees xi Z) (hwi : IsWI w wi) (hwj : IsWJ w wj) (g : Fin 512) (j h : Fin 16) (k : Fin 64) :
    rpre (F := Ideal) s.val hs xi wi wj (ix5 (0 : Fin 1) g j h k)
      = Cert.Spec.pre Cert.Consts.cH w s Z g j (Cert.Spec.col h k) := by
  have hxi' : ∀ (g : Fin 512) (j h : Fin 16) (k : Fin 64), xi (ix5 (0 : Fin 1) g j h k) = Z g j (Cert.Spec.col h k) := hxi
  have hwi' : ∀ (h : Fin 16) (k : Fin 64), wi (ix2 h k) = w (Cert.Spec.colI h k) := hwi
  have hwj' : ∀ (h : Fin 16) (k : Fin 64), wj (ix2 h k) = w (Cert.Spec.colJ h k) := hwj
  unfold rpre
  simp (index := false) only [addf_apply, mulf_apply, bcast_cols_apply, bcast_unit_apply, bcast_pos5_apply, bcast_pos4_apply,
    reduce_full_apply, reduce_pos_apply, bcast_hk_full_apply, bcast_hk_pos_apply, bcast_w_apply, slice_pos_apply,
    broadcastInDim_scalar_apply, constant_apply, Ideal.ofBits_zero_f32, zero_add, hxi', hwi', hwj']
  unfold Cert.Spec.pre Cert.Spec.sim Cert.Consts.cH
  rw [headOf_col]

theorem rstepA_apply (hxi : Agrees xi Z) (hxav : Agrees xav ZA) (hwi : IsWI w wi) (hwj : IsWJ w wj) :
    Agrees (rstepA (F := Ideal) s.val hs xi xav wi wj) (Cert.Consts.stepA w s Z ZA) := by
  intro g j h k
  have hxav' : ∀ (g : Fin 512) (j h : Fin 16) (k : Fin 64), xav (ix5 (0 : Fin 1) g j h k) = ZA g j (Cert.Spec.col h k) := hxav
  unfold rstepA
  simp (index := false) only [addf_apply, mulf_apply, select_apply, cmpf_apply, Ideal.cmpf_def, broadcastInDim_scalar_apply, constant_apply,
    Ideal.ofBits_zero_f32, rpre_apply s hs hxi hwi hwj, select_oge_zero, hxav']
  rfl

theorem rstepZ_apply (hxi : Agrees xi Z) (hxav : Agrees xav ZA) (hwi : IsWI w wi) (hwj : IsWJ w wj) :
    Agrees (rstepZ (F := Ideal) s.val hs xi xav wi wj) (Cert.Consts.stepZ w s Z ZA) := by
  intro g j h k
  have hxi' : ∀ (g : Fin 512) (j h : Fin 16) (k : Fin 64), xi (ix5 (0 : Fin 1) g j h k) = Z g j (Cert.Spec.col h k) := hxi
  have hA : ∀ (g : Fin 512) (j h : Fin 16) (k : Fin 64),
      rstepA (F := Ideal) s.val hs xi xav wi wj (ix5 (0 : Fin 1) g j h k) = Cert.Consts.stepA w s Z ZA g j (Cert.Spec.col h k) :=
    rstepA_apply s hs hxi hxav hwi hwj
  unfold rstepZ
  simp (index := false) only [addf_apply, mulf_apply, broadcastInDim_scalar_apply, constant_apply, hA, hxi']
  rfl

end Step

end Cert.ReferenceIdeal.Hand

end
-- ==== Proof.RStates.lean ====
/-
  The reference's state after each of the sixteen steps.
-/
import proofs.«130520_g23433341567538_cont_8to1_1409_4_alg».proof.Proof.RDefs

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Cert.ReferenceIdeal.Facts]

def rA1 (z0 a0 : FVec F S1x512x16x16x64 .f32) (wi wj : FVec F S16x64 .f32) : FVec F S1x512x16x16x64 .f32 :=
  rstepA 0 rslc z0 a0 wi wj

def rZ1 (z0 a0 : FVec F S1x512x16x16x64 .f32) (wi wj : FVec F S16x64 .f32) : FVec F S1x512x16x16x64 .f32 :=
  rstepZ 0 rslc z0 a0 wi wj

def rA2 (z0 a0 : FVec F S1x512x16x16x64 .f32) (wi wj : FVec F S16x64 .f32) : FVec F S1x512x16x16x64 .f32 :=
  rstepA 1 rslc (rZ1 z0 a0 wi wj) (rA1 z0 a0 wi wj) wi wj

def rZ2 (z0 a0 : FVec F S1x512x16x16x64 .f32) (wi wj : FVec F S16x64 .f32) : FVec F S1x512x16x16x64 .f32 :=
  rstepZ 1 rslc (rZ1 z0 a0 wi wj) (rA1 z0 a0 wi wj) wi wj

def rA3 (z0 a0 : FVec F S1x512x16x16x64 .f32) (wi wj : FVec F S16x64 .f32) : FVec F S1x512x16x16x64 .f32 :=
  rstepA 2 rslc (rZ2 z0 a0 wi wj) (rA2 z0 a0 wi wj) wi wj

def rZ3 (z0 a0 : FVec F S1x512x16x16x64 .f32) (wi wj : FVec F S16x64 .f32) : FVec F S1x512x16x16x64 .f32 :=
  rstepZ 2 rslc (rZ2 z0 a0 wi wj) (rA2 z0 a0 wi wj) wi wj

def rA4 (z0 a0 : FVec F S1x512x16x16x64 .f32) (wi wj : FVec F S16x64 .f32) : FVec F S1x512x16x16x64 .f32 :=
  rstepA 3 rslc (rZ3 z0 a0 wi wj) (rA3 z0 a0 wi wj) wi wj

def rZ4 (z0 a0 : FVec F S1x512x16x16x64 .f32) (wi wj : FVec F S16x64 .f32) : FVec F S1x512x16x16x64 .f32 :=
  rstepZ 3 rslc (rZ3 z0 a0 wi wj) (rA3 z0 a0 wi wj) wi wj

def rA5 (z0 a0 : FVec F S1x512x16x16x64 .f32) (wi wj : FVec F S16x64 .f32) : FVec F S1x512x16x16x64 .f32 :=
  rstepA 4 rslc (rZ4 z0 a0 wi wj) (rA4 z0 a0 wi wj) wi wj

def rZ5 (z0 a0 : FVec F S1x512x16x16x64 .f32) (wi wj : FVec F S16x64 .f32) : FVec F S1x512x16x16x64 .f32 :=
  rstepZ 4 rslc (rZ4 z0 a0 wi wj) (rA4 z0 a0 wi wj) wi wj

def rA6 (z0 a0 : FVec F S1x512x16x16x64 .f32) (wi wj : FVec F S16x64 .f32) : FVec F S1x512x16x16x64 .f32 :=
  rstepA 5 rslc (rZ5 z0 a0 wi wj) (rA5 z0 a0 wi wj) wi wj

def rZ6 (z0 a0 : FVec F S1x512x16x16x64 .f32) (wi wj : FVec F S16x64 .f32) : FVec F S1x512x16x16x64 .f32 :=
  rstepZ 5 rslc (rZ5 z0 a0 wi wj) (rA5 z0 a0 wi wj) wi wj

def rA7 (z0 a0 : FVec F S1x512x16x16x64 .f32) (wi wj : FVec F S16x64 .f32) : FVec F S1x512x16x16x64 .f32 :=
  rstepA 6 rslc (rZ6 z0 a0 wi wj) (rA6 z0 a0 wi wj) wi wj

def rZ7 (z0 a0 : FVec F S1x512x16x16x64 .f32) (wi wj : FVec F S16x64 .f32) : FVec F S1x512x16x16x64 .f32 :=
  rstepZ 6 rslc (rZ6 z0 a0 wi wj) (rA6 z0 a0 wi wj) wi wj

def rA8 (z0 a0 : FVec F S1x512x16x16x64 .f32) (wi wj : FVec F S16x64 .f32) : FVec F S1x512x16x16x64 .f32 :=
  rstepA 7 rslc (rZ7 z0 a0 wi wj) (rA7 z0 a0 wi wj) wi wj

def rZ8 (z0 a0 : FVec F S1x512x16x16x64 .f32) (wi wj : FVec F S16x64 .f32) : FVec F S1x512x16x16x64 .f32 :=
  rstepZ 7 rslc (rZ7 z0 a0 wi wj) (rA7 z0 a0 wi wj) wi wj

def rA9 (z0 a0 : FVec F S1x512x16x16x64 .f32) (wi wj : FVec F S16x64 .f32) : FVec F S1x512x16x16x64 .f32 :=
  rstepA 8 rslc (rZ8 z0 a0 wi wj) (rA8 z0 a0 wi wj) wi wj

def rZ9 (z0 a0 : FVec F S1x512x16x16x64 .f32) (wi wj : FVec F S16x64 .f32) : FVec F S1x512x16x16x64 .f32 :=
  rstepZ 8 rslc (rZ8 z0 a0 wi wj) (rA8 z0 a0 wi wj) wi wj

def rA10 (z0 a0 : FVec F S1x512x16x16x64 .f32) (wi wj : FVec F S16x64 .f32) : FVec F S1x512x16x16x64 .f32 :=
  rstepA 9 rslc (rZ9 z0 a0 wi wj) (rA9 z0 a0 wi wj) wi wj

def rZ10 (z0 a0 : FVec F S1x512x16x16x64 .f32) (wi wj : FVec F S16x64 .f32) : FVec F S1x512x16x16x64 .f32 :=
  rstepZ 9 rslc (rZ9 z0 a0 wi wj) (rA9 z0 a0 wi wj) wi wj

def rA11 (z0 a0 : FVec F S1x512x16x16x64 .f32) (wi wj : FVec F S16x64 .f32) : FVec F S1x512x16x16x64 .f32 :=
  rstepA 10 rslc (rZ10 z0 a0 wi wj) (rA10 z0 a0 wi wj) wi wj

def rZ11 (z0 a0 : FVec F S1x512x16x16x64 .f32) (wi wj : FVec F S16x64 .f32) : FVec F S1x512x16x16x64 .f32 :=
  rstepZ 10 rslc (rZ10 z0 a0 wi wj) (rA10 z0 a0 wi wj) wi wj

def rA12 (z0 a0 : FVec F S1x512x16x16x64 .f32) (wi wj : FVec F S16x64 .f32) : FVec F S1x512x16x16x64 .f32 :=
  rstepA 11 rslc (rZ11 z0 a0 wi wj) (rA11 z0 a0 wi wj) wi wj

def rZ12 (z0 a0 : FVec F S1x512x16x16x64 .f32) (wi wj : FVec F S16x64 .f32) : FVec F S1x512x16x16x64 .f32 :=
  rstepZ 11 rslc (rZ11 z0 a0 wi wj) (rA11 z0 a0 wi wj) wi wj

def rA13 (z0 a0 : FVec F S1x512x16x16x64 .f32) (wi wj : FVec F S16x64 .f32) : FVec F S1x512x16x16x64 .f32 :=
  rstepA 12 rslc (rZ12 z0 a0 wi wj) (rA12 z0 a0 wi wj) wi wj

def rZ13 (z0 a0 : FVec F S1x512x16x16x64 .f32) (wi wj : FVec F S16x64 .f32) : FVec F S1x512x16x16x64 .f32 :=
  rstepZ 12 rslc (rZ12 z0 a0 wi wj) (rA12 z0 a0 wi wj) wi wj

def rA14 (z0 a0 : FVec F S1x512x16x16x64 .f32) (wi wj : FVec F S16x64 .f32) : FVec F S1x512x16x16x64 .f32 :=
  rstepA 13 rslc (rZ13 z0 a0 wi wj) (rA13 z0 a0 wi wj) wi wj

def rZ14 (z0 a0 : FVec F S1x512x16x16x64 .f32) (wi wj : FVec F S16x64 .f32) : FVec F S1x512x16x16x64 .f32 :=
  rstepZ 13 rslc (rZ13 z0 a0 wi wj) (rA13 z0 a0 wi wj) wi wj

def rA15 (z0 a0 : FVec F S1x512x16x16x64 .f32) (wi wj : FVec F S16x64 .f32) : FVec F S1x512x16x16x64 .f32 :=
  rstepA 14 rslc (rZ14 z0 a0 wi wj) (rA14 z0 a0 wi wj) wi wj

def rZ15 (z0 a0 : FVec F S1x512x16x16x64 .f32) (wi wj : FVec F S16x64 .f32) : FVec F S1x512x16x16x64 .f32 :=
  rstepZ 14 rslc (rZ14 z0 a0 wi wj) (rA14 z0 a0 wi wj) wi wj

def rA16 (z0 a0 : FVec F S1x512x16x16x64 .f32) (wi wj : FVec F S16x64 .f32) : FVec F S1x512x16x16x64 .f32 :=
  rstepA 15 rslc (rZ15 z0 a0 wi wj) (rA15 z0 a0 wi wj) wi wj

def rZ16 (z0 a0 : FVec F S1x512x16x16x64 .f32) (wi wj : FVec F S16x64 .f32) : FVec F S1x512x16x16x64 .f32 :=
  rstepZ 15 rslc (rZ15 z0 a0 wi wj) (rA15 z0 a0 wi wj) wi wj

end Cert.ReferenceIdeal.Hand

end
-- ==== Proof.RIndex.lean ====
/-
  The vector of source rows the reference computes: entry 16 g + j is 16 ((g + 2 j) mod 512) + j.
-/
import proofs.«130520_g23433341567538_cont_8to1_1409_4_alg».proof.ReferenceIdeal
import proofs.«130520_g23433341567538_cont_8to1_1409_4_alg».proof.Proof.Spec
import Idealize.ShloMosaic.Lib.ValueIdx
import Idealize.ShloMosaic.Lib.StableHlo.Predicate
import Idealize.ShloMosaic.Lib.Pipeline.Value

noncomputable section

namespace Cert.ReferenceIdeal.Hand

open Idealize.ShloMosaic Idealize.ShloMosaic.ValueIdx Idealize.SL.Sem Cert.ReferenceIdeal
open Idealize.ShloMosaic.StableHlo
open Cert.ReferenceIdeal.Facts₀ Cert.ReferenceIdeal.Facts

variable [Cert.ReferenceIdeal.Facts]

def ridx : IVec S8192 32 :=
  have v0 : IVec S16 32 := iotaInDim S16 32 0
  have v1 : IVec S512 32 := iotaInDim S512 32 0
  have v2 : IVec S512x1 32 := broadcastInDim S512x1 ![0] bcast_S512_S512x1_0 v1
  have v3 : IVec S1x16 32 := broadcastInDim S1x16 ![1] bcast_S16_S1x16_1 v0
  have c : IVec S_ 32 := constantI S_ 32 2#32
  have v4 : IVec S1x16 32 := broadcastInDim S1x16 ![] bcast_S_S1x16 c
  have v5 : IVec S1x16 32 := muli v3 v4
  have v6 : IVec S512x16 32 := broadcastInDim S512x16 ![0, 1] bcast_S512x1_S512x16_0_1 v2
  have v7 : IVec S512x16 32 := broadcastInDim S512x16 ![0, 1] bcast_S1x16_S512x16_0_1 v5
  have v8 : IVec S512x16 32 := addi v6 v7
  have c_0 : IVec S_ 32 := constantI S_ 32 512#32

  have r0 : IVec S_ 32 := id c_0
  have rc : IVec S_ 32 := constantI S_ 32 0#32
  have r1 : IVec S_ 1 := cmpi .eq r0 rc
  have rc_0 : IVec S_ 32 := constantI S_ 32 1#32
  have r2 : IVec S_ 32 := select r1 rc_0 r0
  have r3 : IVec S512x16 32 := broadcastInDim S512x16 ![] bcast_S_S512x16 r2
  have r4 : IVec S512x16 32 := Host.remsi v8 r3
  have rc_1 : IVec S_ 32 := constantI S_ 32 0#32
  have r5 : IVec S512x16 32 := broadcastInDim S512x16 ![] bcast_S_S512x16 rc_1
  have r6 : IVec S512x16 1 := cmpi .ne r4 r5
  have rc_2 : IVec S_ 32 := constantI S_ 32 0#32
  have r7 : IVec S512x16 32 := broadcastInDim S512x16 ![] bcast_S_S512x16 rc_2
  have r8 : IVec S512x16 1 := cmpi .slt r4 r7
  have rc_3 : IVec S_ 32 := constantI S_ 32 0#32
  have r9 : IVec S_ 1 := cmpi .slt r2 rc_3
  have r10 : IVec S512x16 1 := broadcastInDim S512x16 ![] bcast_S_S512x16 r9
  have r11 : IVec S512x16 1 := cmpi .ne r8 r10
  have r12 : IVec S512x16 1 := andi r11 r6
  have r13 : IVec S512x16 32 := broadcastInDim S512x16 ![] bcast_S_S512x16 r2
  have r14 : IVec S512x16 32 := addi r4 r13
  have r15 : IVec S512x16 32 := select r12 r14 r4

  have c_1 : IVec S_ 32 := constantI S_ 32 16#32
  have v10 : IVec S512x16 32 := broadcastInDim S512x16 ![] bcast_S_S512x16 c_1
  have v11 : IVec S512x16 32 := muli r15 v10
  have v12 : IVec S1x16 32 := broadcastInDim S1x16 ![1] bcast_S16_S1x16_1 v0
  have v13 : IVec S512x16 32 := broadcastInDim S512x16 ![0, 1] bcast_S1x16_S512x16_0_1 v12
  have v14 : IVec S512x16 32 := addi v11 v13
  shapeCast S8192 v14 shapeCasts_S512x16_S8192

theorem toNat_ofNat_small (a : ℕ) (ha : a < 2 ^ 31) : (BitVec.ofNat 32 a).toNat = a := by
  rw [BitVec.toNat_ofNat]; exact Nat.mod_eq_of_lt (by omega)

theorem remsi_host_512 (a : ℕ) (ha : a < 2 ^ 31) :
    IntOp.remsi .host (BitVec.ofNat 32 a) 512#32 = BitVec.ofNat 32 (a % 512) := by
  have hc : ¬ IntOp.SDivCorner (BitVec.ofNat 32 a) 512#32 := by
    intro hc; rcases hc with hc | ⟨_, hc⟩ <;> exact absurd hc (by decide)
  have hm : (BitVec.ofNat 32 a).msb = false :=
    BitVec.msb_eq_false_iff_two_mul_lt.mpr (by rw [toNat_ofNat_small a ha]; omega)
  have hm' : (512#32 : BitVec 32).msb = false := by decide
  show (if IntOp.SDivCorner (BitVec.ofNat 32 a) 512#32 then IntOp.cornerWord .host .remsi (BitVec.ofNat 32 a) 512#32
      else (BitVec.ofNat 32 a).srem 512#32) = _
  rw [if_neg hc, BitVec.srem_eq, hm, hm']
  show BitVec.ofNat 32 a % 512#32 = _
  apply BitVec.eq_of_toNat_eq
  rw [BitVec.toNat_umod, toNat_ofNat_small a ha, toNat_ofNat_small (a % 512) (by omega)]
  rfl

theorem slt_zero_small (a : ℕ) (ha : a < 2 ^ 31) : IntOp.cmpi .slt (BitVec.ofNat 32 a) 0#32 = 0#1 := by
  apply eq_zero_of_ne_one
  rw [Predicate.slt_iff_toNat (by rw [toNat_ofNat_small a ha]; exact ha) (by decide)]
  simp

theorem floorRem_512 (a : ℕ) (ha : a < 2 ^ 31) :
    Scalar.select
        (IntOp.andi
          (IntOp.cmpi .ne (IntOp.cmpi .slt (IntOp.remsi .host (BitVec.ofNat 32 a) 512#32) 0#32) (IntOp.cmpi .slt 512#32 0#32))
          (IntOp.cmpi .ne (IntOp.remsi .host (BitVec.ofNat 32 a) 512#32) 0#32))
        (IntOp.addi (IntOp.remsi .host (BitVec.ofNat 32 a) 512#32) 512#32)
        (IntOp.remsi .host (BitVec.ofNat 32 a) 512#32)
      = BitVec.ofNat 32 (a % 512) := by
  rw [remsi_host_512 a ha, slt_zero_small (a % 512) (by omega)]
  have h1 : IntOp.cmpi .ne 0#1 (IntOp.cmpi .slt 512#32 0#32) = 0#1 := by decide
  rw [h1]
  have h2 : ∀ b : BitVec 1, IntOp.andi 0#1 b = 0#1 := fun b => BitVec.zero_and
  rw [h2, select_zero]

theorem ridx_apply (g : Fin 512) (j : Fin 16) :
    ridx (ix1 (Cert.Spec.row g j)) = BitVec.ofNat 32 (Cert.Spec.row (Cert.Spec.srcGroup g j) j).val := by
  have hg := g.isLt
  have hj := j.isLt
  unfold ridx
  simp only []

  rw [shapeCast_apply _ _ _ (Predicate.ij g j) (by
    rw [Shape.rowMajor_val_two, Shape.rowMajor_val_one]
    show g.val * 16 + j.val = 16 * g.val + j.val
    omega)]

  simp only [addi, muli, select, andi, cmpi, Host.remsi, id, constantI, Predicate.bcast_scalar _ h_S_]
  rw [Predicate.bcast_rows, Predicate.bcast_cols, Predicate.bcast_of_row]
  simp only [muli, Predicate.bcast_scalar _ h_S_, constantI]
  rw [Predicate.bcast_row1]
  simp only [Predicate.iota_apply]

  have hM : Scalar.select (IntOp.cmpi .eq 512#32 0#32) 1#32 512#32 = 512#32 := by decide
  have hx : IntOp.addi (BitVec.ofNat 32 g.val) (IntOp.muli (BitVec.ofNat 32 j.val) 2#32)
      = BitVec.ofNat 32 (g.val + j.val * 2) := by
    show BitVec.ofNat 32 g.val + BitVec.ofNat 32 j.val * BitVec.ofNat 32 2 = _
    rw [BitVec.ofNat_mul_ofNat, BitVec.ofNat_add_ofNat]
  rw [hM, hx, floorRem_512 _ (by omega)]
  show BitVec.ofNat 32 ((g.val + j.val * 2) % 512) * BitVec.ofNat 32 16 + BitVec.ofNat 32 j.val = _
  rw [BitVec.ofNat_mul_ofNat, BitVec.ofNat_add_ofNat]
  congr 1
  simp only [Cert.Spec.row, Cert.Spec.srcGroup]
  omega

end Cert.ReferenceIdeal.Hand

end
-- ==== Proof.RTake.lean ====
/-
  Taking rows at a vector of in-range row numbers: row r of the result is the row the vector names at r.
-/
import proofs.«130520_g23433341567538_cont_8to1_1409_4_alg».proof.Proof.RIndex
import proofs.«130520_g23433341567538_cont_8to1_1409_4_alg».proof.Proof.RIface
import Idealize.ShloMosaic.Lib.ValueIdx
import Idealize.ShloMosaic.Lib.StableHlo.Predicate
import Idealize.ShloMosaic.Lib.Pipeline.Value

noncomputable section

namespace Cert.ReferenceIdeal.Hand

open Idealize.ShloMosaic Idealize.ShloMosaic.ValueIdx Idealize.SL.Sem Cert.ReferenceIdeal
open Idealize.ShloMosaic.StableHlo
open Cert.ReferenceIdeal.Facts₀ Cert.ReferenceIdeal.Facts

variable {F : FTy → Type} [FloatOps F] [Cert.ReferenceIdeal.Facts]

def rtake (x : FVec F S1x8192x1024 .f32) (idx : IVec S8192 32) : FVec F S1x8192x1024 .f32 :=
  have c : IVec S_ 32 := constantI S_ 32 0#32
  have v0 : IVec S8192 32 := broadcastInDim S8192 ![] bcast_S_S8192 c
  have v1 : IVec S8192 1 := cmpi .slt idx v0
  have c_0 : IVec S_ 32 := constantI S_ 32 8192#32
  have v2 : IVec S8192 32 := broadcastInDim S8192 ![] bcast_S_S8192 c_0
  have v3 : IVec S8192 32 := addi idx v2
  have v4 : IVec S8192 32 := select v1 v3 idx
  have v5 : IVec S8192x1 32 := broadcastInDim S8192x1 ![0] bcast_S8192_S8192x1_0 v4
  have c_1 : IVec S1 32 := constantI S1 32 8191#32
  have c_2 : IVec S_ 32 := constantI S_ 32 0#32
  have v6 : IVec S8192x1 32 := broadcastInDim S8192x1 ![] bcast_S_S8192x1 c_2
  have v7 : IVec S8192x1 1 := cmpi .sge v5 v6
  have v8 : IVec S1x1 32 := broadcastInDim S1x1 ![1] bcast_S1_S1x1_1 c_1
  have v9 : IVec S8192x1 32 := broadcastInDim S8192x1 ![0, 1] bcast_S1x1_S8192x1_0_1 v8
  have v10 : IVec S8192x1 1 := cmpi .sle v5 v9
  have v11 : IVec S8192x1 1 := andi v7 v10
  have c_3 : IVec S_ 1 := constantI S_ 1 1#1
  have v12 : IVec S8192 1 := Host.reduce IntOp.andi v11 c_3 reducesTo_S8192x1_S8192_d1 h_S_
  have v13 : FVec F S1x8192x1024 .f32 := Host.gather gather_S1x8192x1024_S8192x1_S1x8192x1024_02_1_n_n_1_1_111024 x v5
  have v14 : IVec S1x8192x1024 1 := broadcastInDim S1x8192x1024 ![1] bcast_S8192_S1x8192x1024_1 v12
  have cst : FVec F S_ .f32 := constant S_ .f32 0x7FC00000#32
  have v15 : FVec F S1x8192x1024 .f32 := broadcastInDim S1x8192x1024 ![] bcast_S_S1x8192x1024 cst
  select v14 v13 v15

section Reads
variable {α : Type}

theorem bcast_mid_apply (v : S8192.Idx → α) (a : Fin 1) (r : Fin 8192) (d : Fin 1024) :
    broadcastInDim S1x8192x1024 ![1] bcast_S8192_S1x8192x1024_1 v (ix3 a r d) = v (ix1 r) := by
  simp only [broadcastInDim]
  congr 1
  funext b
  obtain rfl : b = 0 := Subsingleton.elim _ _
  apply Fin.ext
  split
  · next h1 => exact absurd h1 (by decide)
  · rfl

theorem eq_ixP_of_row (i : S8192x1.Idx) (r : Fin 8192) (h : i 0 = r) : i = Predicate.ixP r := by
  funext b
  match b with
  | ⟨0, _⟩ => exact h
  | ⟨1, hb⟩ =>
    apply Fin.ext
    have h1 : (i ⟨1, hb⟩).val < 1 := (i ⟨1, hb⟩).isLt
    show (i ⟨1, hb⟩).val = 0
    omega

theorem reduce_and_apply (m : IVec S8192x1 1) (r : Fin 8192) (h : m (Predicate.ixP r) = 1#1) :
    Host.reduce IntOp.andi m (constantI S_ 1 1#1) reducesTo_S8192x1_S8192_d1 h_S_ (ix1 r) = 1#1 := by
  classical
  rw [Host.reduce_eq_fold]
  have hall : ∀ i ∈ Finset.univ.filter (fun i : S8192x1.Idx => reducesTo_S8192x1_S8192_d1.drop i = ix1 r), m i = 1#1 := by
    intro i hi
    have hd := (Finset.mem_filter.1 hi).2
    have hv : (reducesTo_S8192x1_S8192_d1.drop i 0 : Nat) = i 0 := Shape.ReducesTo.drop_apply_val _ i 0
    rw [hd] at hv
    rw [eq_ixP_of_row i r (Fin.ext hv.symm)]
    exact h
  show Finset.fold IntOp.andi 1#1 m _ = 1#1
  generalize (Finset.univ.filter fun i : S8192x1.Idx => reducesTo_S8192x1_S8192_d1.drop i = ix1 r) = S at hall
  induction S using Finset.cons_induction with
  | empty => rfl
  | cons a S ha ih =>
    rw [Finset.fold_cons, hall a (Finset.mem_cons_self a S), ih (fun i hi => hall i (Finset.mem_cons_of_mem hi))]
    rfl

theorem gather_rows_apply (x : S1x8192x1024.Idx → α) (si : IVec S8192x1 32) (r : Fin 8192) (d : Fin 1024) :
    Host.gather gather_S1x8192x1024_S8192x1_S1x8192x1024_02_1_n_n_1_1_111024 x si (ix3 (0 : Fin 1) r d)
      = x (ix3 (0 : Fin 1) ⟨min (si (Predicate.ixP r)).toInt.toNat 8191, by omega⟩ d) := by
  unfold Host.gather
  congr 1
  funext a
  refine Fin.ext ?_
  show GatherDims.start _ (ix3 (0 : Fin 1) r d) si a + GatherDims.batchCoord _ (ix3 (0 : Fin 1) r d) a
    + GatherDims.offCoord _ (ix3 (0 : Fin 1) r d) a = _
  rw [GatherDims.batchCoord_eq_zero _ _ _ List.not_mem_nil, Nat.add_zero]
  match a with
  | ⟨0, h0⟩ =>

    have hs : GatherDims.start gather_S1x8192x1024_S8192x1_S1x8192x1024_02_1_n_n_1_1_111024 (ix3 (0 : Fin 1) r d) si ⟨0, h0⟩ = 0 := by
      unfold GatherDims.start
      exact dif_neg (by show (0 : Fin 3) ∉ ([1] : List (Fin 3)); decide)
    have ho : GatherDims.offCoord gather_S1x8192x1024_S8192x1_S1x8192x1024_02_1_n_n_1_1_111024 (ix3 (0 : Fin 1) r d) ⟨0, h0⟩ = 0 := rfl
    rw [hs, ho]
    rfl
  | ⟨1, h1⟩ =>

    have ho : GatherDims.offCoord gather_S1x8192x1024_S8192x1_S1x8192x1024_02_1_n_n_1_1_111024 (ix3 (0 : Fin 1) r d) ⟨1, h1⟩ = 0 := rfl
    have hsi : ∀ c, GatherDims.siIdx gather_S1x8192x1024_S8192x1_S1x8192x1024_02_1_n_n_1_1_111024 (ix3 (0 : Fin 1) r d) c = Predicate.ixP r := by
      intro c
      funext b; refine Fin.ext ?_
      match b with
      | ⟨0, _⟩ => rfl
      | ⟨1, hb⟩ =>
        have := (GatherDims.siIdx gather_S1x8192x1024_S8192x1_S1x8192x1024_02_1_n_n_1_1_111024 (ix3 (0 : Fin 1) r d) c ⟨1, hb⟩).isLt
        have h1' : S8192x1.size ⟨1, hb⟩ = 1 := rfl
        show _ = 0
        omega
    have hs : GatherDims.start gather_S1x8192x1024_S8192x1_S1x8192x1024_02_1_n_n_1_1_111024 (ix3 (0 : Fin 1) r d) si ⟨1, h1⟩
        = min (si (Predicate.ixP r)).toInt.toNat 8191 := by
      unfold GatherDims.start
      rw [dif_pos (by show (1 : Fin 3) ∈ ([1] : List (Fin 3)); decide), hsi]
      rfl
    rw [hs, ho]
    rfl
  | ⟨2, h2⟩ =>

    have hs : GatherDims.start gather_S1x8192x1024_S8192x1_S1x8192x1024_02_1_n_n_1_1_111024 (ix3 (0 : Fin 1) r d) si ⟨2, h2⟩ = 0 := by
      unfold GatherDims.start
      exact dif_neg (by show (2 : Fin 3) ∉ ([1] : List (Fin 3)); decide)
    have ho : GatherDims.offCoord gather_S1x8192x1024_S8192x1_S1x8192x1024_02_1_n_n_1_1_111024 (ix3 (0 : Fin 1) r d) ⟨2, h2⟩ = d.val := rfl
    rw [hs, ho]
    show 0 + d.val = d.val
    omega

end Reads

theorem ofFin_eq_ix1 {n : Nat} (k : Fin n) : Shape.Idx.ofFin k = ix1 k := by
  funext a
  obtain rfl : a = 0 := Subsingleton.elim _ _
  exact Fin.ext rfl

theorem rtake_apply (x : FVec Ideal S1x8192x1024 .f32) (idx : IVec S8192 32) (r : Fin 8192) (q : Fin 8192)
    (h : idx (ix1 r) = BitVec.ofNat 32 q.val) (d : Fin 1024) :
    rtake (F := Ideal) x idx (ix3 (0 : Fin 1) r d) = x (ix3 (0 : Fin 1) q d) := by
  have hq := q.isLt
  have h' : idx (Shape.Idx.ofFin r) = BitVec.ofNat 32 q.val := by rw [ofFin_eq_ix1]; exact h
  have hqn : (BitVec.ofNat 32 q.val).toNat = q.val := toNat_ofNat_small q.val (by omega)
  unfold rtake
  dsimp only
  rw [select_apply, bcast_mid_apply]

  have hw : ∀ v5 : IVec S8192x1 32, v5 = (broadcastInDim S8192x1 ![0] bcast_S8192_S8192x1_0
      (select (cmpi CmpIPredicate.slt idx (broadcastInDim S8192 ![] bcast_S_S8192 (constantI S_ 32 0#32)))
        (addi idx (broadcastInDim S8192 ![] bcast_S_S8192 (constantI S_ 32 8192#32))) idx)) →
      v5 (Predicate.ixP r) = BitVec.ofNat 32 q.val := by
    intro v5 hv5
    rw [hv5, Predicate.bcast_col1]
    simp only [select, cmpi, addi, Predicate.bcast_scalar _ h_S_, constantI, h']
    rw [slt_zero_small q.val (by omega), select_zero]
  generalize (broadcastInDim S8192x1 ![0] bcast_S8192_S8192x1_0
      (select (cmpi CmpIPredicate.slt idx (broadcastInDim S8192 ![] bcast_S_S8192 (constantI S_ 32 0#32)))
        (addi idx (broadcastInDim S8192 ![] bcast_S_S8192 (constantI S_ 32 8192#32))) idx)) = v5 at hw ⊢
  have hv5 := hw v5 rfl
  clear hw

  have hge : IntOp.cmpi .sge (BitVec.ofNat 32 q.val) 0#32 = 1#1 :=
    (Predicate.sge_iff_toNat (by rw [hqn]; omega) (by decide)).2 (Nat.zero_le _)
  have hle : IntOp.cmpi .sle (BitVec.ofNat 32 q.val) 8191#32 = 1#1 :=
    (Predicate.sle_iff_toNat (by rw [hqn]; omega) (by decide)).2 (by rw [hqn]; show q.val ≤ 8191; omega)
  rw [reduce_and_apply _ r (by
    show IntOp.andi (IntOp.cmpi .sge (v5 (Predicate.ixP r)) 0#32) (IntOp.cmpi .sle (v5 (Predicate.ixP r)) 8191#32) = 1#1
    rw [hv5, hge, hle]; rfl), select_one, gather_rows_apply]

  have e : (⟨min (v5 (Predicate.ixP r)).toInt.toNat 8191, by omega⟩ : Fin 8192) = q := by
    apply Fin.ext
    show min (v5 (Predicate.ixP r)).toInt.toNat 8191 = q.val
    rw [hv5, Predicate.toInt_ofNat_small q.val (by omega), Int.toNat_natCast]
    omega
  rw [e]

def rgather5 (x : FVec F S1x8192x1024 .f32) : FVec F S1x512x16x16x64 .f32 :=
  shapeCast S1x512x16x16x64 (rtake x ridx) shapeCasts_S1x8192x1024_S1x512x16x16x64

theorem rgather5_agrees (x : FVec Ideal S1x8192x1024 .f32) (X : Cert.Spec.Arr)
    (hx : ∀ r d, x (ix3 (0 : Fin 1) r d) = X r d) :
    Agrees (rgather5 (F := Ideal) x) (Cert.Spec.gather X) := by
  intro g j h k
  have hg := g.isLt
  have hj := j.isLt
  have hh := h.isLt
  have hk := k.isLt
  unfold rgather5

  rw [shapeCast_apply _ _ _ (ix3 (0 : Fin 1) (Cert.Spec.row g j) (Cert.Spec.col h k)) (by
    rw [Shape.rowMajor_val_three, Shape.rowMajor_val_five]
    show (0 * 8192 + (16 * g.val + j.val)) * 1024 + (64 * h.val + k.val)
      = (((0 * 512 + g.val) * 16 + j.val) * 16 + h.val) * 64 + k.val
    omega)]
  rw [rtake_apply x ridx (Cert.Spec.row g j) (Cert.Spec.row (Cert.Spec.srcGroup g j) j) (ridx_apply g j) (Cert.Spec.col h k), hx]
  rfl

end Cert.ReferenceIdeal.Hand

end
-- ==== Proof.RScatterFold.lean ====
/-
  A scatter whose body returns the update, read at an index that exactly one update lands on, or none.
-/
import Idealize.ShloMosaic.PureOps.ShapeOps

namespace Cert.ReferenceIdeal.Hand

open Idealize.ShloMosaic

section ScatterSet
variable {α : Type} {s si u : Shape} {w : Nat}

def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_set_eq_foldl (d : ScatterDims s si u) (x : s.Idx → α) (idx : IVec si w) (upd : u.Idx → α) :
    Host.scatter d (fun _ b => b) x idx upd = (List.finRange u.numel).foldl (setStep d idx upd) x := rfl

theorem setStep_of_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  cases hr : d.resultIdx? (u.rowMajor.symm n) idx with
  | none => rfl
  | some i0 =>
    have hne : i ≠ i0 := fun e => h (by rw [hr, e])
    exact if_neg hne

theorem setStep_of_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  rw [h]
  exact if_pos rfl

theorem foldl_setStep_miss (d : ScatterDims s si u) (idx : IVec si w) (upd : u.Idx → α) (i : s.Idx) (l : List (Fin u.numel)) :
    ∀ (x : s.Idx → α), (∀ n ∈ l, d.resultIdx? (u.rowMajor.symm n) idx ≠ some i) → l.foldl (setStep d idx upd) x i = x i := by
  induction l with
  | nil => intro x _; rfl
  | cons n l ih =>
    intro x h
    rw [List.foldl_cons, ih _ (fun m hm => h m (List.mem_cons_of_mem _ hm))]
    exact setStep_of_ne d idx upd x n i (h n List.mem_cons_self)

theorem foldl_setStep_hit (d : ScatterDims s si u) (idx : IVec si w) (upd : u.Idx → α) (i : s.Idx) (n0 : Fin u.numel)
    (h0 : d.resultIdx? (u.rowMajor.symm n0) idx = some i) (l : List (Fin u.numel)) :
    ∀ (x : s.Idx → α), n0 ∈ l → (∀ n ∈ l, d.resultIdx? (u.rowMajor.symm n) idx = some i → n = n0) →
      l.foldl (setStep d idx upd) x i = upd (u.rowMajor.symm n0) := by
  induction l with
  | nil => intro x h; cases h
  | cons n l ih =>
    intro x hmem hu
    rw [List.foldl_cons]
    by_cases hm : n0 ∈ l
    · exact ih _ hm (fun m hm' => hu m (List.mem_cons_of_mem _ hm'))
    · have hn : n = n0 := by
        rcases List.mem_cons.1 hmem with h | h
        · exact h.symm
        · exact absurd h hm
      subst hn
      rw [foldl_setStep_miss d idx upd i l _ (fun m hm' hres => hm (hu m (List.mem_cons_of_mem _ hm') hres ▸ hm'))]
      exact setStep_of_eq d idx upd x n i h0

theorem scatter_set_hit (d : ScatterDims s si u) (x : s.Idx → α) (idx : IVec si w) (upd : u.Idx → α) (i : s.Idx) (j0 : u.Idx)
    (h0 : d.resultIdx? j0 idx = some i) (huniq : ∀ j : u.Idx, d.resultIdx? j idx = some i → j = j0) :
    Host.scatter d (fun _ b => b) x idx upd i = upd j0 := by
  rw [scatter_set_eq_foldl]
  have e : u.rowMajor.symm (u.rowMajor j0) = j0 := Equiv.symm_apply_apply _ _
  have := foldl_setStep_hit d idx upd i (u.rowMajor j0) (by rw [e]; exact h0) (List.finRange u.numel) x (List.mem_finRange _)
    (fun n _ hn => by
      have := huniq _ hn
      rw [← this]; exact (Equiv.apply_symm_apply _ _).symm)
  rw [this, e]

end ScatterSet

end Cert.ReferenceIdeal.Hand
-- ==== Proof.RScatter.lean ====
/-
  The reference's final scatter at the vector of source rows, a permutation of the rows: row r of the result is the
  regrouped array at the row's destination group and position.
-/
import proofs.«130520_g23433341567538_cont_8to1_1409_4_alg».proof.ReferenceIdeal
import proofs.«130520_g23433341567538_cont_8to1_1409_4_alg».proof.Proof.Spec
import proofs.«130520_g23433341567538_cont_8to1_1409_4_alg».proof.Proof.RIface
import proofs.«130520_g23433341567538_cont_8to1_1409_4_alg».proof.Proof.RScatterFold
import proofs.«130520_g23433341567538_cont_8to1_1409_4_alg».proof.Proof.RIndex
import Idealize.ShloMosaic.Lib.ValueIdx
import Idealize.ShloMosaic.Lib.Pipeline.Value
import Idealize.ShloMosaic.Lib.StableHlo.Predicate

noncomputable section

namespace Cert.ReferenceIdeal.Hand

open Idealize.ShloMosaic Idealize.SL.Sem Idealize.ShloMosaic.ValueIdx Cert.ReferenceIdeal
open Cert.ReferenceIdeal.Facts₀ Cert.ReferenceIdeal.Facts

variable {F : FTy → Type} [FloatOps F] [Cert.ReferenceIdeal.Facts]

def rscatter (u5 : FVec F S1x512x16x16x64 .f32) (idx : IVec S8192 32) : FVec F S1x8192x1024 .f32 :=
  have v584 : FVec F S1x8192x1024 .f32 := shapeCast S1x8192x1024 u5 shapeCasts_S1x512x16x16x64_S1x8192x1024
  have cst_161 : FVec F S_ .f32 := constant S_ .f32 0x00000000#32
  have v586 : FVec F S1x8192x1024 .f32 := broadcastInDim S1x8192x1024 ![] bcast_S_S1x8192x1024 cst_161
  have c_162 : IVec S_ 32 := constantI S_ 32 0#32
  have v587 : IVec S8192 32 := broadcastInDim S8192 ![] bcast_S_S8192 c_162
  have v588 : IVec S8192 1 := cmpi .slt idx v587
  have c_163 : IVec S_ 32 := constantI S_ 32 8192#32
  have v589 : IVec S8192 32 := broadcastInDim S8192 ![] bcast_S_S8192 c_163
  have v590 : IVec S8192 32 := addi idx v589
  have v591 : IVec S8192 32 := select v588 v590 idx
  have v592 : IVec S8192x1 32 := broadcastInDim S8192x1 ![0] bcast_S8192_S8192x1_0 v591
  Host.scatter scatter_S1x8192x1024_S8192x1_S1x8192x1024_02_1_1_1 (fun _ b => b) v586 v592 v584

def rwrap (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 8192#32))) idx)

theorem rscatter_eq (u5 : FVec F S1x512x16x16x64 .f32) (idx : IVec S8192 32) :
    rscatter u5 idx = Host.scatter scatter_S1x8192x1024_S8192x1_S1x8192x1024_02_1_1_1 (fun _ b => b)
      (broadcastInDim S1x8192x1024 ![] bcast_S_S1x8192x1024 (constant S_ .f32 0x00000000#32)) (rwrap idx)
      (shapeCast S1x8192x1024 u5 shapeCasts_S1x512x16x16x64_S1x8192x1024) := rfl

theorem rwrap_apply (idx : IVec S8192 32) (k : Fin 8192) (z : Fin 1) (q : ℕ) (hq : q < 8192)
    (h : idx (ix1 k) = BitVec.ofNat 32 q) : rwrap idx (ix2 k z) = BitVec.ofNat 32 q := by
  unfold rwrap
  refine (broadcastInDim_apply _ _ _ (ix2 k z) (ix1 k) (fun a => ?_)).trans ?_
  · obtain rfl : a = 0 := Subsingleton.elim _ _
    show k.val = if (8192 : ℕ) = 1 then 0 else k.val
    rw [if_neg (by decide)]
  · show Scalar.select (IntOp.cmpi .slt (idx (ix1 k)) 0#32) (IntOp.addi (idx (ix1 k)) 8192#32) (idx (ix1 k)) = _
    rw [h]
    have hn : ¬ IntOp.cmpi .slt (BitVec.ofNat 32 q) 0#32 = 1#1 := by
      rw [StableHlo.Predicate.slt_iff_toNat (by rw [BitVec.toNat_ofNat]; omega) (by decide)]
      exact Nat.not_lt_zero _
    exact if_neg hn

theorem resultIdx_row (col : IVec S8192x1 32) (a : Fin 1) (k : Fin 8192) (c : Fin 1024) (q : ℕ) (hq : q < 8192)
    (h : col (ix2 k (0 : Fin 1)) = BitVec.ofNat 32 q) :
    scatter_S1x8192x1024_S8192x1_S1x8192x1024_02_1_1_1.resultIdx? (ix3 a k c) col = some (ix3 (0 : Fin 1) (⟨q, hq⟩ : Fin 8192) c) := by
  have ha : a.val = 0 := by have := a.isLt; omega
  have hk : scatter_S1x8192x1024_S8192x1_S1x8192x1024_02_1_1_1.sKept = [(0 : Fin 3), 2] :=
    show S1x8192x1024.kept [(1 : Fin 3)] = [(0 : Fin 3), 2] by decide
  have m0 : (0 : Fin 3) ∈ scatter_S1x8192x1024_S8192x1_S1x8192x1024_02_1_1_1.sKept := by rw [hk]; exact List.mem_cons_self
  have m1 : (1 : Fin 3) ∉ scatter_S1x8192x1024_S8192x1_S1x8192x1024_02_1_1_1.sKept := by rw [hk]; decide
  have m2 : (2 : Fin 3) ∈ scatter_S1x8192x1024_S8192x1_S1x8192x1024_02_1_1_1.sKept := by rw [hk]; decide

  have s0 : scatter_S1x8192x1024_S8192x1_S1x8192x1024_02_1_1_1.start (ix3 a k c) col (0 : Fin 3) = 0 := by
    unfold ScatterDims.start
    exact dif_neg (fun hm => by cases List.mem_singleton.1 hm)
  have w0 : scatter_S1x8192x1024_S8192x1_S1x8192x1024_02_1_1_1.window (ix3 a k c) (0 : Fin 3) = a.val := by
    unfold ScatterDims.window
    rw [dif_pos m0]
    rfl

  have s1 : scatter_S1x8192x1024_S8192x1_S1x8192x1024_02_1_1_1.start (ix3 a k c) col (1 : Fin 3) = (q : ℤ) := by
    unfold ScatterDims.start
    rw [dif_pos (show (1 : Fin 3) ∈ scatter_S1x8192x1024_S8192x1_S1x8192x1024_02_1_1_1.scatterDimsToOperandDims from List.mem_singleton.mpr rfl)]
    have hsi : scatter_S1x8192x1024_S8192x1_S1x8192x1024_02_1_1_1.siIdx (ix3 a k c)
        ⟨List.idxOf (1 : Fin 3) scatter_S1x8192x1024_S8192x1_S1x8192x1024_02_1_1_1.scatterDimsToOperandDims,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi, h]
    exact StableHlo.Predicate.toInt_ofNat_small q (by omega)
  have w1 : scatter_S1x8192x1024_S8192x1_S1x8192x1024_02_1_1_1.window (ix3 a k c) (1 : Fin 3) = 0 := by
    unfold ScatterDims.window
    exact dif_neg m1

  have s2 : scatter_S1x8192x1024_S8192x1_S1x8192x1024_02_1_1_1.start (ix3 a k c) col (2 : Fin 3) = 0 := by
    unfold ScatterDims.start
    exact dif_neg (fun hm => by cases List.mem_singleton.1 hm)
  have w2 : scatter_S1x8192x1024_S8192x1_S1x8192x1024_02_1_1_1.window (ix3 a k c) (2 : Fin 3) = c.val := by
    unfold ScatterDims.window
    rw [dif_pos m2]
    rfl
  have hs : ∀ a' : Fin 3, scatter_S1x8192x1024_S8192x1_S1x8192x1024_02_1_1_1.start (ix3 a k c) col a'
      + (scatter_S1x8192x1024_S8192x1_S1x8192x1024_02_1_1_1.window (ix3 a k c) a' : ℤ)
      = ((ix3 (0 : Fin 1) (⟨q, hq⟩ : Fin 8192) c a').val : ℤ) := by
    intro a'
    match a' with
    | ⟨0, _⟩ =>
      show scatter_S1x8192x1024_S8192x1_S1x8192x1024_02_1_1_1.start (ix3 a k c) col (0 : Fin 3) + (scatter_S1x8192x1024_S8192x1_S1x8192x1024_02_1_1_1.window (ix3 a k c) (0 : Fin 3) : ℤ) = ((0 : ℕ) : ℤ)
      rw [s0, w0, ha]; rfl
    | ⟨1, _⟩ =>
      show scatter_S1x8192x1024_S8192x1_S1x8192x1024_02_1_1_1.start (ix3 a k c) col (1 : Fin 3) + (scatter_S1x8192x1024_S8192x1_S1x8192x1024_02_1_1_1.window (ix3 a k c) (1 : Fin 3) : ℤ) = ((q : ℕ) : ℤ)
      rw [s1, w1]; simp
    | ⟨2, _⟩ =>
      show scatter_S1x8192x1024_S8192x1_S1x8192x1024_02_1_1_1.start (ix3 a k c) col (2 : Fin 3) + (scatter_S1x8192x1024_S8192x1_S1x8192x1024_02_1_1_1.window (ix3 a k c) (2 : Fin 3) : ℤ) = ((c.val : ℕ) : ℤ)
      rw [s2, w2]; simp
  unfold ScatterDims.resultIdx?
  have hall : ∀ a' : Fin 3, 0 ≤ scatter_S1x8192x1024_S8192x1_S1x8192x1024_02_1_1_1.start (ix3 a k c) col a'
      + (scatter_S1x8192x1024_S8192x1_S1x8192x1024_02_1_1_1.window (ix3 a k c) a' : ℤ) ∧
      scatter_S1x8192x1024_S8192x1_S1x8192x1024_02_1_1_1.start (ix3 a k c) col a'
      + (scatter_S1x8192x1024_S8192x1_S1x8192x1024_02_1_1_1.window (ix3 a k c) a' : ℤ) < (S1x8192x1024.size a' : ℤ) := by
    intro a'
    rw [hs a']
    exact ⟨Int.natCast_nonneg _, by exact_mod_cast (ix3 (0 : Fin 1) (⟨q, hq⟩ : Fin 8192) c a').isLt⟩
  rw [dif_pos hall]
  congr 1
  funext a'
  apply Fin.ext
  show (_ + _ : ℤ).toNat = _
  rw [hs a']
  exact Int.toNat_natCast _

theorem row_srcGroup_inj (g g' : Fin 512) (j j' : Fin 16)
    (h : Cert.Spec.row (Cert.Spec.srcGroup g j) j = Cert.Spec.row (Cert.Spec.srcGroup g' j') j') : g = g' ∧ j = j' := by
  have hv : 16 * ((g.val + 2 * j.val) % 512) + j.val = 16 * ((g'.val + 2 * j'.val) % 512) + j'.val := congrArg Fin.val h
  have := g.isLt; have := g'.isLt; have := j.isLt; have := j'.isLt
  have hj : j.val = j'.val := by
    generalize (g.val + 2 * j.val) % 512 = A at hv
    generalize (g'.val + 2 * j'.val) % 512 = A' at hv
    omega
  have hA : (g.val + 2 * j.val) % 512 = (g'.val + 2 * j'.val) % 512 := by
    generalize (g.val + 2 * j.val) % 512 = A at hv ⊢
    generalize (g'.val + 2 * j'.val) % 512 = A' at hv ⊢
    omega
  have hg : g.val = g'.val := by
    rw [← hj] at hA
    omega
  exact ⟨Fin.ext hg, Fin.ext hj⟩

theorem rscatter_apply_row (u5 : FVec Ideal S1x512x16x16x64 .f32) (idx : IVec S8192 32)
    (hidx : ∀ (g : Fin 512) (j : Fin 16), idx (ix1 (Cert.Spec.row g j)) = BitVec.ofNat 32 (Cert.Spec.row (Cert.Spec.srcGroup g j) j).val)
    (Zf : Cert.Spec.St) (hu : Agrees u5 Zf) (g : Fin 512) (j : Fin 16) (d : Fin 1024) :
    rscatter (F := Ideal) u5 idx (ix3 (0 : Fin 1) (Cert.Spec.row (Cert.Spec.srcGroup g j) j) d) = Zf g j d := by

  have hres : ∀ (a : Fin 1) (g' : Fin 512) (j' : Fin 16) (c : Fin 1024),
      scatter_S1x8192x1024_S8192x1_S1x8192x1024_02_1_1_1.resultIdx? (ix3 a (Cert.Spec.row g' j') c) (rwrap idx)
        = some (ix3 (0 : Fin 1) (Cert.Spec.row (Cert.Spec.srcGroup g' j') j') c) := fun a g' j' c =>
    resultIdx_row (rwrap idx) a (Cert.Spec.row g' j') c _ (Cert.Spec.row (Cert.Spec.srcGroup g' j') j').isLt
      (rwrap_apply idx (Cert.Spec.row g' j') 0 _ (Cert.Spec.row (Cert.Spec.srcGroup g' j') j').isLt (hidx g' j'))
  rw [rscatter_eq]
  rw [scatter_set_hit scatter_S1x8192x1024_S8192x1_S1x8192x1024_02_1_1_1 _ (rwrap idx) _ (ix3 (0 : Fin 1) (Cert.Spec.row (Cert.Spec.srcGroup g j) j) d)
    (ix3 (0 : Fin 1) (Cert.Spec.row g j) d) (hres 0 g j d) ?_]
  ·
    refine (shapeCast_apply u5 _ (ix3 (0 : Fin 1) (Cert.Spec.row g j) d)
      (ix5 (0 : Fin 1) g j (Cert.Spec.headOf d) (⟨d.val % 64, Nat.mod_lt _ (by norm_num)⟩ : Fin 64)) ?_).trans ?_
    · rw [Shape.rowMajor_val_five, Shape.rowMajor_val_three]
      show (((0 * 512 + g.val) * 16 + j.val) * 16 + d.val / 64) * 64 + d.val % 64 = (0 * 8192 + (16 * g.val + j.val)) * 1024 + d.val
      omega
    · rw [hu g j (Cert.Spec.headOf d) ⟨d.val % 64, Nat.mod_lt _ (by norm_num)⟩]
      congr 1
      apply Fin.ext
      show 64 * (d.val / 64) + d.val % 64 = d.val
      omega
  ·
    intro j'' hj''
    obtain ⟨g', j', hk⟩ : ∃ (g' : Fin 512) (j' : Fin 16), j'' 1 = Cert.Spec.row g' j' :=
      ⟨_, _, (Cert.Spec.row_rowGroup_rowPos _).symm⟩
    have hj3 : j'' = ix3 (j'' 0 : Fin 1) (Cert.Spec.row g' j') (j'' 2 : Fin 1024) := by
      funext a
      match a with
      | ⟨0, _⟩ => rfl
      | ⟨1, _⟩ => exact hk
      | ⟨2, _⟩ => rfl
    rw [hj3] at hj''
    have e := Option.some.inj ((hres (j'' 0) g' j' (j'' 2)).symm.trans hj'')
    have e1 : Cert.Spec.row (Cert.Spec.srcGroup g' j') j' = Cert.Spec.row (Cert.Spec.srcGroup g j) j := congrFun e 1
    have e2 : j'' 2 = d := congrFun e 2
    obtain ⟨hgg, hjj⟩ := row_srcGroup_inj g' g j' j e1
    have e0 : j'' 0 = (0 : Fin 1) := Subsingleton.elim (α := Fin 1) _ _
    funext a
    match a with
    | ⟨0, _⟩ => exact e0
    | ⟨1, _⟩ => exact hk.trans (by rw [hgg, hjj])
    | ⟨2, _⟩ => exact e2

theorem rscatter_apply (u5 : FVec Ideal S1x512x16x16x64 .f32) (idx : IVec S8192 32)
    (hidx : ∀ (g : Fin 512) (j : Fin 16), idx (ix1 (Cert.Spec.row g j)) = BitVec.ofNat 32 (Cert.Spec.row (Cert.Spec.srcGroup g j) j).val)
    (Zf : Cert.Spec.St) (hu : Agrees u5 Zf) (r : Fin 8192) (d : Fin 1024) :
    rscatter (F := Ideal) u5 idx (ix3 (0 : Fin 1) r d) = Cert.Spec.scatter Zf r d := by
  have h := rscatter_apply_row u5 idx hidx Zf hu (Cert.Spec.dstGroup (Cert.Spec.rowGroup r) (Cert.Spec.rowPos r)) (Cert.Spec.rowPos r) d
  rw [Cert.Spec.srcGroup_dstGroup, Cert.Spec.row_rowGroup_rowPos] at h
  exact h

end Cert.ReferenceIdeal.Hand

end
-- ==== Proof.RChain.lean ====
/-
  The reference's values in a chain: the regrouped arguments and the weight halves agree with the specification's, each
  step keeps the agreement, so the results are the specification's.
-/
import proofs.«130520_g23433341567538_cont_8to1_1409_4_alg».proof.Proof.RStepVal
import proofs.«130520_g23433341567538_cont_8to1_1409_4_alg».proof.Proof.RStates
import proofs.«130520_g23433341567538_cont_8to1_1409_4_alg».proof.Proof.RIndex
import proofs.«130520_g23433341567538_cont_8to1_1409_4_alg».proof.Proof.RTake
import proofs.«130520_g23433341567538_cont_8to1_1409_4_alg».proof.Proof.RScatter
import proofs.«130520_g23433341567538_cont_8to1_1409_4_alg».proof.Proof.Out
import Idealize.ShloMosaic.Lib.Pipeline.Value

noncomputable section

namespace Cert.ReferenceIdeal.Hand

open scoped BigOperators
open Idealize.ShloMosaic Idealize.ShloMosaic.ValueIdx Idealize.SL.Sem Cert.ReferenceIdeal
open Cert.ReferenceIdeal.Facts₀ Cert.ReferenceIdeal.Facts

section Halves
variable {F : FTy → Type} [FloatOps F] [Cert.ReferenceIdeal.Facts]

def rwi (a2 : FVec F S2048 .f32) : FVec F S16x64 .f32 :=
  shapeCast S16x64 (extractStridedSlice S1024 ![0] a2 slices_S2048_S1024_0) shapeCasts_S1024_S16x64

def rwj (a2 : FVec F S2048 .f32) : FVec F S16x64 .f32 :=
  shapeCast S16x64 (extractStridedSlice S1024 ![1024] a2 slices_S2048_S1024_1024) shapeCasts_S1024_S16x64

end Halves

theorem half_apply {α : Type} (o : ℕ) (hs : S2048.Slices ![o] S1024) (hc : S1024.ShapeCasts S16x64)
    (x : S2048.Idx → α) (h : Fin 16) (k : Fin 64) (m : Fin 2048) (hm : m.val = o + (64 * h.val + k.val)) :
    shapeCast S16x64 (extractStridedSlice S1024 ![o] x hs) hc (ix2 h k) = x (ix1 m) := by
  have hlt : 64 * h.val + k.val < 1024 := by have := h.isLt; have := k.isLt; omega
  refine (shapeCast_apply _ hc (ix2 h k) (ix1 (⟨64 * h.val + k.val, hlt⟩ : Fin 1024)) ?_).trans ?_
  · have h1 : (S1024.rowMajor (ix1 (⟨64 * h.val + k.val, hlt⟩ : Fin 1024))).val = 64 * h.val + k.val :=
      Shape.rowMajor_val_one (d := ![1024]) _
    have h2 : (S16x64.rowMajor (ix2 h k)).val = h.val * 64 + k.val := Shape.rowMajor_val_two (d := ![16, 64]) _
    rw [h1, h2]; omega
  · exact extractStridedSlice_apply _ _ _ _ _ (fun ax => by
      match ax with
      | ⟨0, _⟩ => exact hm)

section HalvesIdeal
variable [Cert.ReferenceIdeal.Facts]

theorem rwi_isWI (a2 : FVec Ideal S2048 .f32) : IsWI (Cert.Out.wvec a2) (rwi (F := Ideal) a2) := by
  intro h k
  exact half_apply 0 _ _ a2 h k (Cert.Spec.colI h k) (by show 64 * h.val + k.val = 0 + (64 * h.val + k.val); omega)

theorem rwj_isWJ (a2 : FVec Ideal S2048 .f32) : IsWJ (Cert.Out.wvec a2) (rwj (F := Ideal) a2) := by
  intro h k
  exact half_apply 1024 _ _ a2 h k (Cert.Spec.colJ h k) rfl

theorem step_agrees (n : ℕ) (hn : n < 16) (hs : S1x512x16x16x64.Slices ![0, 0, n, 0, 0] S1x512x1x16x64)
    {z a : FVec Ideal S1x512x16x16x64 .f32} {wi wj : FVec Ideal S16x64 .f32} {w : Fin 2048 → EReal} {X XA : Cert.Spec.Arr}
    (hz : Agrees z (Cert.Consts.iter w X XA n).1) (ha : Agrees a (Cert.Consts.iter w X XA n).2)
    (hwi : IsWI w wi) (hwj : IsWJ w wj) :
    Agrees (rstepZ (F := Ideal) n hs z a wi wj) (Cert.Consts.iter w X XA (n + 1)).1
      ∧ Agrees (rstepA (F := Ideal) n hs z a wi wj) (Cert.Consts.iter w X XA (n + 1)).2 := by
  have hfin : (⟨n % 16, Nat.mod_lt _ (by norm_num)⟩ : Fin 16) = ⟨n, hn⟩ := Fin.ext (Nat.mod_eq_of_lt hn)
  have e1 : (Cert.Consts.iter w X XA (n + 1)).1
      = Cert.Consts.stepZ w ⟨n, hn⟩ (Cert.Consts.iter w X XA n).1 (Cert.Consts.iter w X XA n).2 :=
    congrArg (fun s => Cert.Consts.stepZ w s (Cert.Consts.iter w X XA n).1 (Cert.Consts.iter w X XA n).2) hfin
  have e2 : (Cert.Consts.iter w X XA (n + 1)).2
      = Cert.Consts.stepA w ⟨n, hn⟩ (Cert.Consts.iter w X XA n).1 (Cert.Consts.iter w X XA n).2 :=
    congrArg (fun s => Cert.Consts.stepA w s (Cert.Consts.iter w X XA n).1 (Cert.Consts.iter w X XA n).2) hfin
  rw [e1, e2]
  exact ⟨rstepZ_apply ⟨n, hn⟩ hs hz ha hwi hwj, rstepA_apply ⟨n, hn⟩ hs hz ha hwi hwj⟩

end HalvesIdeal

section Chain
variable [Cert.ReferenceIdeal.Facts]
  {z0 a0 : FVec Ideal S1x512x16x16x64 .f32} {wi wj : FVec Ideal S16x64 .f32} {w : Fin 2048 → EReal} {X XA : Cert.Spec.Arr}
  (hz0 : Agrees z0 (Cert.Spec.gather X)) (ha0 : Agrees a0 (Cert.Spec.gather XA)) (hwi : IsWI w wi) (hwj : IsWJ w wj)
include hz0 ha0 hwi hwj

theorem r0_agrees : Agrees z0 (Cert.Consts.iter w X XA 0).1 ∧ Agrees a0 (Cert.Consts.iter w X XA 0).2 := ⟨hz0, ha0⟩

theorem r1_agrees : Agrees (rZ1 z0 a0 wi wj) (Cert.Consts.iter w X XA 1).1 ∧ Agrees (rA1 z0 a0 wi wj) (Cert.Consts.iter w X XA 1).2 :=
  step_agrees 0 (by norm_num) _ (r0_agrees hz0 ha0 hwi hwj).1 (r0_agrees hz0 ha0 hwi hwj).2 hwi hwj

theorem r2_agrees : Agrees (rZ2 z0 a0 wi wj) (Cert.Consts.iter w X XA 2).1 ∧ Agrees (rA2 z0 a0 wi wj) (Cert.Consts.iter w X XA 2).2 :=
  step_agrees 1 (by norm_num) _ (r1_agrees hz0 ha0 hwi hwj).1 (r1_agrees hz0 ha0 hwi hwj).2 hwi hwj

theorem r3_agrees : Agrees (rZ3 z0 a0 wi wj) (Cert.Consts.iter w X XA 3).1 ∧ Agrees (rA3 z0 a0 wi wj) (Cert.Consts.iter w X XA 3).2 :=
  step_agrees 2 (by norm_num) _ (r2_agrees hz0 ha0 hwi hwj).1 (r2_agrees hz0 ha0 hwi hwj).2 hwi hwj

theorem r4_agrees : Agrees (rZ4 z0 a0 wi wj) (Cert.Consts.iter w X XA 4).1 ∧ Agrees (rA4 z0 a0 wi wj) (Cert.Consts.iter w X XA 4).2 :=
  step_agrees 3 (by norm_num) _ (r3_agrees hz0 ha0 hwi hwj).1 (r3_agrees hz0 ha0 hwi hwj).2 hwi hwj

theorem r5_agrees : Agrees (rZ5 z0 a0 wi wj) (Cert.Consts.iter w X XA 5).1 ∧ Agrees (rA5 z0 a0 wi wj) (Cert.Consts.iter w X XA 5).2 :=
  step_agrees 4 (by norm_num) _ (r4_agrees hz0 ha0 hwi hwj).1 (r4_agrees hz0 ha0 hwi hwj).2 hwi hwj

theorem r6_agrees : Agrees (rZ6 z0 a0 wi wj) (Cert.Consts.iter w X XA 6).1 ∧ Agrees (rA6 z0 a0 wi wj) (Cert.Consts.iter w X XA 6).2 :=
  step_agrees 5 (by norm_num) _ (r5_agrees hz0 ha0 hwi hwj).1 (r5_agrees hz0 ha0 hwi hwj).2 hwi hwj

theorem r7_agrees : Agrees (rZ7 z0 a0 wi wj) (Cert.Consts.iter w X XA 7).1 ∧ Agrees (rA7 z0 a0 wi wj) (Cert.Consts.iter w X XA 7).2 :=
  step_agrees 6 (by norm_num) _ (r6_agrees hz0 ha0 hwi hwj).1 (r6_agrees hz0 ha0 hwi hwj).2 hwi hwj

theorem r8_agrees : Agrees (rZ8 z0 a0 wi wj) (Cert.Consts.iter w X XA 8).1 ∧ Agrees (rA8 z0 a0 wi wj) (Cert.Consts.iter w X XA 8).2 :=
  step_agrees 7 (by norm_num) _ (r7_agrees hz0 ha0 hwi hwj).1 (r7_agrees hz0 ha0 hwi hwj).2 hwi hwj

theorem r9_agrees : Agrees (rZ9 z0 a0 wi wj) (Cert.Consts.iter w X XA 9).1 ∧ Agrees (rA9 z0 a0 wi wj) (Cert.Consts.iter w X XA 9).2 :=
  step_agrees 8 (by norm_num) _ (r8_agrees hz0 ha0 hwi hwj).1 (r8_agrees hz0 ha0 hwi hwj).2 hwi hwj

theorem r10_agrees : Agrees (rZ10 z0 a0 wi wj) (Cert.Consts.iter w X XA 10).1 ∧ Agrees (rA10 z0 a0 wi wj) (Cert.Consts.iter w X XA 10).2 :=
  step_agrees 9 (by norm_num) _ (r9_agrees hz0 ha0 hwi hwj).1 (r9_agrees hz0 ha0 hwi hwj).2 hwi hwj

theorem r11_agrees : Agrees (rZ11 z0 a0 wi wj) (Cert.Consts.iter w X XA 11).1 ∧ Agrees (rA11 z0 a0 wi wj) (Cert.Consts.iter w X XA 11).2 :=
  step_agrees 10 (by norm_num) _ (r10_agrees hz0 ha0 hwi hwj).1 (r10_agrees hz0 ha0 hwi hwj).2 hwi hwj

theorem r12_agrees : Agrees (rZ12 z0 a0 wi wj) (Cert.Consts.iter w X XA 12).1 ∧ Agrees (rA12 z0 a0 wi wj) (Cert.Consts.iter w X XA 12).2 :=
  step_agrees 11 (by norm_num) _ (r11_agrees hz0 ha0 hwi hwj).1 (r11_agrees hz0 ha0 hwi hwj).2 hwi hwj

theorem r13_agrees : Agrees (rZ13 z0 a0 wi wj) (Cert.Consts.iter w X XA 13).1 ∧ Agrees (rA13 z0 a0 wi wj) (Cert.Consts.iter w X XA 13).2 :=
  step_agrees 12 (by norm_num) _ (r12_agrees hz0 ha0 hwi hwj).1 (r12_agrees hz0 ha0 hwi hwj).2 hwi hwj

theorem r14_agrees : Agrees (rZ14 z0 a0 wi wj) (Cert.Consts.iter w X XA 14).1 ∧ Agrees (rA14 z0 a0 wi wj) (Cert.Consts.iter w X XA 14).2 :=
  step_agrees 13 (by norm_num) _ (r13_agrees hz0 ha0 hwi hwj).1 (r13_agrees hz0 ha0 hwi hwj).2 hwi hwj

theorem r15_agrees : Agrees (rZ15 z0 a0 wi wj) (Cert.Consts.iter w X XA 15).1 ∧ Agrees (rA15 z0 a0 wi wj) (Cert.Consts.iter w X XA 15).2 :=
  step_agrees 14 (by norm_num) _ (r14_agrees hz0 ha0 hwi hwj).1 (r14_agrees hz0 ha0 hwi hwj).2 hwi hwj

theorem r16_agrees : Agrees (rZ16 z0 a0 wi wj) (Cert.Consts.iter w X XA 16).1 ∧ Agrees (rA16 z0 a0 wi wj) (Cert.Consts.iter w X XA 16).2 :=
  step_agrees 15 (by norm_num) _ (r15_agrees hz0 ha0 hwi hwj).1 (r15_agrees hz0 ha0 hwi hwj).2 hwi hwj

theorem rZ16_agrees : Agrees (rZ16 z0 a0 wi wj) (Cert.Consts.iter w X XA 16).1 := (r16_agrees hz0 ha0 hwi hwj).1

theorem rA16_agrees : Agrees (rA16 z0 a0 wi wj) (Cert.Consts.iter w X XA 16).2 := (r16_agrees hz0 ha0 hwi hwj).2

end Chain

section Results
variable {F : FTy → Type} [FloatOps F] [Cert.ReferenceIdeal.Facts]

def routI (a0 a1 : FVec F S1x8192x1024 .f32) (a2 : FVec F S2048 .f32) : FVec F S1x8192x1024 .f32 :=
  rscatter (rZ16 (rgather5 a0) (rgather5 a1) (rwi a2) (rwj a2)) ridx

def routA (a0 a1 : FVec F S1x8192x1024 .f32) (a2 : FVec F S2048 .f32) : FVec F S1x8192x1024 .f32 :=
  rscatter (rA16 (rgather5 a0) (rgather5 a1) (rwi a2) (rwj a2)) ridx

end Results

section ResultsIdeal
variable [Cert.ReferenceIdeal.Facts]

theorem routI_eq (a0 a1 : FVec Ideal S1x8192x1024 .f32) (a2 : FVec Ideal S2048 .f32) :
    routI (F := Ideal) a0 a1 a2 = Cert.Out.outI a0 a1 a2 :=
  Cert.Out.eq_unarr _ _ fun r d =>
    rscatter_apply _ ridx ridx_apply
      (Cert.Consts.iter (Cert.Out.wvec a2) (Cert.Out.arr a0) (Cert.Out.arr a1) 16).1
      (rZ16_agrees (rgather5_agrees a0 (Cert.Out.arr a0) (fun _ _ => rfl)) (rgather5_agrees a1 (Cert.Out.arr a1) (fun _ _ => rfl))
        (rwi_isWI a2) (rwj_isWJ a2)) r d

theorem routA_eq (a0 a1 : FVec Ideal S1x8192x1024 .f32) (a2 : FVec Ideal S2048 .f32) :
    routA (F := Ideal) a0 a1 a2 = Cert.Out.outA a0 a1 a2 :=
  Cert.Out.eq_unarr _ _ fun r d =>
    rscatter_apply _ ridx ridx_apply
      (Cert.Consts.iter (Cert.Out.wvec a2) (Cert.Out.arr a0) (Cert.Out.arr a1) 16).2
      (rA16_agrees (rgather5_agrees a0 (Cert.Out.arr a0) (fun _ _ => rfl)) (rgather5_agrees a1 (Cert.Out.arr a1) (fun _ _ => rfl))
        (rwi_isWI a2) (rwj_isWJ a2)) r d

end ResultsIdeal

end Cert.ReferenceIdeal.Hand

end
-- ==== Proof.RSegs.lean ====
import proofs.«130520_g23433341567538_cont_8to1_1409_4_alg».proof.Proof.Gen.ReferenceIdeal
import Idealize.ShloMosaic.Lib.StableHlo

noncomputable section

namespace Cert.ReferenceIdeal.Hand

open Cert.ReferenceIdeal Cert.ReferenceIdeal.Gen Idealize.ShloMosaic Idealize.SL.Sem Idealize.ShloMosaic.StableHlo

variable {F : FTy → Type} [FloatOps F]

/-- The operations before the recurrence: the source rows, the two halves of the weights, the two regrouped arrays. -/
abbrev segPre : List (HloOp τ sig (Elt F)) :=
  [
    StableHlo.nullary main_v0 (iotaInDim S16 32 0),
    StableHlo.nullary main_v1 (iotaInDim S512 32 0),
    StableHlo.unary main_v1 main_v2 (broadcastInDim S512x1 ![0] bcast_S512_S512x1_0 : (⟨S512, .i32⟩ : BufTy).Contents (Elt F) → (⟨S512x1, .i32⟩ : BufTy).Contents (Elt F)),
    StableHlo.unary main_v0 main_v3 (broadcastInDim S1x16 ![1] bcast_S16_S1x16_1 : (⟨S16, .i32⟩ : BufTy).Contents (Elt F) → (⟨S1x16, .i32⟩ : BufTy).Contents (Elt F)),
    StableHlo.nullary main_c (constantI S_ 32 2#32),
    StableHlo.unary main_c main_v4 (broadcastInDim S1x16 ![] bcast_S_S1x16 : (⟨S_, .i32⟩ : BufTy).Contents (Elt F) → (⟨S1x16, .i32⟩ : BufTy).Contents (Elt F)),
    StableHlo.binary main_v3 main_v4 main_v5 (muli : (⟨S1x16, .i32⟩ : BufTy).Contents (Elt F) → (⟨S1x16, .i32⟩ : BufTy).Contents (Elt F) → (⟨S1x16, .i32⟩ : BufTy).Contents (Elt F)),
    StableHlo.unary main_v2 main_v6 (broadcastInDim S512x16 ![0, 1] bcast_S512x1_S512x16_0_1 : (⟨S512x1, .i32⟩ : BufTy).Contents (Elt F) → (⟨S512x16, .i32⟩ : BufTy).Contents (Elt F)),
    StableHlo.unary main_v5 main_v7 (broadcastInDim S512x16 ![0, 1] bcast_S1x16_S512x16_0_1 : (⟨S1x16, .i32⟩ : BufTy).Contents (Elt F) → (⟨S512x16, .i32⟩ : BufTy).Contents (Elt F)),
    StableHlo.binary main_v6 main_v7 main_v8 (addi : (⟨S512x16, .i32⟩ : BufTy).Contents (Elt F) → (⟨S512x16, .i32⟩ : BufTy).Contents (Elt F) → (⟨S512x16, .i32⟩ : BufTy).Contents (Elt F)),
    StableHlo.nullary main_c_0 (constantI S_ 32 512#32),
    StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S512x16, .i32⟩) (broadcastInDim S512x16 ![] bcast_S_S512x16),
    StableHlo.TRef.binary (.of main_v8 : StableHlo.TRef sig ⟨S512x16, .i32⟩) (.of main_call0_v3 : StableHlo.TRef sig ⟨S512x16, .i32⟩) (.of main_call0_v4 : StableHlo.TRef sig ⟨S512x16, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S512x16, .i32⟩) (broadcastInDim S512x16 ![] bcast_S_S512x16),
    StableHlo.TRef.binary (.of main_call0_v4 : StableHlo.TRef sig ⟨S512x16, .i32⟩) (.of main_call0_v5 : StableHlo.TRef sig ⟨S512x16, .i32⟩) (.of main_call0_v6 : StableHlo.TRef sig ⟨S512x16, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S512x16, .i32⟩) (broadcastInDim S512x16 ![] bcast_S_S512x16),
    StableHlo.TRef.binary (.of main_call0_v4 : StableHlo.TRef sig ⟨S512x16, .i32⟩) (.of main_call0_v7 : StableHlo.TRef sig ⟨S512x16, .i32⟩) (.of main_call0_v8 : StableHlo.TRef sig ⟨S512x16, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S512x16, .i1⟩) (broadcastInDim S512x16 ![] bcast_S_S512x16),
    StableHlo.TRef.binary (.of main_call0_v8 : StableHlo.TRef sig ⟨S512x16, .i1⟩) (.of main_call0_v10 : StableHlo.TRef sig ⟨S512x16, .i1⟩) (.of main_call0_v11 : StableHlo.TRef sig ⟨S512x16, .i1⟩) (cmpi .ne),
    StableHlo.TRef.binary (.of main_call0_v11 : StableHlo.TRef sig ⟨S512x16, .i1⟩) (.of main_call0_v6 : StableHlo.TRef sig ⟨S512x16, .i1⟩) (.of main_call0_v12 : StableHlo.TRef sig ⟨S512x16, .i1⟩) andi,
    StableHlo.TRef.unary (.of main_call0_v2 : StableHlo.TRef sig ⟨S_, .i32⟩) (.of main_call0_v13 : StableHlo.TRef sig ⟨S512x16, .i32⟩) (broadcastInDim S512x16 ![] bcast_S_S512x16),
    StableHlo.TRef.binary (.of main_call0_v4 : StableHlo.TRef sig ⟨S512x16, .i32⟩) (.of main_call0_v13 : StableHlo.TRef sig ⟨S512x16, .i32⟩) (.of main_call0_v14 : StableHlo.TRef sig ⟨S512x16, .i32⟩) addi,
    StableHlo.TRef.ternary (.of main_call0_v12 : StableHlo.TRef sig ⟨S512x16, .i1⟩) (.of main_call0_v14 : StableHlo.TRef sig ⟨S512x16, .i32⟩) (.of main_call0_v4 : StableHlo.TRef sig ⟨S512x16, .i32⟩) (.of main_v9 : StableHlo.TRef sig ⟨S512x16, .i32⟩) select,
    StableHlo.nullary main_c_1 (constantI S_ 32 16#32),
    StableHlo.unary main_c_1 main_v10 (broadcastInDim S512x16 ![] bcast_S_S512x16 : (⟨S_, .i32⟩ : BufTy).Contents (Elt F) → (⟨S512x16, .i32⟩ : BufTy).Contents (Elt F)),
    StableHlo.binary main_v9 main_v10 main_v11 (muli : (⟨S512x16, .i32⟩ : BufTy).Contents (Elt F) → (⟨S512x16, .i32⟩ : BufTy).Contents (Elt F) → (⟨S512x16, .i32⟩ : BufTy).Contents (Elt F)),
    StableHlo.unary main_v0 main_v12 (broadcastInDim S1x16 ![1] bcast_S16_S1x16_1 : (⟨S16, .i32⟩ : BufTy).Contents (Elt F) → (⟨S1x16, .i32⟩ : BufTy).Contents (Elt F)),
    StableHlo.unary main_v12 main_v13 (broadcastInDim S512x16 ![0, 1] bcast_S1x16_S512x16_0_1 : (⟨S1x16, .i32⟩ : BufTy).Contents (Elt F) → (⟨S512x16, .i32⟩ : BufTy).Contents (Elt F)),
    StableHlo.binary main_v11 main_v13 main_v14 (addi : (⟨S512x16, .i32⟩ : BufTy).Contents (Elt F) → (⟨S512x16, .i32⟩ : BufTy).Contents (Elt F) → (⟨S512x16, .i32⟩ : BufTy).Contents (Elt F)),
    StableHlo.reshape main_v14 main_v15 rfl shapeCasts_S512x16_S8192,
    StableHlo.unary main_arg2 main_v16 ((extractStridedSlice S1024 ![0] · slices_S2048_S1024_0) : (⟨S2048, .f32⟩ : BufTy).Contents (Elt F) → (⟨S1024, .f32⟩ : BufTy).Contents (Elt F)),
    StableHlo.reshape main_v16 main_v17 rfl shapeCasts_S1024_S16x64,
    StableHlo.unary main_arg2 main_v18 ((extractStridedSlice S1024 ![1024] · slices_S2048_S1024_1024) : (⟨S2048, .f32⟩ : BufTy).Contents (Elt F) → (⟨S1024, .f32⟩ : BufTy).Contents (Elt F)),
    StableHlo.reshape main_v18 main_v19 rfl shapeCasts_S1024_S16x64,
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8192, .i32⟩) (broadcastInDim S8192 ![] bcast_S_S8192),
    StableHlo.TRef.binary (.of main_v15 : StableHlo.TRef sig ⟨S8192, .i32⟩) (.of main_call1_v0 : StableHlo.TRef sig ⟨S8192, .i32⟩) (.of main_call1_v1 : StableHlo.TRef sig ⟨S8192, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S8192, .i32⟩) (broadcastInDim S8192 ![] bcast_S_S8192),
    StableHlo.TRef.binary (.of main_v15 : StableHlo.TRef sig ⟨S8192, .i32⟩) (.of main_call1_v2 : StableHlo.TRef sig ⟨S8192, .i32⟩) (.of main_call1_v3 : StableHlo.TRef sig ⟨S8192, .i32⟩) addi,
    StableHlo.TRef.ternary (.of main_call1_v1 : StableHlo.TRef sig ⟨S8192, .i1⟩) (.of main_call1_v3 : StableHlo.TRef sig ⟨S8192, .i32⟩) (.of main_v15 : StableHlo.TRef sig ⟨S8192, .i32⟩) (.of main_call1_v4 : StableHlo.TRef sig ⟨S8192, .i32⟩) select,
    StableHlo.TRef.unary (.of main_call1_v4 : StableHlo.TRef sig ⟨S8192, .i32⟩) (.of main_call1_v5 : StableHlo.TRef sig ⟨S8192x1, .i32⟩) (broadcastInDim S8192x1 ![0] bcast_S8192_S8192x1_0),
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8192x1, .i32⟩) (broadcastInDim S8192x1 ![] bcast_S_S8192x1),
    StableHlo.TRef.binary (.of main_call1_v5 : StableHlo.TRef sig ⟨S8192x1, .i32⟩) (.of main_call1_v6 : StableHlo.TRef sig ⟨S8192x1, .i32⟩) (.of main_call1_v7 : StableHlo.TRef sig ⟨S8192x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S8192x1, .i32⟩) (broadcastInDim S8192x1 ![0, 1] bcast_S1x1_S8192x1_0_1),
    StableHlo.TRef.binary (.of main_call1_v5 : StableHlo.TRef sig ⟨S8192x1, .i32⟩) (.of main_call1_v9 : StableHlo.TRef sig ⟨S8192x1, .i32⟩) (.of main_call1_v10 : StableHlo.TRef sig ⟨S8192x1, .i1⟩) (cmpi .sle),
    StableHlo.TRef.binary (.of main_call1_v7 : StableHlo.TRef sig ⟨S8192x1, .i1⟩) (.of main_call1_v10 : StableHlo.TRef sig ⟨S8192x1, .i1⟩) (.of main_call1_v11 : StableHlo.TRef sig ⟨S8192x1, .i1⟩) andi,
    StableHlo.TRef.nullary (.of main_call1_c_3 : StableHlo.TRef sig ⟨S_, .i1⟩) (constantI S_ 1 1#1),
    StableHlo.TRef.binary (.of main_call1_v11 : StableHlo.TRef sig ⟨S8192x1, .i1⟩) (.of main_call1_c_3 : StableHlo.TRef sig ⟨S_, .i1⟩) (.of main_call1_v12 : StableHlo.TRef sig ⟨S8192, .i1⟩) (fun x v => Host.reduce IntOp.andi x v reducesTo_S8192x1_S8192_d1 h_S_),
    StableHlo.TRef.binary (.of main_arg0 : StableHlo.TRef sig ⟨S1x8192x1024, .f32⟩) (.of main_call1_v5 : StableHlo.TRef sig ⟨S8192x1, .i32⟩) (.of main_call1_v13 : StableHlo.TRef sig ⟨S1x8192x1024, .f32⟩) (fun x i => Host.gather gather_S1x8192x1024_S8192x1_S1x8192x1024_02_1_n_n_1_1_111024 x i),
    StableHlo.TRef.unary (.of main_call1_v12 : StableHlo.TRef sig ⟨S8192, .i1⟩) (.of main_call1_v14 : StableHlo.TRef sig ⟨S1x8192x1024, .i1⟩) (broadcastInDim S1x8192x1024 ![1] bcast_S8192_S1x8192x1024_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1x8192x1024, .f32⟩) (broadcastInDim S1x8192x1024 ![] bcast_S_S1x8192x1024),
    StableHlo.TRef.ternary (.of main_call1_v14 : StableHlo.TRef sig ⟨S1x8192x1024, .i1⟩) (.of main_call1_v13 : StableHlo.TRef sig ⟨S1x8192x1024, .f32⟩) (.of main_call1_v15 : StableHlo.TRef sig ⟨S1x8192x1024, .f32⟩) (.of main_v20 : StableHlo.TRef sig ⟨S1x8192x1024, .f32⟩) select,
    StableHlo.reshape main_v20 main_v21 rfl shapeCasts_S1x8192x1024_S1x512x16x16x64,
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192, .i32⟩) (broadcastInDim S8192 ![] bcast_S_S8192),
    StableHlo.TRef.binary (.of main_v15 : StableHlo.TRef sig ⟨S8192, .i32⟩) (.of main_call2_v0 : StableHlo.TRef sig ⟨S8192, .i32⟩) (.of main_call2_v1 : StableHlo.TRef sig ⟨S8192, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S8192, .i32⟩) (broadcastInDim S8192 ![] bcast_S_S8192),
    StableHlo.TRef.binary (.of main_v15 : StableHlo.TRef sig ⟨S8192, .i32⟩) (.of main_call2_v2 : StableHlo.TRef sig ⟨S8192, .i32⟩) (.of main_call2_v3 : StableHlo.TRef sig ⟨S8192, .i32⟩) addi,
    StableHlo.TRef.ternary (.of main_call2_v1 : StableHlo.TRef sig ⟨S8192, .i1⟩) (.of main_call2_v3 : StableHlo.TRef sig ⟨S8192, .i32⟩) (.of main_v15 : StableHlo.TRef sig ⟨S8192, .i32⟩) (.of main_call2_v4 : StableHlo.TRef sig ⟨S8192, .i32⟩) select,
    StableHlo.TRef.unary (.of main_call2_v4 : StableHlo.TRef sig ⟨S8192, .i32⟩) (.of main_call2_v5 : StableHlo.TRef sig ⟨S8192x1, .i32⟩) (broadcastInDim S8192x1 ![0] bcast_S8192_S8192x1_0),
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1, .i32⟩) (broadcastInDim S8192x1 ![] bcast_S_S8192x1),
    StableHlo.TRef.binary (.of main_call2_v5 : StableHlo.TRef sig ⟨S8192x1, .i32⟩) (.of main_call2_v6 : StableHlo.TRef sig ⟨S8192x1, .i32⟩) (.of main_call2_v7 : StableHlo.TRef sig ⟨S8192x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S8192x1, .i32⟩) (broadcastInDim S8192x1 ![0, 1] bcast_S1x1_S8192x1_0_1),
    StableHlo.TRef.binary (.of main_call2_v5 : StableHlo.TRef sig ⟨S8192x1, .i32⟩) (.of main_call2_v9 : StableHlo.TRef sig ⟨S8192x1, .i32⟩) (.of main_call2_v10 : StableHlo.TRef sig ⟨S8192x1, .i1⟩) (cmpi .sle),
    StableHlo.TRef.binary (.of main_call2_v7 : StableHlo.TRef sig ⟨S8192x1, .i1⟩) (.of main_call2_v10 : StableHlo.TRef sig ⟨S8192x1, .i1⟩) (.of main_call2_v11 : StableHlo.TRef sig ⟨S8192x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1, .i1⟩) (.of main_call2_c_3 : StableHlo.TRef sig ⟨S_, .i1⟩) (.of main_call2_v12 : StableHlo.TRef sig ⟨S8192, .i1⟩) (fun x v => Host.reduce IntOp.andi x v reducesTo_S8192x1_S8192_d1 h_S_),
    StableHlo.TRef.binary (.of main_arg1 : StableHlo.TRef sig ⟨S1x8192x1024, .f32⟩) (.of main_call2_v5 : StableHlo.TRef sig ⟨S8192x1, .i32⟩) (.of main_call2_v13 : StableHlo.TRef sig ⟨S1x8192x1024, .f32⟩) (fun x i => Host.gather gather_S1x8192x1024_S8192x1_S1x8192x1024_02_1_n_n_1_1_111024 x i),
    StableHlo.TRef.unary (.of main_call2_v12 : StableHlo.TRef sig ⟨S8192, .i1⟩) (.of main_call2_v14 : StableHlo.TRef sig ⟨S1x8192x1024, .i1⟩) (broadcastInDim S1x8192x1024 ![1] bcast_S8192_S1x8192x1024_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1x8192x1024, .f32⟩) (broadcastInDim S1x8192x1024 ![] bcast_S_S1x8192x1024),
    StableHlo.TRef.ternary (.of main_call2_v14 : StableHlo.TRef sig ⟨S1x8192x1024, .i1⟩) (.of main_call2_v13 : StableHlo.TRef sig ⟨S1x8192x1024, .f32⟩) (.of main_call2_v15 : StableHlo.TRef sig ⟨S1x8192x1024, .f32⟩) (.of main_v22 : StableHlo.TRef sig ⟨S1x8192x1024, .f32⟩) select,
    StableHlo.reshape main_v22 main_v23 rfl shapeCasts_S1x8192x1024_S1x512x16x16x64 ]

abbrev segPre_W : List (Ref sig .tc) :=
  [main_v0, main_v1, main_v2, main_v3, main_c, main_v4, main_v5, main_v6, main_v7, main_v8, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v9, main_c_1, main_v10, main_v11, main_v12, main_v13, main_v14, main_v15, main_v16, main_v17, main_v18, main_v19, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20, main_v21, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v22, main_v23]

/-- One step of the recurrence with partner position `s`, over the buffers it reads (`z`, `a`, `wi`, `wj`) and writes. -/
abbrev stepOps (s : ℕ) (hs : S1x512x16x16x64.Slices ![0, 0, s, 0, 0] S1x512x1x16x64)
    (z a v26 v27 v35 v36 v40 v41 v42 v43 v44 v46 v47 v48 v49 v50 v51 v52 v53 v54 v55 v56 v57 v58 : TRef sig ⟨S1x512x16x16x64, .f32⟩)
    (wi wj : TRef sig ⟨S16x64, .f32⟩)
    (v24 v30 v31 : TRef sig ⟨S1x512x1x16x64, .f32⟩)
    (v25 v29 : TRef sig ⟨S1x1x1x16x64, .f32⟩)
    (cst cst_2 cst_3 cst_4 cst_5 cst_6 cst_7 cst_8 cst_9 cst_10 : TRef sig ⟨S_, .f32⟩)
    (v28 v33 v34 : TRef sig ⟨S1x512x16x16, .f32⟩)
    (v32 : TRef sig ⟨S1x512x1x16, .f32⟩)
    (v37 v38 v39 : TRef sig ⟨S1x512x16x16x1, .f32⟩)
    (v45 : TRef sig ⟨S1x512x16x16x64, .i1⟩) :
    List (HloOp τ sig (Elt F)) :=
  [TRef.unary z v24 (extractStridedSlice S1x512x1x16x64 ![0, 0, s, 0, 0] · hs),
   TRef.unary wi v25 (broadcastInDim S1x1x1x16x64 ![3, 4] bcast_S16x64_S1x1x1x16x64_3_4),
   TRef.unary v25 v26 (broadcastInDim S1x512x16x16x64 ![0, 1, 2, 3, 4] bcast_S1x1x1x16x64_S1x512x16x16x64_0_1_2_3_4),
   TRef.binary z v26 v27 mulf,
   TRef.nullary cst (constant S_ .f32 0x00000000#32),
   TRef.binary v27 cst v28 (fun x v => Host.reduceAdd x v reducesTo_S1x512x16x16x64_S1x512x16x16_d4 h_S_),
   TRef.unary wj v29 (broadcastInDim S1x1x1x16x64 ![3, 4] bcast_S16x64_S1x1x1x16x64_3_4),
   TRef.unary v29 v30 (broadcastInDim S1x512x1x16x64 ![0, 1, 2, 3, 4] bcast_S1x1x1x16x64_S1x512x1x16x64_0_1_2_3_4),
   TRef.binary v24 v30 v31 mulf,
   TRef.nullary cst_2 (constant S_ .f32 0x00000000#32),
   TRef.binary v31 cst_2 v32 (fun x v => Host.reduceAdd x v reducesTo_S1x512x1x16x64_S1x512x1x16_d4 h_S_),
   TRef.unary v32 v33 (broadcastInDim S1x512x16x16 ![0, 1, 2, 3] bcast_S1x512x1x16_S1x512x16x16_0_1_2_3),
   TRef.binary v28 v33 v34 addf,
   TRef.nullary cst_3 (constant S_ .f32 0x3F000000#32),
   TRef.unary cst_3 v35 (broadcastInDim S1x512x16x16x64 ![] bcast_S_S1x512x16x16x64),
   TRef.binary v35 z v36 mulf,
   TRef.unary v34 v37 (broadcastInDim S1x512x16x16x1 ![0, 1, 2, 3] bcast_S1x512x16x16_S1x512x16x16x1_0_1_2_3),
   TRef.nullary cst_4 (constant S_ .f32 0x3F000000#32),
   TRef.unary cst_4 v38 (broadcastInDim S1x512x16x16x1 ![] bcast_S_S1x512x16x16x1),
   TRef.binary v38 v37 v39 mulf,
   TRef.unary v39 v40 (broadcastInDim S1x512x16x16x64 ![0, 1, 2, 3, 4] bcast_S1x512x16x16x1_S1x512x16x16x64_0_1_2_3_4),
   TRef.unary v24 v41 (broadcastInDim S1x512x16x16x64 ![0, 1, 2, 3, 4] bcast_S1x512x1x16x64_S1x512x16x16x64_0_1_2_3_4),
   TRef.binary v40 v41 v42 mulf,
   TRef.binary v36 v42 v43 addf,
   TRef.nullary cst_5 (constant S_ .f32 0x00000000#32),
   TRef.unary cst_5 v44 (broadcastInDim S1x512x16x16x64 ![] bcast_S_S1x512x16x16x64),
   TRef.binary v43 v44 v45 (cmpf .oge),
   TRef.nullary cst_6 (constant S_ .f32 0x3C23D70A#32),
   TRef.unary cst_6 v46 (broadcastInDim S1x512x16x16x64 ![] bcast_S_S1x512x16x16x64),
   TRef.binary v46 v43 v47 mulf,
   TRef.ternary v45 v43 v47 v48 select,
   TRef.nullary cst_7 (constant S_ .f32 0x3F666666#32),
   TRef.unary cst_7 v49 (broadcastInDim S1x512x16x16x64 ![] bcast_S_S1x512x16x16x64),
   TRef.binary v49 a v50 mulf,
   TRef.nullary cst_8 (constant S_ .f32 0x3DCCCCCD#32),
   TRef.unary cst_8 v51 (broadcastInDim S1x512x16x16x64 ![] bcast_S_S1x512x16x16x64),
   TRef.binary v51 v48 v52 mulf,
   TRef.binary v50 v52 v53 addf,
   TRef.nullary cst_9 (constant S_ .f32 0x3F666666#32),
   TRef.unary cst_9 v54 (broadcastInDim S1x512x16x16x64 ![] bcast_S_S1x512x16x16x64),
   TRef.binary v54 z v55 mulf,
   TRef.nullary cst_10 (constant S_ .f32 0x3DCCCCCD#32),
   TRef.unary cst_10 v56 (broadcastInDim S1x512x16x16x64 ![] bcast_S_S1x512x16x16x64),
   TRef.binary v56 v53 v57 mulf,
   TRef.binary v55 v57 v58 addf]

abbrev seg0 : List (HloOp τ sig (Elt F)) :=
  stepOps 0 slices_S1x512x16x16x64_S1x512x1x16x64_0_0_0_0_0 (.of main_v21) (.of main_v23) (.of main_v26) (.of main_v27) (.of main_v35) (.of main_v36) (.of main_v40) (.of main_v41) (.of main_v42) (.of main_v43) (.of main_v44) (.of main_v46) (.of main_v47) (.of main_v48) (.of main_v49) (.of main_v50) (.of main_v51) (.of main_v52) (.of main_v53) (.of main_v54) (.of main_v55) (.of main_v56) (.of main_v57) (.of main_v58) (.of main_v17) (.of main_v19) (.of main_v24) (.of main_v30) (.of main_v31) (.of main_v25) (.of main_v29) (.of main_cst) (.of main_cst_2) (.of main_cst_3) (.of main_cst_4) (.of main_cst_5) (.of main_cst_6) (.of main_cst_7) (.of main_cst_8) (.of main_cst_9) (.of main_cst_10) (.of main_v28) (.of main_v33) (.of main_v34) (.of main_v32) (.of main_v37) (.of main_v38) (.of main_v39) (.of main_v45)
abbrev seg0_W : List (Ref sig .tc) :=
  [main_v24, main_v25, main_v26, main_v27, main_cst, main_v28, main_v29, main_v30, main_v31, main_cst_2, main_v32, main_v33, main_v34, main_cst_3, main_v35, main_v36, main_v37, main_cst_4, main_v38, main_v39, main_v40, main_v41, main_v42, main_v43, main_cst_5, main_v44, main_v45, main_cst_6, main_v46, main_v47, main_v48, main_cst_7, main_v49, main_v50, main_cst_8, main_v51, main_v52, main_v53, main_cst_9, main_v54, main_v55, main_cst_10, main_v56, main_v57, main_v58]

abbrev seg1 : List (HloOp τ sig (Elt F)) :=
  stepOps 1 slices_S1x512x16x16x64_S1x512x1x16x64_0_0_1_0_0 (.of main_v58) (.of main_v53) (.of main_v61) (.of main_v62) (.of main_v70) (.of main_v71) (.of main_v75) (.of main_v76) (.of main_v77) (.of main_v78) (.of main_v79) (.of main_v81) (.of main_v82) (.of main_v83) (.of main_v84) (.of main_v85) (.of main_v86) (.of main_v87) (.of main_v88) (.of main_v89) (.of main_v90) (.of main_v91) (.of main_v92) (.of main_v93) (.of main_v17) (.of main_v19) (.of main_v59) (.of main_v65) (.of main_v66) (.of main_v60) (.of main_v64) (.of main_cst_11) (.of main_cst_12) (.of main_cst_13) (.of main_cst_14) (.of main_cst_15) (.of main_cst_16) (.of main_cst_17) (.of main_cst_18) (.of main_cst_19) (.of main_cst_20) (.of main_v63) (.of main_v68) (.of main_v69) (.of main_v67) (.of main_v72) (.of main_v73) (.of main_v74) (.of main_v80)
abbrev seg1_W : List (Ref sig .tc) :=
  [main_v59, main_v60, main_v61, main_v62, main_cst_11, main_v63, main_v64, main_v65, main_v66, main_cst_12, main_v67, main_v68, main_v69, main_cst_13, main_v70, main_v71, main_v72, main_cst_14, main_v73, main_v74, main_v75, main_v76, main_v77, main_v78, main_cst_15, main_v79, main_v80, main_cst_16, main_v81, main_v82, main_v83, main_cst_17, main_v84, main_v85, main_cst_18, main_v86, main_v87, main_v88, main_cst_19, main_v89, main_v90, main_cst_20, main_v91, main_v92, main_v93]

abbrev seg2 : List (HloOp τ sig (Elt F)) :=
  stepOps 2 slices_S1x512x16x16x64_S1x512x1x16x64_0_0_2_0_0 (.of main_v93) (.of main_v88) (.of main_v96) (.of main_v97) (.of main_v105) (.of main_v106) (.of main_v110) (.of main_v111) (.of main_v112) (.of main_v113) (.of main_v114) (.of main_v116) (.of main_v117) (.of main_v118) (.of main_v119) (.of main_v120) (.of main_v121) (.of main_v122) (.of main_v123) (.of main_v124) (.of main_v125) (.of main_v126) (.of main_v127) (.of main_v128) (.of main_v17) (.of main_v19) (.of main_v94) (.of main_v100) (.of main_v101) (.of main_v95) (.of main_v99) (.of main_cst_21) (.of main_cst_22) (.of main_cst_23) (.of main_cst_24) (.of main_cst_25) (.of main_cst_26) (.of main_cst_27) (.of main_cst_28) (.of main_cst_29) (.of main_cst_30) (.of main_v98) (.of main_v103) (.of main_v104) (.of main_v102) (.of main_v107) (.of main_v108) (.of main_v109) (.of main_v115)
abbrev seg2_W : List (Ref sig .tc) :=
  [main_v94, main_v95, main_v96, main_v97, main_cst_21, main_v98, main_v99, main_v100, main_v101, main_cst_22, main_v102, main_v103, main_v104, main_cst_23, main_v105, main_v106, main_v107, main_cst_24, main_v108, main_v109, main_v110, main_v111, main_v112, main_v113, main_cst_25, main_v114, main_v115, main_cst_26, main_v116, main_v117, main_v118, main_cst_27, main_v119, main_v120, main_cst_28, main_v121, main_v122, main_v123, main_cst_29, main_v124, main_v125, main_cst_30, main_v126, main_v127, main_v128]

abbrev seg3 : List (HloOp τ sig (Elt F)) :=
  stepOps 3 slices_S1x512x16x16x64_S1x512x1x16x64_0_0_3_0_0 (.of main_v128) (.of main_v123) (.of main_v131) (.of main_v132) (.of main_v140) (.of main_v141) (.of main_v145) (.of main_v146) (.of main_v147) (.of main_v148) (.of main_v149) (.of main_v151) (.of main_v152) (.of main_v153) (.of main_v154) (.of main_v155) (.of main_v156) (.of main_v157) (.of main_v158) (.of main_v159) (.of main_v160) (.of main_v161) (.of main_v162) (.of main_v163) (.of main_v17) (.of main_v19) (.of main_v129) (.of main_v135) (.of main_v136) (.of main_v130) (.of main_v134) (.of main_cst_31) (.of main_cst_32) (.of main_cst_33) (.of main_cst_34) (.of main_cst_35) (.of main_cst_36) (.of main_cst_37) (.of main_cst_38) (.of main_cst_39) (.of main_cst_40) (.of main_v133) (.of main_v138) (.of main_v139) (.of main_v137) (.of main_v142) (.of main_v143) (.of main_v144) (.of main_v150)
abbrev seg3_W : List (Ref sig .tc) :=
  [main_v129, main_v130, main_v131, main_v132, main_cst_31, main_v133, main_v134, main_v135, main_v136, main_cst_32, main_v137, main_v138, main_v139, main_cst_33, main_v140, main_v141, main_v142, main_cst_34, main_v143, main_v144, main_v145, main_v146, main_v147, main_v148, main_cst_35, main_v149, main_v150, main_cst_36, main_v151, main_v152, main_v153, main_cst_37, main_v154, main_v155, main_cst_38, main_v156, main_v157, main_v158, main_cst_39, main_v159, main_v160, main_cst_40, main_v161, main_v162, main_v163]

abbrev seg4 : List (HloOp τ sig (Elt F)) :=
  stepOps 4 slices_S1x512x16x16x64_S1x512x1x16x64_0_0_4_0_0 (.of main_v163) (.of main_v158) (.of main_v166) (.of main_v167) (.of main_v175) (.of main_v176) (.of main_v180) (.of main_v181) (.of main_v182) (.of main_v183) (.of main_v184) (.of main_v186) (.of main_v187) (.of main_v188) (.of main_v189) (.of main_v190) (.of main_v191) (.of main_v192) (.of main_v193) (.of main_v194) (.of main_v195) (.of main_v196) (.of main_v197) (.of main_v198) (.of main_v17) (.of main_v19) (.of main_v164) (.of main_v170) (.of main_v171) (.of main_v165) (.of main_v169) (.of main_cst_41) (.of main_cst_42) (.of main_cst_43) (.of main_cst_44) (.of main_cst_45) (.of main_cst_46) (.of main_cst_47) (.of main_cst_48) (.of main_cst_49) (.of main_cst_50) (.of main_v168) (.of main_v173) (.of main_v174) (.of main_v172) (.of main_v177) (.of main_v178) (.of main_v179) (.of main_v185)
abbrev seg4_W : List (Ref sig .tc) :=
  [main_v164, main_v165, main_v166, main_v167, main_cst_41, main_v168, main_v169, main_v170, main_v171, main_cst_42, main_v172, main_v173, main_v174, main_cst_43, main_v175, main_v176, main_v177, main_cst_44, main_v178, main_v179, main_v180, main_v181, main_v182, main_v183, main_cst_45, main_v184, main_v185, main_cst_46, main_v186, main_v187, main_v188, main_cst_47, main_v189, main_v190, main_cst_48, main_v191, main_v192, main_v193, main_cst_49, main_v194, main_v195, main_cst_50, main_v196, main_v197, main_v198]

abbrev seg5 : List (HloOp τ sig (Elt F)) :=
  stepOps 5 slices_S1x512x16x16x64_S1x512x1x16x64_0_0_5_0_0 (.of main_v198) (.of main_v193) (.of main_v201) (.of main_v202) (.of main_v210) (.of main_v211) (.of main_v215) (.of main_v216) (.of main_v217) (.of main_v218) (.of main_v219) (.of main_v221) (.of main_v222) (.of main_v223) (.of main_v224) (.of main_v225) (.of main_v226) (.of main_v227) (.of main_v228) (.of main_v229) (.of main_v230) (.of main_v231) (.of main_v232) (.of main_v233) (.of main_v17) (.of main_v19) (.of main_v199) (.of main_v205) (.of main_v206) (.of main_v200) (.of main_v204) (.of main_cst_51) (.of main_cst_52) (.of main_cst_53) (.of main_cst_54) (.of main_cst_55) (.of main_cst_56) (.of main_cst_57) (.of main_cst_58) (.of main_cst_59) (.of main_cst_60) (.of main_v203) (.of main_v208) (.of main_v209) (.of main_v207) (.of main_v212) (.of main_v213) (.of main_v214) (.of main_v220)
abbrev seg5_W : List (Ref sig .tc) :=
  [main_v199, main_v200, main_v201, main_v202, main_cst_51, main_v203, main_v204, main_v205, main_v206, main_cst_52, main_v207, main_v208, main_v209, main_cst_53, main_v210, main_v211, main_v212, main_cst_54, main_v213, main_v214, main_v215, main_v216, main_v217, main_v218, main_cst_55, main_v219, main_v220, main_cst_56, main_v221, main_v222, main_v223, main_cst_57, main_v224, main_v225, main_cst_58, main_v226, main_v227, main_v228, main_cst_59, main_v229, main_v230, main_cst_60, main_v231, main_v232, main_v233]

abbrev seg6 : List (HloOp τ sig (Elt F)) :=
  stepOps 6 slices_S1x512x16x16x64_S1x512x1x16x64_0_0_6_0_0 (.of main_v233) (.of main_v228) (.of main_v236) (.of main_v237) (.of main_v245) (.of main_v246) (.of main_v250) (.of main_v251) (.of main_v252) (.of main_v253) (.of main_v254) (.of main_v256) (.of main_v257) (.of main_v258) (.of main_v259) (.of main_v260) (.of main_v261) (.of main_v262) (.of main_v263) (.of main_v264) (.of main_v265) (.of main_v266) (.of main_v267) (.of main_v268) (.of main_v17) (.of main_v19) (.of main_v234) (.of main_v240) (.of main_v241) (.of main_v235) (.of main_v239) (.of main_cst_61) (.of main_cst_62) (.of main_cst_63) (.of main_cst_64) (.of main_cst_65) (.of main_cst_66) (.of main_cst_67) (.of main_cst_68) (.of main_cst_69) (.of main_cst_70) (.of main_v238) (.of main_v243) (.of main_v244) (.of main_v242) (.of main_v247) (.of main_v248) (.of main_v249) (.of main_v255)
abbrev seg6_W : List (Ref sig .tc) :=
  [main_v234, main_v235, main_v236, main_v237, main_cst_61, main_v238, main_v239, main_v240, main_v241, main_cst_62, main_v242, main_v243, main_v244, main_cst_63, main_v245, main_v246, main_v247, main_cst_64, main_v248, main_v249, main_v250, main_v251, main_v252, main_v253, main_cst_65, main_v254, main_v255, main_cst_66, main_v256, main_v257, main_v258, main_cst_67, main_v259, main_v260, main_cst_68, main_v261, main_v262, main_v263, main_cst_69, main_v264, main_v265, main_cst_70, main_v266, main_v267, main_v268]

abbrev seg7 : List (HloOp τ sig (Elt F)) :=
  stepOps 7 slices_S1x512x16x16x64_S1x512x1x16x64_0_0_7_0_0 (.of main_v268) (.of main_v263) (.of main_v271) (.of main_v272) (.of main_v280) (.of main_v281) (.of main_v285) (.of main_v286) (.of main_v287) (.of main_v288) (.of main_v289) (.of main_v291) (.of main_v292) (.of main_v293) (.of main_v294) (.of main_v295) (.of main_v296) (.of main_v297) (.of main_v298) (.of main_v299) (.of main_v300) (.of main_v301) (.of main_v302) (.of main_v303) (.of main_v17) (.of main_v19) (.of main_v269) (.of main_v275) (.of main_v276) (.of main_v270) (.of main_v274) (.of main_cst_71) (.of main_cst_72) (.of main_cst_73) (.of main_cst_74) (.of main_cst_75) (.of main_cst_76) (.of main_cst_77) (.of main_cst_78) (.of main_cst_79) (.of main_cst_80) (.of main_v273) (.of main_v278) (.of main_v279) (.of main_v277) (.of main_v282) (.of main_v283) (.of main_v284) (.of main_v290)
abbrev seg7_W : List (Ref sig .tc) :=
  [main_v269, main_v270, main_v271, main_v272, main_cst_71, main_v273, main_v274, main_v275, main_v276, main_cst_72, main_v277, main_v278, main_v279, main_cst_73, main_v280, main_v281, main_v282, main_cst_74, main_v283, main_v284, main_v285, main_v286, main_v287, main_v288, main_cst_75, main_v289, main_v290, main_cst_76, main_v291, main_v292, main_v293, main_cst_77, main_v294, main_v295, main_cst_78, main_v296, main_v297, main_v298, main_cst_79, main_v299, main_v300, main_cst_80, main_v301, main_v302, main_v303]

abbrev seg8 : List (HloOp τ sig (Elt F)) :=
  stepOps 8 slices_S1x512x16x16x64_S1x512x1x16x64_0_0_8_0_0 (.of main_v303) (.of main_v298) (.of main_v306) (.of main_v307) (.of main_v315) (.of main_v316) (.of main_v320) (.of main_v321) (.of main_v322) (.of main_v323) (.of main_v324) (.of main_v326) (.of main_v327) (.of main_v328) (.of main_v329) (.of main_v330) (.of main_v331) (.of main_v332) (.of main_v333) (.of main_v334) (.of main_v335) (.of main_v336) (.of main_v337) (.of main_v338) (.of main_v17) (.of main_v19) (.of main_v304) (.of main_v310) (.of main_v311) (.of main_v305) (.of main_v309) (.of main_cst_81) (.of main_cst_82) (.of main_cst_83) (.of main_cst_84) (.of main_cst_85) (.of main_cst_86) (.of main_cst_87) (.of main_cst_88) (.of main_cst_89) (.of main_cst_90) (.of main_v308) (.of main_v313) (.of main_v314) (.of main_v312) (.of main_v317) (.of main_v318) (.of main_v319) (.of main_v325)
abbrev seg8_W : List (Ref sig .tc) :=
  [main_v304, main_v305, main_v306, main_v307, main_cst_81, main_v308, main_v309, main_v310, main_v311, main_cst_82, main_v312, main_v313, main_v314, main_cst_83, main_v315, main_v316, main_v317, main_cst_84, main_v318, main_v319, main_v320, main_v321, main_v322, main_v323, main_cst_85, main_v324, main_v325, main_cst_86, main_v326, main_v327, main_v328, main_cst_87, main_v329, main_v330, main_cst_88, main_v331, main_v332, main_v333, main_cst_89, main_v334, main_v335, main_cst_90, main_v336, main_v337, main_v338]

abbrev seg9 : List (HloOp τ sig (Elt F)) :=
  stepOps 9 slices_S1x512x16x16x64_S1x512x1x16x64_0_0_9_0_0 (.of main_v338) (.of main_v333) (.of main_v341) (.of main_v342) (.of main_v350) (.of main_v351) (.of main_v355) (.of main_v356) (.of main_v357) (.of main_v358) (.of main_v359) (.of main_v361) (.of main_v362) (.of main_v363) (.of main_v364) (.of main_v365) (.of main_v366) (.of main_v367) (.of main_v368) (.of main_v369) (.of main_v370) (.of main_v371) (.of main_v372) (.of main_v373) (.of main_v17) (.of main_v19) (.of main_v339) (.of main_v345) (.of main_v346) (.of main_v340) (.of main_v344) (.of main_cst_91) (.of main_cst_92) (.of main_cst_93) (.of main_cst_94) (.of main_cst_95) (.of main_cst_96) (.of main_cst_97) (.of main_cst_98) (.of main_cst_99) (.of main_cst_100) (.of main_v343) (.of main_v348) (.of main_v349) (.of main_v347) (.of main_v352) (.of main_v353) (.of main_v354) (.of main_v360)
abbrev seg9_W : List (Ref sig .tc) :=
  [main_v339, main_v340, main_v341, main_v342, main_cst_91, main_v343, main_v344, main_v345, main_v346, main_cst_92, main_v347, main_v348, main_v349, main_cst_93, main_v350, main_v351, main_v352, main_cst_94, main_v353, main_v354, main_v355, main_v356, main_v357, main_v358, main_cst_95, main_v359, main_v360, main_cst_96, main_v361, main_v362, main_v363, main_cst_97, main_v364, main_v365, main_cst_98, main_v366, main_v367, main_v368, main_cst_99, main_v369, main_v370, main_cst_100, main_v371, main_v372, main_v373]

abbrev seg10 : List (HloOp τ sig (Elt F)) :=
  stepOps 10 slices_S1x512x16x16x64_S1x512x1x16x64_0_0_10_0_0 (.of main_v373) (.of main_v368) (.of main_v376) (.of main_v377) (.of main_v385) (.of main_v386) (.of main_v390) (.of main_v391) (.of main_v392) (.of main_v393) (.of main_v394) (.of main_v396) (.of main_v397) (.of main_v398) (.of main_v399) (.of main_v400) (.of main_v401) (.of main_v402) (.of main_v403) (.of main_v404) (.of main_v405) (.of main_v406) (.of main_v407) (.of main_v408) (.of main_v17) (.of main_v19) (.of main_v374) (.of main_v380) (.of main_v381) (.of main_v375) (.of main_v379) (.of main_cst_101) (.of main_cst_102) (.of main_cst_103) (.of main_cst_104) (.of main_cst_105) (.of main_cst_106) (.of main_cst_107) (.of main_cst_108) (.of main_cst_109) (.of main_cst_110) (.of main_v378) (.of main_v383) (.of main_v384) (.of main_v382) (.of main_v387) (.of main_v388) (.of main_v389) (.of main_v395)
abbrev seg10_W : List (Ref sig .tc) :=
  [main_v374, main_v375, main_v376, main_v377, main_cst_101, main_v378, main_v379, main_v380, main_v381, main_cst_102, main_v382, main_v383, main_v384, main_cst_103, main_v385, main_v386, main_v387, main_cst_104, main_v388, main_v389, main_v390, main_v391, main_v392, main_v393, main_cst_105, main_v394, main_v395, main_cst_106, main_v396, main_v397, main_v398, main_cst_107, main_v399, main_v400, main_cst_108, main_v401, main_v402, main_v403, main_cst_109, main_v404, main_v405, main_cst_110, main_v406, main_v407, main_v408]

abbrev seg11 : List (HloOp τ sig (Elt F)) :=
  stepOps 11 slices_S1x512x16x16x64_S1x512x1x16x64_0_0_11_0_0 (.of main_v408) (.of main_v403) (.of main_v411) (.of main_v412) (.of main_v420) (.of main_v421) (.of main_v425) (.of main_v426) (.of main_v427) (.of main_v428) (.of main_v429) (.of main_v431) (.of main_v432) (.of main_v433) (.of main_v434) (.of main_v435) (.of main_v436) (.of main_v437) (.of main_v438) (.of main_v439) (.of main_v440) (.of main_v441) (.of main_v442) (.of main_v443) (.of main_v17) (.of main_v19) (.of main_v409) (.of main_v415) (.of main_v416) (.of main_v410) (.of main_v414) (.of main_cst_111) (.of main_cst_112) (.of main_cst_113) (.of main_cst_114) (.of main_cst_115) (.of main_cst_116) (.of main_cst_117) (.of main_cst_118) (.of main_cst_119) (.of main_cst_120) (.of main_v413) (.of main_v418) (.of main_v419) (.of main_v417) (.of main_v422) (.of main_v423) (.of main_v424) (.of main_v430)
abbrev seg11_W : List (Ref sig .tc) :=
  [main_v409, main_v410, main_v411, main_v412, main_cst_111, main_v413, main_v414, main_v415, main_v416, main_cst_112, main_v417, main_v418, main_v419, main_cst_113, main_v420, main_v421, main_v422, main_cst_114, main_v423, main_v424, main_v425, main_v426, main_v427, main_v428, main_cst_115, main_v429, main_v430, main_cst_116, main_v431, main_v432, main_v433, main_cst_117, main_v434, main_v435, main_cst_118, main_v436, main_v437, main_v438, main_cst_119, main_v439, main_v440, main_cst_120, main_v441, main_v442, main_v443]

abbrev seg12 : List (HloOp τ sig (Elt F)) :=
  stepOps 12 slices_S1x512x16x16x64_S1x512x1x16x64_0_0_12_0_0 (.of main_v443) (.of main_v438) (.of main_v446) (.of main_v447) (.of main_v455) (.of main_v456) (.of main_v460) (.of main_v461) (.of main_v462) (.of main_v463) (.of main_v464) (.of main_v466) (.of main_v467) (.of main_v468) (.of main_v469) (.of main_v470) (.of main_v471) (.of main_v472) (.of main_v473) (.of main_v474) (.of main_v475) (.of main_v476) (.of main_v477) (.of main_v478) (.of main_v17) (.of main_v19) (.of main_v444) (.of main_v450) (.of main_v451) (.of main_v445) (.of main_v449) (.of main_cst_121) (.of main_cst_122) (.of main_cst_123) (.of main_cst_124) (.of main_cst_125) (.of main_cst_126) (.of main_cst_127) (.of main_cst_128) (.of main_cst_129) (.of main_cst_130) (.of main_v448) (.of main_v453) (.of main_v454) (.of main_v452) (.of main_v457) (.of main_v458) (.of main_v459) (.of main_v465)
abbrev seg12_W : List (Ref sig .tc) :=
  [main_v444, main_v445, main_v446, main_v447, main_cst_121, main_v448, main_v449, main_v450, main_v451, main_cst_122, main_v452, main_v453, main_v454, main_cst_123, main_v455, main_v456, main_v457, main_cst_124, main_v458, main_v459, main_v460, main_v461, main_v462, main_v463, main_cst_125, main_v464, main_v465, main_cst_126, main_v466, main_v467, main_v468, main_cst_127, main_v469, main_v470, main_cst_128, main_v471, main_v472, main_v473, main_cst_129, main_v474, main_v475, main_cst_130, main_v476, main_v477, main_v478]

abbrev seg13 : List (HloOp τ sig (Elt F)) :=
  stepOps 13 slices_S1x512x16x16x64_S1x512x1x16x64_0_0_13_0_0 (.of main_v478) (.of main_v473) (.of main_v481) (.of main_v482) (.of main_v490) (.of main_v491) (.of main_v495) (.of main_v496) (.of main_v497) (.of main_v498) (.of main_v499) (.of main_v501) (.of main_v502) (.of main_v503) (.of main_v504) (.of main_v505) (.of main_v506) (.of main_v507) (.of main_v508) (.of main_v509) (.of main_v510) (.of main_v511) (.of main_v512) (.of main_v513) (.of main_v17) (.of main_v19) (.of main_v479) (.of main_v485) (.of main_v486) (.of main_v480) (.of main_v484) (.of main_cst_131) (.of main_cst_132) (.of main_cst_133) (.of main_cst_134) (.of main_cst_135) (.of main_cst_136) (.of main_cst_137) (.of main_cst_138) (.of main_cst_139) (.of main_cst_140) (.of main_v483) (.of main_v488) (.of main_v489) (.of main_v487) (.of main_v492) (.of main_v493) (.of main_v494) (.of main_v500)
abbrev seg13_W : List (Ref sig .tc) :=
  [main_v479, main_v480, main_v481, main_v482, main_cst_131, main_v483, main_v484, main_v485, main_v486, main_cst_132, main_v487, main_v488, main_v489, main_cst_133, main_v490, main_v491, main_v492, main_cst_134, main_v493, main_v494, main_v495, main_v496, main_v497, main_v498, main_cst_135, main_v499, main_v500, main_cst_136, main_v501, main_v502, main_v503, main_cst_137, main_v504, main_v505, main_cst_138, main_v506, main_v507, main_v508, main_cst_139, main_v509, main_v510, main_cst_140, main_v511, main_v512, main_v513]

abbrev seg14 : List (HloOp τ sig (Elt F)) :=
  stepOps 14 slices_S1x512x16x16x64_S1x512x1x16x64_0_0_14_0_0 (.of main_v513) (.of main_v508) (.of main_v516) (.of main_v517) (.of main_v525) (.of main_v526) (.of main_v530) (.of main_v531) (.of main_v532) (.of main_v533) (.of main_v534) (.of main_v536) (.of main_v537) (.of main_v538) (.of main_v539) (.of main_v540) (.of main_v541) (.of main_v542) (.of main_v543) (.of main_v544) (.of main_v545) (.of main_v546) (.of main_v547) (.of main_v548) (.of main_v17) (.of main_v19) (.of main_v514) (.of main_v520) (.of main_v521) (.of main_v515) (.of main_v519) (.of main_cst_141) (.of main_cst_142) (.of main_cst_143) (.of main_cst_144) (.of main_cst_145) (.of main_cst_146) (.of main_cst_147) (.of main_cst_148) (.of main_cst_149) (.of main_cst_150) (.of main_v518) (.of main_v523) (.of main_v524) (.of main_v522) (.of main_v527) (.of main_v528) (.of main_v529) (.of main_v535)
abbrev seg14_W : List (Ref sig .tc) :=
  [main_v514, main_v515, main_v516, main_v517, main_cst_141, main_v518, main_v519, main_v520, main_v521, main_cst_142, main_v522, main_v523, main_v524, main_cst_143, main_v525, main_v526, main_v527, main_cst_144, main_v528, main_v529, main_v530, main_v531, main_v532, main_v533, main_cst_145, main_v534, main_v535, main_cst_146, main_v536, main_v537, main_v538, main_cst_147, main_v539, main_v540, main_cst_148, main_v541, main_v542, main_v543, main_cst_149, main_v544, main_v545, main_cst_150, main_v546, main_v547, main_v548]

abbrev seg15 : List (HloOp τ sig (Elt F)) :=
  stepOps 15 slices_S1x512x16x16x64_S1x512x1x16x64_0_0_15_0_0 (.of main_v548) (.of main_v543) (.of main_v551) (.of main_v552) (.of main_v560) (.of main_v561) (.of main_v565) (.of main_v566) (.of main_v567) (.of main_v568) (.of main_v569) (.of main_v571) (.of main_v572) (.of main_v573) (.of main_v574) (.of main_v575) (.of main_v576) (.of main_v577) (.of main_v578) (.of main_v579) (.of main_v580) (.of main_v581) (.of main_v582) (.of main_v583) (.of main_v17) (.of main_v19) (.of main_v549) (.of main_v555) (.of main_v556) (.of main_v550) (.of main_v554) (.of main_cst_151) (.of main_cst_152) (.of main_cst_153) (.of main_cst_154) (.of main_cst_155) (.of main_cst_156) (.of main_cst_157) (.of main_cst_158) (.of main_cst_159) (.of main_cst_160) (.of main_v553) (.of main_v558) (.of main_v559) (.of main_v557) (.of main_v562) (.of main_v563) (.of main_v564) (.of main_v570)
abbrev seg15_W : List (Ref sig .tc) :=
  [main_v549, main_v550, main_v551, main_v552, main_cst_151, main_v553, main_v554, main_v555, main_v556, main_cst_152, main_v557, main_v558, main_v559, main_cst_153, main_v560, main_v561, main_v562, main_cst_154, main_v563, main_v564, main_v565, main_v566, main_v567, main_v568, main_cst_155, main_v569, main_v570, main_cst_156, main_v571, main_v572, main_v573, main_cst_157, main_v574, main_v575, main_cst_158, main_v576, main_v577, main_v578, main_cst_159, main_v579, main_v580, main_cst_160, main_v581, main_v582, main_v583]

/-- The sixteen steps in a row. -/
abbrev steps : List (HloOp τ sig (Elt F)) :=
  seg0 ++ seg1 ++ seg2 ++ seg3 ++ seg4 ++ seg5 ++ seg6 ++ seg7 ++ seg8 ++ seg9 ++ seg10 ++ seg11 ++ seg12 ++ seg13 ++ seg14 ++ seg15

/-- The operations after the recurrence: the two scatters back. -/
abbrev segTail : List (HloOp τ sig (Elt F)) :=
  [
    StableHlo.reshape main_v583 main_v584 rfl shapeCasts_S1x512x16x16x64_S1x8192x1024,
    StableHlo.reshape main_v578 main_v585 rfl shapeCasts_S1x512x16x16x64_S1x8192x1024,
    StableHlo.nullary main_cst_161 (constant S_ .f32 0x00000000#32),
    StableHlo.unary main_cst_161 main_v586 (broadcastInDim S1x8192x1024 ![] bcast_S_S1x8192x1024 : (⟨S_, .f32⟩ : BufTy).Contents (Elt F) → (⟨S1x8192x1024, .f32⟩ : BufTy).Contents (Elt F)),
    StableHlo.nullary main_c_162 (constantI S_ 32 0#32),
    StableHlo.unary main_c_162 main_v587 (broadcastInDim S8192 ![] bcast_S_S8192 : (⟨S_, .i32⟩ : BufTy).Contents (Elt F) → (⟨S8192, .i32⟩ : BufTy).Contents (Elt F)),
    StableHlo.binary main_v15 main_v587 main_v588 (cmpi .slt : (⟨S8192, .i32⟩ : BufTy).Contents (Elt F) → (⟨S8192, .i32⟩ : BufTy).Contents (Elt F) → (⟨S8192, .i1⟩ : BufTy).Contents (Elt F)),
    StableHlo.nullary main_c_163 (constantI S_ 32 8192#32),
    StableHlo.unary main_c_163 main_v589 (broadcastInDim S8192 ![] bcast_S_S8192 : (⟨S_, .i32⟩ : BufTy).Contents (Elt F) → (⟨S8192, .i32⟩ : BufTy).Contents (Elt F)),
    StableHlo.binary main_v15 main_v589 main_v590 (addi : (⟨S8192, .i32⟩ : BufTy).Contents (Elt F) → (⟨S8192, .i32⟩ : BufTy).Contents (Elt F) → (⟨S8192, .i32⟩ : BufTy).Contents (Elt F)),
    StableHlo.ternary main_v588 main_v590 main_v15 main_v591 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v591 main_v592 (broadcastInDim S8192x1 ![0] bcast_S8192_S8192x1_0 : (⟨S8192, .i32⟩ : BufTy).Contents (Elt F) → (⟨S8192x1, .i32⟩ : BufTy).Contents (Elt F)),
    StableHlo.ternary main_v586 main_v592 main_v584 main_v593 ((fun x i u => Host.scatter scatter_S1x8192x1024_S8192x1_S1x8192x1024_02_1_1_1 (fun _ b => b) x i u) : (⟨S1x8192x1024, .f32⟩ : BufTy).Contents (Elt F) → (⟨S8192x1, .i32⟩ : BufTy).Contents (Elt F) → (⟨S1x8192x1024, .f32⟩ : BufTy).Contents (Elt F) → (⟨S1x8192x1024, .f32⟩ : BufTy).Contents (Elt F)),
    StableHlo.nullary main_cst_164 (constant S_ .f32 0x00000000#32),
    StableHlo.unary main_cst_164 main_v594 (broadcastInDim S1x8192x1024 ![] bcast_S_S1x8192x1024 : (⟨S_, .f32⟩ : BufTy).Contents (Elt F) → (⟨S1x8192x1024, .f32⟩ : BufTy).Contents (Elt F)),
    StableHlo.nullary main_c_165 (constantI S_ 32 0#32),
    StableHlo.unary main_c_165 main_v595 (broadcastInDim S8192 ![] bcast_S_S8192 : (⟨S_, .i32⟩ : BufTy).Contents (Elt F) → (⟨S8192, .i32⟩ : BufTy).Contents (Elt F)),
    StableHlo.binary main_v15 main_v595 main_v596 (cmpi .slt : (⟨S8192, .i32⟩ : BufTy).Contents (Elt F) → (⟨S8192, .i32⟩ : BufTy).Contents (Elt F) → (⟨S8192, .i1⟩ : BufTy).Contents (Elt F)),
    StableHlo.nullary main_c_166 (constantI S_ 32 8192#32),
    StableHlo.unary main_c_166 main_v597 (broadcastInDim S8192 ![] bcast_S_S8192 : (⟨S_, .i32⟩ : BufTy).Contents (Elt F) → (⟨S8192, .i32⟩ : BufTy).Contents (Elt F)),
    StableHlo.binary main_v15 main_v597 main_v598 (addi : (⟨S8192, .i32⟩ : BufTy).Contents (Elt F) → (⟨S8192, .i32⟩ : BufTy).Contents (Elt F) → (⟨S8192, .i32⟩ : BufTy).Contents (Elt F)),
    StableHlo.ternary main_v596 main_v598 main_v15 main_v599 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v599 main_v600 (broadcastInDim S8192x1 ![0] bcast_S8192_S8192x1_0 : (⟨S8192, .i32⟩ : BufTy).Contents (Elt F) → (⟨S8192x1, .i32⟩ : BufTy).Contents (Elt F)),
    StableHlo.ternary main_v594 main_v600 main_v585 main_v601 ((fun x i u => Host.scatter scatter_S1x8192x1024_S8192x1_S1x8192x1024_02_1_1_1 (fun _ b => b) x i u) : (⟨S1x8192x1024, .f32⟩ : BufTy).Contents (Elt F) → (⟨S8192x1, .i32⟩ : BufTy).Contents (Elt F) → (⟨S1x8192x1024, .f32⟩ : BufTy).Contents (Elt F) → (⟨S1x8192x1024, .f32⟩ : BufTy).Contents (Elt F)) ]

abbrev segTail_W : List (Ref sig .tc) :=
  [main_v584, main_v585, main_cst_161, main_v586, main_c_162, main_v587, main_v588, main_c_163, main_v589, main_v590, main_v591, main_v592, main_v593, main_cst_164, main_v594, main_c_165, main_v595, main_v596, main_c_166, main_v597, main_v598, main_v599, main_v600, main_v601]

/-- @main's operations, in order. -/
abbrev ops : List (HloOp τ sig (Elt F)) := segPre ++ steps ++ segTail

end Cert.ReferenceIdeal.Hand

end
-- ==== Proof.RStages.lean ====
/-
  Each of the sixteen stretches of operations computes one step of the recurrence from whatever contents it starts on,
  and keeps every buffer it does not write.
-/
import proofs.«130520_g23433341567538_cont_8to1_1409_4_alg».proof.Proof.RSegs
import proofs.«130520_g23433341567538_cont_8to1_1409_4_alg».proof.Proof.RStates
import Idealize.ShloMosaic.Lib.StableHlo.Run
import Idealize.ShloMosaic.Lib.Pipeline.Frame

noncomputable section

namespace Cert.ReferenceIdeal.Hand

open Cert.ReferenceIdeal Idealize.ShloMosaic Idealize.SL.Sem

variable {F : FTy → Type} [FloatOps F] [Cert.ReferenceIdeal.Facts]

section Step

variable {s : ℕ} {hs : S1x512x16x16x64.Slices ![0, 0, s, 0, 0] S1x512x1x16x64}
  {z a v26 v27 v35 v36 v40 v41 v42 v43 v44 v46 v47 v48 v49 v50 v51 v52 v53 v54 v55 v56 v57 v58 : StableHlo.TRef sig ⟨S1x512x16x16x64, .f32⟩}
  {wi wj : StableHlo.TRef sig ⟨S16x64, .f32⟩}
  {v24 v30 v31 : StableHlo.TRef sig ⟨S1x512x1x16x64, .f32⟩}
  {v25 v29 : StableHlo.TRef sig ⟨S1x1x1x16x64, .f32⟩}
  {cst cst_2 cst_3 cst_4 cst_5 cst_6 cst_7 cst_8 cst_9 cst_10 : StableHlo.TRef sig ⟨S_, .f32⟩}
  {v28 v33 v34 : StableHlo.TRef sig ⟨S1x512x16x16, .f32⟩}
  {v32 : StableHlo.TRef sig ⟨S1x512x1x16, .f32⟩}
  {v37 v38 v39 : StableHlo.TRef sig ⟨S1x512x16x16x1, .f32⟩}
  {v45 : StableHlo.TRef sig ⟨S1x512x16x16x64, .i1⟩}

open StableHlo in
theorem stepOps_sub : (stepOps (F := F) s hs z a v26 v27 v35 v36 v40 v41 v42 v43 v44 v46 v47 v48 v49 v50 v51 v52 v53 v54 v55 v56 v57 v58 wi wj v24 v30 v31 v25 v29 cst cst_2 cst_3 cst_4 cst_5 cst_6 cst_7 cst_8 cst_9 cst_10 v28 v33 v34 v32 v37 v38 v39 v45).Forall fun op => op.bufs ⊆ StableHlo.tcRefs τ sig := by
  simp only [List.Forall, nullary_bufs_sub, unary_bufs_sub, binary_bufs_sub, ternary_bufs_sub, and_self]

theorem stepOps_fresh : (stepOps (F := F) s hs z a v26 v27 v35 v36 v40 v41 v42 v43 v44 v46 v47 v48 v49 v50 v51 v52 v53 v54 v55 v56 v57 v58 wi wj v24 v30 v31 v25 v29 cst cst_2 cst_3 cst_4 cst_5 cst_6 cst_7 cst_8 cst_9 cst_10 v28 v33 v34 v32 v37 v38 v39 v45).Forall fun op => op.fresh = ∅ := by
  repeat' apply And.intro
  all_goals exact rfl

open StableHlo in
/-- A step leaves every buffer it does not write as it was: each operation writes one buffer, its result. -/
theorem stepOps_keep (W : Valuation τ sig (Elt F)) (r : Ref sig .tc)
    (h : r ∉ [v24.ref, v25.ref, v26.ref, v27.ref, cst.ref, v28.ref, v29.ref, v30.ref, v31.ref, cst_2.ref, v32.ref, v33.ref, v34.ref, cst_3.ref, v35.ref, v36.ref, v37.ref, cst_4.ref, v38.ref, v39.ref, v40.ref, v41.ref, v42.ref, v43.ref, cst_5.ref, v44.ref, v45.ref, cst_6.ref, v46.ref, v47.ref, v48.ref, cst_7.ref, v49.ref, v50.ref, cst_8.ref, v51.ref, v52.ref, v53.ref, cst_9.ref, v54.ref, v55.ref, cst_10.ref, v56.ref, v57.ref, v58.ref]) :
    StableHlo.after (stepOps (F := F) s hs z a v26 v27 v35 v36 v40 v41 v42 v43 v44 v46 v47 v48 v49 v50 v51 v52 v53 v54 v55 v56 v57 v58 wi wj v24 v30 v31 v25 v29 cst cst_2 cst_3 cst_4 cst_5 cst_6 cst_7 cst_8 cst_9 cst_10 v28 v33 v34 v32 v37 v38 v39 v45) W (Proc.devRef .tc r) = W (Proc.devRef .tc r) := by
  refine after_of_writes_sub _ W ?_ h
  simp only [List.Forall]
  repeat' refine And.intro ?_ ?_
  all_goals (
    simp only [nullary_writes, unary_writes, binary_writes, ternary_writes, Finset.singleton_subset_iff, List.mem_toFinset]
    exact List.mem_map_of_mem (by simp only [List.mem_cons, true_or, or_true]))

end Step

set_option hygiene false in
local macro "stageA_claim" seg:ident s:num hs:ident bZ:ident bA:ident bA':ident : term =>
  `(∀ W : Valuation τ sig (Elt F),
      StableHlo.after $seg W (Proc.devRef .tc $bA')
        = rstepA $s $hs (W (Proc.devRef .tc $bZ)) (W (Proc.devRef .tc $bA))
            (W (Proc.devRef .tc main_v17)) (W (Proc.devRef .tc main_v19)))

set_option hygiene false in
local macro "stageZ_claim" seg:ident s:num hs:ident bZ:ident bA:ident bZ':ident : term =>
  `(∀ W : Valuation τ sig (Elt F),
      StableHlo.after $seg W (Proc.devRef .tc $bZ')
        = rstepZ $s $hs (W (Proc.devRef .tc $bZ)) (W (Proc.devRef .tc $bA))
            (W (Proc.devRef .tc main_v17)) (W (Proc.devRef .tc main_v19)))

macro "stage_run" : tactic => `(tactic| (
  intro W
  after_results_simp
  rfl))

theorem stage_0A : stageA_claim seg0 0 rslc main_v21 main_v23 main_v53 := by stage_run
theorem stage_0Z : stageZ_claim seg0 0 rslc main_v21 main_v23 main_v58 := by stage_run
theorem stage_1A : stageA_claim seg1 1 rslc main_v58 main_v53 main_v88 := by stage_run
theorem stage_1Z : stageZ_claim seg1 1 rslc main_v58 main_v53 main_v93 := by stage_run
theorem stage_2A : stageA_claim seg2 2 rslc main_v93 main_v88 main_v123 := by stage_run
theorem stage_2Z : stageZ_claim seg2 2 rslc main_v93 main_v88 main_v128 := by stage_run
theorem stage_3A : stageA_claim seg3 3 rslc main_v128 main_v123 main_v158 := by stage_run
theorem stage_3Z : stageZ_claim seg3 3 rslc main_v128 main_v123 main_v163 := by stage_run
theorem stage_4A : stageA_claim seg4 4 rslc main_v163 main_v158 main_v193 := by stage_run
theorem stage_4Z : stageZ_claim seg4 4 rslc main_v163 main_v158 main_v198 := by stage_run
theorem stage_5A : stageA_claim seg5 5 rslc main_v198 main_v193 main_v228 := by stage_run
theorem stage_5Z : stageZ_claim seg5 5 rslc main_v198 main_v193 main_v233 := by stage_run
theorem stage_6A : stageA_claim seg6 6 rslc main_v233 main_v228 main_v263 := by stage_run
theorem stage_6Z : stageZ_claim seg6 6 rslc main_v233 main_v228 main_v268 := by stage_run
theorem stage_7A : stageA_claim seg7 7 rslc main_v268 main_v263 main_v298 := by stage_run
theorem stage_7Z : stageZ_claim seg7 7 rslc main_v268 main_v263 main_v303 := by stage_run
theorem stage_8A : stageA_claim seg8 8 rslc main_v303 main_v298 main_v333 := by stage_run
theorem stage_8Z : stageZ_claim seg8 8 rslc main_v303 main_v298 main_v338 := by stage_run
theorem stage_9A : stageA_claim seg9 9 rslc main_v338 main_v333 main_v368 := by stage_run
theorem stage_9Z : stageZ_claim seg9 9 rslc main_v338 main_v333 main_v373 := by stage_run
theorem stage_10A : stageA_claim seg10 10 rslc main_v373 main_v368 main_v403 := by stage_run
theorem stage_10Z : stageZ_claim seg10 10 rslc main_v373 main_v368 main_v408 := by stage_run
theorem stage_11A : stageA_claim seg11 11 rslc main_v408 main_v403 main_v438 := by stage_run
theorem stage_11Z : stageZ_claim seg11 11 rslc main_v408 main_v403 main_v443 := by stage_run
theorem stage_12A : stageA_claim seg12 12 rslc main_v443 main_v438 main_v473 := by stage_run
theorem stage_12Z : stageZ_claim seg12 12 rslc main_v443 main_v438 main_v478 := by stage_run
theorem stage_13A : stageA_claim seg13 13 rslc main_v478 main_v473 main_v508 := by stage_run
theorem stage_13Z : stageZ_claim seg13 13 rslc main_v478 main_v473 main_v513 := by stage_run
theorem stage_14A : stageA_claim seg14 14 rslc main_v513 main_v508 main_v543 := by stage_run
theorem stage_14Z : stageZ_claim seg14 14 rslc main_v513 main_v508 main_v548 := by stage_run
theorem stage_15A : stageA_claim seg15 15 rslc main_v548 main_v543 main_v578 := by stage_run
theorem stage_15Z : stageZ_claim seg15 15 rslc main_v548 main_v543 main_v583 := by stage_run

set_option hygiene false in
local macro "upto_claim" segs:term:max rZ:ident rA:ident bZ:ident bA:ident : term =>
  `(∀ W : Valuation τ sig (Elt F),
      StableHlo.after $segs W (Proc.devRef .tc $bZ)
        = $rZ (W (Proc.devRef .tc main_v21)) (W (Proc.devRef .tc main_v23))
            (W (Proc.devRef .tc main_v17)) (W (Proc.devRef .tc main_v19))
      ∧ StableHlo.after $segs W (Proc.devRef .tc $bA)
        = $rA (W (Proc.devRef .tc main_v21)) (W (Proc.devRef .tc main_v23))
            (W (Proc.devRef .tc main_v17)) (W (Proc.devRef .tc main_v19))
      ∧ StableHlo.after $segs W (Proc.devRef .tc main_v17) = W (Proc.devRef .tc main_v17)
      ∧ StableHlo.after $segs W (Proc.devRef .tc main_v19) = W (Proc.devRef .tc main_v19)
      ∧ StableHlo.after $segs W (Proc.devRef .tc main_v15) = W (Proc.devRef .tc main_v15)
      ∧ StableHlo.after $segs W (Proc.devRef .tc main_arg0) = W (Proc.devRef .tc main_arg0)
      ∧ StableHlo.after $segs W (Proc.devRef .tc main_arg1) = W (Proc.devRef .tc main_arg1)
      ∧ StableHlo.after $segs W (Proc.devRef .tc main_arg2) = W (Proc.devRef .tc main_arg2))

macro "chain_step" prev:term "," stA:term "," stZ:term : tactic => `(tactic| (
  intro W
  obtain ⟨hZ, hA, h17, h19, h15, ha0, ha1, ha2⟩ := $prev W
  rw [StableHlo.after_append]
  generalize StableHlo.after _ W = V at hZ hA h17 h19 h15 ha0 ha1 ha2 ⊢
  refine ⟨?_, ?_, ?_, ?_, ?_, ?_, ?_, ?_⟩
  · rw [$stZ V, hZ, hA, h17, h19]; rfl
  · rw [$stA V, hZ, hA, h17, h19]; rfl
  · exact (stepOps_keep V main_v17 (by decide)).trans h17
  · exact (stepOps_keep V main_v19 (by decide)).trans h19
  · exact (stepOps_keep V main_v15 (by decide)).trans h15
  · exact (stepOps_keep V main_arg0 (by decide)).trans ha0
  · exact (stepOps_keep V main_arg1 (by decide)).trans ha1
  · exact (stepOps_keep V main_arg2 (by decide)).trans ha2))

theorem upto_1 : upto_claim seg0 rZ1 rA1 main_v58 main_v53 := fun W =>
  ⟨stage_0Z W, stage_0A W, stepOps_keep W main_v17 (by decide), stepOps_keep W main_v19 (by decide),
    stepOps_keep W main_v15 (by decide), stepOps_keep W main_arg0 (by decide), stepOps_keep W main_arg1 (by decide),
    stepOps_keep W main_arg2 (by decide)⟩
theorem upto_2 : upto_claim (seg0 ++ seg1) rZ2 rA2 main_v93 main_v88 := by
  chain_step upto_1, stage_1A, stage_1Z
theorem upto_3 : upto_claim (seg0 ++ seg1 ++ seg2) rZ3 rA3 main_v128 main_v123 := by
  chain_step upto_2, stage_2A, stage_2Z
theorem upto_4 : upto_claim (seg0 ++ seg1 ++ seg2 ++ seg3) rZ4 rA4 main_v163 main_v158 := by
  chain_step upto_3, stage_3A, stage_3Z
theorem upto_5 : upto_claim (seg0 ++ seg1 ++ seg2 ++ seg3 ++ seg4) rZ5 rA5 main_v198 main_v193 := by
  chain_step upto_4, stage_4A, stage_4Z
theorem upto_6 : upto_claim (seg0 ++ seg1 ++ seg2 ++ seg3 ++ seg4 ++ seg5) rZ6 rA6 main_v233 main_v228 := by
  chain_step upto_5, stage_5A, stage_5Z
theorem upto_7 : upto_claim (seg0 ++ seg1 ++ seg2 ++ seg3 ++ seg4 ++ seg5 ++ seg6) rZ7 rA7 main_v268 main_v263 := by
  chain_step upto_6, stage_6A, stage_6Z
theorem upto_8 : upto_claim (seg0 ++ seg1 ++ seg2 ++ seg3 ++ seg4 ++ seg5 ++ seg6 ++ seg7) rZ8 rA8 main_v303 main_v298 := by
  chain_step upto_7, stage_7A, stage_7Z
theorem upto_9 :
    upto_claim (seg0 ++ seg1 ++ seg2 ++ seg3 ++ seg4 ++ seg5 ++ seg6 ++ seg7 ++ seg8) rZ9 rA9 main_v338 main_v333 := by
  chain_step upto_8, stage_8A, stage_8Z
theorem upto_10 :
    upto_claim (seg0 ++ seg1 ++ seg2 ++ seg3 ++ seg4 ++ seg5 ++ seg6 ++ seg7 ++ seg8 ++ seg9) rZ10 rA10 main_v373 main_v368 := by
  chain_step upto_9, stage_9A, stage_9Z
theorem upto_11 :
    upto_claim (seg0 ++ seg1 ++ seg2 ++ seg3 ++ seg4 ++ seg5 ++ seg6 ++ seg7 ++ seg8 ++ seg9 ++ seg10)
      rZ11 rA11 main_v408 main_v403 := by
  chain_step upto_10, stage_10A, stage_10Z
theorem upto_12 :
    upto_claim (seg0 ++ seg1 ++ seg2 ++ seg3 ++ seg4 ++ seg5 ++ seg6 ++ seg7 ++ seg8 ++ seg9 ++ seg10 ++ seg11)
      rZ12 rA12 main_v443 main_v438 := by
  chain_step upto_11, stage_11A, stage_11Z
theorem upto_13 :
    upto_claim (seg0 ++ seg1 ++ seg2 ++ seg3 ++ seg4 ++ seg5 ++ seg6 ++ seg7 ++ seg8 ++ seg9 ++ seg10 ++ seg11 ++ seg12)
      rZ13 rA13 main_v478 main_v473 := by
  chain_step upto_12, stage_12A, stage_12Z
theorem upto_14 :
    upto_claim (seg0 ++ seg1 ++ seg2 ++ seg3 ++ seg4 ++ seg5 ++ seg6 ++ seg7 ++ seg8 ++ seg9 ++ seg10 ++ seg11 ++ seg12
      ++ seg13) rZ14 rA14 main_v513 main_v508 := by
  chain_step upto_13, stage_13A, stage_13Z
theorem upto_15 :
    upto_claim (seg0 ++ seg1 ++ seg2 ++ seg3 ++ seg4 ++ seg5 ++ seg6 ++ seg7 ++ seg8 ++ seg9 ++ seg10 ++ seg11 ++ seg12
      ++ seg13 ++ seg14) rZ15 rA15 main_v548 main_v543 := by
  chain_step upto_14, stage_14A, stage_14Z
theorem upto_16 : upto_claim steps rZ16 rA16 main_v583 main_v578 := by
  chain_step upto_15, stage_15A, stage_15Z

end Cert.ReferenceIdeal.Hand

end
-- ==== Proof.RRun.lean ====
/-
  @main is the line of its operations, so its run ends with every buffer at the fold of the operations over the launch
  contents.
-/
import proofs.«130520_g23433341567538_cont_8to1_1409_4_alg».proof.Proof.RStages
import Idealize.ShloMosaic.Lib.StableHlo.Run
import Idealize.ShloMosaic.Lib.Pipeline.Frame
import Idealize.ShloMosaic.Lib.Tactic

noncomputable section

namespace Cert.ReferenceIdeal.Hand

open Cert.ReferenceIdeal Cert.ReferenceIdeal.Gen Idealize.ShloMosaic Idealize.SL.Sem Idealize.ShloMosaic.StableHlo

variable {F : FTy → Type} [FloatOps F]

/-- A call runs the callee's statements on the call's operands, so @main is the line of its operations with every
    callee's in place of its call: both sides are the same chain of steps. -/
theorem main_eq (c : Dev nD) : main (F := F) c = seq ops := by sl_kernel_rfl

theorem scopedRefs_eq : (Finset.univ.filter fun b : Ref sig .tc => b.isScoped) = ∅ := by decide
theorem scopedSems_eq : (Finset.univ.filter fun sm : SemLoc sig => sm.isScoped .tc) = ∅ := by decide

theorem forall_append3 {α : Type _} {p : α → Prop} {a b c : List α} (ha : a.Forall p) (hb : b.Forall p) (hc : c.Forall p) :
    (a ++ b ++ c).Forall p := List.forall_append.mpr ⟨List.forall_append.mpr ⟨ha, hb⟩, hc⟩

local macro "all_bufs_sub" : tactic =>
  `(tactic| simp only [List.Forall, nullary_bufs_sub, unary_bufs_sub, binary_bufs_sub, ternary_bufs_sub, reshape_bufs_sub,
      and_self])

local macro "all_fresh" : tactic =>
  `(tactic| (repeat' apply And.intro
             all_goals exact rfl))

theorem segPre_sub : (segPre : List (HloOp τ sig (Elt F))).Forall fun op => op.bufs ⊆ tcRefs τ sig := by all_bufs_sub
theorem segTail_sub : (segTail : List (HloOp τ sig (Elt F))).Forall fun op => op.bufs ⊆ tcRefs τ sig := by all_bufs_sub

theorem steps_sub : (steps : List (HloOp τ sig (Elt F))).Forall fun op => op.bufs ⊆ tcRefs τ sig := by
  simp only [List.forall_append]
  exact ⟨⟨⟨⟨⟨⟨⟨⟨⟨⟨⟨⟨⟨⟨⟨stepOps_sub, stepOps_sub⟩, stepOps_sub⟩, stepOps_sub⟩, stepOps_sub⟩, stepOps_sub⟩, stepOps_sub⟩, stepOps_sub⟩, stepOps_sub⟩, stepOps_sub⟩, stepOps_sub⟩, stepOps_sub⟩, stepOps_sub⟩, stepOps_sub⟩, stepOps_sub⟩, stepOps_sub⟩

/-- Every operation touches TensorCore buffers only. -/
theorem ops_sub : (ops : List (HloOp τ sig (Elt F))).Forall fun op => op.bufs ⊆ tcRefs τ sig :=
  forall_append3 segPre_sub steps_sub segTail_sub

theorem segPre_fresh : (segPre : List (HloOp τ sig (Elt F))).Forall fun op => op.fresh = ∅ := by all_fresh
theorem segTail_fresh : (segTail : List (HloOp τ sig (Elt F))).Forall fun op => op.fresh = ∅ := by all_fresh

theorem steps_fresh : (steps : List (HloOp τ sig (Elt F))).Forall fun op => op.fresh = ∅ := by
  simp only [List.forall_append]
  exact ⟨⟨⟨⟨⟨⟨⟨⟨⟨⟨⟨⟨⟨⟨⟨stepOps_fresh, stepOps_fresh⟩, stepOps_fresh⟩, stepOps_fresh⟩, stepOps_fresh⟩, stepOps_fresh⟩, stepOps_fresh⟩, stepOps_fresh⟩, stepOps_fresh⟩, stepOps_fresh⟩, stepOps_fresh⟩, stepOps_fresh⟩, stepOps_fresh⟩, stepOps_fresh⟩, stepOps_fresh⟩, stepOps_fresh⟩

/-- Every operation determines its results. -/
theorem ops_fresh : ∀ op ∈ (ops : List (HloOp τ sig (Elt F))), op.fresh = ∅ :=
  List.forall_iff_forall_mem.mp (forall_append3 segPre_fresh steps_fresh segTail_fresh)

/-- Every weakly fair execution of @main ends with each buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RPreTail.lean ====
/-
  What the operations before the first step and after the last leave in the buffers the steps read and in the results.
-/
import proofs.«130520_g23433341567538_cont_8to1_1409_4_alg».proof.Proof.RSegs
import proofs.«130520_g23433341567538_cont_8to1_1409_4_alg».proof.Proof.RIndex
import proofs.«130520_g23433341567538_cont_8to1_1409_4_alg».proof.Proof.RTake
import proofs.«130520_g23433341567538_cont_8to1_1409_4_alg».proof.Proof.RChain
import proofs.«130520_g23433341567538_cont_8to1_1409_4_alg».proof.Proof.RScatter
import Idealize.ShloMosaic.Lib.StableHlo.Run

set_option Elab.async false

noncomputable section

namespace Cert.ReferenceIdeal.Hand

open Cert.ReferenceIdeal Idealize.ShloMosaic Idealize.SL.Sem
open Idealize.ShloMosaic.StableHlo

variable {F : FTy → Type} [FloatOps F] [Cert.ReferenceIdeal.Facts]

theorem ofBuf_toBuf {Val : EltTy → Type} {T : BufTy} (x : TRef sig T) (v : T.Contents Val) :
    x.ofBuf (x.toBuf v) = v := by
  simp only [TRef.ofBuf, TRef.toBuf, cast_cast, cast_eq]

theorem toBuf_v20 (p1 p2 p3) (X : FVec F S1x8192x1024 .f32) :
    (TRef.of main_v20 p1 p2 p3 : TRef sig ⟨S1x8192x1024, .f32⟩).toBuf (Val := Elt F) X = X := rfl
theorem toBuf_v22 (p1 p2 p3) (X : FVec F S1x8192x1024 .f32) :
    (TRef.of main_v22 p1 p2 p3 : TRef sig ⟨S1x8192x1024, .f32⟩).toBuf (Val := Elt F) X = X := rfl
theorem ofBuf_v15 (p1 p2 p3) (u : IVec S8192 32) :
    (TRef.of main_v15 p1 p2 p3 : TRef sig ⟨S8192, .i32⟩).ofBuf (Val := Elt F) u = u := rfl
theorem ofBuf_arg0 (p1 p2 p3) (u : FVec F S1x8192x1024 .f32) :
    (TRef.of main_arg0 p1 p2 p3 : TRef sig ⟨S1x8192x1024, .f32⟩).ofBuf (Val := Elt F) u = u := rfl
theorem ofBuf_arg1 (p1 p2 p3) (u : FVec F S1x8192x1024 .f32) :
    (TRef.of main_arg1 p1 p2 p3 : TRef sig ⟨S1x8192x1024, .f32⟩).ofBuf (Val := Elt F) u = u := rfl

theorem tail_v593 (W : Valuation τ sig (Elt F)) :
    StableHlo.after segTail W (Proc.devRef .tc main_v593)
      = rscatter (F := F) (W (Proc.devRef .tc main_v583)) (W (Proc.devRef .tc main_v15)) := by
  after_results_simp
  rfl

theorem tail_v601 (W : Valuation τ sig (Elt F)) :
    StableHlo.after segTail W (Proc.devRef .tc main_v601)
      = rscatter (F := F) (W (Proc.devRef .tc main_v578)) (W (Proc.devRef .tc main_v15)) := by
  after_results_simp
  rfl

theorem tail_arg0 (W : Valuation τ sig (Elt F)) :
    StableHlo.after segTail W (Proc.devRef .tc main_arg0) = W (Proc.devRef .tc main_arg0) := by
  after_results_simp

theorem tail_arg1 (W : Valuation τ sig (Elt F)) :
    StableHlo.after segTail W (Proc.devRef .tc main_arg1) = W (Proc.devRef .tc main_arg1) := by
  after_results_simp

theorem tail_arg2 (W : Valuation τ sig (Elt F)) :
    StableHlo.after segTail W (Proc.devRef .tc main_arg2) = W (Proc.devRef .tc main_arg2) := by
  after_results_simp

abbrev preIdx : List (HloOp τ sig (Elt F)) := (segPre (F := F)).take 39

abbrev preHalves : List (HloOp τ sig (Elt F)) := ((segPre (F := F)).drop 39).take 4

abbrev preTake0 : List (HloOp τ sig (Elt F)) := ((segPre (F := F)).drop 43).take 24

abbrev preTake1 : List (HloOp τ sig (Elt F)) := (segPre (F := F)).drop 67

theorem segPre_stretches : (segPre (F := F)) = preIdx ++ preHalves ++ preTake0 ++ preTake1 := by
  rfl

local macro "read_stretch" : tactic =>
  `(tactic| (dsimp only [preIdx, preHalves, preTake0, preTake1, segPre, List.drop, List.take]
             after_results_simp))

section Stretches
variable (V : Valuation τ sig (Elt F))

theorem preIdx_v15 : StableHlo.after preIdx V (Proc.devRef .tc main_v15) = ridx := by
  read_stretch
  rfl
theorem preIdx_arg0 : StableHlo.after preIdx V (Proc.devRef .tc main_arg0) = V (Proc.devRef .tc main_arg0) := by
  read_stretch
theorem preIdx_arg1 : StableHlo.after preIdx V (Proc.devRef .tc main_arg1) = V (Proc.devRef .tc main_arg1) := by
  read_stretch
theorem preIdx_arg2 : StableHlo.after preIdx V (Proc.devRef .tc main_arg2) = V (Proc.devRef .tc main_arg2) := by
  read_stretch

theorem preHalves_v17 :
    StableHlo.after preHalves V (Proc.devRef .tc main_v17) = rwi (F := F) (V (Proc.devRef .tc main_arg2)) := by
  read_stretch
  rfl
theorem preHalves_v19 :
    StableHlo.after preHalves V (Proc.devRef .tc main_v19) = rwj (F := F) (V (Proc.devRef .tc main_arg2)) := by
  read_stretch
  rfl
theorem preHalves_v15 : StableHlo.after preHalves V (Proc.devRef .tc main_v15) = V (Proc.devRef .tc main_v15) := by
  read_stretch
theorem preHalves_arg0 : StableHlo.after preHalves V (Proc.devRef .tc main_arg0) = V (Proc.devRef .tc main_arg0) := by
  read_stretch
theorem preHalves_arg1 : StableHlo.after preHalves V (Proc.devRef .tc main_arg1) = V (Proc.devRef .tc main_arg1) := by
  read_stretch
theorem preHalves_arg2 : StableHlo.after preHalves V (Proc.devRef .tc main_arg2) = V (Proc.devRef .tc main_arg2) := by
  read_stretch

theorem preTake0_v21 :
    StableHlo.after preTake0 V (Proc.devRef .tc main_v21)
      = shapeCast S1x512x16x16x64 (rtake (F := F) (V (Proc.devRef .tc main_arg0)) (V (Proc.devRef .tc main_v15)))
          Cert.ReferenceIdeal.Gen.shapeCasts_S1x8192x1024_S1x512x16x16x64 := by
  read_stretch
  simp only [ofBuf_toBuf]
  rw [toBuf_v20, ofBuf_arg0]
  simp only [ofBuf_v15]
  rfl
theorem preTake0_v15 : StableHlo.after preTake0 V (Proc.devRef .tc main_v15) = V (Proc.devRef .tc main_v15) := by
  read_stretch
theorem preTake0_v17 : StableHlo.after preTake0 V (Proc.devRef .tc main_v17) = V (Proc.devRef .tc main_v17) := by
  read_stretch
theorem preTake0_v19 : StableHlo.after preTake0 V (Proc.devRef .tc main_v19) = V (Proc.devRef .tc main_v19) := by
  read_stretch
theorem preTake0_arg0 : StableHlo.after preTake0 V (Proc.devRef .tc main_arg0) = V (Proc.devRef .tc main_arg0) := by
  read_stretch
theorem preTake0_arg1 : StableHlo.after preTake0 V (Proc.devRef .tc main_arg1) = V (Proc.devRef .tc main_arg1) := by
  read_stretch
theorem preTake0_arg2 : StableHlo.after preTake0 V (Proc.devRef .tc main_arg2) = V (Proc.devRef .tc main_arg2) := by
  read_stretch

theorem preTake1_v23 :
    StableHlo.after preTake1 V (Proc.devRef .tc main_v23)
      = shapeCast S1x512x16x16x64 (rtake (F := F) (V (Proc.devRef .tc main_arg1)) (V (Proc.devRef .tc main_v15)))
          Cert.ReferenceIdeal.Gen.shapeCasts_S1x8192x1024_S1x512x16x16x64 := by
  read_stretch
  simp only [ofBuf_toBuf]
  rw [toBuf_v22, ofBuf_arg1]
  simp only [ofBuf_v15]
  rfl
theorem preTake1_v15 : StableHlo.after preTake1 V (Proc.devRef .tc main_v15) = V (Proc.devRef .tc main_v15) := by
  read_stretch
theorem preTake1_v17 : StableHlo.after preTake1 V (Proc.devRef .tc main_v17) = V (Proc.devRef .tc main_v17) := by
  read_stretch
theorem preTake1_v19 : StableHlo.after preTake1 V (Proc.devRef .tc main_v19) = V (Proc.devRef .tc main_v19) := by
  read_stretch
theorem preTake1_v21 : StableHlo.after preTake1 V (Proc.devRef .tc main_v21) = V (Proc.devRef .tc main_v21) := by
  read_stretch
theorem preTake1_arg0 : StableHlo.after preTake1 V (Proc.devRef .tc main_arg0) = V (Proc.devRef .tc main_arg0) := by
  read_stretch
theorem preTake1_arg1 : StableHlo.after preTake1 V (Proc.devRef .tc main_arg1) = V (Proc.devRef .tc main_arg1) := by
  read_stretch
theorem preTake1_arg2 : StableHlo.after preTake1 V (Proc.devRef .tc main_arg2) = V (Proc.devRef .tc main_arg2) := by
  read_stretch

end Stretches

theorem after_segPre (W : Valuation τ sig (Elt F)) :
    StableHlo.after segPre W
      = StableHlo.after preTake1 (StableHlo.after preTake0 (StableHlo.after preHalves (StableHlo.after preIdx W))) := by
  rw [segPre_stretches, after_append, after_append, after_append]

theorem pre_v15 (W : Valuation τ sig (Elt F)) :
    StableHlo.after segPre W (Proc.devRef .tc main_v15) = ridx := by
  rw [after_segPre, preTake1_v15, preTake0_v15, preHalves_v15, preIdx_v15]

theorem pre_v17 (W : Valuation τ sig (Elt F)) :
    StableHlo.after segPre W (Proc.devRef .tc main_v17) = rwi (F := F) (W (Proc.devRef .tc main_arg2)) := by
  rw [after_segPre, preTake1_v17, preTake0_v17, preHalves_v17, preIdx_arg2]

theorem pre_v19 (W : Valuation τ sig (Elt F)) :
    StableHlo.after segPre W (Proc.devRef .tc main_v19) = rwj (F := F) (W (Proc.devRef .tc main_arg2)) := by
  rw [after_segPre, preTake1_v19, preTake0_v19, preHalves_v19, preIdx_arg2]

theorem pre_v21 (W : Valuation τ sig (Elt F)) :
    StableHlo.after segPre W (Proc.devRef .tc main_v21) = rgather5 (F := F) (W (Proc.devRef .tc main_arg0)) := by
  rw [after_segPre, preTake1_v21, preTake0_v21, preHalves_arg0, preHalves_v15, preIdx_arg0, preIdx_v15]
  rfl

theorem pre_v23 (W : Valuation τ sig (Elt F)) :
    StableHlo.after segPre W (Proc.devRef .tc main_v23) = rgather5 (F := F) (W (Proc.devRef .tc main_arg1)) := by
  rw [after_segPre, preTake1_v23, preTake0_arg1, preTake0_v15, preHalves_arg1, preHalves_v15, preIdx_arg1, preIdx_v15]
  rfl

theorem pre_arg0 (W : Valuation τ sig (Elt F)) :
    StableHlo.after segPre W (Proc.devRef .tc main_arg0) = W (Proc.devRef .tc main_arg0) := by
  rw [after_segPre, preTake1_arg0, preTake0_arg0, preHalves_arg0, preIdx_arg0]

theorem pre_arg1 (W : Valuation τ sig (Elt F)) :
    StableHlo.after segPre W (Proc.devRef .tc main_arg1) = W (Proc.devRef .tc main_arg1) := by
  rw [after_segPre, preTake1_arg1, preTake0_arg1, preHalves_arg1, preIdx_arg1]

theorem pre_arg2 (W : Valuation τ sig (Elt F)) :
    StableHlo.after segPre W (Proc.devRef .tc main_arg2) = W (Proc.devRef .tc main_arg2) := by
  rw [after_segPre, preTake1_arg2, preTake0_arg2, preHalves_arg2, preIdx_arg2]

theorem pre_stage (W : Valuation τ sig (Elt F)) :
    let W' := StableHlo.after segPre W
    W' (Proc.devRef .tc main_v15) = ridx
      ∧ W' (Proc.devRef .tc main_v17) = rwi (F := F) (W (Proc.devRef .tc main_arg2))
      ∧ W' (Proc.devRef .tc main_v19) = rwj (F := F) (W (Proc.devRef .tc main_arg2))
      ∧ W' (Proc.devRef .tc main_v21) = rgather5 (F := F) (W (Proc.devRef .tc main_arg0))
      ∧ W' (Proc.devRef .tc main_v23) = rgather5 (F := F) (W (Proc.devRef .tc main_arg1))
      ∧ W' (Proc.devRef .tc main_arg0) = W (Proc.devRef .tc main_arg0)
      ∧ W' (Proc.devRef .tc main_arg1) = W (Proc.devRef .tc main_arg1)
      ∧ W' (Proc.devRef .tc main_arg2) = W (Proc.devRef .tc main_arg2) :=
  ⟨pre_v15 W, pre_v17 W, pre_v19 W, pre_v21 W, pre_v23 W, pre_arg0 W, pre_arg1 W, pre_arg2 W⟩

theorem tail_stage (W : Valuation τ sig (Elt F)) :
    let W' := StableHlo.after segTail W
    W' (Proc.devRef .tc main_v593)
        = rscatter (F := F) (W (Proc.devRef .tc main_v583)) (W (Proc.devRef .tc main_v15))
      ∧ W' (Proc.devRef .tc main_v601)
        = rscatter (F := F) (W (Proc.devRef .tc main_v578)) (W (Proc.devRef .tc main_v15))
      ∧ W' (Proc.devRef .tc main_arg0) = W (Proc.devRef .tc main_arg0)
      ∧ W' (Proc.devRef .tc main_arg1) = W (Proc.devRef .tc main_arg1)
      ∧ W' (Proc.devRef .tc main_arg2) = W (Proc.devRef .tc main_arg2) :=
  ⟨tail_v593 W, tail_v601 W, tail_arg0 W, tail_arg1 W, tail_arg2 W⟩

end Cert.ReferenceIdeal.Hand

end
-- ==== Proof.RValue.lean ====
/-
  The reference's two results are the specification's.
-/
import proofs.«130520_g23433341567538_cont_8to1_1409_4_alg».proof.Proof.Gen.ReferenceIdeal
import proofs.«130520_g23433341567538_cont_8to1_1409_4_alg».proof.Proof.Out
import proofs.«130520_g23433341567538_cont_8to1_1409_4_alg».proof.Proof.RChain
import proofs.«130520_g23433341567538_cont_8to1_1409_4_alg».proof.Proof.RStages
import proofs.«130520_g23433341567538_cont_8to1_1409_4_alg».proof.Proof.RRun
import proofs.«130520_g23433341567538_cont_8to1_1409_4_alg».proof.Proof.RPreTail

noncomputable section

namespace Cert.ReferenceIdeal.Hand

open Cert.ReferenceIdeal Cert.ReferenceIdeal.Gen Idealize.ShloMosaic Idealize.SL.Sem Idealize.ShloMosaic.StableHlo

/-- @main's line cut in three: each stretch is known by what it leaves in the few buffers the next one reads, so with the
    contents between two stretches kept as variables each result is the scatter of the sixteenth state of the regrouped
    arguments, which is the specification's result; no stretch writes an argument. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v593)
          = Cert.Out.outI (m ((c.tc : Thread nD τ).loc main_arg0)) (m ((c.tc : Thread nD τ).loc main_arg1)) (m ((c.tc : Thread nD τ).loc main_arg2))
      ∧ r.2.mem ((c.tc : Thread nD τ).loc main_v601)
          = Cert.Out.outA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_raw m ρ)
  have hb := h c
  have e : after ops (launchContents m c) = after segTail (after steps (after segPre (launchContents m c))) := by
    rw [StableHlo.after_append, StableHlo.after_append]
  obtain ⟨p15, p17, p19, p21, p23, pa0, pa1, pa2⟩ := pre_stage (F := Ideal) (launchContents m c)
  generalize after segPre (launchContents m c) = W1 at e p15 p17 p19 p21 p23 pa0 pa1 pa2
  obtain ⟨s583, s578, -, -, s15, sa0, sa1, sa2⟩ := upto_16 (F := Ideal) W1
  generalize after steps W1 = W2 at e s583 s578 s15 sa0 sa1 sa2
  obtain ⟨t593, t601, ta0, ta1, ta2⟩ := tail_stage (F := Ideal) W2
  refine ⟨?_, ?_, ?_, ?_, ?_⟩
  · rw [hb main_v593, e]
    refine t593.trans ?_
    rw [s583, s15, p15, p17, p19, p21, p23]
    exact routI_eq _ _ _
  · rw [hb main_v601, e]
    refine t601.trans ?_
    rw [s578, s15, p15, p17, p19, p21, p23]
    exact routA_eq _ _ _
  · rw [hb main_arg0, e, ta0, sa0, pa0]
  · rw [hb main_arg1, e, ta1, sa1, pa1]
  · rw [hb main_arg2, e, ta2, sa2, pa2]

end Cert.ReferenceIdeal.Hand

end
-- ==== Proof.lean ====
/-
  Both programs end with the specification's two arrays of their arguments: rows regrouped by a fixed permutation, sixteen
  steps of the recurrence, rows put back. The kernel's frames come from the launch theorem, the reference's from its run.
-/
import proofs.«130520_g23433341567538_cont_8to1_1409_4_alg».proof.Defs
import proofs.«130520_g23433341567538_cont_8to1_1409_4_alg».proof.Proof.Gen.Kernel
import proofs.«130520_g23433341567538_cont_8to1_1409_4_alg».proof.Proof.Gen.KernelIdeal
import proofs.«130520_g23433341567538_cont_8to1_1409_4_alg».proof.Proof.Gen.ReferenceIdeal
import proofs.«130520_g23433341567538_cont_8to1_1409_4_alg».proof.Proof.Gen.Pre_finite_inputs
import proofs.«130520_g23433341567538_cont_8to1_1409_4_alg».proof.Proof.KFrameB
import proofs.«130520_g23433341567538_cont_8to1_1409_4_alg».proof.Proof.KFrameI
import proofs.«130520_g23433341567538_cont_8to1_1409_4_alg».proof.Proof.KJoin
import proofs.«130520_g23433341567538_cont_8to1_1409_4_alg».proof.Proof.RValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.run_value m ρ)

theorem algebraic : Cert.algebraic_KernelIdeal_ReferenceIdeal := by
  intro m ρ m' ρ' _ hagree
  refine ⟨_, _, Cert.KernelIdeal.Hand.run_value_all m ρ, ?_⟩
  refine (θ_run Cert.ReferenceIdeal.defs _ _).mono (fun _ h c => ?_) (Cert.ReferenceIdeal.Hand.run_value m' ρ')
  obtain ⟨h1, h2, h3⟩ := h c
  obtain ⟨a0, a1, a2⟩ := hagree c
  refine ⟨h1.trans ?_, h2.trans ?_, h3⟩
  · rw [a0, a1, a2]
  · rw [a0, a1, a2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
